-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2048 : Shape := ⟨2, ![2048, 2048]⟩
abbrev S32000x2048 : Shape := ⟨2, ![32000, 2048]⟩
abbrev S32000 : Shape := ⟨1, ![32000]⟩
abbrev S2048x4096 : Shape := ⟨2, ![2048, 4096]⟩
abbrev S32000x4096 : Shape := ⟨2, ![32000, 4096]⟩
abbrev S2048 : Shape := ⟨1, ![2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S32000x2048 : S_.BroadcastsInDim S32000x2048 (![] : Fin 0 → Fin S32000x2048.rank)
  reducesTo_S32000x2048_S_d0_1 : S32000x2048.ReducesTo [0, 1] S_
  bcast_S_S32000 : S_.BroadcastsInDim S32000 (![] : Fin 0 → Fin S32000.rank)
  reducesTo_S32000_S_d0 : S32000.ReducesTo [0] S_
  bcast_S_S2048x4096 : S_.BroadcastsInDim S2048x4096 (![] : Fin 0 → Fin S2048x4096.rank)
  reducesTo_S2048x4096_S_d0_1 : S2048x4096.ReducesTo [0, 1] S_
  bcast_S_S32000x4096 : S_.BroadcastsInDim S32000x4096 (![] : Fin 0 → Fin S32000x4096.rank)
  reducesTo_S32000x4096_S_d0_1 : S32000x4096.ReducesTo [0, 1] S_
  bcast_S_S2048 : S_.BroadcastsInDim S2048 (![] : Fin 0 → Fin S2048.rank)
  reducesTo_S2048_S_d0 : S2048.ReducesTo [0] S_

variable [Facts]

def fn_part2 {F : FTy → Type} [FloatOps F] (main_arg6 : IVec S2048 32) (main_v28 : IVec S_ 1) (main_v33 : IVec S2048 1) : IVec S_ 1 :=
  let main_c_12 : IVec S_ 32 := constantI S_ 32 4294967196#32
  let main_v34 : IVec S2048 32 := broadcastInDim S2048 ![] bcast_S_S2048 main_c_12
  let main_v35 : IVec S2048 1 := cmpi .eq main_arg6 main_v34
  let main_v36 : IVec S2048 1 := ori main_v33 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v28 main_v37
  main_v38

def fn_part1 {F : FTy → Type} [FloatOps F] (main_arg4 : FVec F S32000x4096 .f32) (main_arg5 : FVec F S32000 .f32) (main_arg6 : IVec S2048 32) (main_v13 : IVec S_ 1) (main_v16 : IVec S2048x4096 1) : IVec S_ 1 :=
  let main_c_5 : IVec S_ 1 := constantI S_ 1 1#1
  let main_v17 : IVec S_ 1 := (fun x v => Host.reduce IntOp.andi x v reducesTo_S2048x4096_S_d0_1 h_S_) main_v16 main_c_5
  let main_v18 : IVec S_ 1 := andi main_v13 main_v17
  let main_v19 : FVec F S32000x4096 .f32 := Host.absf main_arg4
  let main_cst_6 : FVec F S_ .f32 := constant S_ .f32 0x7F800000#32
  let main_v20 : FVec F S32000x4096 .f32 := broadcastInDim S32000x4096 ![] bcast_S_S32000x4096 main_cst_6
  let main_v21 : IVec S32000x4096 1 := cmpf .olt main_v19 main_v20
  let main_c_7 : IVec S_ 1 := constantI S_ 1 1#1
  let main_v22 : IVec S_ 1 := (fun x v => Host.reduce IntOp.andi x v reducesTo_S32000x4096_S_d0_1 h_S_) main_v21 main_c_7
  let main_v23 : IVec S_ 1 := andi main_v18 main_v22
  let main_v24 : FVec F S32000 .f32 := Host.absf main_arg5
  let main_cst_8 : FVec F S_ .f32 := constant S_ .f32 0x7F800000#32
  let main_v25 : FVec F S32000 .f32 := broadcastInDim S32000 ![] bcast_S_S32000 main_cst_8
  let main_v26 : IVec S32000 1 := cmpf .olt main_v24 main_v25
  let main_c_9 : IVec S_ 1 := constantI S_ 1 1#1
  let main_v27 : IVec S_ 1 := (fun x v => Host.reduce IntOp.andi x v reducesTo_S32000_S_d0 h_S_) main_v26 main_c_9
  let main_v28 : IVec S_ 1 := andi main_v23 main_v27
  let main_c_10 : IVec S_ 32 := constantI S_ 32 0#32
  let main_v29 : IVec S2048 32 := broadcastInDim S2048 ![] bcast_S_S2048 main_c_10
  let main_v30 : IVec S2048 1 := cmpi .sge main_arg6 main_v29
  let main_c_11 : IVec S_ 32 := constantI S_ 32 32000#32
  let main_v31 : IVec S2048 32 := broadcastInDim S2048 ![] bcast_S_S2048 main_c_11
  let main_v32 : IVec S2048 1 := cmpi .slt main_arg6 main_v31
  let main_v33 : IVec S2048 1 := andi main_v30 main_v32
  fn_part2 (F := F) main_arg6 main_v28 main_v33

def fn {F : FTy → Type} [FloatOps F] (main_arg0 : FVec F S2048x2048 .f32) (main_arg1 : FVec F S32000x2048 .f32) (main_arg2 : FVec F S32000 .f32) (main_arg3 : FVec F S2048x4096 .f32) (main_arg4 : FVec F S32000x4096 .f32) (main_arg5 : FVec F S32000 .f32) (main_arg6 : IVec S2048 32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S32000x2048 .f32 := Host.absf main_arg1
  let main_cst_0 : FVec F S_ .f32 := constant S_ .f32 0x7F800000#32
  let main_v5 : FVec F S32000x2048 .f32 := broadcastInDim S32000x2048 ![] bcast_S_S32000x2048 main_cst_0
  let main_v6 : IVec S32000x2048 1 := cmpf .olt main_v4 main_v5
  let main_c_1 : IVec S_ 1 := constantI S_ 1 1#1
  let main_v7 : IVec S_ 1 := (fun x v => Host.reduce IntOp.andi x v reducesTo_S32000x2048_S_d0_1 h_S_) main_v6 main_c_1
  let main_v8 : IVec S_ 1 := andi main_v3 main_v7
  let main_v9 : FVec F S32000 .f32 := Host.absf main_arg2
  let main_cst_2 : FVec F S_ .f32 := constant S_ .f32 0x7F800000#32
  let main_v10 : FVec F S32000 .f32 := broadcastInDim S32000 ![] bcast_S_S32000 main_cst_2
  let main_v11 : IVec S32000 1 := cmpf .olt main_v9 main_v10
  let main_c_3 : IVec S_ 1 := constantI S_ 1 1#1
  let main_v12 : IVec S_ 1 := (fun x v => Host.reduce IntOp.andi x v reducesTo_S32000_S_d0 h_S_) main_v11 main_c_3
  let main_v13 : IVec S_ 1 := andi main_v8 main_v12
  let main_v14 : FVec F S2048x4096 .f32 := Host.absf main_arg3
  let main_cst_4 : FVec F S_ .f32 := constant S_ .f32 0x7F800000#32
  let main_v15 : FVec F S2048x4096 .f32 := broadcastInDim S2048x4096 ![] bcast_S_S2048x4096 main_cst_4
  let main_v16 : IVec S2048x4096 1 := cmpf .olt main_v14 main_v15
  fn_part1 (F := F) main_arg4 main_arg5 main_arg6 main_v13 main_v16
-- ==== Kernel.lean ====
abbrev S2048x2048 : Shape := ⟨2, ![2048, 2048]⟩
abbrev S32000x2048 : Shape := ⟨2, ![32000, 2048]⟩
abbrev S32000 : Shape := ⟨1, ![32000]⟩
abbrev S2048x4096 : Shape := ⟨2, ![2048, 4096]⟩
abbrev S32000x4096 : Shape := ⟨2, ![32000, 4096]⟩
abbrev S2048 : Shape := ⟨1, ![2048]⟩
abbrev S1x32000 : Shape := ⟨2, ![1, 32000]⟩
abbrev S2048x1 : Shape := ⟨2, ![2048, 1]⟩
abbrev S2048x32000 : Shape := ⟨2, ![2048, 32000]⟩
abbrev S512x2048 : Shape := ⟨2, ![512, 2048]⟩
abbrev S256x2048 : Shape := ⟨2, ![256, 2048]⟩
abbrev S1x256 : Shape := ⟨2, ![1, 256]⟩
abbrev S512x4096 : Shape := ⟨2, ![512, 4096]⟩
abbrev S256x4096 : Shape := ⟨2, ![256, 4096]⟩
abbrev S512x1 : Shape := ⟨2, ![512, 1]⟩
abbrev S512x256 : Shape := ⟨2, ![512, 256]⟩
abbrev S2048x256 : Shape := ⟨2, ![2048, 256]⟩
abbrev S4096x256 : Shape := ⟨2, ![4096, 256]⟩
abbrev S512 : Shape := ⟨1, ![512]⟩
abbrev S512x1280 : Shape := ⟨2, ![512, 1280]⟩
abbrev S_ : Shape := ⟨0, ![]⟩

abbrev nBuf : Space → Nat
  | .hbm => 45
  | .vmem => 43
  | .smem => 0
  | _ => 0

abbrev bufTy : (tb : Table) → Fin (tcTables nBuf tb) → BufTy
  | .hbm, ⟨0, _⟩ => ⟨S2048x2048, .f32⟩
  | .hbm, ⟨1, _⟩ => ⟨S32000x2048, .f32⟩
  | .hbm, ⟨2, _⟩ => ⟨S32000, .f32⟩
  | .hbm, ⟨3, _⟩ => ⟨S2048x4096, .f32⟩
  | .hbm, ⟨4, _⟩ => ⟨S32000x4096, .f32⟩
  | .hbm, ⟨5, _⟩ => ⟨S32000, .f32⟩
  | .hbm, ⟨6, _⟩ => ⟨S2048, .i32⟩
  | .hbm, ⟨7, _⟩ => ⟨S1x32000, .f32⟩
  | .hbm, ⟨8, _⟩ => ⟨S1x32000, .f32⟩
  | .hbm, ⟨9, _⟩ => ⟨S2048x1, .i32⟩
  | .hbm, ⟨10, _⟩ => ⟨S2048x2048, .bf16⟩
  | .hbm, ⟨11, _⟩ => ⟨S32000x2048, .bf16⟩
  | .hbm, ⟨12, _⟩ => ⟨S2048x4096, .bf16⟩
  | .hbm, ⟨13, _⟩ => ⟨S32000x4096, .bf16⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x32000, .f32⟩
  | .hbm, ⟨18, _⟩ => ⟨S2048x32000, .f32⟩
  | .hbm, ⟨19, _⟩ => ⟨S2048x1, .f32⟩
  | .hbm, ⟨20, _⟩ => ⟨S2048x1, .f32⟩
  | .hbm, ⟨21, _⟩ => ⟨S_, .i32⟩
  | .hbm, ⟨22, _⟩ => ⟨S2048, .i32⟩
  | .hbm, ⟨23, _⟩ => ⟨S2048, .i1⟩
  | .hbm, ⟨24, _⟩ => ⟨S2048, .f32⟩
  | .hbm, ⟨25, _⟩ => ⟨S2048, .f32⟩
  | .hbm, ⟨26, _⟩ => ⟨S2048, .f32⟩
  | .hbm, ⟨27, _⟩ => ⟨S_, .f32⟩
  | .hbm, ⟨28, _⟩ => ⟨S_, .f32⟩
  | .hbm, ⟨29, _⟩ => ⟨S2048, .f32⟩
  | .hbm, ⟨30, _⟩ => ⟨S2048, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S2048, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .local _ .vmem, ⟨0, _⟩ => ⟨S512x2048, .bf16⟩
  | .local _ .vmem, ⟨1, _⟩ => ⟨S512x2048, .bf16⟩
  | .local _ .vmem, ⟨2, _⟩ => ⟨S256x2048, .bf16⟩
  | .local _ .vmem, ⟨3, _⟩ => ⟨S256x2048, .bf16⟩
  | .local _ .vmem, ⟨4, _⟩ => ⟨S1x256, .f32⟩
  | .local _ .vmem, ⟨5, _⟩ => ⟨S1x256, .f32⟩
  | .local _ .vmem, ⟨6, _⟩ => ⟨S512x4096, .bf16⟩
  | .local _ .vmem, ⟨7, _⟩ => ⟨S512x4096, .bf16⟩
  | .local _ .vmem, ⟨8, _⟩ => ⟨S256x4096, .bf16⟩
  | .local _ .vmem, ⟨9, _⟩ => ⟨S256x4096, .bf16⟩
  | .local _ .vmem, ⟨10, _⟩ => ⟨S1x256, .f32⟩
  | .local _ .vmem, ⟨11, _⟩ => ⟨S1x256, .f32⟩
  | .local _ .vmem, ⟨12, _⟩ => ⟨S512x1, .i32⟩
  | .local _ .vmem, ⟨13, _⟩ => ⟨S512x1, .i32⟩
  | .local _ .vmem, ⟨14, _⟩ => ⟨S512x1, .f32⟩
  | .local _ .vmem, ⟨15, _⟩ => ⟨S512x1, .f32⟩
  | .local _ .vmem, ⟨16, _⟩ => ⟨S512x1, .f32⟩
  | .local _ .vmem, ⟨17, _⟩ => ⟨S512x1, .f32⟩
  | .local _ .vmem, ⟨18, _⟩ => ⟨S512x1, .f32⟩
  | .local _ .vmem, ⟨19, _⟩ => ⟨S512x1, .f32⟩
  | .local _ .vmem, ⟨20, _⟩ => ⟨S512x256, .f32⟩
  | .local _ .vmem, ⟨21, _⟩ => ⟨S512x256, .f32⟩
  | .local _ .vmem, ⟨22, _⟩ => ⟨S512x256, .f32⟩
  | .local _ .vmem, ⟨23, _⟩ => ⟨S512x256, .f32⟩
  | .local _ .vmem, ⟨24, _⟩ => ⟨S512x1, .f32⟩
  | .local _ .vmem, ⟨25, _⟩ => ⟨S512x1, .f32⟩
  | .local _ .vmem, ⟨26, _⟩ => ⟨S512x1, .f32⟩
  | .local _ .vmem, ⟨27, _⟩ => ⟨S512x1, .f32⟩
  | .local _ .vmem, ⟨28, _⟩ => ⟨S512x1, .f32⟩
  | .local _ .vmem, ⟨29, _⟩ => ⟨S512x1, .f32⟩
  | .local _ .vmem, ⟨30, _⟩ => ⟨S512x1, .f32⟩
  | .local _ .vmem, ⟨31, _⟩ => ⟨S512x1, .f32⟩
  | .local _ .vmem, ⟨32, _⟩ => ⟨S512x1, .f32⟩
  | .local _ .vmem, ⟨33, _⟩ => ⟨S512x1280, .f32⟩
  | .local _ .vmem, ⟨34, _⟩ => ⟨S512x1280, .f32⟩
  | .local _ .vmem, ⟨35, _⟩ => ⟨S512x1280, .f32⟩
  | .local _ .vmem, ⟨36, _⟩ => ⟨S512x1280, .f32⟩
  | .local _ .vmem, ⟨37, _⟩ => ⟨S512x1, .f32⟩
  | .local _ .vmem, ⟨38, _⟩ => ⟨S512x1, .f32⟩
  | .local _ .vmem, ⟨39, _⟩ => ⟨S512x1, .f32⟩
  | .local _ .vmem, ⟨40, _⟩ => ⟨S512x1, .f32⟩
  | .local _ .vmem, ⟨41, _⟩ => ⟨S512x1, .f32⟩
  | .local _ .vmem, ⟨42, _⟩ => ⟨S512x1, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev main_v7_4 : Ref sig .tc := ⟨.hbm, 18, rfl⟩
abbrev main_v7_5 : Ref sig .tc := ⟨.hbm, 19, rfl⟩
abbrev main_v8 : Ref sig .tc := ⟨.hbm, 20, rfl⟩
abbrev main_c : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_cst_0 : Ref sig .tc := ⟨.hbm, 31, rfl⟩
abbrev main_v15 : Ref sig .tc := ⟨.hbm, 32, rfl⟩
abbrev main_cst_1 : Ref sig .tc := ⟨.hbm, 33, rfl⟩
abbrev main_v16 : Ref sig .tc := ⟨.hbm, 34, rfl⟩
abbrev main_v17 : Ref sig .tc := ⟨.hbm, 35, rfl⟩
abbrev main_cst_2 : Ref sig .tc := ⟨.hbm, 36, rfl⟩
abbrev main_v18 : Ref sig .tc := ⟨.hbm, 37, rfl⟩
abbrev main_cst_3 : Ref sig .tc := ⟨.hbm, 38, rfl⟩
abbrev main_v19 : Ref sig .tc := ⟨.hbm, 39, rfl⟩
abbrev main_cst_4 : Ref sig .tc := ⟨.hbm, 40, rfl⟩
abbrev main_v20 : Ref sig .tc := ⟨.hbm, 41, rfl⟩
abbrev main_cst_5 : Ref sig .tc := ⟨.hbm, 42, rfl⟩
abbrev main_v21 : Ref sig .tc := ⟨.hbm, 43, rfl⟩
abbrev main_v22 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_scratch5 : Ref sig .tc := ⟨.vmem, 31, rfl⟩
abbrev cc0_scratch6 : Ref sig .tc := ⟨.vmem, 32, rfl⟩
abbrev cc1_stg0_0 : Ref sig .tc := ⟨.vmem, 33, rfl⟩
abbrev cc1_stg0_1 : Ref sig .tc := ⟨.vmem, 34, rfl⟩
abbrev cc1_stg1_0 : Ref sig .tc := ⟨.vmem, 35, rfl⟩
abbrev cc1_stg1_1 : Ref sig .tc := ⟨.vmem, 36, rfl⟩
abbrev cc1_stg2_0 : Ref sig .tc := ⟨.vmem, 37, rfl⟩
abbrev cc1_stg2_1 : Ref sig .tc := ⟨.vmem, 38, rfl⟩
abbrev cc1_stg3_0 : Ref sig .tc := ⟨.vmem, 39, rfl⟩
abbrev cc1_stg3_1 : Ref sig .tc := ⟨.vmem, 40, rfl⟩
abbrev cc1_stg4_0 : Ref sig .tc := ⟨.vmem, 41, rfl⟩
abbrev cc1_stg4_1 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc1_sem0_0 : DmaSem sig := 26
abbrev cc1_sem0_1 : DmaSem sig := 27
abbrev cc1_sem1_0 : DmaSem sig := 28
abbrev cc1_sem1_1 : DmaSem sig := 29
abbrev cc1_sem2_0 : DmaSem sig := 30
abbrev cc1_sem2_1 : DmaSem sig := 31
abbrev cc1_sem3_0 : DmaSem sig := 32
abbrev cc1_sem3_1 : DmaSem sig := 33
abbrev cc1_sem4_0 : DmaSem sig := 34
abbrev cc1_sem4_1 : DmaSem sig := 35

abbrev nD : Nat := 1
abbrev τ : Topo := Topo.v7x

variable {F : FTy → Type} [FloatOps F]

abbrev grid0 : Pipeline.Grid := ⟨2, ![4, 125], ![false, false]⟩

def k0_cond2 (i : grid0.Coords) : BitVec 1 :=
  let arg1 : BitVec 32 := BitVec.ofNat 32 (i 1).val
  let c124_i32 : BitVec 32 := 124#32
  let v109 : BitVec 1 := Scalar.cmpi .eq arg1 c124_i32
  let v110 : BitVec 32 := Scalar.extui v109
  let c0_i32_63 : BitVec 32 := 0#32
  let v111 : BitVec 1 := Scalar.cmpi .ne v110 c0_i32_63
  v111

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev grid1 : Pipeline.Grid := ⟨2, ![4, 25], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x1280 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x1280 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S512x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  shapeCasts_S32000_S1x32000 : S32000.ShapeCasts S1x32000
  shapeCasts_S2048_S2048x1 : S2048.ShapeCasts S2048x1
  bitsLt_bf16_f32 : FTy.bits .bf16 < FTy.bits .f32
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  transposes_S256x2048_p1_0_S2048x256 : S256x2048.Transposes [1, 0] S2048x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  transposes_S256x4096_p1_0_S4096x256 : S256x4096.Transposes [1, 0] S4096x256
  inb_S512x256_S512x256_0_0 : ∀ a, (![0, 0] : Fin 2 → Nat) a + S512x256.size a ≤ S512x256.size a
  h_S512x256 : 0 < S512x256.numel
  iota_S512x256_d1_w32 : S512x256.Iotas .tc 32 [1]
  broadcasts_S512x1_S512x256 : S512x1.Broadcasts S512x256
  reduces_S512x256_S512 : S512x256.Reduces [1] S512
  shapeCasts_S512_S512x1 : S512.ShapeCasts S512x1
  inb_S512x1280_S512x1280_0_0 : ∀ a, (![0, 0] : Fin 2 → Nat) a + S512x1280.size a ≤ S512x1280.size a
  h_S512x1280 : 0 < S512x1280.numel
  shapeCasts_S512x1280_S512x1280 : S512x1280.ShapeCasts S512x1280
  broadcasts_S512x1_S512x1280 : S512x1.Broadcasts S512x1280
  reduces_S512x1280_S512 : S512x1280.Reduces [1] S512
  bcast_S_S2048 : S_.BroadcastsInDim S2048 (![] : Fin 0 → Fin S2048.rank)
  shapeCasts_S2048x1_S2048 : S2048x1.ShapeCasts S2048
  reducesTo_S2048_S_d0 : S2048.ReducesTo [0] S_
  h_S_ : 0 < S_.numel
  dot_S512x2048_S2048x256_S512x256_1_0_0_1_n_n_wf : DotDims.WF S512x2048 S2048x256 S512x256 [1] [0] [0] [1] [] []
  dot_S512x4096_S4096x256_S512x256_1_0_0_1_n_n_wf : DotDims.WF S512x4096 S4096x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S2048x2048.size a
  hwx0_0 : ∀ i : grid0.Coords, EltTy.bits .bf16 = 32 ∨ (Rect.block (s := S2048x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S32000x2048.size a
  hwx0_1 : ∀ i : grid0.Coords, EltTy.bits .bf16 = 32 ∨ (Rect.block (s := S32000x2048) S256x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x32000.size a
  hwx0_2 : ∀ i : grid0.Coords, EltTy.bits .f32 = 32 ∨ (Rect.block (s := S1x32000) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S2048x4096.size a
  hwx0_3 : ∀ i : grid0.Coords, EltTy.bits .bf16 = 32 ∨ (Rect.block (s := S2048x4096) S512x4096.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S32000x4096.size a
  hwx0_4 : ∀ i : grid0.Coords, EltTy.bits .bf16 = 32 ∨ (Rect.block (s := S32000x4096) S256x4096.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x32000.size a
  hwx0_5 : ∀ i : grid0.Coords, EltTy.bits .f32 = 32 ∨ (Rect.block (s := S1x32000) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1.size a ≤ S2048x1.size a
  hwx0_6 : ∀ i : grid0.Coords, EltTy.bits .i32 = 32 ∨ (Rect.block (s := S2048x1) S512x1.size (cc0_transform_6 i) (hinb0_6 i)).WholeWords (EltTy.packing .i32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1.size a ≤ S2048x1.size a
  hwx0_7 : ∀ i : grid0.Coords, EltTy.bits .f32 = 32 ∨ (Rect.block (s := S2048x1) S512x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x1.size a ≤ S2048x1.size a
  hwx0_8 : ∀ i : grid0.Coords, EltTy.bits .f32 = 32 ∨ (Rect.block (s := S2048x1) S512x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x1.size a ≤ S2048x1.size a
  hwx0_9 : ∀ i : grid0.Coords, EltTy.bits .f32 = 32 ∨ (Rect.block (s := S2048x1) S512x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x256.size a ≤ S2048x32000.size a
  hwx0_10 : ∀ i : grid0.Coords, EltTy.bits .f32 = 32 ∨ (Rect.block (s := S2048x32000) S512x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x256.size a ≤ S2048x32000.size a
  hwx0_11 : ∀ i : grid0.Coords, EltTy.bits .f32 = 32 ∨ (Rect.block (s := S2048x32000) S512x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S512x1.size a ≤ S2048x1.size a
  hwx0_12 : ∀ i : grid0.Coords, EltTy.bits .f32 = 32 ∨ (Rect.block (s := S2048x1) S512x1.size (cc0_transform_12 i) (hinb0_12 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1280.size a ≤ S2048x32000.size a
  hwx1_0 : ∀ i : grid1.Coords, EltTy.bits .f32 = 32 ∨ (Rect.block (s := S2048x32000) S512x1280.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1280.size a ≤ S2048x32000.size a
  hwx1_1 : ∀ i : grid1.Coords, EltTy.bits .f32 = 32 ∨ (Rect.block (s := S2048x32000) S512x1280.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S2048x1.size a
  hwx1_2 : ∀ i : grid1.Coords, EltTy.bits .f32 = 32 ∨ (Rect.block (s := S2048x1) S512x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1.size a ≤ S2048x1.size a
  hwx1_3 : ∀ i : grid1.Coords, EltTy.bits .f32 = 32 ∨ (Rect.block (s := S2048x1) S512x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x1.size a ≤ S2048x1.size a
  hwx1_4 : ∀ i : grid1.Coords, EltTy.bits .f32 = 32 ∨ (Rect.block (s := S2048x1) S512x1.size (cc1_transform_4 i) (hinb1_4 i)).WholeWords (EltTy.packing .f32)

variable [Facts₀]

def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf
def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf

abbrev win0_0 : Pipeline.Window sig grid0 :=
  Pipeline.Window.ofSpec (Memref.whole main_v3) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S256x4096.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2) S512x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7_0) S512x1.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v7_1) S512x1.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v7_2) S512x1.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v7_3) S512x256.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v7_4) S512x256.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v7_5) S512x1.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev idle0 : Fin 13 → grid0.Coords → Bool := fun | 0 => fun _ => false | 1 => fun _ => false | 2 => fun _ => false | 3 => fun _ => false | 4 => fun _ => false | 5 => fun _ => false | 6 => fun _ => false | 7 => fun i => !(k0_cond2 i == 1#1) | 8 => fun i => !(k0_cond2 i == 1#1) | 9 => fun i => !(k0_cond2 i == 1#1) | 10 => fun _ => false | 11 => fun _ => false | 12 => fun i => !(k0_cond2 i == 1#1) | ⟨_ + 13, h⟩ => absurd h (Nat.not_lt.2 (Nat.le_add_left _ _))

abbrev win1_0 : Pipeline.Window sig grid1 :=
  Pipeline.Window.ofSpec (Memref.whole main_v7_3) S512x1280.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7_4) S512x1280.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7_1) S512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7_2) S512x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v8) S512x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S2048x2048 : Shape := ⟨2, ![2048, 2048]⟩
abbrev S32000x2048 : Shape := ⟨2, ![32000, 2048]⟩
abbrev S32000 : Shape := ⟨1, ![32000]⟩
abbrev S2048x4096 : Shape := ⟨2, ![2048, 4096]⟩
abbrev S32000x4096 : Shape := ⟨2, ![32000, 4096]⟩
abbrev S2048 : Shape := ⟨1, ![2048]⟩
abbrev S2048x32000 : Shape := ⟨2, ![2048, 32000]⟩
abbrev S1x32000 : Shape := ⟨2, ![1, 32000]⟩
abbrev S4096x32000 : Shape := ⟨2, ![4096, 32000]⟩
abbrev S_ : Shape := ⟨0, ![]⟩
abbrev S2048x1 : Shape := ⟨2, ![2048, 1]⟩
abbrev S2048x1x1 : Shape := ⟨3, ![2048, 1, 1]⟩
abbrev S1 : Shape := ⟨1, ![1]⟩
abbrev S1x1x1 : Shape := ⟨3, ![1, 1, 1]⟩

abbrev nBuf : Space → Nat
  | .hbm => 140
  | .vmem => 0
  | .smem => 0
  | _ => 0

abbrev hbmTy0_0 (i : Nat) : BufTy := match i % 128 with
  | 0 => ⟨S2048x2048, .f32⟩
  | 1 => ⟨S32000x2048, .f32⟩
  | 2 => ⟨S32000, .f32⟩
  | 3 => ⟨S2048x4096, .f32⟩
  | 4 => ⟨S32000x4096, .f32⟩
  | 5 => ⟨S32000, .f32⟩
  | 6 => ⟨S2048, .i32⟩
  | 7 => ⟨S2048x32000, .f32⟩
  | 8 => ⟨S2048x32000, .f32⟩
  | 9 => ⟨S1x32000, .f32⟩
  | 10 => ⟨S2048x32000, .f32⟩
  | 11 => ⟨S2048x32000, .f32⟩
  | 12 => ⟨S4096x32000, .f32⟩
  | 13 => ⟨S2048x32000, .f32⟩
  | 14 => ⟨S1x32000, .f32⟩
  | 15 => ⟨S2048x32000, .f32⟩
  | 16 => ⟨S2048x32000, .f32⟩
  | 17 => ⟨S_, .f32⟩
  | 18 => ⟨S2048, .f32⟩
  | 19 => ⟨S_, .f32⟩
  | 20 => ⟨S2048, .f32⟩
  | 21 => ⟨S2048, .f32⟩
  | 22 => ⟨S2048x1, .f32⟩
  | 23 => ⟨S2048x32000, .f32⟩
  | 24 => ⟨S2048x32000, .f32⟩
  | 25 => ⟨S2048x32000, .f32⟩
  | 26 => ⟨S_, .f32⟩
  | 27 => ⟨S2048, .f32⟩
  | 28 => ⟨S2048x1, .f32⟩
  | 29 => ⟨S2048x1, .f32⟩
  | 30 => ⟨S2048x32000, .f32⟩
  | 31 => ⟨S2048x32000, .f32⟩
  | 32 => ⟨S_, .i32⟩
  | 33 => ⟨S2048, .i32⟩
  | 34 => ⟨S2048, .i1⟩
  | 35 => ⟨S_, .i32⟩
  | 36 => ⟨S_, .i32⟩
  | 37 => ⟨S2048, .i32⟩
  | 38 => ⟨S2048, .i32⟩
  | 39 => ⟨S2048x1, .i32⟩
  | 40 => ⟨S_, .i32⟩
  | 41 => ⟨S2048x1, .i32⟩
  | 42 => ⟨S2048x1, .i1⟩
  | 43 => ⟨S_, .i32⟩
  | 44 => ⟨S2048x1, .i32⟩
  | 45 => ⟨S2048x1, .i32⟩
  | 46 => ⟨S2048x1, .i32⟩
  | 47 => ⟨S2048x1x1, .i32⟩
  | 48 => ⟨S1, .i32⟩
  | 49 => ⟨S_, .i32⟩
  | 50 => ⟨S2048x1x1, .i32⟩
  | 51 => ⟨S2048x1x1, .i1⟩
  | 52 => ⟨S1x1x1, .i32⟩
  | 53 => ⟨S2048x1x1, .i32⟩
  | 54 => ⟨S2048x1x1, .i1⟩
  | 55 => ⟨S2048x1x1, .i1⟩
  | 56 => ⟨S_, .i1⟩
  | 57 => ⟨S2048x1, .i1⟩
  | 58 => ⟨S2048x1, .f32⟩
  | 59 => ⟨S_, .f32⟩
  | 60 => ⟨S2048x1, .f32⟩
  | 61 => ⟨S2048x1, .f32⟩
  | 62 => ⟨S2048, .f32⟩
  | 63 => ⟨S2048, .f32⟩
  | 64 => ⟨S_, .f32⟩
  | 65 => ⟨S_, .f32⟩
  | 66 => ⟨S2048, .f32⟩
  | 67 => ⟨S2048, .f32⟩
  | 68 => ⟨S_, .f32⟩
  | 69 => ⟨S_, .f32⟩
  | 70 => ⟨S_, .f32⟩
  | 71 => ⟨S_, .f32⟩
  | 72 => ⟨S_, .f32⟩
  | 73 => ⟨S2048x32000, .f32⟩
  | 74 => ⟨S2048x32000, .f32⟩
  | 75 => ⟨S_, .f32⟩
  | 76 => ⟨S2048, .f32⟩
  | 77 => ⟨S_, .f32⟩
  | 78 => ⟨S2048, .f32⟩
  | 79 => ⟨S2048, .f32⟩
  | 80 => ⟨S2048x1, .f32⟩
  | 81 => ⟨S2048x32000, .f32⟩
  | 82 => ⟨S2048x32000, .f32⟩
  | 83 => ⟨S2048x32000, .f32⟩
  | 84 => ⟨S_, .f32⟩
  | 85 => ⟨S2048, .f32⟩
  | 86 => ⟨S2048x1, .f32⟩
  | 87 => ⟨S2048x1, .f32⟩
  | 88 => ⟨S2048x32000, .f32⟩
  | 89 => ⟨S2048x32000, .f32⟩
  | 90 => ⟨S_, .f32⟩
  | 91 => ⟨S2048x32000, .f32⟩
  | 92 => ⟨S2048x32000, .f32⟩
  | 93 => ⟨S_, .f32⟩
  | 94 => ⟨S2048, .f32⟩
  | 95 => ⟨S_, .f32⟩
  | 96 => ⟨S2048, .f32⟩
  | 97 => ⟨S2048, .f32⟩
  | 98 => ⟨S2048x1, .f32⟩
  | 99 => ⟨S2048x32000, .f32⟩
  | 100 => ⟨S2048x32000, .f32⟩
  | 101 => ⟨S2048x32000, .f32⟩
  | 102 => ⟨S_, .f32⟩
  | 103 => ⟨S2048, .f32⟩
  | 104 => ⟨S2048x1, .f32⟩
  | 105 => ⟨S2048x1, .f32⟩
  | 106 => ⟨S2048x32000, .f32⟩
  | 107 => ⟨S2048x32000, .f32⟩
  | 108 => ⟨S2048x32000, .f32⟩
  | 109 => ⟨S_, .f32⟩
  | 110 => ⟨S2048x32000, .f32⟩
  | 111 => ⟨S2048x32000, .f32⟩
  | 112 => ⟨S2048x32000, .f32⟩
  | 113 => ⟨S_, .f32⟩
  | 114 => ⟨S2048x32000, .f32⟩
  | 115 => ⟨S2048x32000, .f32⟩
  | 116 => ⟨S2048x32000, .f32⟩
  | 117 => ⟨S2048x32000, .f32⟩
  | 118 => ⟨S2048x32000, .f32⟩
  | 119 => ⟨S2048x32000, .f32⟩
  | 120 => ⟨S2048x32000, .f32⟩
  | 121 => ⟨S_, .f32⟩
  | 122 => ⟨S_, .f32⟩
  | 123 => ⟨S2048x32000, .f32⟩
  | 124 => ⟨S2048x32000, .f32⟩
  | 125 => ⟨S2048x32000, .f32⟩
  | 126 => ⟨S_, .f32⟩
  | 127 => ⟨S_, .f32⟩
  | _ => ⟨S2048x2048, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | _ => ⟨S2048x2048, .f32⟩

abbrev hbmTy (i : Nat) : BufTy := match i / 128 with
  | 0 => hbmTy0_0 i
  | 1 => hbmTy0_1 i
  | _ => ⟨S2048x2048, .f32⟩

abbrev bufTy : (tb : Table) → Fin (tcTables nBuf tb) → BufTy
  | .hbm, ⟨i, _⟩ => hbmTy i
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_call0_cst : Ref sig .tc := ⟨.hbm, 17, rfl⟩
abbrev main_call0_v0 : Ref sig .tc := ⟨.hbm, 18, rfl⟩
abbrev main_call0_cst_0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_cst_1 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_v10 : Ref sig .tc := ⟨.hbm, 31, rfl⟩
abbrev main_c : Ref sig .tc := ⟨.hbm, 32, rfl⟩
abbrev main_v11 : Ref sig .tc := ⟨.hbm, 33, rfl⟩
abbrev main_v12 : Ref sig .tc := ⟨.hbm, 34, rfl⟩
abbrev main_c_0 : Ref sig .tc := ⟨.hbm, 35, rfl⟩
abbrev main_call1_v0 : Ref sig .tc := ⟨.hbm, 36, rfl⟩
abbrev main_call1_v1 : Ref sig .tc := ⟨.hbm, 37, rfl⟩
abbrev main_v13 : Ref sig .tc := ⟨.hbm, 38, rfl⟩
abbrev main_v14 : Ref sig .tc := ⟨.hbm, 39, rfl⟩
abbrev main_call2_c : Ref sig .tc := ⟨.hbm, 40, rfl⟩
abbrev main_call2_v0 : Ref sig .tc := ⟨.hbm, 41, rfl⟩
abbrev main_call2_v1 : Ref sig .tc := ⟨.hbm, 42, rfl⟩
abbrev main_call2_c_0 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_call2_v5 : Ref sig .tc := ⟨.hbm, 47, rfl⟩
abbrev main_call2_c_1 : Ref sig .tc := ⟨.hbm, 48, rfl⟩
abbrev main_call2_c_2 : Ref sig .tc := ⟨.hbm, 49, rfl⟩
abbrev main_call2_v6 : Ref sig .tc := ⟨.hbm, 50, rfl⟩
abbrev main_call2_v7 : Ref sig .tc := ⟨.hbm, 51, rfl⟩
abbrev main_call2_v8 : Ref sig .tc := ⟨.hbm, 52, rfl⟩
abbrev main_call2_v9 : Ref sig .tc := ⟨.hbm, 53, rfl⟩
abbrev main_call2_v10 : Ref sig .tc := ⟨.hbm, 54, rfl⟩
abbrev main_call2_v11 : Ref sig .tc := ⟨.hbm, 55, rfl⟩
abbrev main_call2_c_3 : Ref sig .tc := ⟨.hbm, 56, rfl⟩
abbrev main_call2_v12 : Ref sig .tc := ⟨.hbm, 57, rfl⟩
abbrev main_call2_v13 : Ref sig .tc := ⟨.hbm, 58, rfl⟩
abbrev main_call2_cst : Ref sig .tc := ⟨.hbm, 59, rfl⟩
abbrev main_call2_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_cst : Ref sig .tc := ⟨.hbm, 64, rfl⟩
abbrev main_call3_v0 : Ref sig .tc := ⟨.hbm, 65, rfl⟩
abbrev main_call3_v1 : Ref sig .tc := ⟨.hbm, 66, rfl⟩
abbrev main_v18 : Ref sig .tc := ⟨.hbm, 67, rfl⟩
abbrev main_cst_1 : Ref sig .tc := ⟨.hbm, 68, rfl⟩
abbrev main_v19 : Ref sig .tc := ⟨.hbm, 69, rfl⟩
abbrev main_cst_2 : Ref sig .tc := ⟨.hbm, 70, rfl⟩
abbrev main_v20 : Ref sig .tc := ⟨.hbm, 71, rfl⟩
abbrev main_cst_3 : Ref sig .tc := ⟨.hbm, 72, rfl⟩
abbrev main_v21 : Ref sig .tc := ⟨.hbm, 73, rfl⟩
abbrev main_v22 : Ref sig .tc := ⟨.hbm, 74, rfl⟩
abbrev main_call4_cst : Ref sig .tc := ⟨.hbm, 75, rfl⟩
abbrev main_call4_v0 : Ref sig .tc := ⟨.hbm, 76, rfl⟩
abbrev main_call4_cst_0 : Ref sig .tc := ⟨.hbm, 77, rfl⟩
abbrev main_call4_v1 : Ref sig .tc := ⟨.hbm, 78, rfl⟩
abbrev main_call4_v2 : Ref sig .tc := ⟨.hbm, 79, rfl⟩
abbrev main_call4_v3 : Ref sig .tc := ⟨.hbm, 80, rfl⟩
abbrev main_call4_v4 : Ref sig .tc := ⟨.hbm, 81, rfl⟩
abbrev main_call4_v5 : Ref sig .tc := ⟨.hbm, 82, rfl⟩
abbrev main_call4_v6 : Ref sig .tc := ⟨.hbm, 83, rfl⟩
abbrev main_call4_cst_1 : Ref sig .tc := ⟨.hbm, 84, rfl⟩
abbrev main_call4_v7 : Ref sig .tc := ⟨.hbm, 85, rfl⟩
abbrev main_call4_v8 : Ref sig .tc := ⟨.hbm, 86, rfl⟩
abbrev main_call4_v9 : Ref sig .tc := ⟨.hbm, 87, rfl⟩
abbrev main_call4_v10 : Ref sig .tc := ⟨.hbm, 88, rfl⟩
abbrev main_v23 : Ref sig .tc := ⟨.hbm, 89, rfl⟩
abbrev main_cst_4 : Ref sig .tc := ⟨.hbm, 90, rfl⟩
abbrev main_v24 : Ref sig .tc := ⟨.hbm, 91, rfl⟩
abbrev main_v25 : Ref sig .tc := ⟨.hbm, 92, rfl⟩
abbrev main_call5_cst : Ref sig .tc := ⟨.hbm, 93, rfl⟩
abbrev main_call5_v0 : Ref sig .tc := ⟨.hbm, 94, rfl⟩
abbrev main_call5_cst_0 : Ref sig .tc := ⟨.hbm, 95, rfl⟩
abbrev main_call5_v1 : Ref sig .tc := ⟨.hbm, 96, rfl⟩
abbrev main_call5_v2 : Ref sig .tc := ⟨.hbm, 97, rfl⟩
abbrev main_call5_v3 : Ref sig .tc := ⟨.hbm, 98, rfl⟩
abbrev main_call5_v4 : Ref sig .tc := ⟨.hbm, 99, rfl⟩
abbrev main_call5_v5 : Ref sig .tc := ⟨.hbm, 100, rfl⟩
abbrev main_call5_v6 : Ref sig .tc := ⟨.hbm, 101, rfl⟩
abbrev main_call5_cst_1 : Ref sig .tc := ⟨.hbm, 102, rfl⟩
abbrev main_call5_v7 : Ref sig .tc := ⟨.hbm, 103, rfl⟩
abbrev main_call5_v8 : Ref sig .tc := ⟨.hbm, 104, rfl⟩
abbrev main_call5_v9 : Ref sig .tc := ⟨.hbm, 105, rfl⟩
abbrev main_call5_v10 : Ref sig .tc := ⟨.hbm, 106, rfl⟩
abbrev main_v26 : Ref sig .tc := ⟨.hbm, 107, rfl⟩
abbrev main_v27 : Ref sig .tc := ⟨.hbm, 108, rfl⟩
abbrev main_cst_5 : Ref sig .tc := ⟨.hbm, 109, rfl⟩
abbrev main_v28 : Ref sig .tc := ⟨.hbm, 110, rfl⟩
abbrev main_v29 : Ref sig .tc := ⟨.hbm, 111, rfl⟩
abbrev main_v30 : Ref sig .tc := ⟨.hbm, 112, rfl⟩
abbrev main_cst_6 : Ref sig .tc := ⟨.hbm, 113, rfl⟩
abbrev main_v31 : Ref sig .tc := ⟨.hbm, 114, rfl⟩
abbrev main_v32 : Ref sig .tc := ⟨.hbm, 115, rfl⟩
abbrev main_v33 : Ref sig .tc := ⟨.hbm, 116, rfl⟩
abbrev main_v34 : Ref sig .tc := ⟨.hbm, 117, rfl⟩
abbrev main_v35 : Ref sig .tc := ⟨.hbm, 118, rfl⟩
abbrev main_v36 : Ref sig .tc := ⟨.hbm, 119, rfl⟩
abbrev main_v37 : Ref sig .tc := ⟨.hbm, 120, rfl⟩
abbrev main_cst_7 : Ref sig .tc := ⟨.hbm, 121, rfl⟩
abbrev main_v38 : Ref sig .tc := ⟨.hbm, 122, rfl⟩
abbrev main_v39 : Ref sig .tc := ⟨.hbm, 123, rfl⟩
abbrev main_v40 : Ref sig .tc := ⟨.hbm, 124, rfl⟩
abbrev main_v41 : Ref sig .tc := ⟨.hbm, 125, rfl⟩
abbrev main_cst_8 : Ref sig .tc := ⟨.hbm, 126, rfl⟩
abbrev main_v42 : Ref sig .tc := ⟨.hbm, 127, rfl⟩
abbrev main_cst_9 : Ref sig .tc := ⟨.hbm, 128, rfl⟩
abbrev main_v43 : Ref sig .tc := ⟨.hbm, 129, rfl⟩
abbrev main_cst_10 : Ref sig .tc := ⟨.hbm, 130, rfl⟩
abbrev main_v44 : Ref sig .tc := ⟨.hbm, 131, rfl⟩
abbrev main_v45 : Ref sig .tc := ⟨.hbm, 132, rfl⟩
abbrev main_cst_11 : Ref sig .tc := ⟨.hbm, 133, rfl⟩
abbrev main_v46 : Ref sig .tc := ⟨.hbm, 134, rfl⟩
abbrev main_cst_12 : Ref sig .tc := ⟨.hbm, 135, rfl⟩
abbrev main_v47 : Ref sig .tc := ⟨.hbm, 136, rfl⟩
abbrev main_cst_13 : Ref sig .tc := ⟨.hbm, 137, rfl⟩
abbrev main_v48 : Ref sig .tc := ⟨.hbm, 138, rfl⟩
abbrev main_v49 : Ref sig .tc := ⟨.hbm, 139, rfl⟩

abbrev nD : Nat := 1
abbrev τ : Topo := Topo.v7x

variable {F : FTy → Type} [FloatOps F]

class Facts₀ : Prop where
  transposes_S32000x2048_S2048x32000_1_0 : S32000x2048.Transposes [1, 0] S2048x32000
  bcast_S32000_S1x32000_1 : S32000.BroadcastsInDim S1x32000 (![1] : Fin 1 → Fin S1x32000.rank)
  bcast_S1x32000_S2048x32000_0_1 : S1x32000.BroadcastsInDim S2048x32000 (![0, 1] : Fin 2 → Fin S2048x32000.rank)
  transposes_S32000x4096_S4096x32000_1_0 : S32000x4096.Transposes [1, 0] S4096x32000
  reducesTo_S2048x32000_S2048_d1 : S2048x32000.ReducesTo [1] S2048
  h_S_ : 0 < S_.numel
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x32000_0_1 : S2048x1.BroadcastsInDim S2048x32000 (![0, 1] : Fin 2 → Fin S2048x32000.rank)
  bcast_S_S2048x1 : S_.BroadcastsInDim S2048x1 (![] : Fin 0 → Fin S2048x1.rank)
  shapeCasts_S2048x1_S2048x1x1 : S2048x1.ShapeCasts S2048x1x1
  bcast_S_S2048x1x1 : S_.BroadcastsInDim S2048x1x1 (![] : Fin 0 → Fin S2048x1x1.rank)
  bcast_S1_S1x1x1_2 : S1.BroadcastsInDim S1x1x1 (![2] : Fin 1 → Fin S1x1x1.rank)
  bcast_S1x1x1_S2048x1x1_0_1_2 : S1x1x1.BroadcastsInDim S2048x1x1 (![0, 1, 2] : Fin 3 → Fin S2048x1x1.rank)
  reducesTo_S2048x1x1_S2048x1_d2 : S2048x1x1.ReducesTo [2] S2048x1
  shapeCasts_S2048x1_S2048 : S2048x1.ShapeCasts S2048
  reducesTo_S2048_S_d0 : S2048.ReducesTo [0] S_
  bcast_S_S2048x32000 : S_.BroadcastsInDim S2048x32000 (![] : Fin 0 → Fin S2048x32000.rank)
  reducesTo_S2048x32000_S_d0_1 : S2048x32000.ReducesTo [0, 1] S_
  dot_S2048x2048_S2048x32000_S2048x32000_1_0_0_1_n_n_wf : DotDims.WF S2048x2048 S2048x32000 S2048x32000 [1] [0] [0] [1] [] []
  dot_S2048x4096_S4096x32000_S2048x32000_1_0_0_1_n_n_wf : DotDims.WF S2048x4096 S4096x32000 S2048x32000 [1] [0] [0] [1] [] []
  gather_S2048x32000_S2048x1x1_S2048x1_n_1_0_0_1_2_11_wf : GatherDims.WF S2048x32000 S2048x1x1 S2048x1 [] [1] [0] [1] [0] 2 ![1, 1]

variable [Facts₀]

def dot_S2048x2048_S2048x32000_S2048x32000_1_0_0_1_n_n : DotDims S2048x2048 S2048x32000 S2048x32000 where
  lhsContracting := [1]
  rhsContracting := [0]
  lhsNonContracting := [0]
  rhsNonContracting := [1]
  lhsBatch := []
  rhsBatch := []
  wf := dot_S2048x2048_S2048x32000_S2048x32000_1_0_0_1_n_n_wf
def dot_S2048x4096_S4096x32000_S2048x32000_1_0_0_1_n_n : DotDims S2048x4096 S4096x32000 S2048x32000 where
  lhsContracting := [1]
  rhsContracting := [0]
  lhsNonContracting := [0]
  rhsNonContracting := [1]
  lhsBatch := []
  rhsBatch := []
  wf := dot_S2048x4096_S4096x32000_S2048x32000_1_0_0_1_n_n_wf
def gather_S2048x32000_S2048x1x1_S2048x1_n_1_0_0_1_2_11 : GatherDims S2048x32000 S2048x1x1 S2048x1 where
  offsetDims := []
  collapsedSliceDims := [1]
  operandBatchingDims := [0]
  startIndicesBatchingDims := [0]
  startIndexMap := [1]
  indexVectorDim := 2
  sliceSizes := ![1, 1]
  wf := gather_S2048x32000_S2048x1x1_S2048x1_n_1_0_0_1_2_11_wf

class Facts : Prop extends Facts₀ where

variable [Facts]
-- ==== Proof.R0.Shared.lean ====
import proofs.«422162_j56092272886459_3_alg».proof.Proof.Gen.KernelIdeal.Launch
import proofs.«422162_j56092272886459_3_alg».proof.Proof.Gen.KernelIdeal.Skeleton
import proofs.«422162_j56092272886459_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Entry
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

end Entry

abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 125 = 0 :=
  (by decide +kernel : ∀ t : Fin grid0.N, cond0_0 (grid0.coords t) ↔ t.val % 125 = 0)

abbrev cond0_1 (i : grid0.Coords) : Prop := k0_cond2 i = 1#1

theorem hcond0_1 : ∀ t : Fin cfg0.N, cond0_1 (grid0.coords t) ↔ t.val % 125 = 124 :=
  (by decide +kernel : ∀ t : Fin grid0.N, cond0_1 (grid0.coords t) ↔ t.val % 125 = 124)

theorem liveAt0_0 : ∀ t : Fin cfg0.N, cfg0.idle 0 (grid0.coords t) = false := by decide +kernel

theorem liveAt0_1 : ∀ t : Fin cfg0.N, cfg0.idle 1 (grid0.coords t) = false := by decide +kernel

theorem liveAt0_2 : ∀ t : Fin cfg0.N, cfg0.idle 2 (grid0.coords t) = false := by decide +kernel

theorem liveAt0_3 : ∀ t : Fin cfg0.N, cfg0.idle 3 (grid0.coords t) = false := by decide +kernel

theorem liveAt0_4 : ∀ t : Fin cfg0.N, cfg0.idle 4 (grid0.coords t) = false := by decide +kernel

theorem liveAt0_5 : ∀ t : Fin cfg0.N, cfg0.idle 5 (grid0.coords t) = false := by decide +kernel

theorem liveAt0_6 : ∀ t : Fin cfg0.N, cfg0.idle 6 (grid0.coords t) = false := by decide +kernel

theorem liveAt0_10 : ∀ t : Fin cfg0.N, cfg0.idle 10 (grid0.coords t) = false := by decide +kernel

theorem liveAt0_11 : ∀ t : Fin cfg0.N, cfg0.idle 11 (grid0.coords t) = false := by decide +kernel

theorem idleAt0_7 : ∀ t : Fin cfg0.N, ¬cond0_1 (grid0.coords t) → cfg0.idle 7 (grid0.coords t) = true := by decide +kernel

theorem noFlush0_7 : ∀ t : Fin cfg0.N, ¬cond0_1 (grid0.coords t) → (cfg0.win 7).flush t = false := by decide +kernel

theorem liveAt0_7_C : ∀ t : Fin cfg0.N, cond0_1 (grid0.coords t) → cfg0.idle 7 (grid0.coords t) = false := by decide +kernel

theorem idleAt0_8 : ∀ t : Fin cfg0.N, ¬cond0_1 (grid0.coords t) → cfg0.idle 8 (grid0.coords t) = true := by decide +kernel

theorem noFlush0_8 : ∀ t : Fin cfg0.N, ¬cond0_1 (grid0.coords t) → (cfg0.win 8).flush t = false := by decide +kernel

theorem liveAt0_8_C : ∀ t : Fin cfg0.N, cond0_1 (grid0.coords t) → cfg0.idle 8 (grid0.coords t) = false := by decide +kernel

theorem idleAt0_9 : ∀ t : Fin cfg0.N, ¬cond0_1 (grid0.coords t) → cfg0.idle 9 (grid0.coords t) = true := by decide +kernel

theorem noFlush0_9 : ∀ t : Fin cfg0.N, ¬cond0_1 (grid0.coords t) → (cfg0.win 9).flush t = false := by decide +kernel

theorem liveAt0_9_C : ∀ t : Fin cfg0.N, cond0_1 (grid0.coords t) → cfg0.idle 9 (grid0.coords t) = false := by decide +kernel

theorem idleAt0_12 : ∀ t : Fin cfg0.N, ¬cond0_1 (grid0.coords t) → cfg0.idle 12 (grid0.coords t) = true := by decide +kernel

theorem noFlush0_12 : ∀ t : Fin cfg0.N, ¬cond0_1 (grid0.coords t) → (cfg0.win 12).flush t = false := by decide +kernel

theorem liveAt0_12_C : ∀ t : Fin cfg0.N, cond0_1 (grid0.coords t) → cfg0.idle 12 (grid0.coords t) = false := by decide +kernel

abbrev ms0_0 (t : Fin cfg0.N) : Memref sig .tc .vmem S512x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x4096 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x4096 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1 .i32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x1 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x1 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x256 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S512x256 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S512x1 .f32 := win0_12.stage (cfg0.slots t 12)
abbrev hs0_12 (t : Fin cfg0.N) : (ms0_12 t).IsWhole := hstage0_12 ((cfg0.slots t 12).cast nbuf0_12)

abbrev VO0_7 : View sig .tc .vmem S512x1 .f32 := (Memref.whole cc0_stg7_0 : Memref sig .tc .vmem S512x1 .f32).view

abbrev VO0_8 : View sig .tc .vmem S512x1 .f32 := (Memref.whole cc0_stg8_0 : Memref sig .tc .vmem S512x1 .f32).view

abbrev VO0_9 : View sig .tc .vmem S512x1 .f32 := (Memref.whole cc0_stg9_0 : Memref sig .tc .vmem S512x1 .f32).view

abbrev VO0_10 : View sig .tc .vmem S512x256 .f32 := (Memref.whole cc0_stg10_0 : Memref sig .tc .vmem S512x256 .f32).view

abbrev VO0_11 : View sig .tc .vmem S512x256 .f32 := (Memref.whole cc0_stg11_0 : Memref sig .tc .vmem S512x256 .f32).view

abbrev VO0_12 : View sig .tc .vmem S512x1 .f32 := (Memref.whole cc0_stg12_0 : Memref sig .tc .vmem S512x1 .f32).view

abbrev scM0_0 : Memref sig .tc .vmem S512x1 .f32 := Memref.whole cc0_scratch0
abbrev VS0_0 : View sig .tc .vmem S512x1 .f32 := scM0_0.view

abbrev scM0_1 : Memref sig .tc .vmem S512x1 .f32 := Memref.whole cc0_scratch1
abbrev VS0_1 : View sig .tc .vmem S512x1 .f32 := scM0_1.view

abbrev scM0_2 : Memref sig .tc .vmem S512x1 .f32 := Memref.whole cc0_scratch2
abbrev VS0_2 : View sig .tc .vmem S512x1 .f32 := scM0_2.view

abbrev scM0_3 : Memref sig .tc .vmem S512x1 .f32 := Memref.whole cc0_scratch3
abbrev VS0_3 : View sig .tc .vmem S512x1 .f32 := scM0_3.view

abbrev scM0_4 : Memref sig .tc .vmem S512x1 .f32 := Memref.whole cc0_scratch4
abbrev VS0_4 : View sig .tc .vmem S512x1 .f32 := scM0_4.view

abbrev scM0_5 : Memref sig .tc .vmem S512x1 .f32 := Memref.whole cc0_scratch5
abbrev VS0_5 : View sig .tc .vmem S512x1 .f32 := scM0_5.view

abbrev scM0_6 : Memref sig .tc .vmem S512x1 .f32 := Memref.whole cc0_scratch6
abbrev VS0_6 : View sig .tc .vmem S512x1 .f32 := scM0_6.view

abbrev Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ Rest0 (F := F) c) ∗ (∃ r, prngReg c r)) := by
  unfold Pipeline.ΦA; rw [scopedRest0_eq]; simp only [scM0_0, scM0_1, scM0_2, scM0_3, scM0_4, scM0_5, scM0_6, owns_whole]; try rfl

-- The body's twenty memref arguments, each with the proof that it is a whole buffer.
structure Stg0 where
  arg2 : Memref sig .tc .vmem S512x2048 .bf16
  harg2 : arg2.IsWhole
  arg3 : Memref sig .tc .vmem S256x2048 .bf16
  harg3 : arg3.IsWhole
  arg4 : Memref sig .tc .vmem S1x256 .f32
  harg4 : arg4.IsWhole
  arg5 : Memref sig .tc .vmem S512x4096 .bf16
  harg5 : arg5.IsWhole
  arg6 : Memref sig .tc .vmem S256x4096 .bf16
  harg6 : arg6.IsWhole
  arg7 : Memref sig .tc .vmem S1x256 .f32
  harg7 : arg7.IsWhole
  arg8 : Memref sig .tc .vmem S512x1 .i32
  harg8 : arg8.IsWhole
  arg9 : Memref sig .tc .vmem S512x1 .f32
  harg9 : arg9.IsWhole
  arg10 : Memref sig .tc .vmem S512x1 .f32
  harg10 : arg10.IsWhole
  arg11 : Memref sig .tc .vmem S512x1 .f32
  harg11 : arg11.IsWhole
  arg12 : Memref sig .tc .vmem S512x256 .f32
  harg12 : arg12.IsWhole
  arg13 : Memref sig .tc .vmem S512x256 .f32
  harg13 : arg13.IsWhole
  arg14 : Memref sig .tc .vmem S512x1 .f32
  harg14 : arg14.IsWhole
  arg15 : Memref sig .tc .vmem S512x1 .f32
  harg15 : arg15.IsWhole
  arg16 : Memref sig .tc .vmem S512x1 .f32
  harg16 : arg16.IsWhole
  arg17 : Memref sig .tc .vmem S512x1 .f32
  harg17 : arg17.IsWhole
  arg18 : Memref sig .tc .vmem S512x1 .f32
  harg18 : arg18.IsWhole
  arg19 : Memref sig .tc .vmem S512x1 .f32
  harg19 : arg19.IsWhole
  arg20 : Memref sig .tc .vmem S512x1 .f32
  harg20 : arg20.IsWhole
  arg21 : Memref sig .tc .vmem S512x1 .f32
  harg21 : arg21.IsWhole

-- The memrefs the body is called with at grid point `t`.
abbrev stg0 (t : Fin cfg0.N) : Stg0 := ⟨ms0_0 t, hs0_0 t, ms0_1 t, hs0_1 t, ms0_2 t, hs0_2 t, ms0_3 t, hs0_3 t, ms0_4 t, hs0_4 t, ms0_5 t, hs0_5 t, ms0_6 t, hs0_6 t, ms0_7 t, hs0_7 t, ms0_8 t, hs0_8 t, ms0_9 t, hs0_9 t, ms0_10 t, hs0_10 t, ms0_11 t, hs0_11 t, ms0_12 t, hs0_12 t, scM0_0, Memref.isWhole_whole _, scM0_1, Memref.isWhole_whole _, scM0_2, Memref.isWhole_whole _, scM0_3, Memref.isWhole_whole _, scM0_4, Memref.isWhole_whole _, scM0_5, Memref.isWhole_whole _, scM0_6, Memref.isWhole_whole _⟩

end Cert.KernelIdeal.R0

end
-- ==== Proof.R0.RunA.lean ====
import proofs.«422162_j56092272886459_3_alg».proof.Proof.R0.Shared

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun0_A (c : Dev nD) (i : grid0.Coords) (a : Stg0) (hc0 : cond0_0 i) (hc1 : ¬cond0_1 i)
    (x0 : Vec F S512x2048 .bf16) (x1 : Vec F S256x2048 .bf16) (x2 : Vec F S1x256 .f32) (x3 : Vec F S512x4096 .bf16) (x4 : Vec F S256x4096 .bf16) (x5 : Vec F S1x256 .f32) (x6 : Vec F S512x1 .i32) :
    Σ' (L10 : List (View.Piece (Elt F) S512x256 .f32)) (L11 : List (View.Piece (Elt F) S512x256 .f32)) (LS0 : List (View.Piece (Elt F) S512x1 .f32)) (LS1 : List (View.Piece (Elt F) S512x1 .f32)) (LS2 : List (View.Piece (Elt F) S512x1 .f32)) (LS3 : List (View.Piece (Elt F) S512x1 .f32)) (LS4 : List (View.Piece (Elt F) S512x1 .f32)) (LS5 : List (View.Piece (Elt F) S512x1 .f32)), { LS6 : List (View.Piece (Elt F) S512x1 .f32) //
      ∀ (xi7 xi8 xi9 xi12 : Vec F S512x1 .f32) (E : Set ℕ) (K : PUnit → sProp 𝕄),
        iprop(owns (c : Thread nD τ) a.arg2 fullShare x0 ∗ owns (c : Thread nD τ) a.arg3 fullShare x1 ∗ owns (c : Thread nD τ) a.arg4 fullShare x2 ∗ owns (c : Thread nD τ) a.arg5 fullShare x3 ∗ owns (c : Thread nD τ) a.arg6 fullShare x4 ∗ owns (c : Thread nD τ) a.arg7 fullShare x5 ∗ owns (c : Thread nD τ) a.arg8 fullShare x6 ∗ owns (c : Thread nD τ) a.arg9 fullShare xi7 ∗ owns (c : Thread nD τ) a.arg10 fullShare xi8 ∗ owns (c : Thread nD τ) a.arg11 fullShare xi9 ∗ (∃ d, owns (c : Thread nD τ) a.arg12 fullShare d) ∗ (∃ d, owns (c : Thread nD τ) a.arg13 fullShare d) ∗ owns (c : Thread nD τ) a.arg14 fullShare xi12 ∗ (∃ d, owns (c : Thread nD τ) a.arg15 fullShare d) ∗ (∃ d, owns (c : Thread nD τ) a.arg16 fullShare d) ∗ (∃ d, owns (c : Thread nD τ) a.arg17 fullShare d) ∗ (∃ d, owns (c : Thread nD τ) a.arg18 fullShare d) ∗ (∃ d, owns (c : Thread nD τ) a.arg19 fullShare d) ∗ (∃ d, owns (c : Thread nD τ) a.arg20 fullShare d) ∗ (∃ d, owns (c : Thread nD τ) a.arg21 fullShare d)
            ∗ (iprop(owns (c : Thread nD τ) a.arg2 fullShare x0 ∗ owns (c : Thread nD τ) a.arg3 fullShare x1 ∗ owns (c : Thread nD τ) a.arg4 fullShare x2 ∗ owns (c : Thread nD τ) a.arg5 fullShare x3 ∗ owns (c : Thread nD τ) a.arg6 fullShare x4 ∗ owns (c : Thread nD τ) a.arg7 fullShare x5 ∗ owns (c : Thread nD τ) a.arg8 fullShare x6 ∗ owns (c : Thread nD τ) a.arg9 fullShare xi7 ∗ owns (c : Thread nD τ) a.arg10 fullShare xi8 ∗ owns (c : Thread nD τ) a.arg11 fullShare xi9 ∗ (∃ f, a.arg12.view.loc (c : Thread nD τ) ↦[a.arg12.view.set]{fullShare} a.arg12.view.writes (Elt F) f L10) ∗ (∃ f, a.arg13.view.loc (c : Thread nD τ) ↦[a.arg13.view.set]{fullShare} a.arg13.view.writes (Elt F) f L11) ∗ owns (c : Thread nD τ) a.arg14 fullShare xi12 ∗ (∃ f, a.arg15.view.loc (c : Thread nD τ) ↦[a.arg15.view.set]{fullShare} a.arg15.view.writes (Elt F) f LS0) ∗ (∃ f, a.arg16.view.loc (c : Thread nD τ) ↦[a.arg16.view.set]{fullShare} a.arg16.view.writes (Elt F) f LS1) ∗ (∃ f, a.arg17.view.loc (c : Thread nD τ) ↦[a.arg17.view.set]{fullShare} a.arg17.view.writes (Elt F) f LS2) ∗ (∃ f, a.arg18.view.loc (c : Thread nD τ) ↦[a.arg18.view.set]{fullShare} a.arg18.view.writes (Elt F) f LS3) ∗ (∃ f, a.arg19.view.loc (c : Thread nD τ) ↦[a.arg19.view.set]{fullShare} a.arg19.view.writes (Elt F) f LS4) ∗ (∃ f, a.arg20.view.loc (c : Thread nD τ) ↦[a.arg20.view.set]{fullShare} a.arg20.view.writes (Elt F) f LS5) ∗ (∃ f, a.arg21.view.loc (c : Thread nD τ) ↦[a.arg21.view.set]{fullShare} a.arg21.view.writes (Elt F) f LS6)) -∗ K ⟨⟩))
          ⊢ wp frame (wpE (defs₀ (F := F)) Variants.none c none) E (cc0__pass1_kernel i a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.arg20 a.harg20 a.arg21 a.harg21) K } := by
  refine ⟨?_, ?_, ?_, ?_, ?_, ?_, ?_, ?_, ?_, fun xi7 xi8 xi9 xi12 E K => ?run⟩
  case run =>
    simp only [cc0__pass1_kernel_eq_skeleton]; unfold cc0__pass1_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%f12, %hf12, H12⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := a.harg2.eq_unread hf0; obtain rfl := a.harg3.eq_unread hf1; obtain rfl := a.harg4.eq_unread hf2; obtain rfl := a.harg5.eq_unread hf3; obtain rfl := a.harg6.eq_unread hf4; obtain rfl := a.harg7.eq_unread hf5; obtain rfl := a.harg8.eq_unread hf6; obtain rfl := a.harg9.eq_unread hf7; obtain rfl := a.harg10.eq_unread hf8; obtain rfl := a.harg11.eq_unread hf9; obtain rfl := a.harg14.eq_unread hf12
    sl_exec (disch := first | exact hc0 | exact hc1)
    sl_step
    iapply Hk
    isplitl [H0]
    · iexists _; isplitr; · ipureintro; exact a.harg2.read_unread _
      iexact H0
    isplitl [H1]
    · iexists _; isplitr; · ipureintro; exact a.harg3.read_unread _
      iexact H1
    isplitl [H2]
    · iexists _; isplitr; · ipureintro; exact a.harg4.read_unread _
      iexact H2
    isplitl [H3]
    · iexists _; isplitr; · ipureintro; exact a.harg5.read_unread _
      iexact H3
    isplitl [H4]
    · iexists _; isplitr; · ipureintro; exact a.harg6.read_unread _
      iexact H4
    isplitl [H5]
    · iexists _; isplitr; · ipureintro; exact a.harg7.read_unread _
      iexact H5
    isplitl [H6]
    · iexists _; isplitr; · ipureintro; exact a.harg8.read_unread _
      iexact H6
    isplitl [H7]
    · iexists _; isplitr; · ipureintro; exact a.harg9.read_unread _
      iexact H7
    isplitl [H8]
    · iexists _; isplitr; · ipureintro; exact a.harg10.read_unread _
      iexact H8
    isplitl [H9]
    · iexists _; isplitr; · ipureintro; exact a.harg11.read_unread _
      iexact H9
    isplitl [H10]; · iexists _; iexact H10
    isplitl [H11]; · iexists _; iexact H11
    isplitl [H12]
    · iexists _; isplitr; · ipureintro; exact a.harg14.read_unread _
      iexact H12
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    iexists _; iexact HS6

end Cert.KernelIdeal.R0

end
-- ==== Proof.R0.RunB.lean ====
import proofs.«422162_j56092272886459_3_alg».proof.Proof.R0.Shared

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun0_B (c : Dev nD) (i : grid0.Coords) (a : Stg0) (hc0 : ¬cond0_0 i) (hc1 : ¬cond0_1 i)
    (x0 : Vec F S512x2048 .bf16) (x1 : Vec F S256x2048 .bf16) (x2 : Vec F S1x256 .f32) (x3 : Vec F S512x4096 .bf16) (x4 : Vec F S256x4096 .bf16) (x5 : Vec F S1x256 .f32) (x6 : Vec F S512x1 .i32) (xs0 : Vec F S512x1 .f32) (xs1 : Vec F S512x1 .f32) (xs2 : Vec F S512x1 .f32) (xs3 : Vec F S512x1 .f32) (xs4 : Vec F S512x1 .f32) (xs5 : Vec F S512x1 .f32) (xs6 : Vec F S512x1 .f32) :
    Σ' (L10 : List (View.Piece (Elt F) S512x256 .f32)) (L11 : List (View.Piece (Elt F) S512x256 .f32)) (LS0 : List (View.Piece (Elt F) S512x1 .f32)) (LS1 : List (View.Piece (Elt F) S512x1 .f32)) (LS2 : List (View.Piece (Elt F) S512x1 .f32)) (LS3 : List (View.Piece (Elt F) S512x1 .f32)) (LS4 : List (View.Piece (Elt F) S512x1 .f32)) (LS5 : List (View.Piece (Elt F) S512x1 .f32)), { LS6 : List (View.Piece (Elt F) S512x1 .f32) //
      ∀ (xi7 xi8 xi9 xi12 : Vec F S512x1 .f32) (E : Set ℕ) (K : PUnit → sProp 𝕄),
        iprop(owns (c : Thread nD τ) a.arg2 fullShare x0 ∗ owns (c : Thread nD τ) a.arg3 fullShare x1 ∗ owns (c : Thread nD τ) a.arg4 fullShare x2 ∗ owns (c : Thread nD τ) a.arg5 fullShare x3 ∗ owns (c : Thread nD τ) a.arg6 fullShare x4 ∗ owns (c : Thread nD τ) a.arg7 fullShare x5 ∗ owns (c : Thread nD τ) a.arg8 fullShare x6 ∗ owns (c : Thread nD τ) a.arg9 fullShare xi7 ∗ owns (c : Thread nD τ) a.arg10 fullShare xi8 ∗ owns (c : Thread nD τ) a.arg11 fullShare xi9 ∗ (∃ d, owns (c : Thread nD τ) a.arg12 fullShare d) ∗ (∃ d, owns (c : Thread nD τ) a.arg13 fullShare d) ∗ owns (c : Thread nD τ) a.arg14 fullShare xi12 ∗ owns (c : Thread nD τ) a.arg15 fullShare xs0 ∗ owns (c : Thread nD τ) a.arg16 fullShare xs1 ∗ owns (c : Thread nD τ) a.arg17 fullShare xs2 ∗ owns (c : Thread nD τ) a.arg18 fullShare xs3 ∗ owns (c : Thread nD τ) a.arg19 fullShare xs4 ∗ owns (c : Thread nD τ) a.arg20 fullShare xs5 ∗ owns (c : Thread nD τ) a.arg21 fullShare xs6
            ∗ (iprop(owns (c : Thread nD τ) a.arg2 fullShare x0 ∗ owns (c : Thread nD τ) a.arg3 fullShare x1 ∗ owns (c : Thread nD τ) a.arg4 fullShare x2 ∗ owns (c : Thread nD τ) a.arg5 fullShare x3 ∗ owns (c : Thread nD τ) a.arg6 fullShare x4 ∗ owns (c : Thread nD τ) a.arg7 fullShare x5 ∗ owns (c : Thread nD τ) a.arg8 fullShare x6 ∗ owns (c : Thread nD τ) a.arg9 fullShare xi7 ∗ owns (c : Thread nD τ) a.arg10 fullShare xi8 ∗ owns (c : Thread nD τ) a.arg11 fullShare xi9 ∗ (∃ f, a.arg12.view.loc (c : Thread nD τ) ↦[a.arg12.view.set]{fullShare} a.arg12.view.writes (Elt F) f L10) ∗ (∃ f, a.arg13.view.loc (c : Thread nD τ) ↦[a.arg13.view.set]{fullShare} a.arg13.view.writes (Elt F) f L11) ∗ owns (c : Thread nD τ) a.arg14 fullShare xi12 ∗ (∃ f, a.arg15.view.loc (c : Thread nD τ) ↦[a.arg15.view.set]{fullShare} a.arg15.view.writes (Elt F) f LS0) ∗ (∃ f, a.arg16.view.loc (c : Thread nD τ) ↦[a.arg16.view.set]{fullShare} a.arg16.view.writes (Elt F) f LS1) ∗ (∃ f, a.arg17.view.loc (c : Thread nD τ) ↦[a.arg17.view.set]{fullShare} a.arg17.view.writes (Elt F) f LS2) ∗ (∃ f, a.arg18.view.loc (c : Thread nD τ) ↦[a.arg18.view.set]{fullShare} a.arg18.view.writes (Elt F) f LS3) ∗ (∃ f, a.arg19.view.loc (c : Thread nD τ) ↦[a.arg19.view.set]{fullShare} a.arg19.view.writes (Elt F) f LS4) ∗ (∃ f, a.arg20.view.loc (c : Thread nD τ) ↦[a.arg20.view.set]{fullShare} a.arg20.view.writes (Elt F) f LS5) ∗ (∃ f, a.arg21.view.loc (c : Thread nD τ) ↦[a.arg21.view.set]{fullShare} a.arg21.view.writes (Elt F) f LS6)) -∗ K ⟨⟩))
          ⊢ wp frame (wpE (defs₀ (F := F)) Variants.none c none) E (cc0__pass1_kernel i a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.arg20 a.harg20 a.arg21 a.harg21) K } := by
  refine ⟨?_, ?_, ?_, ?_, ?_, ?_, ?_, ?_, ?_, fun xi7 xi8 xi9 xi12 E K => ?run⟩
  case run =>
    simp only [cc0__pass1_kernel_eq_skeleton]; unfold cc0__pass1_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%f12, %hf12, H12⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%fs6, %hfs6, HS6⟩, Hk⟩
    obtain rfl := a.harg2.eq_unread hf0; obtain rfl := a.harg3.eq_unread hf1; obtain rfl := a.harg4.eq_unread hf2; obtain rfl := a.harg5.eq_unread hf3; obtain rfl := a.harg6.eq_unread hf4; obtain rfl := a.harg7.eq_unread hf5; obtain rfl := a.harg8.eq_unread hf6; obtain rfl := a.harg9.eq_unread hf7; obtain rfl := a.harg10.eq_unread hf8; obtain rfl := a.harg11.eq_unread hf9; obtain rfl := a.harg14.eq_unread hf12; obtain rfl := a.harg15.eq_unread hfs0; obtain rfl := a.harg16.eq_unread hfs1; obtain rfl := a.harg17.eq_unread hfs2; obtain rfl := a.harg18.eq_unread hfs3; obtain rfl := a.harg19.eq_unread hfs4; obtain rfl := a.harg20.eq_unread hfs5; obtain rfl := a.harg21.eq_unread hfs6
    sl_exec (disch := first | exact hc0 | exact hc1)
    sl_step
    iapply Hk
    isplitl [H0]
    · iexists _; isplitr; · ipureintro; exact a.harg2.read_unread _
      iexact H0
    isplitl [H1]
    · iexists _; isplitr; · ipureintro; exact a.harg3.read_unread _
      iexact H1
    isplitl [H2]
    · iexists _; isplitr; · ipureintro; exact a.harg4.read_unread _
      iexact H2
    isplitl [H3]
    · iexists _; isplitr; · ipureintro; exact a.harg5.read_unread _
      iexact H3
    isplitl [H4]
    · iexists _; isplitr; · ipureintro; exact a.harg6.read_unread _
      iexact H4
    isplitl [H5]
    · iexists _; isplitr; · ipureintro; exact a.harg7.read_unread _
      iexact H5
    isplitl [H6]
    · iexists _; isplitr; · ipureintro; exact a.harg8.read_unread _
      iexact H6
    isplitl [H7]
    · iexists _; isplitr; · ipureintro; exact a.harg9.read_unread _
      iexact H7
    isplitl [H8]
    · iexists _; isplitr; · ipureintro; exact a.harg10.read_unread _
      iexact H8
    isplitl [H9]
    · iexists _; isplitr; · ipureintro; exact a.harg11.read_unread _
      iexact H9
    isplitl [H10]; · iexists _; iexact H10
    isplitl [H11]; · iexists _; iexact H11
    isplitl [H12]
    · iexists _; isplitr; · ipureintro; exact a.harg14.read_unread _
      iexact H12
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    iexists _; iexact HS6

end Cert.KernelIdeal.R0

end
-- ==== Proof.R0.RunC.lean ====
import proofs.«422162_j56092272886459_3_alg».proof.Proof.R0.Shared

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun0_C (c : Dev nD) (i : grid0.Coords) (a : Stg0) (hc0 : ¬cond0_0 i) (hc1 : cond0_1 i)
    (x0 : Vec F S512x2048 .bf16) (x1 : Vec F S256x2048 .bf16) (x2 : Vec F S1x256 .f32) (x3 : Vec F S512x4096 .bf16) (x4 : Vec F S256x4096 .bf16) (x5 : Vec F S1x256 .f32) (x6 : Vec F S512x1 .i32) (xs0 : Vec F S512x1 .f32) (xs1 : Vec F S512x1 .f32) (xs2 : Vec F S512x1 .f32) (xs3 : Vec F S512x1 .f32) (xs4 : Vec F S512x1 .f32) (xs5 : Vec F S512x1 .f32) (xs6 : Vec F S512x1 .f32) :
    Σ' (L7 : List (View.Piece (Elt F) S512x1 .f32)) (L8 : List (View.Piece (Elt F) S512x1 .f32)) (L9 : List (View.Piece (Elt F) S512x1 .f32)) (L10 : List (View.Piece (Elt F) S512x256 .f32)) (L11 : List (View.Piece (Elt F) S512x256 .f32)) (L12 : List (View.Piece (Elt F) S512x1 .f32)) (LS0 : List (View.Piece (Elt F) S512x1 .f32)) (LS1 : List (View.Piece (Elt F) S512x1 .f32)) (LS2 : List (View.Piece (Elt F) S512x1 .f32)) (LS3 : List (View.Piece (Elt F) S512x1 .f32)) (LS4 : List (View.Piece (Elt F) S512x1 .f32)) (LS5 : List (View.Piece (Elt F) S512x1 .f32)), { LS6 : List (View.Piece (Elt F) S512x1 .f32) //
      ∀ (E : Set ℕ) (K : PUnit → sProp 𝕄),
        iprop(owns (c : Thread nD τ) a.arg2 fullShare x0 ∗ owns (c : Thread nD τ) a.arg3 fullShare x1 ∗ owns (c : Thread nD τ) a.arg4 fullShare x2 ∗ owns (c : Thread nD τ) a.arg5 fullShare x3 ∗ owns (c : Thread nD τ) a.arg6 fullShare x4 ∗ owns (c : Thread nD τ) a.arg7 fullShare x5 ∗ owns (c : Thread nD τ) a.arg8 fullShare x6 ∗ (∃ d, owns (c : Thread nD τ) a.arg9 fullShare d) ∗ (∃ d, owns (c : Thread nD τ) a.arg10 fullShare d) ∗ (∃ d, owns (c : Thread nD τ) a.arg11 fullShare d) ∗ (∃ d, owns (c : Thread nD τ) a.arg12 fullShare d) ∗ (∃ d, owns (c : Thread nD τ) a.arg13 fullShare d) ∗ (∃ d, owns (c : Thread nD τ) a.arg14 fullShare d) ∗ owns (c : Thread nD τ) a.arg15 fullShare xs0 ∗ owns (c : Thread nD τ) a.arg16 fullShare xs1 ∗ owns (c : Thread nD τ) a.arg17 fullShare xs2 ∗ owns (c : Thread nD τ) a.arg18 fullShare xs3 ∗ owns (c : Thread nD τ) a.arg19 fullShare xs4 ∗ owns (c : Thread nD τ) a.arg20 fullShare xs5 ∗ owns (c : Thread nD τ) a.arg21 fullShare xs6
            ∗ (iprop(owns (c : Thread nD τ) a.arg2 fullShare x0 ∗ owns (c : Thread nD τ) a.arg3 fullShare x1 ∗ owns (c : Thread nD τ) a.arg4 fullShare x2 ∗ owns (c : Thread nD τ) a.arg5 fullShare x3 ∗ owns (c : Thread nD τ) a.arg6 fullShare x4 ∗ owns (c : Thread nD τ) a.arg7 fullShare x5 ∗ owns (c : Thread nD τ) a.arg8 fullShare x6 ∗ (∃ f, a.arg9.view.loc (c : Thread nD τ) ↦[a.arg9.view.set]{fullShare} a.arg9.view.writes (Elt F) f L7) ∗ (∃ f, a.arg10.view.loc (c : Thread nD τ) ↦[a.arg10.view.set]{fullShare} a.arg10.view.writes (Elt F) f L8) ∗ (∃ f, a.arg11.view.loc (c : Thread nD τ) ↦[a.arg11.view.set]{fullShare} a.arg11.view.writes (Elt F) f L9) ∗ (∃ f, a.arg12.view.loc (c : Thread nD τ) ↦[a.arg12.view.set]{fullShare} a.arg12.view.writes (Elt F) f L10) ∗ (∃ f, a.arg13.view.loc (c : Thread nD τ) ↦[a.arg13.view.set]{fullShare} a.arg13.view.writes (Elt F) f L11) ∗ (∃ f, a.arg14.view.loc (c : Thread nD τ) ↦[a.arg14.view.set]{fullShare} a.arg14.view.writes (Elt F) f L12) ∗ (∃ f, a.arg15.view.loc (c : Thread nD τ) ↦[a.arg15.view.set]{fullShare} a.arg15.view.writes (Elt F) f LS0) ∗ (∃ f, a.arg16.view.loc (c : Thread nD τ) ↦[a.arg16.view.set]{fullShare} a.arg16.view.writes (Elt F) f LS1) ∗ (∃ f, a.arg17.view.loc (c : Thread nD τ) ↦[a.arg17.view.set]{fullShare} a.arg17.view.writes (Elt F) f LS2) ∗ (∃ f, a.arg18.view.loc (c : Thread nD τ) ↦[a.arg18.view.set]{fullShare} a.arg18.view.writes (Elt F) f LS3) ∗ (∃ f, a.arg19.view.loc (c : Thread nD τ) ↦[a.arg19.view.set]{fullShare} a.arg19.view.writes (Elt F) f LS4) ∗ (∃ f, a.arg20.view.loc (c : Thread nD τ) ↦[a.arg20.view.set]{fullShare} a.arg20.view.writes (Elt F) f LS5) ∗ (∃ f, a.arg21.view.loc (c : Thread nD τ) ↦[a.arg21.view.set]{fullShare} a.arg21.view.writes (Elt F) f LS6)) -∗ K ⟨⟩))
          ⊢ wp frame (wpE (defs₀ (F := F)) Variants.none c none) E (cc0__pass1_kernel i a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.arg20 a.harg20 a.arg21 a.harg21) K } := by
  refine ⟨?_, ?_, ?_, ?_, ?_, ?_, ?_, ?_, ?_, ?_, ?_, ?_, ?_, fun E K => ?run⟩
  case run =>
    simp only [cc0__pass1_kernel_eq_skeleton]; unfold cc0__pass1_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%fs6, %hfs6, HS6⟩, Hk⟩
    obtain rfl := a.harg2.eq_unread hf0; obtain rfl := a.harg3.eq_unread hf1; obtain rfl := a.harg4.eq_unread hf2; obtain rfl := a.harg5.eq_unread hf3; obtain rfl := a.harg6.eq_unread hf4; obtain rfl := a.harg7.eq_unread hf5; obtain rfl := a.harg8.eq_unread hf6; obtain rfl := a.harg15.eq_unread hfs0; obtain rfl := a.harg16.eq_unread hfs1; obtain rfl := a.harg17.eq_unread hfs2; obtain rfl := a.harg18.eq_unread hfs3; obtain rfl := a.harg19.eq_unread hfs4; obtain rfl := a.harg20.eq_unread hfs5; obtain rfl := a.harg21.eq_unread hfs6
    sl_exec (disch := first | exact hc0 | exact hc1)
    sl_step
    iapply Hk
    isplitl [H0]
    · iexists _; isplitr; · ipureintro; exact a.harg2.read_unread _
      iexact H0
    isplitl [H1]
    · iexists _; isplitr; · ipureintro; exact a.harg3.read_unread _
      iexact H1
    isplitl [H2]
    · iexists _; isplitr; · ipureintro; exact a.harg4.read_unread _
      iexact H2
    isplitl [H3]
    · iexists _; isplitr; · ipureintro; exact a.harg5.read_unread _
      iexact H3
    isplitl [H4]
    · iexists _; isplitr; · ipureintro; exact a.harg6.read_unread _
      iexact H4
    isplitl [H5]
    · iexists _; isplitr; · ipureintro; exact a.harg7.read_unread _
      iexact H5
    isplitl [H6]
    · iexists _; isplitr; · ipureintro; exact a.harg8.read_unread _
      iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    iexists _; iexact HS6

end Cert.KernelIdeal.R0

end
-- ==== Proof.R0.Outs.lean ====
import proofs.«422162_j56092272886459_3_alg».proof.Proof.R0.RunA
import proofs.«422162_j56092272886459_3_alg».proof.Proof.R0.RunB
import proofs.«422162_j56092272886459_3_alg».proof.Proof.R0.RunC

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

def idleOut0 : Vec F S512x1 .f32 := VO0_7.read (Elt F) VO0_7.junk

variable (c : Dev nD) (i : grid0.Coords) (a : Stg0)

section A
variable (hc0 : cond0_0 i) (hc1 : ¬cond0_1 i) (x0 : Vec F S512x2048 .bf16) (x1 : Vec F S256x2048 .bf16) (x2 : Vec F S1x256 .f32) (x3 : Vec F S512x4096 .bf16) (x4 : Vec F S256x4096 .bf16) (x5 : Vec F S1x256 .f32) (x6 : Vec F S512x1 .i32)

theorem cover0_A_10 (y : S512x256.Idx) :
    ∃ pc ∈ (kernelRun0_A c i a hc0 hc1 x0 x1 x2 x3 x4 x5 x6).1, y ∈ pc.1.set :=
  View.cover_of_tiledL (kernelRun0_A c i a hc0 hc1 x0 x1 x2 x3 x4 x5 x6).1 S512x256.size (by sl_kernel_rfl) y

def out0_A_10 : Vec F S512x256 .f32 :=
  VO0_10.read (Elt F) (VO0_10.writes (Elt F) VO0_10.junk (kernelRun0_A c i a hc0 hc1 x0 x1 x2 x3 x4 x5 x6).1)

theorem cover0_A_11 (y : S512x256.Idx) :
    ∃ pc ∈ (kernelRun0_A c i a hc0 hc1 x0 x1 x2 x3 x4 x5 x6).2.1, y ∈ pc.1.set :=
  View.cover_of_tiledL (kernelRun0_A c i a hc0 hc1 x0 x1 x2 x3 x4 x5 x6).2.1 S512x256.size (by sl_kernel_rfl) y

def out0_A_11 : Vec F S512x256 .f32 :=
  VO0_11.read (Elt F) (VO0_11.writes (Elt F) VO0_11.junk (kernelRun0_A c i a hc0 hc1 x0 x1 x2 x3 x4 x5 x6).2.1)

theorem scover0_A_0 (y : S512x1.Idx) :
    ∃ pc ∈ (kernelRun0_A c i a hc0 hc1 x0 x1 x2 x3 x4 x5 x6).2.2.1, y ∈ pc.1.set :=
  View.cover_of_tiledL (kernelRun0_A c i a hc0 hc1 x0 x1 x2 x3 x4 x5 x6).2.2.1 S512x1.size (by sl_kernel_rfl) y

def sout0_A_0 : Vec F S512x1 .f32 :=
  VS0_0.read (Elt F) (VS0_0.writes (Elt F) VS0_0.junk (kernelRun0_A c i a hc0 hc1 x0 x1 x2 x3 x4 x5 x6).2.2.1)

theorem scover0_A_1 (y : S512x1.Idx) :
    ∃ pc ∈ (kernelRun0_A c i a hc0 hc1 x0 x1 x2 x3 x4 x5 x6).2.2.2.1, y ∈ pc.1.set :=
  View.cover_of_tiledL (kernelRun0_A c i a hc0 hc1 x0 x1 x2 x3 x4 x5 x6).2.2.2.1 S512x1.size (by sl_kernel_rfl) y

def sout0_A_1 : Vec F S512x1 .f32 :=
  VS0_1.read (Elt F) (VS0_1.writes (Elt F) VS0_1.junk (kernelRun0_A c i a hc0 hc1 x0 x1 x2 x3 x4 x5 x6).2.2.2.1)

theorem scover0_A_2 (y : S512x1.Idx) :
    ∃ pc ∈ (kernelRun0_A c i a hc0 hc1 x0 x1 x2 x3 x4 x5 x6).2.2.2.2.1, y ∈ pc.1.set :=
  View.cover_of_tiledL (kernelRun0_A c i a hc0 hc1 x0 x1 x2 x3 x4 x5 x6).2.2.2.2.1 S512x1.size (by sl_kernel_rfl) y

def sout0_A_2 : Vec F S512x1 .f32 :=
  VS0_2.read (Elt F) (VS0_2.writes (Elt F) VS0_2.junk (kernelRun0_A c i a hc0 hc1 x0 x1 x2 x3 x4 x5 x6).2.2.2.2.1)

theorem scover0_A_3 (y : S512x1.Idx) :
    ∃ pc ∈ (kernelRun0_A c i a hc0 hc1 x0 x1 x2 x3 x4 x5 x6).2.2.2.2.2.1, y ∈ pc.1.set :=
  View.cover_of_tiledL (kernelRun0_A c i a hc0 hc1 x0 x1 x2 x3 x4 x5 x6).2.2.2.2.2.1 S512x1.size (by sl_kernel_rfl) y

def sout0_A_3 : Vec F S512x1 .f32 :=
  VS0_3.read (Elt F) (VS0_3.writes (Elt F) VS0_3.junk (kernelRun0_A c i a hc0 hc1 x0 x1 x2 x3 x4 x5 x6).2.2.2.2.2.1)

theorem scover0_A_4 (y : S512x1.Idx) :
    ∃ pc ∈ (kernelRun0_A c i a hc0 hc1 x0 x1 x2 x3 x4 x5 x6).2.2.2.2.2.2.1, y ∈ pc.1.set :=
  View.cover_of_tiledL (kernelRun0_A c i a hc0 hc1 x0 x1 x2 x3 x4 x5 x6).2.2.2.2.2.2.1 S512x1.size (by sl_kernel_rfl) y

def sout0_A_4 : Vec F S512x1 .f32 :=
  VS0_4.read (Elt F) (VS0_4.writes (Elt F) VS0_4.junk (kernelRun0_A c i a hc0 hc1 x0 x1 x2 x3 x4 x5 x6).2.2.2.2.2.2.1)

theorem scover0_A_5 (y : S512x1.Idx) :
    ∃ pc ∈ (kernelRun0_A c i a hc0 hc1 x0 x1 x2 x3 x4 x5 x6).2.2.2.2.2.2.2.1, y ∈ pc.1.set :=
  View.cover_of_tiledL (kernelRun0_A c i a hc0 hc1 x0 x1 x2 x3 x4 x5 x6).2.2.2.2.2.2.2.1 S512x1.size (by sl_kernel_rfl) y

def sout0_A_5 : Vec F S512x1 .f32 :=
  VS0_5.read (Elt F) (VS0_5.writes (Elt F) VS0_5.junk (kernelRun0_A c i a hc0 hc1 x0 x1 x2 x3 x4 x5 x6).2.2.2.2.2.2.2.1)

theorem scover0_A_6 (y : S512x1.Idx) :
    ∃ pc ∈ (kernelRun0_A c i a hc0 hc1 x0 x1 x2 x3 x4 x5 x6).2.2.2.2.2.2.2.2.1, y ∈ pc.1.set :=
  View.cover_of_tiledL (kernelRun0_A c i a hc0 hc1 x0 x1 x2 x3 x4 x5 x6).2.2.2.2.2.2.2.2.1 S512x1.size (by sl_kernel_rfl) y

def sout0_A_6 : Vec F S512x1 .f32 :=
  VS0_6.read (Elt F) (VS0_6.writes (Elt F) VS0_6.junk (kernelRun0_A c i a hc0 hc1 x0 x1 x2 x3 x4 x5 x6).2.2.2.2.2.2.2.2.1)

def outs0_A : Vec F S512x1 .f32 × Vec F S512x1 .f32 × Vec F S512x1 .f32 × Vec F S512x256 .f32 × Vec F S512x256 .f32 × Vec F S512x1 .f32 × Vec F S512x1 .f32 × Vec F S512x1 .f32 × Vec F S512x1 .f32 × Vec F S512x1 .f32 × Vec F S512x1 .f32 × Vec F S512x1 .f32 × Vec F S512x1 .f32 :=
  (idleOut0,
   idleOut0,
   idleOut0,
   out0_A_10 c i a hc0 hc1 x0 x1 x2 x3 x4 x5 x6,
   out0_A_11 c i a hc0 hc1 x0 x1 x2 x3 x4 x5 x6,
   idleOut0,
   sout0_A_0 c i a hc0 hc1 x0 x1 x2 x3 x4 x5 x6,
   sout0_A_1 c i a hc0 hc1 x0 x1 x2 x3 x4 x5 x6,
   sout0_A_2 c i a hc0 hc1 x0 x1 x2 x3 x4 x5 x6,
   sout0_A_3 c i a hc0 hc1 x0 x1 x2 x3 x4 x5 x6,
   sout0_A_4 c i a hc0 hc1 x0 x1 x2 x3 x4 x5 x6,
   sout0_A_5 c i a hc0 hc1 x0 x1 x2 x3 x4 x5 x6,
   sout0_A_6 c i a hc0 hc1 x0 x1 x2 x3 x4 x5 x6)

end A

section B
variable (hc0 : ¬cond0_0 i) (hc1 : ¬cond0_1 i) (x0 : Vec F S512x2048 .bf16) (x1 : Vec F S256x2048 .bf16) (x2 : Vec F S1x256 .f32) (x3 : Vec F S512x4096 .bf16) (x4 : Vec F S256x4096 .bf16) (x5 : Vec F S1x256 .f32) (x6 : Vec F S512x1 .i32) (xs0 : Vec F S512x1 .f32) (xs1 : Vec F S512x1 .f32) (xs2 : Vec F S512x1 .f32) (xs3 : Vec F S512x1 .f32) (xs4 : Vec F S512x1 .f32) (xs5 : Vec F S512x1 .f32) (xs6 : Vec F S512x1 .f32)

theorem cover0_B_10 (y : S512x256.Idx) :
    ∃ pc ∈ (kernelRun0_B c i a hc0 hc1 x0 x1 x2 x3 x4 x5 x6 xs0 xs1 xs2 xs3 xs4 xs5 xs6).1, y ∈ pc.1.set :=
  View.cover_of_tiledL (kernelRun0_B c i a hc0 hc1 x0 x1 x2 x3 x4 x5 x6 xs0 xs1 xs2 xs3 xs4 xs5 xs6).1 S512x256.size (by sl_kernel_rfl) y

def out0_B_10 : Vec F S512x256 .f32 :=
  VO0_10.read (Elt F) (VO0_10.writes (Elt F) VO0_10.junk (kernelRun0_B c i a hc0 hc1 x0 x1 x2 x3 x4 x5 x6 xs0 xs1 xs2 xs3 xs4 xs5 xs6).1)

theorem cover0_B_11 (y : S512x256.Idx) :
    ∃ pc ∈ (kernelRun0_B c i a hc0 hc1 x0 x1 x2 x3 x4 x5 x6 xs0 xs1 xs2 xs3 xs4 xs5 xs6).2.1, y ∈ pc.1.set :=
  View.cover_of_tiledL (kernelRun0_B c i a hc0 hc1 x0 x1 x2 x3 x4 x5 x6 xs0 xs1 xs2 xs3 xs4 xs5 xs6).2.1 S512x256.size (by sl_kernel_rfl) y

def out0_B_11 : Vec F S512x256 .f32 :=
  VO0_11.read (Elt F) (VO0_11.writes (Elt F) VO0_11.junk (kernelRun0_B c i a hc0 hc1 x0 x1 x2 x3 x4 x5 x6 xs0 xs1 xs2 xs3 xs4 xs5 xs6).2.1)

theorem scover0_B_0 (y : S512x1.Idx) :
    ∃ pc ∈ (kernelRun0_B c i a hc0 hc1 x0 x1 x2 x3 x4 x5 x6 xs0 xs1 xs2 xs3 xs4 xs5 xs6).2.2.1, y ∈ pc.1.set :=
  View.cover_of_tiledL (kernelRun0_B c i a hc0 hc1 x0 x1 x2 x3 x4 x5 x6 xs0 xs1 xs2 xs3 xs4 xs5 xs6).2.2.1 S512x1.size (by sl_kernel_rfl) y

def sout0_B_0 : Vec F S512x1 .f32 :=
  VS0_0.read (Elt F) (VS0_0.writes (Elt F) VS0_0.junk (kernelRun0_B c i a hc0 hc1 x0 x1 x2 x3 x4 x5 x6 xs0 xs1 xs2 xs3 xs4 xs5 xs6).2.2.1)

theorem scover0_B_1 (y : S512x1.Idx) :
    ∃ pc ∈ (kernelRun0_B c i a hc0 hc1 x0 x1 x2 x3 x4 x5 x6 xs0 xs1 xs2 xs3 xs4 xs5 xs6).2.2.2.1, y ∈ pc.1.set :=
  View.cover_of_tiledL (kernelRun0_B c i a hc0 hc1 x0 x1 x2 x3 x4 x5 x6 xs0 xs1 xs2 xs3 xs4 xs5 xs6).2.2.2.1 S512x1.size (by sl_kernel_rfl) y

def sout0_B_1 : Vec F S512x1 .f32 :=
  VS0_1.read (Elt F) (VS0_1.writes (Elt F) VS0_1.junk (kernelRun0_B c i a hc0 hc1 x0 x1 x2 x3 x4 x5 x6 xs0 xs1 xs2 xs3 xs4 xs5 xs6).2.2.2.1)

theorem scover0_B_2 (y : S512x1.Idx) :
    ∃ pc ∈ (kernelRun0_B c i a hc0 hc1 x0 x1 x2 x3 x4 x5 x6 xs0 xs1 xs2 xs3 xs4 xs5 xs6).2.2.2.2.1, y ∈ pc.1.set :=
  View.cover_of_tiledL (kernelRun0_B c i a hc0 hc1 x0 x1 x2 x3 x4 x5 x6 xs0 xs1 xs2 xs3 xs4 xs5 xs6).2.2.2.2.1 S512x1.size (by sl_kernel_rfl) y

def sout0_B_2 : Vec F S512x1 .f32 :=
  VS0_2.read (Elt F) (VS0_2.writes (Elt F) VS0_2.junk (kernelRun0_B c i a hc0 hc1 x0 x1 x2 x3 x4 x5 x6 xs0 xs1 xs2 xs3 xs4 xs5 xs6).2.2.2.2.1)

theorem scover0_B_3 (y : S512x1.Idx) :
    ∃ pc ∈ (kernelRun0_B c i a hc0 hc1 x0 x1 x2 x3 x4 x5 x6 xs0 xs1 xs2 xs3 xs4 xs5 xs6).2.2.2.2.2.1, y ∈ pc.1.set :=
  View.cover_of_tiledL (kernelRun0_B c i a hc0 hc1 x0 x1 x2 x3 x4 x5 x6 xs0 xs1 xs2 xs3 xs4 xs5 xs6).2.2.2.2.2.1 S512x1.size (by sl_kernel_rfl) y

def sout0_B_3 : Vec F S512x1 .f32 :=
  VS0_3.read (Elt F) (VS0_3.writes (Elt F) VS0_3.junk (kernelRun0_B c i a hc0 hc1 x0 x1 x2 x3 x4 x5 x6 xs0 xs1 xs2 xs3 xs4 xs5 xs6).2.2.2.2.2.1)

theorem scover0_B_4 (y : S512x1.Idx) :
    ∃ pc ∈ (kernelRun0_B c i a hc0 hc1 x0 x1 x2 x3 x4 x5 x6 xs0 xs1 xs2 xs3 xs4 xs5 xs6).2.2.2.2.2.2.1, y ∈ pc.1.set :=
  View.cover_of_tiledL (kernelRun0_B c i a hc0 hc1 x0 x1 x2 x3 x4 x5 x6 xs0 xs1 xs2 xs3 xs4 xs5 xs6).2.2.2.2.2.2.1 S512x1.size (by sl_kernel_rfl) y

def sout0_B_4 : Vec F S512x1 .f32 :=
  VS0_4.read (Elt F) (VS0_4.writes (Elt F) VS0_4.junk (kernelRun0_B c i a hc0 hc1 x0 x1 x2 x3 x4 x5 x6 xs0 xs1 xs2 xs3 xs4 xs5 xs6).2.2.2.2.2.2.1)

theorem scover0_B_5 (y : S512x1.Idx) :
    ∃ pc ∈ (kernelRun0_B c i a hc0 hc1 x0 x1 x2 x3 x4 x5 x6 xs0 xs1 xs2 xs3 xs4 xs5 xs6).2.2.2.2.2.2.2.1, y ∈ pc.1.set :=
  View.cover_of_tiledL (kernelRun0_B c i a hc0 hc1 x0 x1 x2 x3 x4 x5 x6 xs0 xs1 xs2 xs3 xs4 xs5 xs6).2.2.2.2.2.2.2.1 S512x1.size (by sl_kernel_rfl) y

def sout0_B_5 : Vec F S512x1 .f32 :=
  VS0_5.read (Elt F) (VS0_5.writes (Elt F) VS0_5.junk (kernelRun0_B c i a hc0 hc1 x0 x1 x2 x3 x4 x5 x6 xs0 xs1 xs2 xs3 xs4 xs5 xs6).2.2.2.2.2.2.2.1)

theorem scover0_B_6 (y : S512x1.Idx) :
    ∃ pc ∈ (kernelRun0_B c i a hc0 hc1 x0 x1 x2 x3 x4 x5 x6 xs0 xs1 xs2 xs3 xs4 xs5 xs6).2.2.2.2.2.2.2.2.1, y ∈ pc.1.set :=
  View.cover_of_tiledL (kernelRun0_B c i a hc0 hc1 x0 x1 x2 x3 x4 x5 x6 xs0 xs1 xs2 xs3 xs4 xs5 xs6).2.2.2.2.2.2.2.2.1 S512x1.size (by sl_kernel_rfl) y

def sout0_B_6 : Vec F S512x1 .f32 :=
  VS0_6.read (Elt F) (VS0_6.writes (Elt F) VS0_6.junk (kernelRun0_B c i a hc0 hc1 x0 x1 x2 x3 x4 x5 x6 xs0 xs1 xs2 xs3 xs4 xs5 xs6).2.2.2.2.2.2.2.2.1)

def outs0_B : Vec F S512x1 .f32 × Vec F S512x1 .f32 × Vec F S512x1 .f32 × Vec F S512x256 .f32 × Vec F S512x256 .f32 × Vec F S512x1 .f32 × Vec F S512x1 .f32 × Vec F S512x1 .f32 × Vec F S512x1 .f32 × Vec F S512x1 .f32 × Vec F S512x1 .f32 × Vec F S512x1 .f32 × Vec F S512x1 .f32 :=
  (idleOut0,
   idleOut0,
   idleOut0,
   out0_B_10 c i a hc0 hc1 x0 x1 x2 x3 x4 x5 x6 xs0 xs1 xs2 xs3 xs4 xs5 xs6,
   out0_B_11 c i a hc0 hc1 x0 x1 x2 x3 x4 x5 x6 xs0 xs1 xs2 xs3 xs4 xs5 xs6,
   idleOut0,
   sout0_B_0 c i a hc0 hc1 x0 x1 x2 x3 x4 x5 x6 xs0 xs1 xs2 xs3 xs4 xs5 xs6,
   sout0_B_1 c i a hc0 hc1 x0 x1 x2 x3 x4 x5 x6 xs0 xs1 xs2 xs3 xs4 xs5 xs6,
   sout0_B_2 c i a hc0 hc1 x0 x1 x2 x3 x4 x5 x6 xs0 xs1 xs2 xs3 xs4 xs5 xs6,
   sout0_B_3 c i a hc0 hc1 x0 x1 x2 x3 x4 x5 x6 xs0 xs1 xs2 xs3 xs4 xs5 xs6,
   sout0_B_4 c i a hc0 hc1 x0 x1 x2 x3 x4 x5 x6 xs0 xs1 xs2 xs3 xs4 xs5 xs6,
   sout0_B_5 c i a hc0 hc1 x0 x1 x2 x3 x4 x5 x6 xs0 xs1 xs2 xs3 xs4 xs5 xs6,
   sout0_B_6 c i a hc0 hc1 x0 x1 x2 x3 x4 x5 x6 xs0 xs1 xs2 xs3 xs4 xs5 xs6)

end B

section C
variable (hc0 : ¬cond0_0 i) (hc1 : cond0_1 i) (x0 : Vec F S512x2048 .bf16) (x1 : Vec F S256x2048 .bf16) (x2 : Vec F S1x256 .f32) (x3 : Vec F S512x4096 .bf16) (x4 : Vec F S256x4096 .bf16) (x5 : Vec F S1x256 .f32) (x6 : Vec F S512x1 .i32) (xs0 : Vec F S512x1 .f32) (xs1 : Vec F S512x1 .f32) (xs2 : Vec F S512x1 .f32) (xs3 : Vec F S512x1 .f32) (xs4 : Vec F S512x1 .f32) (xs5 : Vec F S512x1 .f32) (xs6 : Vec F S512x1 .f32)

theorem cover0_C_7 (y : S512x1.Idx) :
    ∃ pc ∈ (kernelRun0_C c i a hc0 hc1 x0 x1 x2 x3 x4 x5 x6 xs0 xs1 xs2 xs3 xs4 xs5 xs6).1, y ∈ pc.1.set :=
  View.cover_of_tiledL (kernelRun0_C c i a hc0 hc1 x0 x1 x2 x3 x4 x5 x6 xs0 xs1 xs2 xs3 xs4 xs5 xs6).1 S512x1.size (by sl_kernel_rfl) y

def out0_C_7 : Vec F S512x1 .f32 :=
  VO0_7.read (Elt F) (VO0_7.writes (Elt F) VO0_7.junk (kernelRun0_C c i a hc0 hc1 x0 x1 x2 x3 x4 x5 x6 xs0 xs1 xs2 xs3 xs4 xs5 xs6).1)

theorem cover0_C_8 (y : S512x1.Idx) :
    ∃ pc ∈ (kernelRun0_C c i a hc0 hc1 x0 x1 x2 x3 x4 x5 x6 xs0 xs1 xs2 xs3 xs4 xs5 xs6).2.1, y ∈ pc.1.set :=
  View.cover_of_tiledL (kernelRun0_C c i a hc0 hc1 x0 x1 x2 x3 x4 x5 x6 xs0 xs1 xs2 xs3 xs4 xs5 xs6).2.1 S512x1.size (by sl_kernel_rfl) y

def out0_C_8 : Vec F S512x1 .f32 :=
  VO0_8.read (Elt F) (VO0_8.writes (Elt F) VO0_8.junk (kernelRun0_C c i a hc0 hc1 x0 x1 x2 x3 x4 x5 x6 xs0 xs1 xs2 xs3 xs4 xs5 xs6).2.1)

theorem cover0_C_9 (y : S512x1.Idx) :
    ∃ pc ∈ (kernelRun0_C c i a hc0 hc1 x0 x1 x2 x3 x4 x5 x6 xs0 xs1 xs2 xs3 xs4 xs5 xs6).2.2.1, y ∈ pc.1.set :=
  View.cover_of_tiledL (kernelRun0_C c i a hc0 hc1 x0 x1 x2 x3 x4 x5 x6 xs0 xs1 xs2 xs3 xs4 xs5 xs6).2.2.1 S512x1.size (by sl_kernel_rfl) y

def out0_C_9 : Vec F S512x1 .f32 :=
  VO0_9.read (Elt F) (VO0_9.writes (Elt F) VO0_9.junk (kernelRun0_C c i a hc0 hc1 x0 x1 x2 x3 x4 x5 x6 xs0 xs1 xs2 xs3 xs4 xs5 xs6).2.2.1)

theorem cover0_C_10 (y : S512x256.Idx) :
    ∃ pc ∈ (kernelRun0_C c i a hc0 hc1 x0 x1 x2 x3 x4 x5 x6 xs0 xs1 xs2 xs3 xs4 xs5 xs6).2.2.2.1, y ∈ pc.1.set :=
  View.cover_of_tiledL (kernelRun0_C c i a hc0 hc1 x0 x1 x2 x3 x4 x5 x6 xs0 xs1 xs2 xs3 xs4 xs5 xs6).2.2.2.1 S512x256.size (by sl_kernel_rfl) y

def out0_C_10 : Vec F S512x256 .f32 :=
  VO0_10.read (Elt F) (VO0_10.writes (Elt F) VO0_10.junk (kernelRun0_C c i a hc0 hc1 x0 x1 x2 x3 x4 x5 x6 xs0 xs1 xs2 xs3 xs4 xs5 xs6).2.2.2.1)

theorem cover0_C_11 (y : S512x256.Idx) :
    ∃ pc ∈ (kernelRun0_C c i a hc0 hc1 x0 x1 x2 x3 x4 x5 x6 xs0 xs1 xs2 xs3 xs4 xs5 xs6).2.2.2.2.1, y ∈ pc.1.set :=
  View.cover_of_tiledL (kernelRun0_C c i a hc0 hc1 x0 x1 x2 x3 x4 x5 x6 xs0 xs1 xs2 xs3 xs4 xs5 xs6).2.2.2.2.1 S512x256.size (by sl_kernel_rfl) y

def out0_C_11 : Vec F S512x256 .f32 :=
  VO0_11.read (Elt F) (VO0_11.writes (Elt F) VO0_11.junk (kernelRun0_C c i a hc0 hc1 x0 x1 x2 x3 x4 x5 x6 xs0 xs1 xs2 xs3 xs4 xs5 xs6).2.2.2.2.1)

theorem cover0_C_12 (y : S512x1.Idx) :
    ∃ pc ∈ (kernelRun0_C c i a hc0 hc1 x0 x1 x2 x3 x4 x5 x6 xs0 xs1 xs2 xs3 xs4 xs5 xs6).2.2.2.2.2.1, y ∈ pc.1.set :=
  View.cover_of_tiledL (kernelRun0_C c i a hc0 hc1 x0 x1 x2 x3 x4 x5 x6 xs0 xs1 xs2 xs3 xs4 xs5 xs6).2.2.2.2.2.1 S512x1.size (by sl_kernel_rfl) y

def out0_C_12 : Vec F S512x1 .f32 :=
  VO0_12.read (Elt F) (VO0_12.writes (Elt F) VO0_12.junk (kernelRun0_C c i a hc0 hc1 x0 x1 x2 x3 x4 x5 x6 xs0 xs1 xs2 xs3 xs4 xs5 xs6).2.2.2.2.2.1)

theorem scover0_C_0 (y : S512x1.Idx) :
    ∃ pc ∈ (kernelRun0_C c i a hc0 hc1 x0 x1 x2 x3 x4 x5 x6 xs0 xs1 xs2 xs3 xs4 xs5 xs6).2.2.2.2.2.2.1, y ∈ pc.1.set :=
  View.cover_of_tiledL (kernelRun0_C c i a hc0 hc1 x0 x1 x2 x3 x4 x5 x6 xs0 xs1 xs2 xs3 xs4 xs5 xs6).2.2.2.2.2.2.1 S512x1.size (by sl_kernel_rfl) y

def sout0_C_0 : Vec F S512x1 .f32 :=
  VS0_0.read (Elt F) (VS0_0.writes (Elt F) VS0_0.junk (kernelRun0_C c i a hc0 hc1 x0 x1 x2 x3 x4 x5 x6 xs0 xs1 xs2 xs3 xs4 xs5 xs6).2.2.2.2.2.2.1)

theorem scover0_C_1 (y : S512x1.Idx) :
    ∃ pc ∈ (kernelRun0_C c i a hc0 hc1 x0 x1 x2 x3 x4 x5 x6 xs0 xs1 xs2 xs3 xs4 xs5 xs6).2.2.2.2.2.2.2.1, y ∈ pc.1.set :=
  View.cover_of_tiledL (kernelRun0_C c i a hc0 hc1 x0 x1 x2 x3 x4 x5 x6 xs0 xs1 xs2 xs3 xs4 xs5 xs6).2.2.2.2.2.2.2.1 S512x1.size (by sl_kernel_rfl) y

def sout0_C_1 : Vec F S512x1 .f32 :=
  VS0_1.read (Elt F) (VS0_1.writes (Elt F) VS0_1.junk (kernelRun0_C c i a hc0 hc1 x0 x1 x2 x3 x4 x5 x6 xs0 xs1 xs2 xs3 xs4 xs5 xs6).2.2.2.2.2.2.2.1)

theorem scover0_C_2 (y : S512x1.Idx) :
    ∃ pc ∈ (kernelRun0_C c i a hc0 hc1 x0 x1 x2 x3 x4 x5 x6 xs0 xs1 xs2 xs3 xs4 xs5 xs6).2.2.2.2.2.2.2.2.1, y ∈ pc.1.set :=
  View.cover_of_tiledL (kernelRun0_C c i a hc0 hc1 x0 x1 x2 x3 x4 x5 x6 xs0 xs1 xs2 xs3 xs4 xs5 xs6).2.2.2.2.2.2.2.2.1 S512x1.size (by sl_kernel_rfl) y

def sout0_C_2 : Vec F S512x1 .f32 :=
  VS0_2.read (Elt F) (VS0_2.writes (Elt F) VS0_2.junk (kernelRun0_C c i a hc0 hc1 x0 x1 x2 x3 x4 x5 x6 xs0 xs1 xs2 xs3 xs4 xs5 xs6).2.2.2.2.2.2.2.2.1)

theorem scover0_C_3 (y : S512x1.Idx) :
    ∃ pc ∈ (kernelRun0_C c i a hc0 hc1 x0 x1 x2 x3 x4 x5 x6 xs0 xs1 xs2 xs3 xs4 xs5 xs6).2.2.2.2.2.2.2.2.2.1, y ∈ pc.1.set :=
  View.cover_of_tiledL (kernelRun0_C c i a hc0 hc1 x0 x1 x2 x3 x4 x5 x6 xs0 xs1 xs2 xs3 xs4 xs5 xs6).2.2.2.2.2.2.2.2.2.1 S512x1.size (by sl_kernel_rfl) y

def sout0_C_3 : Vec F S512x1 .f32 :=
  VS0_3.read (Elt F) (VS0_3.writes (Elt F) VS0_3.junk (kernelRun0_C c i a hc0 hc1 x0 x1 x2 x3 x4 x5 x6 xs0 xs1 xs2 xs3 xs4 xs5 xs6).2.2.2.2.2.2.2.2.2.1)

theorem scover0_C_4 (y : S512x1.Idx) :
    ∃ pc ∈ (kernelRun0_C c i a hc0 hc1 x0 x1 x2 x3 x4 x5 x6 xs0 xs1 xs2 xs3 xs4 xs5 xs6).2.2.2.2.2.2.2.2.2.2.1, y ∈ pc.1.set :=
  View.cover_of_tiledL (kernelRun0_C c i a hc0 hc1 x0 x1 x2 x3 x4 x5 x6 xs0 xs1 xs2 xs3 xs4 xs5 xs6).2.2.2.2.2.2.2.2.2.2.1 S512x1.size (by sl_kernel_rfl) y

def sout0_C_4 : Vec F S512x1 .f32 :=
  VS0_4.read (Elt F) (VS0_4.writes (Elt F) VS0_4.junk (kernelRun0_C c i a hc0 hc1 x0 x1 x2 x3 x4 x5 x6 xs0 xs1 xs2 xs3 xs4 xs5 xs6).2.2.2.2.2.2.2.2.2.2.1)

theorem scover0_C_5 (y : S512x1.Idx) :
    ∃ pc ∈ (kernelRun0_C c i a hc0 hc1 x0 x1 x2 x3 x4 x5 x6 xs0 xs1 xs2 xs3 xs4 xs5 xs6).2.2.2.2.2.2.2.2.2.2.2.1, y ∈ pc.1.set :=
  View.cover_of_tiledL (kernelRun0_C c i a hc0 hc1 x0 x1 x2 x3 x4 x5 x6 xs0 xs1 xs2 xs3 xs4 xs5 xs6).2.2.2.2.2.2.2.2.2.2.2.1 S512x1.size (by sl_kernel_rfl) y

def sout0_C_5 : Vec F S512x1 .f32 :=
  VS0_5.read (Elt F) (VS0_5.writes (Elt F) VS0_5.junk (kernelRun0_C c i a hc0 hc1 x0 x1 x2 x3 x4 x5 x6 xs0 xs1 xs2 xs3 xs4 xs5 xs6).2.2.2.2.2.2.2.2.2.2.2.1)

theorem scover0_C_6 (y : S512x1.Idx) :
    ∃ pc ∈ (kernelRun0_C c i a hc0 hc1 x0 x1 x2 x3 x4 x5 x6 xs0 xs1 xs2 xs3 xs4 xs5 xs6).2.2.2.2.2.2.2.2.2.2.2.2.1, y ∈ pc.1.set :=
  View.cover_of_tiledL (kernelRun0_C c i a hc0 hc1 x0 x1 x2 x3 x4 x5 x6 xs0 xs1 xs2 xs3 xs4 xs5 xs6).2.2.2.2.2.2.2.2.2.2.2.2.1 S512x1.size (by sl_kernel_rfl) y

def sout0_C_6 : Vec F S512x1 .f32 :=
  VS0_6.read (Elt F) (VS0_6.writes (Elt F) VS0_6.junk (kernelRun0_C c i a hc0 hc1 x0 x1 x2 x3 x4 x5 x6 xs0 xs1 xs2 xs3 xs4 xs5 xs6).2.2.2.2.2.2.2.2.2.2.2.2.1)

def outs0_C : Vec F S512x1 .f32 × Vec F S512x1 .f32 × Vec F S512x1 .f32 × Vec F S512x256 .f32 × Vec F S512x256 .f32 × Vec F S512x1 .f32 × Vec F S512x1 .f32 × Vec F S512x1 .f32 × Vec F S512x1 .f32 × Vec F S512x1 .f32 × Vec F S512x1 .f32 × Vec F S512x1 .f32 × Vec F S512x1 .f32 :=
  (out0_C_7 c i a hc0 hc1 x0 x1 x2 x3 x4 x5 x6 xs0 xs1 xs2 xs3 xs4 xs5 xs6,
   out0_C_8 c i a hc0 hc1 x0 x1 x2 x3 x4 x5 x6 xs0 xs1 xs2 xs3 xs4 xs5 xs6,
   out0_C_9 c i a hc0 hc1 x0 x1 x2 x3 x4 x5 x6 xs0 xs1 xs2 xs3 xs4 xs5 xs6,
   out0_C_10 c i a hc0 hc1 x0 x1 x2 x3 x4 x5 x6 xs0 xs1 xs2 xs3 xs4 xs5 xs6,
   out0_C_11 c i a hc0 hc1 x0 x1 x2 x3 x4 x5 x6 xs0 xs1 xs2 xs3 xs4 xs5 xs6,
   out0_C_12 c i a hc0 hc1 x0 x1 x2 x3 x4 x5 x6 xs0 xs1 xs2 xs3 xs4 xs5 xs6,
   sout0_C_0 c i a hc0 hc1 x0 x1 x2 x3 x4 x5 x6 xs0 xs1 xs2 xs3 xs4 xs5 xs6,
   sout0_C_1 c i a hc0 hc1 x0 x1 x2 x3 x4 x5 x6 xs0 xs1 xs2 xs3 xs4 xs5 xs6,
   sout0_C_2 c i a hc0 hc1 x0 x1 x2 x3 x4 x5 x6 xs0 xs1 xs2 xs3 xs4 xs5 xs6,
   sout0_C_3 c i a hc0 hc1 x0 x1 x2 x3 x4 x5 x6 xs0 xs1 xs2 xs3 xs4 xs5 xs6,
   sout0_C_4 c i a hc0 hc1 x0 x1 x2 x3 x4 x5 x6 xs0 xs1 xs2 xs3 xs4 xs5 xs6,
   sout0_C_5 c i a hc0 hc1 x0 x1 x2 x3 x4 x5 x6 xs0 xs1 xs2 xs3 xs4 xs5 xs6,
   sout0_C_6 c i a hc0 hc1 x0 x1 x2 x3 x4 x5 x6 xs0 xs1 xs2 xs3 xs4 xs5 xs6)

end C

end Cert.KernelIdeal.R0

end
-- ==== Proof.R0.Post.lean ====
import proofs.«422162_j56092272886459_3_alg».proof.Proof.R0.Outs

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

theorem run0_A (c : Dev nD) (i : grid0.Coords) (a : Stg0) (hc0 : cond0_0 i) (hc1 : ¬cond0_1 i)
    (x0 : Vec F S512x2048 .bf16) (x1 : Vec F S256x2048 .bf16) (x2 : Vec F S1x256 .f32) (x3 : Vec F S512x4096 .bf16) (x4 : Vec F S256x4096 .bf16) (x5 : Vec F S1x256 .f32) (x6 : Vec F S512x1 .i32)
    (o : Vec F S512x1 .f32 × Vec F S512x1 .f32 × Vec F S512x1 .f32 × Vec F S512x256 .f32 × Vec F S512x256 .f32 × Vec F S512x1 .f32 × Vec F S512x1 .f32 × Vec F S512x1 .f32 × Vec F S512x1 .f32 × Vec F S512x1 .f32 × Vec F S512x1 .f32 × Vec F S512x1 .f32 × Vec F S512x1 .f32) (ho : o = outs0_A c i a hc0 hc1 x0 x1 x2 x3 x4 x5 x6)
    (xi7 xi8 xi9 xi12 : Vec F S512x1 .f32) (E : Set ℕ) (K : PUnit → sProp 𝕄) :
    iprop(owns (c : Thread nD τ) a.arg2 fullShare x0 ∗ owns (c : Thread nD τ) a.arg3 fullShare x1 ∗ owns (c : Thread nD τ) a.arg4 fullShare x2 ∗ owns (c : Thread nD τ) a.arg5 fullShare x3 ∗ owns (c : Thread nD τ) a.arg6 fullShare x4 ∗ owns (c : Thread nD τ) a.arg7 fullShare x5 ∗ owns (c : Thread nD τ) a.arg8 fullShare x6 ∗ owns (c : Thread nD τ) a.arg9 fullShare xi7 ∗ owns (c : Thread nD τ) a.arg10 fullShare xi8 ∗ owns (c : Thread nD τ) a.arg11 fullShare xi9 ∗ (∃ d, owns (c : Thread nD τ) a.arg12 fullShare d) ∗ (∃ d, owns (c : Thread nD τ) a.arg13 fullShare d) ∗ owns (c : Thread nD τ) a.arg14 fullShare xi12 ∗ (∃ d, owns (c : Thread nD τ) a.arg15 fullShare d) ∗ (∃ d, owns (c : Thread nD τ) a.arg16 fullShare d) ∗ (∃ d, owns (c : Thread nD τ) a.arg17 fullShare d) ∗ (∃ d, owns (c : Thread nD τ) a.arg18 fullShare d) ∗ (∃ d, owns (c : Thread nD τ) a.arg19 fullShare d) ∗ (∃ d, owns (c : Thread nD τ) a.arg20 fullShare d) ∗ (∃ d, owns (c : Thread nD τ) a.arg21 fullShare d)
        ∗ (iprop(owns (c : Thread nD τ) a.arg2 fullShare x0 ∗ owns (c : Thread nD τ) a.arg3 fullShare x1 ∗ owns (c : Thread nD τ) a.arg4 fullShare x2 ∗ owns (c : Thread nD τ) a.arg5 fullShare x3 ∗ owns (c : Thread nD τ) a.arg6 fullShare x4 ∗ owns (c : Thread nD τ) a.arg7 fullShare x5 ∗ owns (c : Thread nD τ) a.arg8 fullShare x6 ∗ owns (c : Thread nD τ) a.arg9 fullShare xi7 ∗ owns (c : Thread nD τ) a.arg10 fullShare xi8 ∗ owns (c : Thread nD τ) a.arg11 fullShare xi9 ∗ owns (c : Thread nD τ) a.arg12 fullShare (o.2.2.2.1) ∗ owns (c : Thread nD τ) a.arg13 fullShare (o.2.2.2.2.1) ∗ owns (c : Thread nD τ) a.arg14 fullShare xi12 ∗ owns (c : Thread nD τ) a.arg15 fullShare (o.2.2.2.2.2.2.1) ∗ owns (c : Thread nD τ) a.arg16 fullShare (o.2.2.2.2.2.2.2.1) ∗ owns (c : Thread nD τ) a.arg17 fullShare (o.2.2.2.2.2.2.2.2.1) ∗ owns (c : Thread nD τ) a.arg18 fullShare (o.2.2.2.2.2.2.2.2.2.1) ∗ owns (c : Thread nD τ) a.arg19 fullShare (o.2.2.2.2.2.2.2.2.2.2.1) ∗ owns (c : Thread nD τ) a.arg20 fullShare (o.2.2.2.2.2.2.2.2.2.2.2.1) ∗ owns (c : Thread nD τ) a.arg21 fullShare (o.2.2.2.2.2.2.2.2.2.2.2.2)) -∗ K ⟨⟩))
      ⊢ wp frame (wpE (defs₀ (F := F)) Variants.none c none) E (cc0__pass1_kernel i a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.arg20 a.harg20 a.arg21 a.harg21) K := by
  subst ho
  unfold outs0_A out0_A_10 out0_A_11 sout0_A_0 sout0_A_1 sout0_A_2 sout0_A_3 sout0_A_4 sout0_A_5 sout0_A_6; dsimp only
  iintro ⟨H0, H1, H2, H3, H4, H5, H6, H7, H8, H9, H10, H11, H12, HS0, HS1, HS2, HS3, HS4, HS5, HS6, Hk⟩
  iapply ((kernelRun0_A c i a hc0 hc1 x0 x1 x2 x3 x4 x5 x6).2.2.2.2.2.2.2.2.2 xi7 xi8 xi9 xi12 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, H7, H8, H9, ⟨%e10, H10⟩, ⟨%e11, H11⟩, H12, ⟨%es0, HS0⟩, ⟨%es1, HS1⟩, ⟨%es2, HS2⟩, ⟨%es3, HS3⟩, ⟨%es4, HS4⟩, ⟨%es5, HS5⟩, ⟨%es6, HS6⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact View.read_writes_of_cover _ _ _ _ _ (cover0_A_10 c i a hc0 hc1 x0 x1 x2 x3 x4 x5 x6)
  isplitl [H11]
  · unfold owns; iexists _; isplitr
    swap; · iexact H11
    ipureintro; exact View.read_writes_of_cover _ _ _ _ _ (cover0_A_11 c i a hc0 hc1 x0 x1 x2 x3 x4 x5 x6)
  isplitl [H12]; · iexact H12
  isplitl [HS0]
  · unfold owns; iexists _; isplitr
    swap; · iexact HS0
    ipureintro; exact View.read_writes_of_cover _ _ _ _ _ (scover0_A_0 c i a hc0 hc1 x0 x1 x2 x3 x4 x5 x6)
  isplitl [HS1]
  · unfold owns; iexists _; isplitr
    swap; · iexact HS1
    ipureintro; exact View.read_writes_of_cover _ _ _ _ _ (scover0_A_1 c i a hc0 hc1 x0 x1 x2 x3 x4 x5 x6)
  isplitl [HS2]
  · unfold owns; iexists _; isplitr
    swap; · iexact HS2
    ipureintro; exact View.read_writes_of_cover _ _ _ _ _ (scover0_A_2 c i a hc0 hc1 x0 x1 x2 x3 x4 x5 x6)
  isplitl [HS3]
  · unfold owns; iexists _; isplitr
    swap; · iexact HS3
    ipureintro; exact View.read_writes_of_cover _ _ _ _ _ (scover0_A_3 c i a hc0 hc1 x0 x1 x2 x3 x4 x5 x6)
  isplitl [HS4]
  · unfold owns; iexists _; isplitr
    swap; · iexact HS4
    ipureintro; exact View.read_writes_of_cover _ _ _ _ _ (scover0_A_4 c i a hc0 hc1 x0 x1 x2 x3 x4 x5 x6)
  isplitl [HS5]
  · unfold owns; iexists _; isplitr
    swap; · iexact HS5
    ipureintro; exact View.read_writes_of_cover _ _ _ _ _ (scover0_A_5 c i a hc0 hc1 x0 x1 x2 x3 x4 x5 x6)
  unfold owns; iexists _; isplitr
  swap; · iexact HS6
  ipureintro; exact View.read_writes_of_cover _ _ _ _ _ (scover0_A_6 c i a hc0 hc1 x0 x1 x2 x3 x4 x5 x6)

set_option maxHeartbeats 4000000 in

theorem run0_B (c : Dev nD) (i : grid0.Coords) (a : Stg0) (hc0 : ¬cond0_0 i) (hc1 : ¬cond0_1 i)
    (x0 : Vec F S512x2048 .bf16) (x1 : Vec F S256x2048 .bf16) (x2 : Vec F S1x256 .f32) (x3 : Vec F S512x4096 .bf16) (x4 : Vec F S256x4096 .bf16) (x5 : Vec F S1x256 .f32) (x6 : Vec F S512x1 .i32) (xs0 : Vec F S512x1 .f32) (xs1 : Vec F S512x1 .f32) (xs2 : Vec F S512x1 .f32) (xs3 : Vec F S512x1 .f32) (xs4 : Vec F S512x1 .f32) (xs5 : Vec F S512x1 .f32) (xs6 : Vec F S512x1 .f32)
    (o : Vec F S512x1 .f32 × Vec F S512x1 .f32 × Vec F S512x1 .f32 × Vec F S512x256 .f32 × Vec F S512x256 .f32 × Vec F S512x1 .f32 × Vec F S512x1 .f32 × Vec F S512x1 .f32 × Vec F S512x1 .f32 × Vec F S512x1 .f32 × Vec F S512x1 .f32 × Vec F S512x1 .f32 × Vec F S512x1 .f32) (ho : o = outs0_B c i a hc0 hc1 x0 x1 x2 x3 x4 x5 x6 xs0 xs1 xs2 xs3 xs4 xs5 xs6)
    (xi7 xi8 xi9 xi12 : Vec F S512x1 .f32) (E : Set ℕ) (K : PUnit → sProp 𝕄) :
    iprop(owns (c : Thread nD τ) a.arg2 fullShare x0 ∗ owns (c : Thread nD τ) a.arg3 fullShare x1 ∗ owns (c : Thread nD τ) a.arg4 fullShare x2 ∗ owns (c : Thread nD τ) a.arg5 fullShare x3 ∗ owns (c : Thread nD τ) a.arg6 fullShare x4 ∗ owns (c : Thread nD τ) a.arg7 fullShare x5 ∗ owns (c : Thread nD τ) a.arg8 fullShare x6 ∗ owns (c : Thread nD τ) a.arg9 fullShare xi7 ∗ owns (c : Thread nD τ) a.arg10 fullShare xi8 ∗ owns (c : Thread nD τ) a.arg11 fullShare xi9 ∗ (∃ d, owns (c : Thread nD τ) a.arg12 fullShare d) ∗ (∃ d, owns (c : Thread nD τ) a.arg13 fullShare d) ∗ owns (c : Thread nD τ) a.arg14 fullShare xi12 ∗ owns (c : Thread nD τ) a.arg15 fullShare xs0 ∗ owns (c : Thread nD τ) a.arg16 fullShare xs1 ∗ owns (c : Thread nD τ) a.arg17 fullShare xs2 ∗ owns (c : Thread nD τ) a.arg18 fullShare xs3 ∗ owns (c : Thread nD τ) a.arg19 fullShare xs4 ∗ owns (c : Thread nD τ) a.arg20 fullShare xs5 ∗ owns (c : Thread nD τ) a.arg21 fullShare xs6
        ∗ (iprop(owns (c : Thread nD τ) a.arg2 fullShare x0 ∗ owns (c : Thread nD τ) a.arg3 fullShare x1 ∗ owns (c : Thread nD τ) a.arg4 fullShare x2 ∗ owns (c : Thread nD τ) a.arg5 fullShare x3 ∗ owns (c : Thread nD τ) a.arg6 fullShare x4 ∗ owns (c : Thread nD τ) a.arg7 fullShare x5 ∗ owns (c : Thread nD τ) a.arg8 fullShare x6 ∗ owns (c : Thread nD τ) a.arg9 fullShare xi7 ∗ owns (c : Thread nD τ) a.arg10 fullShare xi8 ∗ owns (c : Thread nD τ) a.arg11 fullShare xi9 ∗ owns (c : Thread nD τ) a.arg12 fullShare (o.2.2.2.1) ∗ owns (c : Thread nD τ) a.arg13 fullShare (o.2.2.2.2.1) ∗ owns (c : Thread nD τ) a.arg14 fullShare xi12 ∗ owns (c : Thread nD τ) a.arg15 fullShare (o.2.2.2.2.2.2.1) ∗ owns (c : Thread nD τ) a.arg16 fullShare (o.2.2.2.2.2.2.2.1) ∗ owns (c : Thread nD τ) a.arg17 fullShare (o.2.2.2.2.2.2.2.2.1) ∗ owns (c : Thread nD τ) a.arg18 fullShare (o.2.2.2.2.2.2.2.2.2.1) ∗ owns (c : Thread nD τ) a.arg19 fullShare (o.2.2.2.2.2.2.2.2.2.2.1) ∗ owns (c : Thread nD τ) a.arg20 fullShare (o.2.2.2.2.2.2.2.2.2.2.2.1) ∗ owns (c : Thread nD τ) a.arg21 fullShare (o.2.2.2.2.2.2.2.2.2.2.2.2)) -∗ K ⟨⟩))
      ⊢ wp frame (wpE (defs₀ (F := F)) Variants.none c none) E (cc0__pass1_kernel i a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.arg20 a.harg20 a.arg21 a.harg21) K := by
  subst ho
  unfold outs0_B out0_B_10 out0_B_11 sout0_B_0 sout0_B_1 sout0_B_2 sout0_B_3 sout0_B_4 sout0_B_5 sout0_B_6; dsimp only
  iintro ⟨H0, H1, H2, H3, H4, H5, H6, H7, H8, H9, H10, H11, H12, HS0, HS1, HS2, HS3, HS4, HS5, HS6, Hk⟩
  iapply ((kernelRun0_B c i a hc0 hc1 x0 x1 x2 x3 x4 x5 x6 xs0 xs1 xs2 xs3 xs4 xs5 xs6).2.2.2.2.2.2.2.2.2 xi7 xi8 xi9 xi12 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, H7, H8, H9, ⟨%e10, H10⟩, ⟨%e11, H11⟩, H12, ⟨%es0, HS0⟩, ⟨%es1, HS1⟩, ⟨%es2, HS2⟩, ⟨%es3, HS3⟩, ⟨%es4, HS4⟩, ⟨%es5, HS5⟩, ⟨%es6, HS6⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact View.read_writes_of_cover _ _ _ _ _ (cover0_B_10 c i a hc0 hc1 x0 x1 x2 x3 x4 x5 x6 xs0 xs1 xs2 xs3 xs4 xs5 xs6)
  isplitl [H11]
  · unfold owns; iexists _; isplitr
    swap; · iexact H11
    ipureintro; exact View.read_writes_of_cover _ _ _ _ _ (cover0_B_11 c i a hc0 hc1 x0 x1 x2 x3 x4 x5 x6 xs0 xs1 xs2 xs3 xs4 xs5 xs6)
  isplitl [H12]; · iexact H12
  isplitl [HS0]
  · unfold owns; iexists _; isplitr
    swap; · iexact HS0
    ipureintro; exact View.read_writes_of_cover _ _ _ _ _ (scover0_B_0 c i a hc0 hc1 x0 x1 x2 x3 x4 x5 x6 xs0 xs1 xs2 xs3 xs4 xs5 xs6)
  isplitl [HS1]
  · unfold owns; iexists _; isplitr
    swap; · iexact HS1
    ipureintro; exact View.read_writes_of_cover _ _ _ _ _ (scover0_B_1 c i a hc0 hc1 x0 x1 x2 x3 x4 x5 x6 xs0 xs1 xs2 xs3 xs4 xs5 xs6)
  isplitl [HS2]
  · unfold owns; iexists _; isplitr
    swap; · iexact HS2
    ipureintro; exact View.read_writes_of_cover _ _ _ _ _ (scover0_B_2 c i a hc0 hc1 x0 x1 x2 x3 x4 x5 x6 xs0 xs1 xs2 xs3 xs4 xs5 xs6)
  isplitl [HS3]
  · unfold owns; iexists _; isplitr
    swap; · iexact HS3
    ipureintro; exact View.read_writes_of_cover _ _ _ _ _ (scover0_B_3 c i a hc0 hc1 x0 x1 x2 x3 x4 x5 x6 xs0 xs1 xs2 xs3 xs4 xs5 xs6)
  isplitl [HS4]
  · unfold owns; iexists _; isplitr
    swap; · iexact HS4
    ipureintro; exact View.read_writes_of_cover _ _ _ _ _ (scover0_B_4 c i a hc0 hc1 x0 x1 x2 x3 x4 x5 x6 xs0 xs1 xs2 xs3 xs4 xs5 xs6)
  isplitl [HS5]
  · unfold owns; iexists _; isplitr
    swap; · iexact HS5
    ipureintro; exact View.read_writes_of_cover _ _ _ _ _ (scover0_B_5 c i a hc0 hc1 x0 x1 x2 x3 x4 x5 x6 xs0 xs1 xs2 xs3 xs4 xs5 xs6)
  unfold owns; iexists _; isplitr
  swap; · iexact HS6
  ipureintro; exact View.read_writes_of_cover _ _ _ _ _ (scover0_B_6 c i a hc0 hc1 x0 x1 x2 x3 x4 x5 x6 xs0 xs1 xs2 xs3 xs4 xs5 xs6)

set_option maxHeartbeats 4000000 in

theorem run0_C (c : Dev nD) (i : grid0.Coords) (a : Stg0) (hc0 : ¬cond0_0 i) (hc1 : cond0_1 i)
    (x0 : Vec F S512x2048 .bf16) (x1 : Vec F S256x2048 .bf16) (x2 : Vec F S1x256 .f32) (x3 : Vec F S512x4096 .bf16) (x4 : Vec F S256x4096 .bf16) (x5 : Vec F S1x256 .f32) (x6 : Vec F S512x1 .i32) (xs0 : Vec F S512x1 .f32) (xs1 : Vec F S512x1 .f32) (xs2 : Vec F S512x1 .f32) (xs3 : Vec F S512x1 .f32) (xs4 : Vec F S512x1 .f32) (xs5 : Vec F S512x1 .f32) (xs6 : Vec F S512x1 .f32)
    (o : Vec F S512x1 .f32 × Vec F S512x1 .f32 × Vec F S512x1 .f32 × Vec F S512x256 .f32 × Vec F S512x256 .f32 × Vec F S512x1 .f32 × Vec F S512x1 .f32 × Vec F S512x1 .f32 × Vec F S512x1 .f32 × Vec F S512x1 .f32 × Vec F S512x1 .f32 × Vec F S512x1 .f32 × Vec F S512x1 .f32) (ho : o = outs0_C c i a hc0 hc1 x0 x1 x2 x3 x4 x5 x6 xs0 xs1 xs2 xs3 xs4 xs5 xs6)
    (E : Set ℕ) (K : PUnit → sProp 𝕄) :
    iprop(owns (c : Thread nD τ) a.arg2 fullShare x0 ∗ owns (c : Thread nD τ) a.arg3 fullShare x1 ∗ owns (c : Thread nD τ) a.arg4 fullShare x2 ∗ owns (c : Thread nD τ) a.arg5 fullShare x3 ∗ owns (c : Thread nD τ) a.arg6 fullShare x4 ∗ owns (c : Thread nD τ) a.arg7 fullShare x5 ∗ owns (c : Thread nD τ) a.arg8 fullShare x6 ∗ (∃ d, owns (c : Thread nD τ) a.arg9 fullShare d) ∗ (∃ d, owns (c : Thread nD τ) a.arg10 fullShare d) ∗ (∃ d, owns (c : Thread nD τ) a.arg11 fullShare d) ∗ (∃ d, owns (c : Thread nD τ) a.arg12 fullShare d) ∗ (∃ d, owns (c : Thread nD τ) a.arg13 fullShare d) ∗ (∃ d, owns (c : Thread nD τ) a.arg14 fullShare d) ∗ owns (c : Thread nD τ) a.arg15 fullShare xs0 ∗ owns (c : Thread nD τ) a.arg16 fullShare xs1 ∗ owns (c : Thread nD τ) a.arg17 fullShare xs2 ∗ owns (c : Thread nD τ) a.arg18 fullShare xs3 ∗ owns (c : Thread nD τ) a.arg19 fullShare xs4 ∗ owns (c : Thread nD τ) a.arg20 fullShare xs5 ∗ owns (c : Thread nD τ) a.arg21 fullShare xs6
        ∗ (iprop(owns (c : Thread nD τ) a.arg2 fullShare x0 ∗ owns (c : Thread nD τ) a.arg3 fullShare x1 ∗ owns (c : Thread nD τ) a.arg4 fullShare x2 ∗ owns (c : Thread nD τ) a.arg5 fullShare x3 ∗ owns (c : Thread nD τ) a.arg6 fullShare x4 ∗ owns (c : Thread nD τ) a.arg7 fullShare x5 ∗ owns (c : Thread nD τ) a.arg8 fullShare x6 ∗ owns (c : Thread nD τ) a.arg9 fullShare (o.1) ∗ owns (c : Thread nD τ) a.arg10 fullShare (o.2.1) ∗ owns (c : Thread nD τ) a.arg11 fullShare (o.2.2.1) ∗ owns (c : Thread nD τ) a.arg12 fullShare (o.2.2.2.1) ∗ owns (c : Thread nD τ) a.arg13 fullShare (o.2.2.2.2.1) ∗ owns (c : Thread nD τ) a.arg14 fullShare (o.2.2.2.2.2.1) ∗ owns (c : Thread nD τ) a.arg15 fullShare (o.2.2.2.2.2.2.1) ∗ owns (c : Thread nD τ) a.arg16 fullShare (o.2.2.2.2.2.2.2.1) ∗ owns (c : Thread nD τ) a.arg17 fullShare (o.2.2.2.2.2.2.2.2.1) ∗ owns (c : Thread nD τ) a.arg18 fullShare (o.2.2.2.2.2.2.2.2.2.1) ∗ owns (c : Thread nD τ) a.arg19 fullShare (o.2.2.2.2.2.2.2.2.2.2.1) ∗ owns (c : Thread nD τ) a.arg20 fullShare (o.2.2.2.2.2.2.2.2.2.2.2.1) ∗ owns (c : Thread nD τ) a.arg21 fullShare (o.2.2.2.2.2.2.2.2.2.2.2.2)) -∗ K ⟨⟩))
      ⊢ wp frame (wpE (defs₀ (F := F)) Variants.none c none) E (cc0__pass1_kernel i a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.arg20 a.harg20 a.arg21 a.harg21) K := by
  subst ho
  unfold outs0_C out0_C_7 out0_C_8 out0_C_9 out0_C_10 out0_C_11 out0_C_12 sout0_C_0 sout0_C_1 sout0_C_2 sout0_C_3 sout0_C_4 sout0_C_5 sout0_C_6; dsimp only
  iintro ⟨H0, H1, H2, H3, H4, H5, H6, H7, H8, H9, H10, H11, H12, HS0, HS1, HS2, HS3, HS4, HS5, HS6, Hk⟩
  iapply ((kernelRun0_C c i a hc0 hc1 x0 x1 x2 x3 x4 x5 x6 xs0 xs1 xs2 xs3 xs4 xs5 xs6).2.2.2.2.2.2.2.2.2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, ⟨%e7, H7⟩, ⟨%e8, H8⟩, ⟨%e9, H9⟩, ⟨%e10, H10⟩, ⟨%e11, H11⟩, ⟨%e12, H12⟩, ⟨%es0, HS0⟩, ⟨%es1, HS1⟩, ⟨%es2, HS2⟩, ⟨%es3, HS3⟩, ⟨%es4, HS4⟩, ⟨%es5, HS5⟩, ⟨%es6, HS6⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (cover0_C_7 c i a hc0 hc1 x0 x1 x2 x3 x4 x5 x6 xs0 xs1 xs2 xs3 xs4 xs5 xs6)
  isplitl [H8]
  · unfold owns; iexists _; isplitr
    swap; · iexact H8
    ipureintro; exact View.read_writes_of_cover _ _ _ _ _ (cover0_C_8 c i a hc0 hc1 x0 x1 x2 x3 x4 x5 x6 xs0 xs1 xs2 xs3 xs4 xs5 xs6)
  isplitl [H9]
  · unfold owns; iexists _; isplitr
    swap; · iexact H9
    ipureintro; exact View.read_writes_of_cover _ _ _ _ _ (cover0_C_9 c i a hc0 hc1 x0 x1 x2 x3 x4 x5 x6 xs0 xs1 xs2 xs3 xs4 xs5 xs6)
  isplitl [H10]
  · unfold owns; iexists _; isplitr
    swap; · iexact H10
    ipureintro; exact View.read_writes_of_cover _ _ _ _ _ (cover0_C_10 c i a hc0 hc1 x0 x1 x2 x3 x4 x5 x6 xs0 xs1 xs2 xs3 xs4 xs5 xs6)
  isplitl [H11]
  · unfold owns; iexists _; isplitr
    swap; · iexact H11
    ipureintro; exact View.read_writes_of_cover _ _ _ _ _ (cover0_C_11 c i a hc0 hc1 x0 x1 x2 x3 x4 x5 x6 xs0 xs1 xs2 xs3 xs4 xs5 xs6)
  isplitl [H12]
  · unfold owns; iexists _; isplitr
    swap; · iexact H12
    ipureintro; exact View.read_writes_of_cover _ _ _ _ _ (cover0_C_12 c i a hc0 hc1 x0 x1 x2 x3 x4 x5 x6 xs0 xs1 xs2 xs3 xs4 xs5 xs6)
  isplitl [HS0]
  · unfold owns; iexists _; isplitr
    swap; · iexact HS0
    ipureintro; exact View.read_writes_of_cover _ _ _ _ _ (scover0_C_0 c i a hc0 hc1 x0 x1 x2 x3 x4 x5 x6 xs0 xs1 xs2 xs3 xs4 xs5 xs6)
  isplitl [HS1]
  · unfold owns; iexists _; isplitr
    swap; · iexact HS1
    ipureintro; exact View.read_writes_of_cover _ _ _ _ _ (scover0_C_1 c i a hc0 hc1 x0 x1 x2 x3 x4 x5 x6 xs0 xs1 xs2 xs3 xs4 xs5 xs6)
  isplitl [HS2]
  · unfold owns; iexists _; isplitr
    swap; · iexact HS2
    ipureintro; exact View.read_writes_of_cover _ _ _ _ _ (scover0_C_2 c i a hc0 hc1 x0 x1 x2 x3 x4 x5 x6 xs0 xs1 xs2 xs3 xs4 xs5 xs6)
  isplitl [HS3]
  · unfold owns; iexists _; isplitr
    swap; · iexact HS3
    ipureintro; exact View.read_writes_of_cover _ _ _ _ _ (scover0_C_3 c i a hc0 hc1 x0 x1 x2 x3 x4 x5 x6 xs0 xs1 xs2 xs3 xs4 xs5 xs6)
  isplitl [HS4]
  · unfold owns; iexists _; isplitr
    swap; · iexact HS4
    ipureintro; exact View.read_writes_of_cover _ _ _ _ _ (scover0_C_4 c i a hc0 hc1 x0 x1 x2 x3 x4 x5 x6 xs0 xs1 xs2 xs3 xs4 xs5 xs6)
  isplitl [HS5]
  · unfold owns; iexists _; isplitr
    swap; · iexact HS5
    ipureintro; exact View.read_writes_of_cover _ _ _ _ _ (scover0_C_5 c i a hc0 hc1 x0 x1 x2 x3 x4 x5 x6 xs0 xs1 xs2 xs3 xs4 xs5 xs6)
  unfold owns; iexists _; isplitr
  swap; · iexact HS6
  ipureintro; exact View.read_writes_of_cover _ _ _ _ _ (scover0_C_6 c i a hc0 hc1 x0 x1 x2 x3 x4 x5 x6 xs0 xs1 xs2 xs3 xs4 xs5 xs6)

end Cert.KernelIdeal.R0

end
-- ==== Proof.R0.Frame.lean ====
import proofs.«422162_j56092272886459_3_alg».proof.Proof.R0.Post

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Entry
variable (V : (c : Dev nD) → (b : Ref sig .tc) → Buf (Elt F) ((c : Thread nD τ).loc b))

def outsAt0 (c : Dev nD) : (n : ℕ) → n < cfg0.N → Vec F S512x1 .f32 × Vec F S512x1 .f32 × Vec F S512x1 .f32 × Vec F S512x256 .f32 × Vec F S512x256 .f32 × Vec F S512x1 .f32 × Vec F S512x1 .f32 × Vec F S512x1 .f32 × Vec F S512x1 .f32 × Vec F S512x1 .f32 × Vec F S512x1 .f32 × Vec F S512x1 .f32 × Vec F S512x1 .f32
  | 0, hn => outs0_A c (grid0.coords ⟨0, hn⟩) (stg0 ⟨0, hn⟩) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩)
  | n + 1, hn =>
    if h0 : (n + 1) % 125 = 0 then
      if h1 : (n + 1) % 125 = 124 then
        False.elim (by omega)
      else
        outs0_A c (grid0.coords ⟨n + 1, hn⟩) (stg0 ⟨n + 1, hn⟩) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩)
    else
      if h1 : (n + 1) % 125 = 124 then
        outs0_C c (grid0.coords ⟨n + 1, hn⟩) (stg0 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2.1 (outsAt0 c n (Nat.lt_of_succ_lt hn)).2.2.2.2.2.2.2.2.2.2.2.1 (outsAt0 c n (Nat.lt_of_succ_lt hn)).2.2.2.2.2.2.2.2.2.2.2.2
      else
        outs0_B c (grid0.coords ⟨n + 1, hn⟩) (stg0 ⟨n + 1, hn⟩) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2.1 (outsAt0 c n (Nat.lt_of_succ_lt hn)).2.2.2.2.2.2.2.2.2.2.2.1 (outsAt0 c n (Nat.lt_of_succ_lt hn)).2.2.2.2.2.2.2.2.2.2.2.2

theorem outsAt0_A (c : Dev nD) (t : Fin cfg0.N) (h0 : t.val % 125 = 0) (h1 : ¬t.val % 125 = 124) :
    outsAt0 V c t.val t.isLt = outs0_A c (grid0.coords t) (stg0 t) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) := by
  obtain ⟨n, hn⟩ := t
  cases n with
  | zero => exact rfl
  | succ n => exact (dif_pos h0).trans ((dif_neg h1).trans rfl)

theorem outsAt0_B (c : Dev nD) (t : Fin cfg0.N) (h0 : ¬t.val % 125 = 0) (h1 : ¬t.val % 125 = 124) :
    outsAt0 V c t.val t.isLt = outs0_B c (grid0.coords t) (stg0 t) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2.2.2.2.2.1 (outsAt0 V c (t.val - 1) (Nat.lt_of_le_of_lt (Nat.sub_le _ _) t.isLt)).2.2.2.2.2.2.2.1 (outsAt0 V c (t.val - 1) (Nat.lt_of_le_of_lt (Nat.sub_le _ _) t.isLt)).2.2.2.2.2.2.2.2.1 (outsAt0 V c (t.val - 1) (Nat.lt_of_le_of_lt (Nat.sub_le _ _) t.isLt)).2.2.2.2.2.2.2.2.2.1 (outsAt0 V c (t.val - 1) (Nat.lt_of_le_of_lt (Nat.sub_le _ _) t.isLt)).2.2.2.2.2.2.2.2.2.2.1 (outsAt0 V c (t.val - 1) (Nat.lt_of_le_of_lt (Nat.sub_le _ _) t.isLt)).2.2.2.2.2.2.2.2.2.2.2.1 (outsAt0 V c (t.val - 1) (Nat.lt_of_le_of_lt (Nat.sub_le _ _) t.isLt)).2.2.2.2.2.2.2.2.2.2.2.2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 125 = 0) (h1 : t.val % 125 = 124) :
    outsAt0 V c t.val t.isLt = outs0_C c (grid0.coords t) (stg0 t) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2.2.2.2.2.1 (outsAt0 V c (t.val - 1) (Nat.lt_of_le_of_lt (Nat.sub_le _ _) t.isLt)).2.2.2.2.2.2.2.1 (outsAt0 V c (t.val - 1) (Nat.lt_of_le_of_lt (Nat.sub_le _ _) t.isLt)).2.2.2.2.2.2.2.2.1 (outsAt0 V c (t.val - 1) (Nat.lt_of_le_of_lt (Nat.sub_le _ _) t.isLt)).2.2.2.2.2.2.2.2.2.1 (outsAt0 V c (t.val - 1) (Nat.lt_of_le_of_lt (Nat.sub_le _ _) t.isLt)).2.2.2.2.2.2.2.2.2.2.1 (outsAt0 V c (t.val - 1) (Nat.lt_of_le_of_lt (Nat.sub_le _ _) t.isLt)).2.2.2.2.2.2.2.2.2.2.2.1 (outsAt0 V c (t.val - 1) (Nat.lt_of_le_of_lt (Nat.sub_le _ _) t.isLt)).2.2.2.2.2.2.2.2.2.2.2.2 := by
  obtain ⟨n, hn⟩ := t
  cases n with
  | zero => exact (by exfalso; (try dsimp only at h0); exact absurd (Nat.zero_mod _) h0)
  | succ n => exact (dif_neg h0).trans ((dif_pos h1).trans rfl)

def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.2.2.2.2.1) ∗ owns (c : Thread nD τ) scM0_1 fullShare ((outsAt0 V c n hn).2.2.2.2.2.2.2.1) ∗ owns (c : Thread nD τ) scM0_2 fullShare ((outsAt0 V c n hn).2.2.2.2.2.2.2.2.1) ∗ owns (c : Thread nD τ) scM0_3 fullShare ((outsAt0 V c n hn).2.2.2.2.2.2.2.2.2.1) ∗ owns (c : Thread nD τ) scM0_4 fullShare ((outsAt0 V c n hn).2.2.2.2.2.2.2.2.2.2.1) ∗ owns (c : Thread nD τ) scM0_5 fullShare ((outsAt0 V c n hn).2.2.2.2.2.2.2.2.2.2.2.1) ∗ owns (c : Thread nD τ) scM0_6 fullShare ((outsAt0 V c n hn).2.2.2.2.2.2.2.2.2.2.2.2) ∗ Rest0 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2.2.2.2.2.1) ∗ owns (c : Thread nD τ) scM0_1 fullShare ((outsAt0 V c n hn).2.2.2.2.2.2.2.1) ∗ owns (c : Thread nD τ) scM0_2 fullShare ((outsAt0 V c n hn).2.2.2.2.2.2.2.2.1) ∗ owns (c : Thread nD τ) scM0_3 fullShare ((outsAt0 V c n hn).2.2.2.2.2.2.2.2.2.1) ∗ owns (c : Thread nD τ) scM0_4 fullShare ((outsAt0 V c n hn).2.2.2.2.2.2.2.2.2.2.1) ∗ owns (c : Thread nD τ) scM0_5 fullShare ((outsAt0 V c n hn).2.2.2.2.2.2.2.2.2.2.2.1) ∗ owns (c : Thread nD τ) scM0_6 fullShare ((outsAt0 V c n hn).2.2.2.2.2.2.2.2.2.2.2.2) ∗ Rest0 (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2.2.2.2.2.1) ∗ owns (c : Thread nD τ) scM0_1 fullShare ((outsAt0 V c (n - 1) (by omega)).2.2.2.2.2.2.2.1) ∗ owns (c : Thread nD τ) scM0_2 fullShare ((outsAt0 V c (n - 1) (by omega)).2.2.2.2.2.2.2.2.1) ∗ owns (c : Thread nD τ) scM0_3 fullShare ((outsAt0 V c (n - 1) (by omega)).2.2.2.2.2.2.2.2.2.1) ∗ owns (c : Thread nD τ) scM0_4 fullShare ((outsAt0 V c (n - 1) (by omega)).2.2.2.2.2.2.2.2.2.2.1) ∗ owns (c : Thread nD τ) scM0_5 fullShare ((outsAt0 V c (n - 1) (by omega)).2.2.2.2.2.2.2.2.2.2.2.1) ∗ owns (c : Thread nD τ) scM0_6 fullShare ((outsAt0 V c (n - 1) (by omega)).2.2.2.2.2.2.2.2.2.2.2.2) ∗ Rest0 (F := F) c) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => (outsAt0 V c t.val t.isLt).1
    | ⟨8, _⟩ => (outsAt0 V c t.val t.isLt).2.1
    | ⟨9, _⟩ => (outsAt0 V c t.val t.isLt).2.2.1
    | ⟨10, _⟩ => (outsAt0 V c t.val t.isLt).2.2.2.1
    | ⟨11, _⟩ => (outsAt0 V c t.val t.isLt).2.2.2.2.1
    | ⟨12, _⟩ => (outsAt0 V c t.val t.isLt).2.2.2.2.2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = (outsAt0 V c t.val t.isLt).1 := by dsimp only [dat0]
theorem after0_8 (c : Dev nD) (t : Fin cfg0.N) : (dat0 V c).after 8 t = (outsAt0 V c t.val t.isLt).2.1 := by dsimp only [dat0]
theorem after0_9 (c : Dev nD) (t : Fin cfg0.N) : (dat0 V c).after 9 t = (outsAt0 V c t.val t.isLt).2.2.1 := by dsimp only [dat0]
theorem after0_10 (c : Dev nD) (t : Fin cfg0.N) : (dat0 V c).after 10 t = (outsAt0 V c t.val t.isLt).2.2.2.1 := by dsimp only [dat0]
theorem after0_11 (c : Dev nD) (t : Fin cfg0.N) : (dat0 V c).after 11 t = (outsAt0 V c t.val t.isLt).2.2.2.2.1 := by dsimp only [dat0]
theorem after0_12 (c : Dev nD) (t : Fin cfg0.N) : (dat0 V c).after 12 t = (outsAt0 V c t.val t.isLt).2.2.2.2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d))
    ∗ (∃ d, owns (c : Thread nD τ) (ms0_12 t) fullShare ((dat0 V c).before 12 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t
    ∗ (dat0 V c).leavesExact 11 t
    ∗ (dat0 V c).leavesExact 12 t)

set_option maxHeartbeats 8000000 in

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = PhiS V c (t.val + 1) t.isLt from rfl, PhiS_succ]
  have hN : t.val < 500 := lt_of_lt_of_eq t.isLt (show cfg0.N = 500 from N_0)
  by_cases h0 : t.val % 125 = 0
  · by_cases h1 : t.val % 125 = 124
    · exfalso; omega
    · have hc0 : cond0_0 (grid0.coords t) := (hcond0_0 t).mpr h0
      have hc1 : ¬cond0_1 (grid0.coords t) := fun h => h1 ((hcond0_1 t).mp h)
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [Dat.leavesExact_idle (dat0 V c) 7 t (idleAt0_7 t hc1) (noFlush0_7 t hc1)]
      rw [Dat.leavesExact_idle (dat0 V c) 8 t (idleAt0_8 t hc1) (noFlush0_8 t hc1)]
      rw [Dat.leavesExact_idle (dat0 V c) 9 t (idleAt0_9 t hc1) (noFlush0_9 t hc1)]
      rw [show (dat0 V c).leavesExact 10 t = owns (c : Thread nD τ) (ms0_10 t) fullShare ((dat0 V c).after 10 t) from by
        unfold Dat.leavesExact; rw [liveAt0_10 t], after0_10]
      rw [show (dat0 V c).leavesExact 11 t = owns (c : Thread nD τ) (ms0_11 t) fullShare ((dat0 V c).after 11 t) from by
        unfold Dat.leavesExact; rw [liveAt0_11 t], after0_11]
      rw [Dat.leavesExact_idle (dat0 V c) 12 t (idleAt0_12 t hc1) (noFlush0_12 t hc1)]
      by_cases hz : t.val = 0
      ·
        rw [PhiS_castSucc V c t, PhiS_zero V c _ _ hz, PhiA0_eq]
        iintro ⟨⟨⟨HS0, HS1, HS2, HS3, HS4, HS5, HS6, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
        iapply (run0_A c (grid0.coords t) (stg0 t) hc0 hc1 (iblk0 V c 0 t) (iblk0 V c 1 t) (iblk0 V c 2 t) (iblk0 V c 3 t) (iblk0 V c 4 t) (iblk0 V c 5 t) (iblk0 V c 6 t) (outsAt0 V c t.val t.isLt) (outsAt0_A V c t h0 h1) _ _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [H11]; · iexists _; iexact H11
        isplitl [H12]; · iexact H12
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        iintro ⟨H0, H1, H2, H3, H4, H5, H6, H7, H8, H9, H10, H11, H12, HS0, HS1, HS2, HS3, HS4, HS5, HS6⟩
        isplitl [HS0 HS1 HS2 HS3 HS4 HS5 HS6 HR Hg]
        · isplitl [HS0 HS1 HS2 HS3 HS4 HS5 HS6 HR]
          · isplitl [HS0]; · iexact HS0
            isplitl [HS1]; · iexact HS1
            isplitl [HS2]; · iexact HS2
            isplitl [HS3]; · iexact HS3
            isplitl [HS4]; · iexact HS4
            isplitl [HS5]; · iexact HS5
            isplitl [HS6]; · iexact HS6
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [H9]; · iexists _; iexact H9
        isplitl [H10]; · iexact H10
        isplitl [H11]; · iexact H11
        iexists _; iexact H12
      ·
        rw [PhiS_castSucc V c t, PhiS_pos V c _ _ hz]
        iintro ⟨⟨⟨HS0, HS1, HS2, HS3, HS4, HS5, HS6, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
        iapply (run0_A c (grid0.coords t) (stg0 t) hc0 hc1 (iblk0 V c 0 t) (iblk0 V c 1 t) (iblk0 V c 2 t) (iblk0 V c 3 t) (iblk0 V c 4 t) (iblk0 V c 5 t) (iblk0 V c 6 t) (outsAt0 V c t.val t.isLt) (outsAt0_A V c t h0 h1) _ _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [H11]; · iexists _; iexact H11
        isplitl [H12]; · iexact H12
        isplitl [HS0]; · iexists _; iexact HS0
        isplitl [HS1]; · iexists _; iexact HS1
        isplitl [HS2]; · iexists _; iexact HS2
        isplitl [HS3]; · iexists _; iexact HS3
        isplitl [HS4]; · iexists _; iexact HS4
        isplitl [HS5]; · iexists _; iexact HS5
        isplitl [HS6]; · iexists _; iexact HS6
        iintro ⟨H0, H1, H2, H3, H4, H5, H6, H7, H8, H9, H10, H11, H12, HS0, HS1, HS2, HS3, HS4, HS5, HS6⟩
        isplitl [HS0 HS1 HS2 HS3 HS4 HS5 HS6 HR Hg]
        · isplitl [HS0 HS1 HS2 HS3 HS4 HS5 HS6 HR]
          · isplitl [HS0]; · iexact HS0
            isplitl [HS1]; · iexact HS1
            isplitl [HS2]; · iexact HS2
            isplitl [HS3]; · iexact HS3
            isplitl [HS4]; · iexact HS4
            isplitl [HS5]; · iexact HS5
            isplitl [HS6]; · iexact HS6
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [H9]; · iexists _; iexact H9
        isplitl [H10]; · iexact H10
        isplitl [H11]; · iexact H11
        iexists _; iexact H12
  · by_cases h1 : t.val % 125 = 124
    · have hc0 : ¬cond0_0 (grid0.coords t) := fun h => h0 ((hcond0_0 t).mp h)
      have hc1 : cond0_1 (grid0.coords t) := (hcond0_1 t).mpr h1
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7_C t hc1], after0_7]
      rw [show (dat0 V c).leavesExact 8 t = owns (c : Thread nD τ) (ms0_8 t) fullShare ((dat0 V c).after 8 t) from by
        unfold Dat.leavesExact; rw [liveAt0_8_C t hc1], after0_8]
      rw [show (dat0 V c).leavesExact 9 t = owns (c : Thread nD τ) (ms0_9 t) fullShare ((dat0 V c).after 9 t) from by
        unfold Dat.leavesExact; rw [liveAt0_9_C t hc1], after0_9]
      rw [show (dat0 V c).leavesExact 10 t = owns (c : Thread nD τ) (ms0_10 t) fullShare ((dat0 V c).after 10 t) from by
        unfold Dat.leavesExact; rw [liveAt0_10 t], after0_10]
      rw [show (dat0 V c).leavesExact 11 t = owns (c : Thread nD τ) (ms0_11 t) fullShare ((dat0 V c).after 11 t) from by
        unfold Dat.leavesExact; rw [liveAt0_11 t], after0_11]
      rw [show (dat0 V c).leavesExact 12 t = owns (c : Thread nD τ) (ms0_12 t) fullShare ((dat0 V c).after 12 t) from by
        unfold Dat.leavesExact; rw [liveAt0_12_C t hc1], after0_12]
      by_cases hz : t.val = 0
      · exfalso; omega
      ·
        rw [PhiS_castSucc V c t, PhiS_pos V c _ _ hz]
        iintro ⟨⟨⟨HS0, HS1, HS2, HS3, HS4, HS5, HS6, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
        iapply (run0_C c (grid0.coords t) (stg0 t) hc0 hc1 (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2.2.2.2.2.1 (outsAt0 V c (t.val - 1) (Nat.lt_of_le_of_lt (Nat.sub_le _ _) t.isLt)).2.2.2.2.2.2.2.1 (outsAt0 V c (t.val - 1) (Nat.lt_of_le_of_lt (Nat.sub_le _ _) t.isLt)).2.2.2.2.2.2.2.2.1 (outsAt0 V c (t.val - 1) (Nat.lt_of_le_of_lt (Nat.sub_le _ _) t.isLt)).2.2.2.2.2.2.2.2.2.1 (outsAt0 V c (t.val - 1) (Nat.lt_of_le_of_lt (Nat.sub_le _ _) t.isLt)).2.2.2.2.2.2.2.2.2.2.1 (outsAt0 V c (t.val - 1) (Nat.lt_of_le_of_lt (Nat.sub_le _ _) t.isLt)).2.2.2.2.2.2.2.2.2.2.2.1 (outsAt0 V c (t.val - 1) (Nat.lt_of_le_of_lt (Nat.sub_le _ _) t.isLt)).2.2.2.2.2.2.2.2.2.2.2.2 (outsAt0 V c t.val t.isLt) (outsAt0_C V c t h0 h1) Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [H9]; · iexists _; iexact H9
        isplitl [H10]; · iexists _; iexact H10
        isplitl [H11]; · iexists _; iexact H11
        isplitl [H12]; · iexists _; iexact H12
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        iintro ⟨H0, H1, H2, H3, H4, H5, H6, H7, H8, H9, H10, H11, H12, HS0, HS1, HS2, HS3, HS4, HS5, HS6⟩
        isplitl [HS0 HS1 HS2 HS3 HS4 HS5 HS6 HR Hg]
        · isplitl [HS0 HS1 HS2 HS3 HS4 HS5 HS6 HR]
          · isplitl [HS0]; · iexact HS0
            isplitl [HS1]; · iexact HS1
            isplitl [HS2]; · iexact HS2
            isplitl [HS3]; · iexact HS3
            isplitl [HS4]; · iexact HS4
            isplitl [HS5]; · iexact HS5
            isplitl [HS6]; · iexact HS6
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        iexact H12
    · have hc0 : ¬cond0_0 (grid0.coords t) := fun h => h0 ((hcond0_0 t).mp h)
      have hc1 : ¬cond0_1 (grid0.coords t) := fun h => h1 ((hcond0_1 t).mp h)
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [Dat.leavesExact_idle (dat0 V c) 7 t (idleAt0_7 t hc1) (noFlush0_7 t hc1)]
      rw [Dat.leavesExact_idle (dat0 V c) 8 t (idleAt0_8 t hc1) (noFlush0_8 t hc1)]
      rw [Dat.leavesExact_idle (dat0 V c) 9 t (idleAt0_9 t hc1) (noFlush0_9 t hc1)]
      rw [show (dat0 V c).leavesExact 10 t = owns (c : Thread nD τ) (ms0_10 t) fullShare ((dat0 V c).after 10 t) from by
        unfold Dat.leavesExact; rw [liveAt0_10 t], after0_10]
      rw [show (dat0 V c).leavesExact 11 t = owns (c : Thread nD τ) (ms0_11 t) fullShare ((dat0 V c).after 11 t) from by
        unfold Dat.leavesExact; rw [liveAt0_11 t], after0_11]
      rw [Dat.leavesExact_idle (dat0 V c) 12 t (idleAt0_12 t hc1) (noFlush0_12 t hc1)]
      by_cases hz : t.val = 0
      · exfalso; omega
      ·
        rw [PhiS_castSucc V c t, PhiS_pos V c _ _ hz]
        iintro ⟨⟨⟨HS0, HS1, HS2, HS3, HS4, HS5, HS6, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
        iapply (run0_B c (grid0.coords t) (stg0 t) hc0 hc1 (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2.2.2.2.2.1 (outsAt0 V c (t.val - 1) (Nat.lt_of_le_of_lt (Nat.sub_le _ _) t.isLt)).2.2.2.2.2.2.2.1 (outsAt0 V c (t.val - 1) (Nat.lt_of_le_of_lt (Nat.sub_le _ _) t.isLt)).2.2.2.2.2.2.2.2.1 (outsAt0 V c (t.val - 1) (Nat.lt_of_le_of_lt (Nat.sub_le _ _) t.isLt)).2.2.2.2.2.2.2.2.2.1 (outsAt0 V c (t.val - 1) (Nat.lt_of_le_of_lt (Nat.sub_le _ _) t.isLt)).2.2.2.2.2.2.2.2.2.2.1 (outsAt0 V c (t.val - 1) (Nat.lt_of_le_of_lt (Nat.sub_le _ _) t.isLt)).2.2.2.2.2.2.2.2.2.2.2.1 (outsAt0 V c (t.val - 1) (Nat.lt_of_le_of_lt (Nat.sub_le _ _) t.isLt)).2.2.2.2.2.2.2.2.2.2.2.2 (outsAt0 V c t.val t.isLt) (outsAt0_B V c t h0 h1) _ _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [H11]; · iexists _; iexact H11
        isplitl [H12]; · iexact H12
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        iintro ⟨H0, H1, H2, H3, H4, H5, H6, H7, H8, H9, H10, H11, H12, HS0, HS1, HS2, HS3, HS4, HS5, HS6⟩
        isplitl [HS0 HS1 HS2 HS3 HS4 HS5 HS6 HR Hg]
        · isplitl [HS0 HS1 HS2 HS3 HS4 HS5 HS6 HR]
          · isplitl [HS0]; · iexact HS0
            isplitl [HS1]; · iexact HS1
            isplitl [HS2]; · iexact HS2
            isplitl [HS3]; · iexact HS3
            isplitl [HS4]; · iexact HS4
            isplitl [HS5]; · iexact HS5
            isplitl [HS6]; · iexact HS6
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [H9]; · iexists _; iexact H9
        isplitl [H10]; · iexact H10
        isplitl [H11]; · iexact H11
        iexists _; iexact H12

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HS2, HS3, HS4, HS5, HS6, HR⟩, Hg⟩
  isplitl [HS0 HS1 HS2 HS3 HS4 HS5 HS6 HR]
  · isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    iexact HR
  iexact Hg

theorem hout0 (c : Dev nD) : (dat0 V c).Φ (Fin.last cfg0.N) ⊢ Pipeline.ΦA spec0 c :=
  Phi_out0 V c _ (by rw [Fin.val_last]; have : cfg0.N = 500 := N_0; omega)

end Entry

end Cert.KernelIdeal.R0

end
-- ==== Proof.R1.Shared.lean ====
import proofs.«422162_j56092272886459_3_alg».proof.Proof.Gen.KernelIdeal.Launch
import proofs.«422162_j56092272886459_3_alg».proof.Proof.Gen.KernelIdeal.Skeleton
import proofs.«422162_j56092272886459_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end Blocks

abbrev cond1_0 (i : grid1.Coords) : Prop := (Scalar.cmpi .ne (Scalar.extui (Scalar.cmpi .eq (BitVec.ofNat 32 (i 1).val) 0#32)) 0#32) = 1#1

theorem hcond1_0 : ∀ t : Fin cfg1.N, cond1_0 (grid1.coords t) ↔ t.val % 25 = 0 :=
  (by decide +kernel : ∀ t : Fin grid1.N, cond1_0 (grid1.coords t) ↔ t.val % 25 = 0)

abbrev VO1_4 : View sig .tc .vmem S512x1 .f32 := (Memref.whole cc1_stg4_0 : Memref sig .tc .vmem S512x1 .f32).view

abbrev ms1_0 (t : Fin cfg1.N) : Memref sig .tc .vmem S512x1280 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1280 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x1 .f32 := win1_4.stage (cfg1.slots t 4)
abbrev hs1_4 (t : Fin cfg1.N) : (ms1_4 t).IsWhole := hstage1_4 ((cfg1.slots t 4).cast nbuf1_4)

end Cert.KernelIdeal.R1

end
-- ==== Proof.R1.RunA.lean ====
import proofs.«422162_j56092272886459_3_alg».proof.Proof.R1.Shared

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in

noncomputable def kernelRun1_A (c : Dev nD) (i : grid1.Coords) (arg2 : Memref sig .tc .vmem S512x1280 .f32) (harg2 : arg2.IsWhole) (arg3 : Memref sig .tc .vmem S512x1280 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : cond1_0 i)
    (x0 : Vec F S512x1280 .f32) (x1 : Vec F S512x1280 .f32) (x2 : Vec F S512x1 .f32) (x3 : Vec F S512x1 .f32) :
    { L4 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc1__pass2_kernel i arg2 harg2 arg3 harg3 arg4 harg4 arg5 harg5 arg6 harg6) K } := by
  refine ⟨?_, fun E K => ?run⟩
  case run =>
    simp only [cc1__pass2_kernel_eq_skeleton]; unfold cc1__pass2_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1
    obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.R1

end
-- ==== Proof.R1.RunB.lean ====
import proofs.«422162_j56092272886459_3_alg».proof.Proof.R1.Shared

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in

noncomputable def kernelRun1_B (c : Dev nD) (i : grid1.Coords) (arg2 : Memref sig .tc .vmem S512x1280 .f32) (harg2 : arg2.IsWhole) (arg3 : Memref sig .tc .vmem S512x1280 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : ¬cond1_0 i)
    (x0 : Vec F S512x1280 .f32) (x1 : Vec F S512x1280 .f32) (x2 : Vec F S512x1 .f32) (x3 : Vec F S512x1 .f32) (xo4 : Vec F S512x1 .f32) :
    { L4 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc1__pass2_kernel i arg2 harg2 arg3 harg3 arg4 harg4 arg5 harg5 arg6 harg6) K } := by
  refine ⟨?_, fun E K => ?run⟩
  case run =>
    simp only [cc1__pass2_kernel_eq_skeleton]; unfold cc1__pass2_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1
    obtain rfl := harg4.eq_unread hf2; obtain rfl := harg5.eq_unread hf3
    obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.R1

end
-- ==== Proof.R1.Frame.lean ====
import proofs.«422162_j56092272886459_3_alg».proof.Proof.R1.RunA
import proofs.«422162_j56092272886459_3_alg».proof.Proof.R1.RunB

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem cover1_A_4 (c : Dev nD) (i : grid1.Coords) (arg2 : Memref sig .tc .vmem S512x1280 .f32) (harg2 : arg2.IsWhole) (arg3 : Memref sig .tc .vmem S512x1280 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : cond1_0 i)
    (x0 : Vec F S512x1280 .f32) (x1 : Vec F S512x1280 .f32) (x2 : Vec F S512x1 .f32) (x3 : Vec F S512x1 .f32) (y : S512x1.Idx) :
    ∃ pc ∈ (kernelRun1_A c i arg2 harg2 arg3 harg3 arg4 harg4 arg5 harg5 arg6 harg6 hc0 x0 x1 x2 x3).1, y ∈ pc.1.set :=
  View.cover_of_tiledL (kernelRun1_A c i arg2 harg2 arg3 harg3 arg4 harg4 arg5 harg5 arg6 harg6 hc0 x0 x1 x2 x3).1 S512x1.size (by sl_kernel_rfl) y

def out1_A_4 (c : Dev nD) (i : grid1.Coords) (arg2 : Memref sig .tc .vmem S512x1280 .f32) (harg2 : arg2.IsWhole) (arg3 : Memref sig .tc .vmem S512x1280 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : cond1_0 i)
    (x0 : Vec F S512x1280 .f32) (x1 : Vec F S512x1280 .f32) (x2 : Vec F S512x1 .f32) (x3 : Vec F S512x1 .f32) : Vec F S512x1 .f32 :=
  VO1_4.read (Elt F) (VO1_4.writes (Elt F) VO1_4.junk (kernelRun1_A c i arg2 harg2 arg3 harg3 arg4 harg4 arg5 harg5 arg6 harg6 hc0 x0 x1 x2 x3).1)

theorem cover1_B_4 (c : Dev nD) (i : grid1.Coords) (arg2 : Memref sig .tc .vmem S512x1280 .f32) (harg2 : arg2.IsWhole) (arg3 : Memref sig .tc .vmem S512x1280 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : ¬cond1_0 i)
    (x0 : Vec F S512x1280 .f32) (x1 : Vec F S512x1280 .f32) (x2 : Vec F S512x1 .f32) (x3 : Vec F S512x1 .f32) (xo4 : Vec F S512x1 .f32) (y : S512x1.Idx) :
    ∃ pc ∈ (kernelRun1_B c i arg2 harg2 arg3 harg3 arg4 harg4 arg5 harg5 arg6 harg6 hc0 x0 x1 x2 x3 xo4).1, y ∈ pc.1.set :=
  View.cover_of_tiledL (kernelRun1_B c i arg2 harg2 arg3 harg3 arg4 harg4 arg5 harg5 arg6 harg6 hc0 x0 x1 x2 x3 xo4).1 S512x1.size (by sl_kernel_rfl) y

def out1_B_4 (c : Dev nD) (i : grid1.Coords) (arg2 : Memref sig .tc .vmem S512x1280 .f32) (harg2 : arg2.IsWhole) (arg3 : Memref sig .tc .vmem S512x1280 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : ¬cond1_0 i)
    (x0 : Vec F S512x1280 .f32) (x1 : Vec F S512x1280 .f32) (x2 : Vec F S512x1 .f32) (x3 : Vec F S512x1 .f32) (xo4 : Vec F S512x1 .f32) : Vec F S512x1 .f32 :=
  VO1_4.read (Elt F) (VO1_4.writes (Elt F) VO1_4.junk (kernelRun1_B c i arg2 harg2 arg3 harg3 arg4 harg4 arg5 harg5 arg6 harg6 hc0 x0 x1 x2 x3 xo4).1)

section Regions

variable (V : (c : Dev nD) → (b : Ref sig .tc) → Buf (Elt F) ((c : Thread nD τ).loc b))

def outsAt1 (c : Dev nD) : (n : ℕ) → n < cfg1.N → Vec F S512x1 .f32
  | 0, hn => out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩)
  | n + 1, hn =>
    if h0 : (n + 1) % 25 = 0 then
      out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩)
    else
      out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn))

theorem outsAt1_A (c : Dev nD) (t : Fin cfg1.N) (h0 : t.val % 25 = 0) :
    outsAt1 V c t.val t.isLt = out1_A_4 c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t) (iblk1 V c 2 t) (iblk1 V c 3 t) := by
  obtain ⟨n, hn⟩ := t
  cases n with
  | zero => exact rfl
  | succ n => exact (dif_pos h0).trans rfl

theorem outsAt1_B (c : Dev nD) (t : Fin cfg1.N) (h0 : ¬t.val % 25 = 0) :
    outsAt1 V c t.val t.isLt = out1_B_4 c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt)
  Φ _ := Pipeline.ΦA spec1 c
  q _ := fullShare
  owed _ := 0

theorem A_eq1 (c : Dev nD) (w : Fin cfg1.W) : (dat1 V c).A w = V c (Pipeline.arrRef spec1 w) := by
  dsimp only [dat1]

theorem Phi1_eq (c : Dev nD) (t : Fin (cfg1.N + 1)) : (dat1 V c).Φ t = Pipeline.ΦA spec1 c := rfl

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

theorem before1_4_B (c : Dev nD) (t : Fin cfg1.N) (h0 : ¬t.val % 25 = 0) (d) :
    (dat1 V c).before 4 t d = (outsAt1 V c (t.val - 1) (Nat.lt_of_le_of_lt (Nat.sub_le _ _) t.isLt)) := by
  have hN : t.val < 100 := lt_of_lt_of_eq t.isLt (show cfg1.N = 100 from N_1)
  rw [Dat.before_out_kept _ 4 rfl t (by omega) (Bool.eq_false_iff.mpr fun h => by have := (flush1_4 _).mp h; dsimp only at this; omega)
    (fun _ => rfl) (fun _ _ => rfl)]
  dsimp only [dat1]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 800000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  have hN : t.val < 100 := lt_of_lt_of_eq t.isLt (show cfg1.N = 100 from N_1)
  by_cases h0 : t.val % 25 = 0
  · rw [outsAt1_A V c t h0]
    unfold out1_A_4
    iintro ⟨HΦ, Ho, ⟨%d0, H0⟩, ⟨%d1, H1⟩, ⟨%d2, H2⟩, ⟨%d3, H3⟩, ⟨%d4, H4⟩⟩
    iapply ((kernelRun1_A c (grid1.coords t) _ _ _ _ _ _ _ _ _ _ ((hcond1_0 t).mpr h0) (iblk1 V c 0 t) (iblk1 V c 1 t) (iblk1 V c 2 t) (iblk1 V c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_A_4 c _ _ _ _ _ _ _ _ _ _ _ _ _ _ _ _)
  · rw [outsAt1_B V c t h0]
    simp only [before1_4_B V c t h0]
    unfold out1_B_4
    iintro ⟨HΦ, Ho, ⟨%d0, H0⟩, ⟨%d1, H1⟩, ⟨%d2, H2⟩, ⟨%d3, H3⟩, ⟨%d4, H4⟩⟩
    iapply ((kernelRun1_B c (grid1.coords t) _ _ _ _ _ _ _ _ _ _ (fun h => h0 ((hcond1_0 t).mp h)) (iblk1 V c 0 t) (iblk1 V c 1 t) (iblk1 V c 2 t) (iblk1 V c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_B_4 c _ _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end Regions

end Cert.KernelIdeal.R1

end
-- ==== Proof.RunAll.lean ====
import proofs.«422162_j56092272886459_3_alg».proof.Proof.R0.Frame
import proofs.«422162_j56092272886459_3_alg».proof.Proof.R1.Frame
import proofs.«422162_j56092272886459_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.RunAll

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => m (c, b)

abbrev W1 : Dev nD → Valuation τ sig (Elt F) := fun c => StableHlo.after hostOps0 (W0 m c)
abbrev V1 : (c : Dev nD) → (b : Ref sig .tc) → Buf (Elt F) ((c : Thread nD τ).loc b) := fun c b => W1 m c b

def W2 (c : Dev nD) : Valuation τ sig (Elt F) :=
  Pipeline.withArrays spec0 c (W1 m c) fun w => (R0.dat0 (V1 m) c).arrAt w cfg0.N
theorem W2_arr (c : Dev nD) (w : Fin cfg0.W) :
    W2 m c (Proc.devRef .tc (Pipeline.arrRef spec0 w)) = (R0.dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (R0.dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

def W3 (c : Dev nD) : Valuation τ sig (Elt F) :=
  Pipeline.withArrays spec1 c (W2 m c) fun w => (R1.dat1 (V2 m) c).arrAt w cfg1.N
theorem W3_arr (c : Dev nD) (w : Fin cfg1.W) :
    W3 m c (Proc.devRef .tc (Pipeline.arrRef spec1 w)) = (R1.dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (R1.dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

abbrev W4 : Dev nD → Valuation τ sig (Elt F) := fun c => StableHlo.after hostOps2 (W3 m c)
abbrev W5 : Dev nD → Valuation τ sig (Elt F) := fun c => StableHlo.after hostOps2_1 (W4 m c)
abbrev W6 : Dev nD → Valuation τ sig (Elt F) := fun c => StableHlo.after hostOps2_2 (W5 m c)

theorem W6_keep (c : Dev nD) (r : Ref sig .tc) (h22 : r ∉ hostOps2_2_W) (h21 : r ∉ hostOps2_1_W) (h2 : r ∉ hostOps2_W)
    (hs1 : ∀ w, Pipeline.arrRef spec1 w ≠ r) (hs0 : ∀ w, Pipeline.arrRef spec0 w ≠ r) (h0 : r ∉ hostOps0_W) :
    W6 m c (Proc.devRef .tc r) = W0 m c (Proc.devRef .tc r) :=
  (StableHlo.after_of_writes_sub hostOps2_2 _ hostOps2_2_writes h22).trans <|
  (StableHlo.after_of_writes_sub hostOps2_1 _ hostOps2_1_writes h21).trans <|
  (StableHlo.after_of_writes_sub hostOps2 _ hostOps2_writes h2).trans <|
  (W3_of_ne m c r hs1).trans <| (W2_of_ne m c r hs0).trans <|
  StableHlo.after_of_writes_sub hostOps0 _ hostOps0_writes h0

theorem W3_keep (c : Dev nD) (r : Ref sig .tc)
    (hs1 : ∀ w, Pipeline.arrRef spec1 w ≠ r) (hs0 : ∀ w, Pipeline.arrRef spec0 w ≠ r) (h0 : r ∉ hostOps0_W) :
    W3 m c (Proc.devRef .tc r) = W0 m c (Proc.devRef .tc r) :=
  (W3_of_ne m c r hs1).trans <| (W2_of_ne m c r hs0).trans <|
  StableHlo.after_of_writes_sub hostOps0 _ hostOps0_writes h0

abbrev adm : (p : Fin 2) → (pcfgs (F := F) p).Adm := fun p => (cfgs p).toPCfg_adm

def pdats : (p : Fin 2) → (c : Dev nD) → Dat τ (Elt F) Unit ℕ (UR sig nD τ) ℕ (Pipeline.pin (pcfgs (F := F)) adm p) c
  | ⟨0, _⟩ => fun c => R0.dat0 (V1 m) c
  | ⟨1, _⟩ => fun c => R1.dat1 (V2 m) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m c) ∗ ∃ r, prngReg c r)

theorem PhiA_in0 (c : Dev nD) :
    (iprop((∃ r, prngReg c r) ∗ Pipeline.prefHeld (pcfgs (F := F) 0).pre c (fun _ => fullShare) (adm (F := F) 0).1 ∗ Pipeline.scopedRest (Pipeline.pin (pcfgs (F := F)) adm 0).spec c) : sProp 𝕄)
      ⊢ Pipeline.ΦA spec0 c := by
  unfold Pipeline.ΦA
  iintro ⟨Hp, -, Hr⟩
  isplitl [Hr]; · iexact Hr
  iexact Hp
theorem PhiA_in1 (c : Dev nD) :
    (iprop((∃ r, prngReg c r) ∗ Pipeline.prefHeld (pcfgs (F := F) 1).pre c (fun _ => fullShare) (adm (F := F) 1).1 ∗ Pipeline.scopedRest (Pipeline.pin (pcfgs (F := F)) adm 1).spec c) : sProp 𝕄)
      ⊢ Pipeline.ΦA spec1 c := by
  unfold Pipeline.ΦA
  iintro ⟨Hp, -, Hr⟩
  isplitl [Hr]; · iexact Hr
  iexact Hp

set_option backward.isDefEq.respectTransparency.types false in

def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (PhiA_in0 c).trans (R0.hin0 (V1 m) c)
  hout c := by
    rw [Pipeline.ownSems0_none]
    refine (R0.hout0 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from R1.Phi1_eq (V2 m) c 0]
    exact PhiA_in1 c
  hout c := by
    rw [Pipeline.ownSems0_none, show (pdats m 1 c).Φ (Fin.last _) = Pipeline.ΦA spec1 c from R1.Phi1_eq (V2 m) c _]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)),
    .host (hseg hostOps2_1 hostOps2_1_sub hostOps2_1_fresh (W4 m)),
    .host (hseg hostOps2_2 hostOps2_2_sub hostOps2_2_fresh (W5 m)) ]
theorem main_run (c : Dev nD) : main (F := F) c = Pipeline.Seg.run (segs m) := (main_chain c).trans (by chain_rfl)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c => by
      show (iprop(StableHlo.held (c : Thread nD τ) (Pipeline.ucRefs τ sig) (W6 m c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

end Cert.KernelIdeal.RunAll

end
-- ==== Proof.Step.lean ====
import proofs.«422162_j56092272886459_3_alg».proof.Proof.Gen.KernelIdeal.Skeleton

noncomputable section

namespace Cert.KernelIdeal.Step

open Cert.KernelIdeal Cert.KernelIdeal.Gen Idealize.ShloMosaic Idealize.SL.Sem

variable {F : FTy → Type} [FloatOps F]

structure St0 (F : FTy → Type) [FloatOps F] where
  ms : Vec F S512x1 .f32
  es : Vec F S512x1 .f32
  msT : Vec F S512x1 .f32
  esT : Vec F S512x1 .f32
  mtT : Vec F S512x1 .f32
  etT : Vec F S512x1 .f32
  acc : Vec F S512x1 .f32

def init0 : St0 F := ⟨k0_pay6, k0_pay7, k0_pay8, k0_pay9, k0_pay10, k0_pay11, k0_pay12⟩

abbrev tileS (x0 : Vec F S512x2048 .bf16) (x1 : Vec F S256x2048 .bf16) (x2 : Vec F S1x256 .f32) : FVec F S512x256 .f32 := k0_pay13 x0 x1 x2
abbrev tileST (x0 : Vec F S512x2048 .bf16) (x1 : Vec F S256x2048 .bf16) (x2 : Vec F S1x256 .f32) : FVec F S512x256 .f32 := k0_pay14 x0 x1 x2
abbrev tileTT (x3 : Vec F S512x4096 .bf16) (x4 : Vec F S256x4096 .bf16) (x5 : Vec F S1x256 .f32) : FVec F S512x256 .f32 := k0_pay15 x3 x4 x5

def step0 (i : grid0.Coords) (x0 : Vec F S512x2048 .bf16) (x1 : Vec F S256x2048 .bf16) (x2 : Vec F S1x256 .f32)
    (x3 : Vec F S512x4096 .bf16) (x4 : Vec F S256x4096 .bf16) (x5 : Vec F S1x256 .f32) (x6 : Vec F S512x1 .i32)
    (s : St0 F) : St0 F where
  ms := k0_pay20 (tileS x0 x1 x2) s.ms
  es := k0_pay19 (tileS x0 x1 x2) s.ms s.ms s.es
  msT := k0_pay24 (k0_pay21 (tileST x0 x1 x2)) s.msT
  esT := k0_pay23 (tileST x0 x1 x2) (k0_pay21 (tileST x0 x1 x2)) s.msT s.msT s.esT
  mtT := k0_pay2 (k0_pay25 (tileTT x3 x4 x5) s.mtT)
  etT := k0_pay1 (k0_pay26 (tileTT x3 x4 x5) s.mtT s.mtT s.etT)
  acc := k0_pay17 (tileS x0 x1 x2) (iota .tc S512x256 32 [1] iota_S512x256_d1_w32) (k0_pay16 i) x6 s.acc

def finS (s : St0 F) : FVec F S512x1 .f32 := k0_pay3 s.ms s.es
def finST (s : St0 F) : FVec F S512x1 .f32 := k0_pay4 s.msT s.esT
def finTT (s : St0 F) : FVec F S512x1 .f32 := k0_pay5 s.mtT s.etT

def init1 : FVec F S512x1 .f32 := k1_pay1

def step1 (x0 x1 : Vec F S512x1280 .f32) (x2 x3 : Vec F S512x1 .f32) (prev : Vec F S512x1 .f32) : FVec F S512x1 .f32 :=
  k1_pay2 x0 x2 x1 x3 prev

end Cert.KernelIdeal.Step

end
-- ==== Proof.R0.Pieces.lean ====
import proofs.«422162_j56092272886459_3_alg».proof.Proof.R0.Outs
import proofs.«422162_j56092272886459_3_alg».proof.Proof.Step
import Idealize.ShloMosaic.Lib.Pipeline.Value

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

private theorem hz : (![0, 0] : Fin 2 → Nat) = fun _ => 0 := funext fun a => by fin_cases a <;> rfl

section
variable (c : Dev nD) (i : grid0.Coords)
  (a : Stg0)

section Middle
variable (hc0 : ¬cond0_0 i) (hc1 : ¬cond0_1 i)
  (x0 : Vec F S512x2048 .bf16) (x1 : Vec F S256x2048 .bf16) (x2 : Vec F S1x256 .f32) (x3 : Vec F S512x4096 .bf16)
  (x4 : Vec F S256x4096 .bf16) (x5 : Vec F S1x256 .f32) (x6 : Vec F S512x1 .i32)
  (xs0 xs1 xs2 xs3 xs4 xs5 xs6 : Vec F S512x1 .f32)

theorem out0_B_10_eq : out0_B_10 c i a hc0 hc1 x0 x1 x2 x3 x4 x5 x6 xs0 xs1 xs2 xs3 xs4 xs5 xs6 = k0_pay14 x0 x1 x2 := by
  unfold out0_B_10
  rw [View.read_writes_eq_canon _ _ _ (cover0_B_10 c i a hc0 hc1 x0 x1 x2 x3 x4 x5 x6 xs0 xs1 xs2 xs3 xs4 xs5 xs6)]
  unfold kernelRun0_B
  dsimp only
  sl_unfold_words
  rw [View.canon_unit_zero hz]
  simp only [View.readAt_eq_ld, a.harg2.read_unread, a.harg3.read_unread, a.harg4.read_unread, a.harg5.read_unread, a.harg6.read_unread,
    a.harg7.read_unread, a.harg8.read_unread, a.harg15.read_unread, a.harg16.read_unread, a.harg17.read_unread, a.harg18.read_unread,
    a.harg19.read_unread, a.harg20.read_unread, a.harg21.read_unread, View.ld_unit_zero (S := S512x2048) hz,
    View.ld_unit_zero (S := S256x2048) hz, View.ld_unit_zero (S := S1x256) hz, View.ld_unit_zero (S := S512x4096) hz,
    View.ld_unit_zero (S := S256x4096) hz, View.ld_unit_zero (S := S512x1) hz]

theorem out0_B_11_eq : out0_B_11 c i a hc0 hc1 x0 x1 x2 x3 x4 x5 x6 xs0 xs1 xs2 xs3 xs4 xs5 xs6 = k0_pay15 x3 x4 x5 := by
  unfold out0_B_11
  rw [View.read_writes_eq_canon _ _ _ (cover0_B_11 c i a hc0 hc1 x0 x1 x2 x3 x4 x5 x6 xs0 xs1 xs2 xs3 xs4 xs5 xs6)]
  unfold kernelRun0_B
  dsimp only
  sl_unfold_words
  rw [View.canon_unit_zero hz]
  simp only [View.readAt_eq_ld, a.harg2.read_unread, a.harg3.read_unread, a.harg4.read_unread, a.harg5.read_unread, a.harg6.read_unread,
    a.harg7.read_unread, a.harg8.read_unread, a.harg15.read_unread, a.harg16.read_unread, a.harg17.read_unread, a.harg18.read_unread,
    a.harg19.read_unread, a.harg20.read_unread, a.harg21.read_unread, View.ld_unit_zero (S := S512x2048) hz,
    View.ld_unit_zero (S := S256x2048) hz, View.ld_unit_zero (S := S1x256) hz, View.ld_unit_zero (S := S512x4096) hz,
    View.ld_unit_zero (S := S256x4096) hz, View.ld_unit_zero (S := S512x1) hz]

theorem sout0_B_0_eq : sout0_B_0 c i a hc0 hc1 x0 x1 x2 x3 x4 x5 x6 xs0 xs1 xs2 xs3 xs4 xs5 xs6 = k0_pay20 (k0_pay13 x0 x1 x2) xs0 := by
  unfold sout0_B_0
  rw [View.read_writes_eq_canon _ _ _ (scover0_B_0 c i a hc0 hc1 x0 x1 x2 x3 x4 x5 x6 xs0 xs1 xs2 xs3 xs4 xs5 xs6)]
  unfold kernelRun0_B
  dsimp only
  sl_unfold_words
  rw [View.canon_unit_zero hz]
  simp only [View.readAt_eq_ld, a.harg2.read_unread, a.harg3.read_unread, a.harg4.read_unread, a.harg5.read_unread, a.harg6.read_unread,
    a.harg7.read_unread, a.harg8.read_unread, a.harg15.read_unread, a.harg16.read_unread, a.harg17.read_unread, a.harg18.read_unread,
    a.harg19.read_unread, a.harg20.read_unread, a.harg21.read_unread, View.ld_unit_zero (S := S512x2048) hz,
    View.ld_unit_zero (S := S256x2048) hz, View.ld_unit_zero (S := S1x256) hz, View.ld_unit_zero (S := S512x4096) hz,
    View.ld_unit_zero (S := S256x4096) hz, View.ld_unit_zero (S := S512x1) hz]

theorem sout0_B_1_eq : sout0_B_1 c i a hc0 hc1 x0 x1 x2 x3 x4 x5 x6 xs0 xs1 xs2 xs3 xs4 xs5 xs6 = k0_pay19 (k0_pay13 x0 x1 x2) xs0 xs0 xs1 := by
  unfold sout0_B_1
  rw [View.read_writes_eq_canon _ _ _ (scover0_B_1 c i a hc0 hc1 x0 x1 x2 x3 x4 x5 x6 xs0 xs1 xs2 xs3 xs4 xs5 xs6)]
  unfold kernelRun0_B
  dsimp only
  sl_unfold_words
  rw [View.canon_unit_zero hz]
  simp only [View.readAt_eq_ld, a.harg2.read_unread, a.harg3.read_unread, a.harg4.read_unread, a.harg5.read_unread, a.harg6.read_unread,
    a.harg7.read_unread, a.harg8.read_unread, a.harg15.read_unread, a.harg16.read_unread, a.harg17.read_unread, a.harg18.read_unread,
    a.harg19.read_unread, a.harg20.read_unread, a.harg21.read_unread, View.ld_unit_zero (S := S512x2048) hz,
    View.ld_unit_zero (S := S256x2048) hz, View.ld_unit_zero (S := S1x256) hz, View.ld_unit_zero (S := S512x4096) hz,
    View.ld_unit_zero (S := S256x4096) hz, View.ld_unit_zero (S := S512x1) hz]

theorem sout0_B_2_eq : sout0_B_2 c i a hc0 hc1 x0 x1 x2 x3 x4 x5 x6 xs0 xs1 xs2 xs3 xs4 xs5 xs6 = k0_pay24 (k0_pay21 (k0_pay14 x0 x1 x2)) xs2 := by
  unfold sout0_B_2
  rw [View.read_writes_eq_canon _ _ _ (scover0_B_2 c i a hc0 hc1 x0 x1 x2 x3 x4 x5 x6 xs0 xs1 xs2 xs3 xs4 xs5 xs6)]
  unfold kernelRun0_B
  dsimp only
  sl_unfold_words
  rw [View.canon_unit_zero hz]
  simp only [View.readAt_eq_ld, a.harg2.read_unread, a.harg3.read_unread, a.harg4.read_unread, a.harg5.read_unread, a.harg6.read_unread,
    a.harg7.read_unread, a.harg8.read_unread, a.harg15.read_unread, a.harg16.read_unread, a.harg17.read_unread, a.harg18.read_unread,
    a.harg19.read_unread, a.harg20.read_unread, a.harg21.read_unread, View.ld_unit_zero (S := S512x2048) hz,
    View.ld_unit_zero (S := S256x2048) hz, View.ld_unit_zero (S := S1x256) hz, View.ld_unit_zero (S := S512x4096) hz,
    View.ld_unit_zero (S := S256x4096) hz, View.ld_unit_zero (S := S512x1) hz]

theorem sout0_B_3_eq : sout0_B_3 c i a hc0 hc1 x0 x1 x2 x3 x4 x5 x6 xs0 xs1 xs2 xs3 xs4 xs5 xs6 = k0_pay23 (k0_pay14 x0 x1 x2) (k0_pay21 (k0_pay14 x0 x1 x2)) xs2 xs2 xs3 := by
  unfold sout0_B_3
  rw [View.read_writes_eq_canon _ _ _ (scover0_B_3 c i a hc0 hc1 x0 x1 x2 x3 x4 x5 x6 xs0 xs1 xs2 xs3 xs4 xs5 xs6)]
  unfold kernelRun0_B
  dsimp only
  sl_unfold_words
  rw [View.canon_unit_zero hz]
  simp only [View.readAt_eq_ld, a.harg2.read_unread, a.harg3.read_unread, a.harg4.read_unread, a.harg5.read_unread, a.harg6.read_unread,
    a.harg7.read_unread, a.harg8.read_unread, a.harg15.read_unread, a.harg16.read_unread, a.harg17.read_unread, a.harg18.read_unread,
    a.harg19.read_unread, a.harg20.read_unread, a.harg21.read_unread, View.ld_unit_zero (S := S512x2048) hz,
    View.ld_unit_zero (S := S256x2048) hz, View.ld_unit_zero (S := S1x256) hz, View.ld_unit_zero (S := S512x4096) hz,
    View.ld_unit_zero (S := S256x4096) hz, View.ld_unit_zero (S := S512x1) hz]

theorem sout0_B_4_eq : sout0_B_4 c i a hc0 hc1 x0 x1 x2 x3 x4 x5 x6 xs0 xs1 xs2 xs3 xs4 xs5 xs6 = k0_pay2 (k0_pay25 (k0_pay15 x3 x4 x5) xs4) := by
  unfold sout0_B_4
  rw [View.read_writes_eq_canon _ _ _ (scover0_B_4 c i a hc0 hc1 x0 x1 x2 x3 x4 x5 x6 xs0 xs1 xs2 xs3 xs4 xs5 xs6)]
  unfold kernelRun0_B
  dsimp only
  sl_unfold_words
  rw [View.canon_unit_zero hz]
  simp only [View.readAt_eq_ld, a.harg2.read_unread, a.harg3.read_unread, a.harg4.read_unread, a.harg5.read_unread, a.harg6.read_unread,
    a.harg7.read_unread, a.harg8.read_unread, a.harg15.read_unread, a.harg16.read_unread, a.harg17.read_unread, a.harg18.read_unread,
    a.harg19.read_unread, a.harg20.read_unread, a.harg21.read_unread, View.ld_unit_zero (S := S512x2048) hz,
    View.ld_unit_zero (S := S256x2048) hz, View.ld_unit_zero (S := S1x256) hz, View.ld_unit_zero (S := S512x4096) hz,
    View.ld_unit_zero (S := S256x4096) hz, View.ld_unit_zero (S := S512x1) hz]

theorem sout0_B_5_eq : sout0_B_5 c i a hc0 hc1 x0 x1 x2 x3 x4 x5 x6 xs0 xs1 xs2 xs3 xs4 xs5 xs6 = k0_pay1 (k0_pay26 (k0_pay15 x3 x4 x5) xs4 xs4 xs5) := by
  unfold sout0_B_5
  rw [View.read_writes_eq_canon _ _ _ (scover0_B_5 c i a hc0 hc1 x0 x1 x2 x3 x4 x5 x6 xs0 xs1 xs2 xs3 xs4 xs5 xs6)]
  unfold kernelRun0_B
  dsimp only
  sl_unfold_words
  rw [View.canon_unit_zero hz]
  simp only [View.readAt_eq_ld, a.harg2.read_unread, a.harg3.read_unread, a.harg4.read_unread, a.harg5.read_unread, a.harg6.read_unread,
    a.harg7.read_unread, a.harg8.read_unread, a.harg15.read_unread, a.harg16.read_unread, a.harg17.read_unread, a.harg18.read_unread,
    a.harg19.read_unread, a.harg20.read_unread, a.harg21.read_unread, View.ld_unit_zero (S := S512x2048) hz,
    View.ld_unit_zero (S := S256x2048) hz, View.ld_unit_zero (S := S1x256) hz, View.ld_unit_zero (S := S512x4096) hz,
    View.ld_unit_zero (S := S256x4096) hz, View.ld_unit_zero (S := S512x1) hz]

theorem sout0_B_6_eq : sout0_B_6 c i a hc0 hc1 x0 x1 x2 x3 x4 x5 x6 xs0 xs1 xs2 xs3 xs4 xs5 xs6 = k0_pay17 (k0_pay13 x0 x1 x2) (iota .tc S512x256 32 [1] iota_S512x256_d1_w32) (k0_pay16 i) x6 xs6 := by
  unfold sout0_B_6
  rw [View.read_writes_eq_canon _ _ _ (scover0_B_6 c i a hc0 hc1 x0 x1 x2 x3 x4 x5 x6 xs0 xs1 xs2 xs3 xs4 xs5 xs6)]
  unfold kernelRun0_B
  dsimp only
  sl_unfold_words
  rw [View.canon_unit_zero hz]
  simp only [View.readAt_eq_ld, a.harg2.read_unread, a.harg3.read_unread, a.harg4.read_unread, a.harg5.read_unread, a.harg6.read_unread,
    a.harg7.read_unread, a.harg8.read_unread, a.harg15.read_unread, a.harg16.read_unread, a.harg17.read_unread, a.harg18.read_unread,
    a.harg19.read_unread, a.harg20.read_unread, a.harg21.read_unread, View.ld_unit_zero (S := S512x2048) hz,
    View.ld_unit_zero (S := S256x2048) hz, View.ld_unit_zero (S := S1x256) hz, View.ld_unit_zero (S := S512x4096) hz,
    View.ld_unit_zero (S := S256x4096) hz, View.ld_unit_zero (S := S512x1) hz]

theorem outs0_B_eq : outs0_B c i a hc0 hc1 x0 x1 x2 x3 x4 x5 x6 xs0 xs1 xs2 xs3 xs4 xs5 xs6
    = (idleOut0, idleOut0, idleOut0, Step.tileST x0 x1 x2, Step.tileTT x3 x4 x5, idleOut0,
       (Step.step0 i x0 x1 x2 x3 x4 x5 x6 ⟨xs0, xs1, xs2, xs3, xs4, xs5, xs6⟩).ms,
       (Step.step0 i x0 x1 x2 x3 x4 x5 x6 ⟨xs0, xs1, xs2, xs3, xs4, xs5, xs6⟩).es,
       (Step.step0 i x0 x1 x2 x3 x4 x5 x6 ⟨xs0, xs1, xs2, xs3, xs4, xs5, xs6⟩).msT,
       (Step.step0 i x0 x1 x2 x3 x4 x5 x6 ⟨xs0, xs1, xs2, xs3, xs4, xs5, xs6⟩).esT,
       (Step.step0 i x0 x1 x2 x3 x4 x5 x6 ⟨xs0, xs1, xs2, xs3, xs4, xs5, xs6⟩).mtT,
       (Step.step0 i x0 x1 x2 x3 x4 x5 x6 ⟨xs0, xs1, xs2, xs3, xs4, xs5, xs6⟩).etT,
       (Step.step0 i x0 x1 x2 x3 x4 x5 x6 ⟨xs0, xs1, xs2, xs3, xs4, xs5, xs6⟩).acc) := by
  unfold outs0_B
  rw [out0_B_10_eq, out0_B_11_eq, sout0_B_0_eq, sout0_B_1_eq, sout0_B_2_eq, sout0_B_3_eq, sout0_B_4_eq, sout0_B_5_eq,
    sout0_B_6_eq]
  rfl

end Middle

section First
variable (hc0 : cond0_0 i) (hc1 : ¬cond0_1 i)
  (x0 : Vec F S512x2048 .bf16) (x1 : Vec F S256x2048 .bf16) (x2 : Vec F S1x256 .f32) (x3 : Vec F S512x4096 .bf16)
  (x4 : Vec F S256x4096 .bf16) (x5 : Vec F S1x256 .f32) (x6 : Vec F S512x1 .i32)

theorem out0_A_10_eq : out0_A_10 c i a hc0 hc1 x0 x1 x2 x3 x4 x5 x6 = k0_pay14 x0 x1 x2 := by
  unfold out0_A_10
  rw [View.read_writes_eq_canon _ _ _ (cover0_A_10 c i a hc0 hc1 x0 x1 x2 x3 x4 x5 x6)]
  unfold kernelRun0_A
  dsimp only
  sl_unfold_words
  rw [View.canon_unit_zero hz]
  simp only [View.readAt_eq_ld, a.harg2.read_unread, a.harg3.read_unread, a.harg4.read_unread, a.harg5.read_unread, a.harg6.read_unread,
    a.harg7.read_unread, a.harg8.read_unread, View.readCov_unit_zero (S := S512x1) _ hz, View.ld_unit_zero (S := S512x2048) hz,
    View.ld_unit_zero (S := S256x2048) hz, View.ld_unit_zero (S := S1x256) hz, View.ld_unit_zero (S := S512x4096) hz,
    View.ld_unit_zero (S := S256x4096) hz, View.ld_unit_zero (S := S512x1) hz]

theorem out0_A_11_eq : out0_A_11 c i a hc0 hc1 x0 x1 x2 x3 x4 x5 x6 = k0_pay15 x3 x4 x5 := by
  unfold out0_A_11
  rw [View.read_writes_eq_canon _ _ _ (cover0_A_11 c i a hc0 hc1 x0 x1 x2 x3 x4 x5 x6)]
  unfold kernelRun0_A
  dsimp only
  sl_unfold_words
  rw [View.canon_unit_zero hz]
  simp only [View.readAt_eq_ld, a.harg2.read_unread, a.harg3.read_unread, a.harg4.read_unread, a.harg5.read_unread, a.harg6.read_unread,
    a.harg7.read_unread, a.harg8.read_unread, View.readCov_unit_zero (S := S512x1) _ hz, View.ld_unit_zero (S := S512x2048) hz,
    View.ld_unit_zero (S := S256x2048) hz, View.ld_unit_zero (S := S1x256) hz, View.ld_unit_zero (S := S512x4096) hz,
    View.ld_unit_zero (S := S256x4096) hz, View.ld_unit_zero (S := S512x1) hz]

theorem sout0_A_0_eq : sout0_A_0 c i a hc0 hc1 x0 x1 x2 x3 x4 x5 x6 = k0_pay20 (k0_pay13 x0 x1 x2) (k0_pay6 (F := F)) := by
  unfold sout0_A_0
  rw [View.read_writes_eq_canon _ _ _ (scover0_A_0 c i a hc0 hc1 x0 x1 x2 x3 x4 x5 x6)]
  unfold kernelRun0_A
  dsimp only
  sl_unfold_words
  rw [View.canon_cons_unit_zero (S := S512x1) hz]
  simp only [View.readAt_eq_ld, a.harg2.read_unread, a.harg3.read_unread, a.harg4.read_unread, a.harg5.read_unread, a.harg6.read_unread,
    a.harg7.read_unread, a.harg8.read_unread, View.readCov_unit_zero (S := S512x1) _ hz, View.ld_unit_zero (S := S512x2048) hz,
    View.ld_unit_zero (S := S256x2048) hz, View.ld_unit_zero (S := S1x256) hz, View.ld_unit_zero (S := S512x4096) hz,
    View.ld_unit_zero (S := S256x4096) hz, View.ld_unit_zero (S := S512x1) hz]

theorem sout0_A_1_eq : sout0_A_1 c i a hc0 hc1 x0 x1 x2 x3 x4 x5 x6 = k0_pay19 (k0_pay13 x0 x1 x2) (k0_pay6 (F := F)) (k0_pay6 (F := F)) (k0_pay7 (F := F)) := by
  unfold sout0_A_1
  rw [View.read_writes_eq_canon _ _ _ (scover0_A_1 c i a hc0 hc1 x0 x1 x2 x3 x4 x5 x6)]
  unfold kernelRun0_A
  dsimp only
  sl_unfold_words
  rw [View.canon_cons_unit_zero (S := S512x1) hz]
  simp only [View.readAt_eq_ld, a.harg2.read_unread, a.harg3.read_unread, a.harg4.read_unread, a.harg5.read_unread, a.harg6.read_unread,
    a.harg7.read_unread, a.harg8.read_unread, View.readCov_unit_zero (S := S512x1) _ hz, View.ld_unit_zero (S := S512x2048) hz,
    View.ld_unit_zero (S := S256x2048) hz, View.ld_unit_zero (S := S1x256) hz, View.ld_unit_zero (S := S512x4096) hz,
    View.ld_unit_zero (S := S256x4096) hz, View.ld_unit_zero (S := S512x1) hz]

theorem sout0_A_2_eq : sout0_A_2 c i a hc0 hc1 x0 x1 x2 x3 x4 x5 x6 = k0_pay24 (k0_pay21 (k0_pay14 x0 x1 x2)) (k0_pay8 (F := F)) := by
  unfold sout0_A_2
  rw [View.read_writes_eq_canon _ _ _ (scover0_A_2 c i a hc0 hc1 x0 x1 x2 x3 x4 x5 x6)]
  unfold kernelRun0_A
  dsimp only
  sl_unfold_words
  rw [View.canon_cons_unit_zero (S := S512x1) hz]
  simp only [View.readAt_eq_ld, a.harg2.read_unread, a.harg3.read_unread, a.harg4.read_unread, a.harg5.read_unread, a.harg6.read_unread,
    a.harg7.read_unread, a.harg8.read_unread, View.readCov_unit_zero (S := S512x1) _ hz, View.ld_unit_zero (S := S512x2048) hz,
    View.ld_unit_zero (S := S256x2048) hz, View.ld_unit_zero (S := S1x256) hz, View.ld_unit_zero (S := S512x4096) hz,
    View.ld_unit_zero (S := S256x4096) hz, View.ld_unit_zero (S := S512x1) hz]

theorem sout0_A_3_eq : sout0_A_3 c i a hc0 hc1 x0 x1 x2 x3 x4 x5 x6 = k0_pay23 (k0_pay14 x0 x1 x2) (k0_pay21 (k0_pay14 x0 x1 x2)) (k0_pay8 (F := F)) (k0_pay8 (F := F)) (k0_pay9 (F := F)) := by
  unfold sout0_A_3
  rw [View.read_writes_eq_canon _ _ _ (scover0_A_3 c i a hc0 hc1 x0 x1 x2 x3 x4 x5 x6)]
  unfold kernelRun0_A
  dsimp only
  sl_unfold_words
  rw [View.canon_cons_unit_zero (S := S512x1) hz]
  simp only [View.readAt_eq_ld, a.harg2.read_unread, a.harg3.read_unread, a.harg4.read_unread, a.harg5.read_unread, a.harg6.read_unread,
    a.harg7.read_unread, a.harg8.read_unread, View.readCov_unit_zero (S := S512x1) _ hz, View.ld_unit_zero (S := S512x2048) hz,
    View.ld_unit_zero (S := S256x2048) hz, View.ld_unit_zero (S := S1x256) hz, View.ld_unit_zero (S := S512x4096) hz,
    View.ld_unit_zero (S := S256x4096) hz, View.ld_unit_zero (S := S512x1) hz]

theorem sout0_A_4_eq : sout0_A_4 c i a hc0 hc1 x0 x1 x2 x3 x4 x5 x6 = k0_pay2 (k0_pay25 (k0_pay15 x3 x4 x5) (k0_pay10 (F := F))) := by
  unfold sout0_A_4
  rw [View.read_writes_eq_canon _ _ _ (scover0_A_4 c i a hc0 hc1 x0 x1 x2 x3 x4 x5 x6)]
  unfold kernelRun0_A
  dsimp only
  sl_unfold_words
  rw [View.canon_cons_unit_zero (S := S512x1) hz]
  simp only [View.readAt_eq_ld, a.harg2.read_unread, a.harg3.read_unread, a.harg4.read_unread, a.harg5.read_unread, a.harg6.read_unread,
    a.harg7.read_unread, a.harg8.read_unread, View.readCov_unit_zero (S := S512x1) _ hz, View.ld_unit_zero (S := S512x2048) hz,
    View.ld_unit_zero (S := S256x2048) hz, View.ld_unit_zero (S := S1x256) hz, View.ld_unit_zero (S := S512x4096) hz,
    View.ld_unit_zero (S := S256x4096) hz, View.ld_unit_zero (S := S512x1) hz]

theorem sout0_A_5_eq : sout0_A_5 c i a hc0 hc1 x0 x1 x2 x3 x4 x5 x6 = k0_pay1 (k0_pay26 (k0_pay15 x3 x4 x5) (k0_pay10 (F := F)) (k0_pay10 (F := F)) (k0_pay11 (F := F))) := by
  unfold sout0_A_5
  rw [View.read_writes_eq_canon _ _ _ (scover0_A_5 c i a hc0 hc1 x0 x1 x2 x3 x4 x5 x6)]
  unfold kernelRun0_A
  dsimp only
  sl_unfold_words
  rw [View.canon_cons_unit_zero (S := S512x1) hz]
  simp only [View.readAt_eq_ld, a.harg2.read_unread, a.harg3.read_unread, a.harg4.read_unread, a.harg5.read_unread, a.harg6.read_unread,
    a.harg7.read_unread, a.harg8.read_unread, View.readCov_unit_zero (S := S512x1) _ hz, View.ld_unit_zero (S := S512x2048) hz,
    View.ld_unit_zero (S := S256x2048) hz, View.ld_unit_zero (S := S1x256) hz, View.ld_unit_zero (S := S512x4096) hz,
    View.ld_unit_zero (S := S256x4096) hz, View.ld_unit_zero (S := S512x1) hz]

theorem sout0_A_6_eq : sout0_A_6 c i a hc0 hc1 x0 x1 x2 x3 x4 x5 x6 = k0_pay17 (k0_pay13 x0 x1 x2) (iota .tc S512x256 32 [1] iota_S512x256_d1_w32) (k0_pay16 i) x6 (k0_pay12 (F := F)) := by
  unfold sout0_A_6
  rw [View.read_writes_eq_canon _ _ _ (scover0_A_6 c i a hc0 hc1 x0 x1 x2 x3 x4 x5 x6)]
  unfold kernelRun0_A
  dsimp only
  sl_unfold_words
  rw [View.canon_cons_unit_zero (S := S512x1) hz]
  simp only [View.readAt_eq_ld, a.harg2.read_unread, a.harg3.read_unread, a.harg4.read_unread, a.harg5.read_unread, a.harg6.read_unread,
    a.harg7.read_unread, a.harg8.read_unread, View.readCov_unit_zero (S := S512x1) _ hz, View.ld_unit_zero (S := S512x2048) hz,
    View.ld_unit_zero (S := S256x2048) hz, View.ld_unit_zero (S := S1x256) hz, View.ld_unit_zero (S := S512x4096) hz,
    View.ld_unit_zero (S := S256x4096) hz, View.ld_unit_zero (S := S512x1) hz]

theorem outs0_A_eq : outs0_A c i a hc0 hc1 x0 x1 x2 x3 x4 x5 x6
    = (idleOut0, idleOut0, idleOut0, Step.tileST x0 x1 x2, Step.tileTT x3 x4 x5, idleOut0,
       (Step.step0 i x0 x1 x2 x3 x4 x5 x6 Step.init0).ms,
       (Step.step0 i x0 x1 x2 x3 x4 x5 x6 Step.init0).es,
       (Step.step0 i x0 x1 x2 x3 x4 x5 x6 Step.init0).msT,
       (Step.step0 i x0 x1 x2 x3 x4 x5 x6 Step.init0).esT,
       (Step.step0 i x0 x1 x2 x3 x4 x5 x6 Step.init0).mtT,
       (Step.step0 i x0 x1 x2 x3 x4 x5 x6 Step.init0).etT,
       (Step.step0 i x0 x1 x2 x3 x4 x5 x6 Step.init0).acc) := by
  unfold outs0_A
  rw [out0_A_10_eq, out0_A_11_eq, sout0_A_0_eq, sout0_A_1_eq, sout0_A_2_eq, sout0_A_3_eq, sout0_A_4_eq, sout0_A_5_eq,
    sout0_A_6_eq]
  rfl

end First

end

end Cert.KernelIdeal.R0

end
-- ==== Proof.R0.PiecesC.lean ====
import proofs.«422162_j56092272886459_3_alg».proof.Proof.R0.Outs
import proofs.«422162_j56092272886459_3_alg».proof.Proof.Step
import Idealize.ShloMosaic.Lib.Pipeline.Value

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hzC : (![0, 0] : Fin 2 → Nat) = fun _ => 0 := funext fun a => by fin_cases a <;> rfl

variable (c : Dev nD) (i : grid0.Coords) (a : Stg0)

section C
variable (hc0 : ¬cond0_0 i) (hc1 : cond0_1 i) (x0 : Vec F S512x2048 .bf16) (x1 : Vec F S256x2048 .bf16) (x2 : Vec F S1x256 .f32) (x3 : Vec F S512x4096 .bf16) (x4 : Vec F S256x4096 .bf16) (x5 : Vec F S1x256 .f32) (x6 : Vec F S512x1 .i32) (xs0 : Vec F S512x1 .f32) (xs1 : Vec F S512x1 .f32) (xs2 : Vec F S512x1 .f32) (xs3 : Vec F S512x1 .f32) (xs4 : Vec F S512x1 .f32) (xs5 : Vec F S512x1 .f32) (xs6 : Vec F S512x1 .f32)

theorem out0_C_7_eq :
    out0_C_7 c i a hc0 hc1 x0 x1 x2 x3 x4 x5 x6 xs0 xs1 xs2 xs3 xs4 xs5 xs6
      = k0_pay3 (k0_pay20 (k0_pay13 x0 x1 x2) xs0) (k0_pay19 (k0_pay13 x0 x1 x2) xs0 xs0 xs1) := by
  unfold out0_C_7
  rw [View.read_writes_eq_canon _ _ _ (cover0_C_7 c i a hc0 hc1 x0 x1 x2 x3 x4 x5 x6 xs0 xs1 xs2 xs3 xs4 xs5 xs6)]
  unfold kernelRun0_C
  dsimp only
  sl_unfold_words
  rw [View.canon_unit_zero hzC]
  simp only [View.readAt_eq_ld, a.harg2.read_unread, a.harg3.read_unread, a.harg4.read_unread, a.harg5.read_unread, a.harg6.read_unread, a.harg7.read_unread, a.harg8.read_unread, a.harg9.read_unread, a.harg10.read_unread, a.harg11.read_unread, a.harg12.read_unread, a.harg13.read_unread, a.harg14.read_unread, a.harg15.read_unread, a.harg16.read_unread, a.harg17.read_unread, a.harg18.read_unread, a.harg19.read_unread, a.harg20.read_unread, a.harg21.read_unread,
    View.readCov_unit_zero (S := S512x1) _ hzC,
    View.ld_unit_zero (S := S512x2048) hzC, View.ld_unit_zero (S := S256x2048) hzC, View.ld_unit_zero (S := S1x256) hzC,
    View.ld_unit_zero (S := S512x4096) hzC, View.ld_unit_zero (S := S256x4096) hzC, View.ld_unit_zero (S := S512x256) hzC,
    View.ld_unit_zero (S := S512x1) hzC]

theorem out0_C_8_eq :
    out0_C_8 c i a hc0 hc1 x0 x1 x2 x3 x4 x5 x6 xs0 xs1 xs2 xs3 xs4 xs5 xs6
      = k0_pay4 (k0_pay24 (k0_pay21 (k0_pay14 x0 x1 x2)) xs2) (k0_pay23 (k0_pay14 x0 x1 x2) (k0_pay21 (k0_pay14 x0 x1 x2)) xs2 xs2 xs3) := by
  unfold out0_C_8
  rw [View.read_writes_eq_canon _ _ _ (cover0_C_8 c i a hc0 hc1 x0 x1 x2 x3 x4 x5 x6 xs0 xs1 xs2 xs3 xs4 xs5 xs6)]
  unfold kernelRun0_C
  dsimp only
  sl_unfold_words
  rw [View.canon_unit_zero hzC]
  simp only [View.readAt_eq_ld, a.harg2.read_unread, a.harg3.read_unread, a.harg4.read_unread, a.harg5.read_unread, a.harg6.read_unread, a.harg7.read_unread, a.harg8.read_unread, a.harg9.read_unread, a.harg10.read_unread, a.harg11.read_unread, a.harg12.read_unread, a.harg13.read_unread, a.harg14.read_unread, a.harg15.read_unread, a.harg16.read_unread, a.harg17.read_unread, a.harg18.read_unread, a.harg19.read_unread, a.harg20.read_unread, a.harg21.read_unread,
    View.readCov_unit_zero (S := S512x1) _ hzC,
    View.ld_unit_zero (S := S512x2048) hzC, View.ld_unit_zero (S := S256x2048) hzC, View.ld_unit_zero (S := S1x256) hzC,
    View.ld_unit_zero (S := S512x4096) hzC, View.ld_unit_zero (S := S256x4096) hzC, View.ld_unit_zero (S := S512x256) hzC,
    View.ld_unit_zero (S := S512x1) hzC]

theorem out0_C_9_eq :
    out0_C_9 c i a hc0 hc1 x0 x1 x2 x3 x4 x5 x6 xs0 xs1 xs2 xs3 xs4 xs5 xs6
      = k0_pay5 (k0_pay2 (k0_pay25 (k0_pay15 x3 x4 x5) xs4)) (k0_pay1 (k0_pay26 (k0_pay15 x3 x4 x5) xs4 xs4 xs5)) := by
  unfold out0_C_9
  rw [View.read_writes_eq_canon _ _ _ (cover0_C_9 c i a hc0 hc1 x0 x1 x2 x3 x4 x5 x6 xs0 xs1 xs2 xs3 xs4 xs5 xs6)]
  unfold kernelRun0_C
  dsimp only
  sl_unfold_words
  rw [View.canon_unit_zero hzC]
  simp only [View.readAt_eq_ld, a.harg2.read_unread, a.harg3.read_unread, a.harg4.read_unread, a.harg5.read_unread, a.harg6.read_unread, a.harg7.read_unread, a.harg8.read_unread, a.harg9.read_unread, a.harg10.read_unread, a.harg11.read_unread, a.harg12.read_unread, a.harg13.read_unread, a.harg14.read_unread, a.harg15.read_unread, a.harg16.read_unread, a.harg17.read_unread, a.harg18.read_unread, a.harg19.read_unread, a.harg20.read_unread, a.harg21.read_unread,
    View.readCov_unit_zero (S := S512x1) _ hzC,
    View.ld_unit_zero (S := S512x2048) hzC, View.ld_unit_zero (S := S256x2048) hzC, View.ld_unit_zero (S := S1x256) hzC,
    View.ld_unit_zero (S := S512x4096) hzC, View.ld_unit_zero (S := S256x4096) hzC, View.ld_unit_zero (S := S512x256) hzC,
    View.ld_unit_zero (S := S512x1) hzC]

theorem out0_C_10_eq :
    out0_C_10 c i a hc0 hc1 x0 x1 x2 x3 x4 x5 x6 xs0 xs1 xs2 xs3 xs4 xs5 xs6
      = k0_pay14 x0 x1 x2 := by
  unfold out0_C_10
  rw [View.read_writes_eq_canon _ _ _ (cover0_C_10 c i a hc0 hc1 x0 x1 x2 x3 x4 x5 x6 xs0 xs1 xs2 xs3 xs4 xs5 xs6)]
  unfold kernelRun0_C
  dsimp only
  sl_unfold_words
  rw [View.canon_unit_zero hzC]
  simp only [View.readAt_eq_ld, a.harg2.read_unread, a.harg3.read_unread, a.harg4.read_unread, a.harg5.read_unread, a.harg6.read_unread, a.harg7.read_unread, a.harg8.read_unread, a.harg9.read_unread, a.harg10.read_unread, a.harg11.read_unread, a.harg12.read_unread, a.harg13.read_unread, a.harg14.read_unread, a.harg15.read_unread, a.harg16.read_unread, a.harg17.read_unread, a.harg18.read_unread, a.harg19.read_unread, a.harg20.read_unread, a.harg21.read_unread,
    View.readCov_unit_zero (S := S512x1) _ hzC,
    View.ld_unit_zero (S := S512x2048) hzC, View.ld_unit_zero (S := S256x2048) hzC, View.ld_unit_zero (S := S1x256) hzC,
    View.ld_unit_zero (S := S512x4096) hzC, View.ld_unit_zero (S := S256x4096) hzC, View.ld_unit_zero (S := S512x256) hzC,
    View.ld_unit_zero (S := S512x1) hzC]

theorem out0_C_11_eq :
    out0_C_11 c i a hc0 hc1 x0 x1 x2 x3 x4 x5 x6 xs0 xs1 xs2 xs3 xs4 xs5 xs6
      = k0_pay15 x3 x4 x5 := by
  unfold out0_C_11
  rw [View.read_writes_eq_canon _ _ _ (cover0_C_11 c i a hc0 hc1 x0 x1 x2 x3 x4 x5 x6 xs0 xs1 xs2 xs3 xs4 xs5 xs6)]
  unfold kernelRun0_C
  dsimp only
  sl_unfold_words
  rw [View.canon_unit_zero hzC]
  simp only [View.readAt_eq_ld, a.harg2.read_unread, a.harg3.read_unread, a.harg4.read_unread, a.harg5.read_unread, a.harg6.read_unread, a.harg7.read_unread, a.harg8.read_unread, a.harg9.read_unread, a.harg10.read_unread, a.harg11.read_unread, a.harg12.read_unread, a.harg13.read_unread, a.harg14.read_unread, a.harg15.read_unread, a.harg16.read_unread, a.harg17.read_unread, a.harg18.read_unread, a.harg19.read_unread, a.harg20.read_unread, a.harg21.read_unread,
    View.readCov_unit_zero (S := S512x1) _ hzC,
    View.ld_unit_zero (S := S512x2048) hzC, View.ld_unit_zero (S := S256x2048) hzC, View.ld_unit_zero (S := S1x256) hzC,
    View.ld_unit_zero (S := S512x4096) hzC, View.ld_unit_zero (S := S256x4096) hzC, View.ld_unit_zero (S := S512x256) hzC,
    View.ld_unit_zero (S := S512x1) hzC]

theorem out0_C_12_eq :
    out0_C_12 c i a hc0 hc1 x0 x1 x2 x3 x4 x5 x6 xs0 xs1 xs2 xs3 xs4 xs5 xs6
      = k0_pay17 (k0_pay13 x0 x1 x2) (iota .tc S512x256 32 [1] iota_S512x256_d1_w32) (k0_pay16 i) x6 xs6 := by
  unfold out0_C_12
  rw [View.read_writes_eq_canon _ _ _ (cover0_C_12 c i a hc0 hc1 x0 x1 x2 x3 x4 x5 x6 xs0 xs1 xs2 xs3 xs4 xs5 xs6)]
  unfold kernelRun0_C
  dsimp only
  sl_unfold_words
  rw [View.canon_unit_zero hzC]
  simp only [View.readAt_eq_ld, a.harg2.read_unread, a.harg3.read_unread, a.harg4.read_unread, a.harg5.read_unread, a.harg6.read_unread, a.harg7.read_unread, a.harg8.read_unread, a.harg9.read_unread, a.harg10.read_unread, a.harg11.read_unread, a.harg12.read_unread, a.harg13.read_unread, a.harg14.read_unread, a.harg15.read_unread, a.harg16.read_unread, a.harg17.read_unread, a.harg18.read_unread, a.harg19.read_unread, a.harg20.read_unread, a.harg21.read_unread,
    View.readCov_unit_zero (S := S512x1) _ hzC,
    View.ld_unit_zero (S := S512x2048) hzC, View.ld_unit_zero (S := S256x2048) hzC, View.ld_unit_zero (S := S1x256) hzC,
    View.ld_unit_zero (S := S512x4096) hzC, View.ld_unit_zero (S := S256x4096) hzC, View.ld_unit_zero (S := S512x256) hzC,
    View.ld_unit_zero (S := S512x1) hzC]

theorem sout0_C_0_eq :
    sout0_C_0 c i a hc0 hc1 x0 x1 x2 x3 x4 x5 x6 xs0 xs1 xs2 xs3 xs4 xs5 xs6
      = k0_pay20 (k0_pay13 x0 x1 x2) xs0 := by
  unfold sout0_C_0
  rw [View.read_writes_eq_canon _ _ _ (scover0_C_0 c i a hc0 hc1 x0 x1 x2 x3 x4 x5 x6 xs0 xs1 xs2 xs3 xs4 xs5 xs6)]
  unfold kernelRun0_C
  dsimp only
  sl_unfold_words
  rw [View.canon_unit_zero hzC]
  simp only [View.readAt_eq_ld, a.harg2.read_unread, a.harg3.read_unread, a.harg4.read_unread, a.harg5.read_unread, a.harg6.read_unread, a.harg7.read_unread, a.harg8.read_unread, a.harg9.read_unread, a.harg10.read_unread, a.harg11.read_unread, a.harg12.read_unread, a.harg13.read_unread, a.harg14.read_unread, a.harg15.read_unread, a.harg16.read_unread, a.harg17.read_unread, a.harg18.read_unread, a.harg19.read_unread, a.harg20.read_unread, a.harg21.read_unread,
    View.readCov_unit_zero (S := S512x1) _ hzC,
    View.ld_unit_zero (S := S512x2048) hzC, View.ld_unit_zero (S := S256x2048) hzC, View.ld_unit_zero (S := S1x256) hzC,
    View.ld_unit_zero (S := S512x4096) hzC, View.ld_unit_zero (S := S256x4096) hzC, View.ld_unit_zero (S := S512x256) hzC,
    View.ld_unit_zero (S := S512x1) hzC]

theorem sout0_C_1_eq :
    sout0_C_1 c i a hc0 hc1 x0 x1 x2 x3 x4 x5 x6 xs0 xs1 xs2 xs3 xs4 xs5 xs6
      = k0_pay19 (k0_pay13 x0 x1 x2) xs0 xs0 xs1 := by
  unfold sout0_C_1
  rw [View.read_writes_eq_canon _ _ _ (scover0_C_1 c i a hc0 hc1 x0 x1 x2 x3 x4 x5 x6 xs0 xs1 xs2 xs3 xs4 xs5 xs6)]
  unfold kernelRun0_C
  dsimp only
  sl_unfold_words
  rw [View.canon_unit_zero hzC]
  simp only [View.readAt_eq_ld, a.harg2.read_unread, a.harg3.read_unread, a.harg4.read_unread, a.harg5.read_unread, a.harg6.read_unread, a.harg7.read_unread, a.harg8.read_unread, a.harg9.read_unread, a.harg10.read_unread, a.harg11.read_unread, a.harg12.read_unread, a.harg13.read_unread, a.harg14.read_unread, a.harg15.read_unread, a.harg16.read_unread, a.harg17.read_unread, a.harg18.read_unread, a.harg19.read_unread, a.harg20.read_unread, a.harg21.read_unread,
    View.readCov_unit_zero (S := S512x1) _ hzC,
    View.ld_unit_zero (S := S512x2048) hzC, View.ld_unit_zero (S := S256x2048) hzC, View.ld_unit_zero (S := S1x256) hzC,
    View.ld_unit_zero (S := S512x4096) hzC, View.ld_unit_zero (S := S256x4096) hzC, View.ld_unit_zero (S := S512x256) hzC,
    View.ld_unit_zero (S := S512x1) hzC]

theorem sout0_C_2_eq :
    sout0_C_2 c i a hc0 hc1 x0 x1 x2 x3 x4 x5 x6 xs0 xs1 xs2 xs3 xs4 xs5 xs6
      = k0_pay24 (k0_pay21 (k0_pay14 x0 x1 x2)) xs2 := by
  unfold sout0_C_2
  rw [View.read_writes_eq_canon _ _ _ (scover0_C_2 c i a hc0 hc1 x0 x1 x2 x3 x4 x5 x6 xs0 xs1 xs2 xs3 xs4 xs5 xs6)]
  unfold kernelRun0_C
  dsimp only
  sl_unfold_words
  rw [View.canon_unit_zero hzC]
  simp only [View.readAt_eq_ld, a.harg2.read_unread, a.harg3.read_unread, a.harg4.read_unread, a.harg5.read_unread, a.harg6.read_unread, a.harg7.read_unread, a.harg8.read_unread, a.harg9.read_unread, a.harg10.read_unread, a.harg11.read_unread, a.harg12.read_unread, a.harg13.read_unread, a.harg14.read_unread, a.harg15.read_unread, a.harg16.read_unread, a.harg17.read_unread, a.harg18.read_unread, a.harg19.read_unread, a.harg20.read_unread, a.harg21.read_unread,
    View.readCov_unit_zero (S := S512x1) _ hzC,
    View.ld_unit_zero (S := S512x2048) hzC, View.ld_unit_zero (S := S256x2048) hzC, View.ld_unit_zero (S := S1x256) hzC,
    View.ld_unit_zero (S := S512x4096) hzC, View.ld_unit_zero (S := S256x4096) hzC, View.ld_unit_zero (S := S512x256) hzC,
    View.ld_unit_zero (S := S512x1) hzC]

theorem sout0_C_3_eq :
    sout0_C_3 c i a hc0 hc1 x0 x1 x2 x3 x4 x5 x6 xs0 xs1 xs2 xs3 xs4 xs5 xs6
      = k0_pay23 (k0_pay14 x0 x1 x2) (k0_pay21 (k0_pay14 x0 x1 x2)) xs2 xs2 xs3 := by
  unfold sout0_C_3
  rw [View.read_writes_eq_canon _ _ _ (scover0_C_3 c i a hc0 hc1 x0 x1 x2 x3 x4 x5 x6 xs0 xs1 xs2 xs3 xs4 xs5 xs6)]
  unfold kernelRun0_C
  dsimp only
  sl_unfold_words
  rw [View.canon_unit_zero hzC]
  simp only [View.readAt_eq_ld, a.harg2.read_unread, a.harg3.read_unread, a.harg4.read_unread, a.harg5.read_unread, a.harg6.read_unread, a.harg7.read_unread, a.harg8.read_unread, a.harg9.read_unread, a.harg10.read_unread, a.harg11.read_unread, a.harg12.read_unread, a.harg13.read_unread, a.harg14.read_unread, a.harg15.read_unread, a.harg16.read_unread, a.harg17.read_unread, a.harg18.read_unread, a.harg19.read_unread, a.harg20.read_unread, a.harg21.read_unread,
    View.readCov_unit_zero (S := S512x1) _ hzC,
    View.ld_unit_zero (S := S512x2048) hzC, View.ld_unit_zero (S := S256x2048) hzC, View.ld_unit_zero (S := S1x256) hzC,
    View.ld_unit_zero (S := S512x4096) hzC, View.ld_unit_zero (S := S256x4096) hzC, View.ld_unit_zero (S := S512x256) hzC,
    View.ld_unit_zero (S := S512x1) hzC]

theorem sout0_C_4_eq :
    sout0_C_4 c i a hc0 hc1 x0 x1 x2 x3 x4 x5 x6 xs0 xs1 xs2 xs3 xs4 xs5 xs6
      = k0_pay2 (k0_pay25 (k0_pay15 x3 x4 x5) xs4) := by
  unfold sout0_C_4
  rw [View.read_writes_eq_canon _ _ _ (scover0_C_4 c i a hc0 hc1 x0 x1 x2 x3 x4 x5 x6 xs0 xs1 xs2 xs3 xs4 xs5 xs6)]
  unfold kernelRun0_C
  dsimp only
  sl_unfold_words
  rw [View.canon_unit_zero hzC]
  simp only [View.readAt_eq_ld, a.harg2.read_unread, a.harg3.read_unread, a.harg4.read_unread, a.harg5.read_unread, a.harg6.read_unread, a.harg7.read_unread, a.harg8.read_unread, a.harg9.read_unread, a.harg10.read_unread, a.harg11.read_unread, a.harg12.read_unread, a.harg13.read_unread, a.harg14.read_unread, a.harg15.read_unread, a.harg16.read_unread, a.harg17.read_unread, a.harg18.read_unread, a.harg19.read_unread, a.harg20.read_unread, a.harg21.read_unread,
    View.readCov_unit_zero (S := S512x1) _ hzC,
    View.ld_unit_zero (S := S512x2048) hzC, View.ld_unit_zero (S := S256x2048) hzC, View.ld_unit_zero (S := S1x256) hzC,
    View.ld_unit_zero (S := S512x4096) hzC, View.ld_unit_zero (S := S256x4096) hzC, View.ld_unit_zero (S := S512x256) hzC,
    View.ld_unit_zero (S := S512x1) hzC]

theorem sout0_C_5_eq :
    sout0_C_5 c i a hc0 hc1 x0 x1 x2 x3 x4 x5 x6 xs0 xs1 xs2 xs3 xs4 xs5 xs6
      = k0_pay1 (k0_pay26 (k0_pay15 x3 x4 x5) xs4 xs4 xs5) := by
  unfold sout0_C_5
  rw [View.read_writes_eq_canon _ _ _ (scover0_C_5 c i a hc0 hc1 x0 x1 x2 x3 x4 x5 x6 xs0 xs1 xs2 xs3 xs4 xs5 xs6)]
  unfold kernelRun0_C
  dsimp only
  sl_unfold_words
  rw [View.canon_unit_zero hzC]
  simp only [View.readAt_eq_ld, a.harg2.read_unread, a.harg3.read_unread, a.harg4.read_unread, a.harg5.read_unread, a.harg6.read_unread, a.harg7.read_unread, a.harg8.read_unread, a.harg9.read_unread, a.harg10.read_unread, a.harg11.read_unread, a.harg12.read_unread, a.harg13.read_unread, a.harg14.read_unread, a.harg15.read_unread, a.harg16.read_unread, a.harg17.read_unread, a.harg18.read_unread, a.harg19.read_unread, a.harg20.read_unread, a.harg21.read_unread,
    View.readCov_unit_zero (S := S512x1) _ hzC,
    View.ld_unit_zero (S := S512x2048) hzC, View.ld_unit_zero (S := S256x2048) hzC, View.ld_unit_zero (S := S1x256) hzC,
    View.ld_unit_zero (S := S512x4096) hzC, View.ld_unit_zero (S := S256x4096) hzC, View.ld_unit_zero (S := S512x256) hzC,
    View.ld_unit_zero (S := S512x1) hzC]

theorem sout0_C_6_eq :
    sout0_C_6 c i a hc0 hc1 x0 x1 x2 x3 x4 x5 x6 xs0 xs1 xs2 xs3 xs4 xs5 xs6
      = k0_pay17 (k0_pay13 x0 x1 x2) (iota .tc S512x256 32 [1] iota_S512x256_d1_w32) (k0_pay16 i) x6 xs6 := by
  unfold sout0_C_6
  rw [View.read_writes_eq_canon _ _ _ (scover0_C_6 c i a hc0 hc1 x0 x1 x2 x3 x4 x5 x6 xs0 xs1 xs2 xs3 xs4 xs5 xs6)]
  unfold kernelRun0_C
  dsimp only
  sl_unfold_words
  rw [View.canon_unit_zero hzC]
  simp only [View.readAt_eq_ld, a.harg2.read_unread, a.harg3.read_unread, a.harg4.read_unread, a.harg5.read_unread, a.harg6.read_unread, a.harg7.read_unread, a.harg8.read_unread, a.harg9.read_unread, a.harg10.read_unread, a.harg11.read_unread, a.harg12.read_unread, a.harg13.read_unread, a.harg14.read_unread, a.harg15.read_unread, a.harg16.read_unread, a.harg17.read_unread, a.harg18.read_unread, a.harg19.read_unread, a.harg20.read_unread, a.harg21.read_unread,
    View.readCov_unit_zero (S := S512x1) _ hzC,
    View.ld_unit_zero (S := S512x2048) hzC, View.ld_unit_zero (S := S256x2048) hzC, View.ld_unit_zero (S := S1x256) hzC,
    View.ld_unit_zero (S := S512x4096) hzC, View.ld_unit_zero (S := S256x4096) hzC, View.ld_unit_zero (S := S512x256) hzC,
    View.ld_unit_zero (S := S512x1) hzC]

theorem outs0_C_eq :
    outs0_C c i a hc0 hc1 x0 x1 x2 x3 x4 x5 x6 xs0 xs1 xs2 xs3 xs4 xs5 xs6
      = (Step.finS (Step.step0 i x0 x1 x2 x3 x4 x5 x6 ⟨xs0, xs1, xs2, xs3, xs4, xs5, xs6⟩), Step.finST (Step.step0 i x0 x1 x2 x3 x4 x5 x6 ⟨xs0, xs1, xs2, xs3, xs4, xs5, xs6⟩), Step.finTT (Step.step0 i x0 x1 x2 x3 x4 x5 x6 ⟨xs0, xs1, xs2, xs3, xs4, xs5, xs6⟩), Step.tileST x0 x1 x2, Step.tileTT x3 x4 x5,
          (Step.step0 i x0 x1 x2 x3 x4 x5 x6 ⟨xs0, xs1, xs2, xs3, xs4, xs5, xs6⟩).acc, (Step.step0 i x0 x1 x2 x3 x4 x5 x6 ⟨xs0, xs1, xs2, xs3, xs4, xs5, xs6⟩).ms, (Step.step0 i x0 x1 x2 x3 x4 x5 x6 ⟨xs0, xs1, xs2, xs3, xs4, xs5, xs6⟩).es, (Step.step0 i x0 x1 x2 x3 x4 x5 x6 ⟨xs0, xs1, xs2, xs3, xs4, xs5, xs6⟩).msT, (Step.step0 i x0 x1 x2 x3 x4 x5 x6 ⟨xs0, xs1, xs2, xs3, xs4, xs5, xs6⟩).esT, (Step.step0 i x0 x1 x2 x3 x4 x5 x6 ⟨xs0, xs1, xs2, xs3, xs4, xs5, xs6⟩).mtT, (Step.step0 i x0 x1 x2 x3 x4 x5 x6 ⟨xs0, xs1, xs2, xs3, xs4, xs5, xs6⟩).etT, (Step.step0 i x0 x1 x2 x3 x4 x5 x6 ⟨xs0, xs1, xs2, xs3, xs4, xs5, xs6⟩).acc) := by
  unfold outs0_C
  rw [out0_C_7_eq, out0_C_8_eq, out0_C_9_eq, out0_C_10_eq, out0_C_11_eq, out0_C_12_eq, sout0_C_0_eq, sout0_C_1_eq, sout0_C_2_eq, sout0_C_3_eq, sout0_C_4_eq, sout0_C_5_eq, sout0_C_6_eq]
  rfl

end C

end Cert.KernelIdeal.R0

end
-- ==== Proof.Spec.lean ====
import Idealize.ShloMosaic.PureOps.Ideal
import Idealize.ShloMosaic.Lib.ValueIdx

noncomputable section

namespace Cert.Spec

open Idealize.ShloMosaic Idealize.ShloMosaic.ValueIdx

structure Args where
  X : Fin 2048 → Fin 2048 → ℝ
  Ws : Fin 32000 → Fin 2048 → ℝ
  Bs : Fin 32000 → ℝ
  Xt : Fin 2048 → Fin 4096 → ℝ
  Wt : Fin 32000 → Fin 4096 → ℝ
  Bt : Fin 32000 → ℝ
  Tg : Fin 2048 → BitVec 32

abbrev ignoreWord : BitVec 32 := 4294967196#32

def sl (a : Args) (n : Fin 2048) (v : Fin 32000) : ℝ := (∑ k : Fin 2048, a.X n k * a.Ws v k) + a.Bs v

def tl (a : Args) (n : Fin 2048) (v : Fin 32000) : ℝ := (∑ k : Fin 4096, a.Xt n k * a.Wt v k) + a.Bt v

def lse (f : Fin 32000 → ℝ) : ℝ := Real.log (∑ v : Fin 32000, Real.exp (f v))

def tgtLogit (a : Args) (n : Fin 2048) : ℝ :=
  ∑ v : Fin 32000, if BitVec.ofNat 32 v.val = a.Tg n then sl a n v else 0

def nll (a : Args) (n : Fin 2048) : ℝ :=
  if a.Tg n = ignoreWord then 0 else lse (sl a n) - tgtLogit a n

def hard (a : Args) : ℝ := (∑ n : Fin 2048, nll a n) / 2048

def sp (a : Args) (n : Fin 2048) (v : Fin 32000) : ℝ := sl a n v / 2 - lse (fun v => sl a n v / 2)
def tp (a : Args) (n : Fin 2048) (v : Fin 32000) : ℝ := tl a n v / 2 - lse (fun v => tl a n v / 2)

def logm (a : Args) (n : Fin 2048) (v : Fin 32000) : ℝ :=
  Real.log (1 / 2 * Real.exp (sp a n v) + 1 / 2 * Real.exp (tp a n v))

def kls (a : Args) (n : Fin 2048) (v : Fin 32000) : ℝ := Real.exp (sp a n v) * (sp a n v - logm a n v)
def klt (a : Args) (n : Fin 2048) (v : Fin 32000) : ℝ := Real.exp (tp a n v) * (tp a n v - logm a n v)

def jsdRow (a : Args) (n : Fin 2048) : ℝ :=
  1 / 2 * (∑ v : Fin 32000, kls a n v) + 1 / 2 * (∑ v : Fin 32000, klt a n v)

def soft (a : Args) : ℝ := (∑ n : Fin 2048, jsdRow a n) / 2048

def result (a : Args) : ℝ := 1 / 2 * hard a + 1 / 2 * soft a

def AllReal {s : Shape} (x : s.Idx → EReal) : Prop := ∀ i, x i = ((x i).toReal : EReal)

def LabelsOk (t : (⟨1, ![2048]⟩ : Shape).Idx → BitVec 32) : Prop :=
  ∀ n : Fin 2048, (t (ix1 n)).toNat < 32000 ∨ t (ix1 n) = ignoreWord

def argsOf (x : (⟨2, ![2048, 2048]⟩ : Shape).Idx → EReal) (ws : (⟨2, ![32000, 2048]⟩ : Shape).Idx → EReal)
    (bs : (⟨1, ![32000]⟩ : Shape).Idx → EReal) (xt : (⟨2, ![2048, 4096]⟩ : Shape).Idx → EReal)
    (wt : (⟨2, ![32000, 4096]⟩ : Shape).Idx → EReal) (bt : (⟨1, ![32000]⟩ : Shape).Idx → EReal)
    (tg : (⟨1, ![2048]⟩ : Shape).Idx → BitVec 32) : Args where
  X n k := (x (ix2 n k)).toReal
  Ws v k := (ws (ix2 v k)).toReal
  Bs v := (bs (ix1 v)).toReal
  Xt n k := (xt (ix2 n k)).toReal
  Wt v k := (wt (ix2 v k)).toReal
  Bt v := (bt (ix1 v)).toReal
  Tg n := tg (ix1 n)

end Cert.Spec

end
-- ==== Proof.V0Tiles.lean ====
import proofs.«422162_j56092272886459_3_alg».proof.Proof.Step
import proofs.«422162_j56092272886459_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.V0

open Cert.KernelIdeal Cert.KernelIdeal.Gen Cert.KernelIdeal.Step Cert.Spec Idealize.ShloMosaic
  Idealize.ShloMosaic.ValueIdx

def rowOf (nn : Fin 4) (r : Fin 512) : Fin 2048 := ⟨nn.val * 512 + r.val, by omega⟩

def colOf (v : Fin 125) (q : Fin 256) : Fin 32000 := ⟨v.val * 256 + q.val, by omega⟩

structure Blocks (a : Args) (nn : Fin 4) (v : Fin 125) (x0 : Vec Ideal S512x2048 .bf16)
    (x1 : Vec Ideal S256x2048 .bf16) (x2 : Vec Ideal S1x256 .f32) (x3 : Vec Ideal S512x4096 .bf16)
    (x4 : Vec Ideal S256x4096 .bf16) (x5 : Vec Ideal S1x256 .f32) (x6 : Vec Ideal S512x1 .i32) : Prop where
  h0 : ∀ (r : Fin 512) (k : Fin 2048), x0 (ix2 r k) = ((a.X (rowOf nn r) k : ℝ) : EReal)
  h1 : ∀ (q : Fin 256) (k : Fin 2048), x1 (ix2 q k) = ((a.Ws (colOf v q) k : ℝ) : EReal)
  h2 : ∀ q : Fin 256, x2 (ix2 (0 : Fin 1) q) = ((a.Bs (colOf v q) : ℝ) : EReal)
  h3 : ∀ (r : Fin 512) (k : Fin 4096), x3 (ix2 r k) = ((a.Xt (rowOf nn r) k : ℝ) : EReal)
  h4 : ∀ (q : Fin 256) (k : Fin 4096), x4 (ix2 q k) = ((a.Wt (colOf v q) k : ℝ) : EReal)
  h5 : ∀ q : Fin 256, x5 (ix2 (0 : Fin 1) q) = ((a.Bt (colOf v q) : ℝ) : EReal)
  h6 : ∀ r : Fin 512, x6 (ix2 r (0 : Fin 1)) = a.Tg (rowOf nn r)

theorem coe_sum {ι : Type} (s : Finset ι) (f : ι → ℝ) :
    ((∑ i ∈ s, f i : ℝ) : EReal) = ∑ i ∈ s, ((f i : ℝ) : EReal) := by
  classical
  induction s using Finset.induction_on with
  | empty => simp
  | insert i s hi ih => rw [Finset.sum_insert hi, Finset.sum_insert hi, EReal.coe_add, ih]

theorem ofBits_half : Ideal.ofBits .f32 0x3F000000#32 = (((1 : ℝ) / 2 : ℝ) : EReal) := by
  simp [Ideal.ofBits, Ideal.ieee, -EReal.coe_mul]; norm_num

theorem lhsS_0 (i : S512x256.Idx) (q : dot_S512x2048_S2048x256_S512x256_1_0_0_1_n_n.contr.Idx) :
    (dot_S512x2048_S2048x256_S512x256_1_0_0_1_n_n.lhsIdx i q 0).val = (i 0).val := by
  unfold DotDims.lhsIdx
  rw [dif_neg (show ¬(0 : Fin S512x2048.rank) ∈ dot_S512x2048_S2048x256_S512x256_1_0_0_1_n_n.lhsBatch by decide),
    dif_pos (show (0 : Fin S512x2048.rank) ∈ dot_S512x2048_S2048x256_S512x256_1_0_0_1_n_n.lhsNonContracting by decide)]
  rfl
theorem lhsS_1 (i : S512x256.Idx) (q : dot_S512x2048_S2048x256_S512x256_1_0_0_1_n_n.contr.Idx) :
    (dot_S512x2048_S2048x256_S512x256_1_0_0_1_n_n.lhsIdx i q 1).val = (q ⟨0, by decide⟩).val :=
  dot_S512x2048_S2048x256_S512x256_1_0_0_1_n_n.lhsIdx_val_of_single rfl i q
theorem rhsS_0 (i : S512x256.Idx) (q : dot_S512x2048_S2048x256_S512x256_1_0_0_1_n_n.contr.Idx) :
    (dot_S512x2048_S2048x256_S512x256_1_0_0_1_n_n.rhsIdx i q 0).val = (q ⟨0, by decide⟩).val :=
  dot_S512x2048_S2048x256_S512x256_1_0_0_1_n_n.rhsIdx_val_of_single rfl i q
theorem rhsS_1 (i : S512x256.Idx) (q : dot_S512x2048_S2048x256_S512x256_1_0_0_1_n_n.contr.Idx) :
    (dot_S512x2048_S2048x256_S512x256_1_0_0_1_n_n.rhsIdx i q 1).val = (i 1).val := by
  unfold DotDims.rhsIdx
  rw [dif_neg (show ¬(1 : Fin S2048x256.rank) ∈ dot_S512x2048_S2048x256_S512x256_1_0_0_1_n_n.rhsBatch by decide),
    dif_pos (show (1 : Fin S2048x256.rank) ∈ dot_S512x2048_S2048x256_S512x256_1_0_0_1_n_n.rhsNonContracting by decide)]
  rfl

theorem matS_apply (x : FVec Ideal S512x2048 .bf16) (w : FVec Ideal S2048x256 .bf16) (r : Fin 512) (q : Fin 256) :
    matmul dot_S512x2048_S2048x256_S512x256_1_0_0_1_n_n none x w (constant (F := Ideal) S512x256 .f32 0x00000000#32)
        (ix2 r q) = ∑ k : Fin 2048, x (ix2 r k) * w (ix2 k q) := by
  simp only [matmul]
  rw [Ideal.matmul_constant_zero_apply,
    ← Equiv.sum_comp (contrEquiv1 dot_S512x2048_S2048x256_S512x256_1_0_0_1_n_n 2048 rfl rfl).symm]
  refine Finset.sum_congr rfl fun k _ => ?_
  have hk := contrEquiv1_symm_val dot_S512x2048_S2048x256_S512x256_1_0_0_1_n_n 2048 rfl rfl k
  have el : dot_S512x2048_S2048x256_S512x256_1_0_0_1_n_n.lhsIdx (ix2 r q)
      ((contrEquiv1 dot_S512x2048_S2048x256_S512x256_1_0_0_1_n_n 2048 rfl rfl).symm k) = ix2 r k :=
    funext fun a => Fin.ext (by
      match a with
      | ⟨0, _⟩ => exact lhsS_0 _ _
      | ⟨1, _⟩ => exact (lhsS_1 _ _).trans hk)
  have er : dot_S512x2048_S2048x256_S512x256_1_0_0_1_n_n.rhsIdx (ix2 r q)
      ((contrEquiv1 dot_S512x2048_S2048x256_S512x256_1_0_0_1_n_n 2048 rfl rfl).symm k) = ix2 k q :=
    funext fun a => Fin.ext (by
      match a with
      | ⟨0, _⟩ => exact (rhsS_0 _ _).trans hk
      | ⟨1, _⟩ => exact rhsS_1 _ _)
  rw [el, er]

theorem lhsT_0 (i : S512x256.Idx) (q : dot_S512x4096_S4096x256_S512x256_1_0_0_1_n_n.contr.Idx) :
    (dot_S512x4096_S4096x256_S512x256_1_0_0_1_n_n.lhsIdx i q 0).val = (i 0).val := by
  unfold DotDims.lhsIdx
  rw [dif_neg (show ¬(0 : Fin S512x4096.rank) ∈ dot_S512x4096_S4096x256_S512x256_1_0_0_1_n_n.lhsBatch by decide),
    dif_pos (show (0 : Fin S512x4096.rank) ∈ dot_S512x4096_S4096x256_S512x256_1_0_0_1_n_n.lhsNonContracting by decide)]
  rfl
theorem lhsT_1 (i : S512x256.Idx) (q : dot_S512x4096_S4096x256_S512x256_1_0_0_1_n_n.contr.Idx) :
    (dot_S512x4096_S4096x256_S512x256_1_0_0_1_n_n.lhsIdx i q 1).val = (q ⟨0, by decide⟩).val :=
  dot_S512x4096_S4096x256_S512x256_1_0_0_1_n_n.lhsIdx_val_of_single rfl i q
theorem rhsT_0 (i : S512x256.Idx) (q : dot_S512x4096_S4096x256_S512x256_1_0_0_1_n_n.contr.Idx) :
    (dot_S512x4096_S4096x256_S512x256_1_0_0_1_n_n.rhsIdx i q 0).val = (q ⟨0, by decide⟩).val :=
  dot_S512x4096_S4096x256_S512x256_1_0_0_1_n_n.rhsIdx_val_of_single rfl i q
theorem rhsT_1 (i : S512x256.Idx) (q : dot_S512x4096_S4096x256_S512x256_1_0_0_1_n_n.contr.Idx) :
    (dot_S512x4096_S4096x256_S512x256_1_0_0_1_n_n.rhsIdx i q 1).val = (i 1).val := by
  unfold DotDims.rhsIdx
  rw [dif_neg (show ¬(1 : Fin S4096x256.rank) ∈ dot_S512x4096_S4096x256_S512x256_1_0_0_1_n_n.rhsBatch by decide),
    dif_pos (show (1 : Fin S4096x256.rank) ∈ dot_S512x4096_S4096x256_S512x256_1_0_0_1_n_n.rhsNonContracting by decide)]
  rfl

theorem matT_apply (x : FVec Ideal S512x4096 .bf16) (w : FVec Ideal S4096x256 .bf16) (r : Fin 512) (q : Fin 256) :
    matmul dot_S512x4096_S4096x256_S512x256_1_0_0_1_n_n none x w (constant (F := Ideal) S512x256 .f32 0x00000000#32)
        (ix2 r q) = ∑ k : Fin 4096, x (ix2 r k) * w (ix2 k q) := by
  simp only [matmul]
  rw [Ideal.matmul_constant_zero_apply,
    ← Equiv.sum_comp (contrEquiv1 dot_S512x4096_S4096x256_S512x256_1_0_0_1_n_n 4096 rfl rfl).symm]
  refine Finset.sum_congr rfl fun k _ => ?_
  have hk := contrEquiv1_symm_val dot_S512x4096_S4096x256_S512x256_1_0_0_1_n_n 4096 rfl rfl k
  have el : dot_S512x4096_S4096x256_S512x256_1_0_0_1_n_n.lhsIdx (ix2 r q)
      ((contrEquiv1 dot_S512x4096_S4096x256_S512x256_1_0_0_1_n_n 4096 rfl rfl).symm k) = ix2 r k :=
    funext fun a => Fin.ext (by
      match a with
      | ⟨0, _⟩ => exact lhsT_0 _ _
      | ⟨1, _⟩ => exact (lhsT_1 _ _).trans hk)
  have er : dot_S512x4096_S4096x256_S512x256_1_0_0_1_n_n.rhsIdx (ix2 r q)
      ((contrEquiv1 dot_S512x4096_S4096x256_S512x256_1_0_0_1_n_n 4096 rfl rfl).symm k) = ix2 k q :=
    funext fun a => Fin.ext (by
      match a with
      | ⟨0, _⟩ => exact (rhsT_0 _ _).trans hk
      | ⟨1, _⟩ => exact rhsT_1 _ _)
  rw [el, er]

section
variable {a : Args} {nn : Fin 4} {v : Fin 125} {x0 : Vec Ideal S512x2048 .bf16} {x1 : Vec Ideal S256x2048 .bf16}
  {x2 : Vec Ideal S1x256 .f32} {x3 : Vec Ideal S512x4096 .bf16} {x4 : Vec Ideal S256x4096 .bf16}
  {x5 : Vec Ideal S1x256 .f32} {x6 : Vec Ideal S512x1 .i32}

theorem tileS_eq (hb : Blocks a nn v x0 x1 x2 x3 x4 x5 x6) (r : Fin 512) (q : Fin 256) :
    tileS x0 x1 x2 (ix2 r q) = ((sl a (rowOf nn r) (colOf v q) : ℝ) : EReal) := by
  show k0_pay13 x0 x1 x2 (ix2 r q) = _
  unfold k0_pay13
  dsimp only
  rw [shapeCast_self, shapeCast_self, shapeCast_self, addf_apply, matS_apply, broadcastTo_1b_ab_apply, hb.h2]
  have e : ∀ k : Fin 2048, x0 (ix2 r k)
      * transpose S2048x256 [1, 0] x1 transposes_S256x2048_p1_0_S2048x256 (ix2 k q)
        = ((a.X (rowOf nn r) k * a.Ws (colOf v q) k : ℝ) : EReal) := fun k => by
    rw [transpose_ix2_apply, hb.h0, hb.h1, ← EReal.coe_mul]
  rw [Finset.sum_congr rfl (fun k _ => e k), ← coe_sum, ← EReal.coe_add]
  rfl

theorem tileST_eq (hb : Blocks a nn v x0 x1 x2 x3 x4 x5 x6) (r : Fin 512) (q : Fin 256) :
    tileST x0 x1 x2 (ix2 r q) = ((sl a (rowOf nn r) (colOf v q) / 2 : ℝ) : EReal) := by
  show k0_pay14 x0 x1 x2 (ix2 r q) = _
  unfold k0_pay14
  rw [mulf_apply, broadcast_apply]
  show k0_pay13 x0 x1 x2 (ix2 r q) * Ideal.ofBits .f32 0x3F000000#32 = _
  rw [show k0_pay13 x0 x1 x2 (ix2 r q) = _ from tileS_eq hb r q, ofBits_half, ← EReal.coe_mul]
  exact congrArg _ (by ring)

theorem tileTT_eq (hb : Blocks a nn v x0 x1 x2 x3 x4 x5 x6) (r : Fin 512) (q : Fin 256) :
    tileTT x3 x4 x5 (ix2 r q) = ((tl a (rowOf nn r) (colOf v q) / 2 : ℝ) : EReal) := by
  show k0_pay15 x3 x4 x5 (ix2 r q) = _
  unfold k0_pay15
  dsimp only
  rw [shapeCast_self, shapeCast_self, shapeCast_self, mulf_apply, broadcast_apply, addf_apply, matT_apply,
    broadcastTo_1b_ab_apply, hb.h5]
  have e : ∀ k : Fin 4096, x3 (ix2 r k)
      * transpose S4096x256 [1, 0] x4 transposes_S256x4096_p1_0_S4096x256 (ix2 k q)
        = ((a.Xt (rowOf nn r) k * a.Wt (colOf v q) k : ℝ) : EReal) := fun k => by
    rw [transpose_ix2_apply, hb.h3, hb.h4, ← EReal.coe_mul]
  rw [Finset.sum_congr rfl (fun k _ => e k), ← coe_sum, ← EReal.coe_add]
  show (((∑ k : Fin 4096, a.Xt (rowOf nn r) k * a.Wt (colOf v q) k) + a.Bt (colOf v q) : ℝ) : EReal)
      * Ideal.ofBits .f32 0x3F000000#32 = _
  rw [ofBits_half, ← EReal.coe_mul]
  exact congrArg _ (by unfold tl; ring)

end

end Cert.KernelIdeal.V0

end
-- ==== Proof.V0Math.lean ====
import proofs.«422162_j56092272886459_3_alg».proof.Proof.V0Tiles
import Mathlib.Analysis.SpecialFunctions.Log.Basic

noncomputable section

namespace Cert.KernelIdeal.V0

open Cert.KernelIdeal Cert.KernelIdeal.Gen Cert.KernelIdeal.Step Cert.Spec Idealize.ShloMosaic
  Idealize.ShloMosaic.ValueIdx

theorem sum_block {M : Type} [AddCommMonoid M] (F : Fin 32000 → M) (v : Fin 125) :
    ∑ col : Fin 32000, (if v.val * 256 ≤ col.val ∧ col.val < (v.val + 1) * 256 then F col else 0)
      = ∑ q : Fin 256, F (colOf v q) := by
  rw [← Finset.sum_filter]
  symm
  refine Finset.sum_bij (fun q _ => colOf v q) ?_ ?_ ?_ ?_
  · intro q _
    simp only [Finset.mem_filter, Finset.mem_univ, true_and, colOf]
    have := q.isLt
    omega
  · intro q1 _ q2 _ h
    have h' := congrArg Fin.val h
    simp only [colOf] at h'
    exact Fin.ext (by omega)
  · intro col hcol
    simp only [Finset.mem_filter, Finset.mem_univ, true_and] at hcol
    exact ⟨⟨col.val - v.val * 256, by omega⟩, Finset.mem_univ _, Fin.ext (by simp only [colOf]; omega)⟩
  · intro q _
    rfl

theorem sum_lt_split {M : Type} [AddCommMonoid M] (F : Fin 32000 → M) (v : Fin 125) :
    ∑ col : Fin 32000, (if col.val < (v.val + 1) * 256 then F col else 0)
      = (∑ col : Fin 32000, if col.val < v.val * 256 then F col else 0) + ∑ q : Fin 256, F (colOf v q) := by
  rw [← sum_block F v, ← Finset.sum_add_distrib]
  refine Finset.sum_congr rfl fun col _ => ?_
  by_cases h1 : col.val < v.val * 256
  · have h2 : col.val < (v.val + 1) * 256 := by omega
    have h3 : ¬(v.val * 256 ≤ col.val ∧ col.val < (v.val + 1) * 256) := by omega
    rw [if_pos h1, if_pos h2, if_neg h3, add_zero]
  · by_cases h2 : col.val < (v.val + 1) * 256
    · have h3 : v.val * 256 ≤ col.val ∧ col.val < (v.val + 1) * 256 := by omega
      rw [if_neg h1, if_pos h2, if_pos h3, zero_add]
    · have h3 : ¬(v.val * 256 ≤ col.val ∧ col.val < (v.val + 1) * 256) := by omega
      rw [if_neg h1, if_neg h2, if_neg h3, add_zero]

def psum (f : Fin 32000 → ℝ) (C : ℕ) (M : ℝ) : ℝ :=
  ∑ col : Fin 32000, if col.val < C then Real.exp (f col - M) else 0

theorem psum_zero (f : Fin 32000 → ℝ) (M : ℝ) : psum f 0 M = 0 := by
  unfold psum
  exact Finset.sum_eq_zero fun col _ => if_neg (Nat.not_lt_zero _)

theorem psum_step (f : Fin 32000 → ℝ) (v : Fin 125) (M M' : ℝ) :
    psum f (v.val * 256) M * Real.exp (M - M') + ∑ q : Fin 256, Real.exp (f (colOf v q) - M')
      = psum f ((v.val + 1) * 256) M' := by
  unfold psum
  have e : ∀ col : Fin 32000, (if col.val < v.val * 256 then Real.exp (f col - M) else 0) * Real.exp (M - M')
      = if col.val < v.val * 256 then Real.exp (f col - M') else 0 := fun col => by
    by_cases h : col.val < v.val * 256
    · rw [if_pos h, if_pos h, ← Real.exp_add]
      exact congrArg Real.exp (by ring)
    · rw [if_neg h, if_neg h, zero_mul]
  rw [sum_lt_split (fun col => Real.exp (f col - M')) v, Finset.sum_mul, Finset.sum_congr rfl (fun col _ => e col)]

theorem psum_full (f : Fin 32000 → ℝ) (M : ℝ) : 0 < psum f 32000 M ∧ M + Real.log (psum f 32000 M) = lse f := by
  have e : psum f 32000 M = (∑ col : Fin 32000, Real.exp (f col)) * Real.exp (-M) := by
    unfold psum
    rw [Finset.sum_mul]
    refine Finset.sum_congr rfl fun col _ => ?_
    rw [if_pos col.isLt, ← Real.exp_add]
    exact congrArg Real.exp (by ring)
  have hpos : 0 < ∑ col : Fin 32000, Real.exp (f col) :=
    Finset.sum_pos (fun col _ => Real.exp_pos _) ⟨⟨0, by omega⟩, Finset.mem_univ _⟩
  refine ⟨by rw [e]; exact mul_pos hpos (Real.exp_pos _), ?_⟩
  rw [e, Real.log_mul hpos.ne' (Real.exp_pos _).ne', Real.log_exp]
  unfold lse
  ring

def PairAt (f : Fin 32000 → ℝ) (C : ℕ) (m e : EReal) : Prop :=
  (C = 0 ∧ m = ⊥ ∧ e = 0) ∨ ∃ M : ℝ, m = (M : EReal) ∧ e = ((psum f C M : ℝ) : EReal)

theorem fold_max_coe (g : Fin 256 → ℝ) :
    ∃ T : ℝ, (Finset.univ : Finset (Fin 256)).fold max (⊥ : EReal) (fun q => ((g q : ℝ) : EReal)) = (T : EReal) := by
  have key : ∀ s : Finset (Fin 256), s.Nonempty →
      ∃ T : ℝ, s.fold max (⊥ : EReal) (fun q => ((g q : ℝ) : EReal)) = (T : EReal) := by
    intro s hs
    induction hs using Finset.Nonempty.cons_induction with
    | singleton a => exact ⟨g a, by rw [Finset.fold_singleton]; exact max_bot_right _⟩
    | cons a s ha hs ih =>
      obtain ⟨T, hT⟩ := ih
      exact ⟨max (g a) T, by rw [Finset.fold_cons, hT]; exact (EReal.coe_strictMono.monotone.map_max).symm⟩
  exact key _ ⟨⟨0, by omega⟩, Finset.mem_univ _⟩

theorem pair_step (f : Fin 32000 → ℝ) (v : Fin 125) (m e tm : EReal)
    (htm : tm = (Finset.univ : Finset (Fin 256)).fold max (⊥ : EReal) (fun q => ((f (colOf v q) : ℝ) : EReal)))
    (h : PairAt f (v.val * 256) m e) :
    PairAt f ((v.val + 1) * 256) (max m tm)
      (e * Ideal.exp (m - max m tm) + ∑ q : Fin 256, Ideal.exp (((f (colOf v q) : ℝ) : EReal) - max m tm)) := by
  obtain ⟨T, hT⟩ := fold_max_coe (fun q => f (colOf v q))
  rw [htm, hT]
  have hsum : ∀ M' : ℝ, ∑ q : Fin 256, Ideal.exp (((f (colOf v q) : ℝ) : EReal) - (M' : EReal))
      = ((∑ q : Fin 256, Real.exp (f (colOf v q) - M') : ℝ) : EReal) := fun M' => by
    rw [coe_sum]
    exact Finset.sum_congr rfl fun q _ => by rw [← EReal.coe_sub, Ideal.exp_coe]
  rcases h with ⟨hC, rfl, rfl⟩ | ⟨M, rfl, rfl⟩
  · refine Or.inr ⟨T, max_bot_left _, ?_⟩
    rw [max_bot_left, zero_mul, zero_add, hsum, ← psum_step f v 0 T, hC, psum_zero, zero_mul, zero_add]
  · have hmax : max (M : EReal) (T : EReal) = ((max M T : ℝ) : EReal) :=
      (EReal.coe_strictMono.monotone.map_max).symm
    refine Or.inr ⟨max M T, hmax, ?_⟩
    rw [hmax, hsum, ← EReal.coe_sub, Ideal.exp_coe, ← EReal.coe_mul, ← EReal.coe_add, psum_step]

theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {α : Type} {a b : ℕ} (x : (⟨2, ![a, 1]⟩ : Shape).Idx → α)
    (h : (⟨2, ![a, 1]⟩ : Shape).Broadcasts ⟨2, ![a, b]⟩) (p : Fin a) (c : Fin b) :
    broadcastTo ⟨2, ![a, b]⟩ x h (ix2 p c) = x (ix2 p (0 : Fin 1)) := by
  refine broadcastTo_apply x h (ix2 p c) (ix2 p (0 : Fin 1)) fun ax => ?_
  match ax with
  | ⟨0, _⟩ =>
    show p.val = if a = 1 then 0 else p.val
    split
    · have := p.isLt; omega
    · rfl
  | ⟨1, _⟩ => rfl

theorem ofBits_neginf : Ideal.ofBits .f32 0xFF800000#32 = ⊥ := by simp [Ideal.ofBits, Ideal.ieee]

theorem lift_ix (r : Fin 512) (q : Fin 256) : reduces_S512x256_S512.lift (ix1 r) q = ix2 r q := by
  funext a
  match a with
  | ⟨0, _⟩ => rfl
  | ⟨1, _⟩ => rfl

def rmax (t : FVec Ideal S512x256 .f32) (r : Fin 512) : EReal :=
  (Finset.univ : Finset (Fin 256)).fold max (⊥ : EReal) (fun q => t (ix2 r q))

theorem rowMax_apply (t : FVec Ideal S512x256 .f32) (hφ : FKind.Formats .f32)
    (hacc : (0xFF800000#32 : BitVec 32) = 0xFF800000#32) (r : Fin 512) :
    multiReduction .maximumf [1] S512 t 0xFF800000#32 reduces_S512x256_S512 hφ hacc (ix1 r) = rmax t r := by
  refine (Ideal.multiReduction_maximumf_single t _ reduces_S512x256_S512 hφ hacc (ix1 r)).trans ?_
  show (Finset.univ : Finset (Fin 256)).fold max (Ideal.ofBits .f32 0xFF800000#32)
      (fun q => t (reduces_S512x256_S512.lift (ix1 r) q)) = _
  rw [ofBits_neginf]
  exact congrArg (fun F => (Finset.univ : Finset (Fin 256)).fold max (⊥ : EReal) F)
    (funext fun q => congrArg t (lift_ix r q))

theorem rowSum_apply (t : FVec Ideal S512x256 .f32) (hφ : FKind.Formats .f32)
    (hacc : (0x00000000#32 : BitVec 32) = 0x00000000#32) (r : Fin 512) :
    multiReduction .add [1] S512 t 0x00000000#32 reduces_S512x256_S512 hφ hacc (ix1 r)
      = ∑ q : Fin 256, t (ix2 r q) := by
  refine (Ideal.multiReduction_add_single t _ reduces_S512x256_S512 hφ hacc (ix1 r)).trans ?_
  show ∑ q : Fin 256, t (reduces_S512x256_S512.lift (ix1 r) q) = _
  exact Finset.sum_congr rfl fun q _ => congrArg t (lift_ix r q)

def newMax (t : FVec Ideal S512x256 .f32) (m : Vec Ideal S512x1 .f32) (r : Fin 512) : EReal :=
  max (m (ix2 r (0 : Fin 1))) (rmax t r)

def newSum (t : FVec Ideal S512x256 .f32) (m e : Vec Ideal S512x1 .f32) (r : Fin 512) : EReal :=
  e (ix2 r (0 : Fin 1)) * Ideal.exp (m (ix2 r (0 : Fin 1)) - newMax t m r)
    + ∑ q : Fin 256, Ideal.exp (t (ix2 r q) - newMax t m r)

theorem expSum_apply (t : FVec Ideal S512x256 .f32) (c : FVec Ideal S512x1 .f32) (hφ : FKind.Formats .f32)
    (hacc : (0x00000000#32 : BitVec 32) = 0x00000000#32) (r : Fin 512) :
    multiReduction .add [1] S512 (exp (subf t (broadcastTo S512x256 c broadcasts_S512x1_S512x256))) 0x00000000#32
        reduces_S512x256_S512 hφ hacc (ix1 r)
      = ∑ q : Fin 256, Ideal.exp (t (ix2 r q) - c (ix2 r (0 : Fin 1))) := by
  refine (rowSum_apply _ hφ hacc r).trans (Finset.sum_congr rfl fun q _ => ?_)
  show Ideal.exp (t (ix2 r q) - broadcastTo S512x256 c broadcasts_S512x1_S512x256 (ix2 r q)) = _
  rw [broadcastTo_a1_ab_apply]

theorem pay18_apply (t : FVec Ideal S512x256 .f32) (m : Vec Ideal S512x1 .f32) (r : Fin 512) :
    k0_pay18 t m (ix2 r (0 : Fin 1)) = newMax t m r := by
  unfold k0_pay18
  rw [maximumf_apply, shapeCast_a_a1_apply]
  exact congrArg (max _) (rowMax_apply t _ _ r)

theorem pay20_apply (t : FVec Ideal S512x256 .f32) (m : Vec Ideal S512x1 .f32) (r : Fin 512) :
    k0_pay20 t m (ix2 r (0 : Fin 1)) = newMax t m r := by
  unfold k0_pay20
  rw [shapeCast_self]
  exact pay18_apply t m r

theorem pay19_apply (t : FVec Ideal S512x256 .f32) (m e : Vec Ideal S512x1 .f32) (r : Fin 512) :
    k0_pay19 t m m e (ix2 r (0 : Fin 1)) = newSum t m e r := by
  unfold k0_pay19 newSum
  rw [shapeCast_self, addf_apply, mulf_apply, shapeCast_a_a1_apply, expSum_apply]
  show e (ix2 r (0 : Fin 1)) * Ideal.exp (m (ix2 r (0 : Fin 1)) - k0_pay18 t m (ix2 r (0 : Fin 1))) + _ = _
  rw [pay18_apply]

theorem pay22_apply (t : FVec Ideal S512x256 .f32) (m : Vec Ideal S512x1 .f32) (r : Fin 512) :
    k0_pay22 (k0_pay21 t) m (ix2 r (0 : Fin 1)) = newMax t m r := by
  unfold k0_pay22 k0_pay21
  rw [maximumf_apply, shapeCast_a_a1_apply]
  exact congrArg (max _) (rowMax_apply t _ _ r)

theorem pay24_apply (t : FVec Ideal S512x256 .f32) (m : Vec Ideal S512x1 .f32) (r : Fin 512) :
    k0_pay24 (k0_pay21 t) m (ix2 r (0 : Fin 1)) = newMax t m r := by
  unfold k0_pay24
  rw [shapeCast_self]
  exact pay22_apply t m r

theorem pay23_apply (t : FVec Ideal S512x256 .f32) (m e : Vec Ideal S512x1 .f32) (r : Fin 512) :
    k0_pay23 t (k0_pay21 t) m m e (ix2 r (0 : Fin 1)) = newSum t m e r := by
  unfold k0_pay23 newSum
  rw [shapeCast_self, addf_apply, mulf_apply, shapeCast_a_a1_apply, expSum_apply]
  show e (ix2 r (0 : Fin 1)) * Ideal.exp (m (ix2 r (0 : Fin 1)) - k0_pay22 (k0_pay21 t) m (ix2 r (0 : Fin 1))) + _ = _
  rw [pay22_apply]

theorem pay25_apply (t : FVec Ideal S512x256 .f32) (m : Vec Ideal S512x1 .f32) (r : Fin 512) :
    k0_pay25 t m (ix2 r (0 : Fin 1)) = newMax t m r := by
  unfold k0_pay25
  rw [maximumf_apply, shapeCast_a_a1_apply]
  exact congrArg (max _) (rowMax_apply t _ _ r)

theorem pay2_apply (t : FVec Ideal S512x256 .f32) (m : Vec Ideal S512x1 .f32) (r : Fin 512) :
    k0_pay2 (k0_pay25 t m) (ix2 r (0 : Fin 1)) = newMax t m r := by
  unfold k0_pay2
  rw [shapeCast_self]
  exact pay25_apply t m r

theorem pay26_apply (t : FVec Ideal S512x256 .f32) (m e : Vec Ideal S512x1 .f32) (r : Fin 512) :
    k0_pay26 t m m e (ix2 r (0 : Fin 1)) = newSum t m e r := by
  unfold k0_pay26 newSum
  rw [addf_apply, mulf_apply, shapeCast_a_a1_apply, expSum_apply]
  show e (ix2 r (0 : Fin 1)) * Ideal.exp (m (ix2 r (0 : Fin 1)) - k0_pay25 t m (ix2 r (0 : Fin 1))) + _ = _
  rw [pay25_apply]

theorem pay1_apply (t : FVec Ideal S512x256 .f32) (m e : Vec Ideal S512x1 .f32) (r : Fin 512) :
    k0_pay1 (k0_pay26 t m m e) (ix2 r (0 : Fin 1)) = newSum t m e r := by
  unfold k0_pay1
  rw [shapeCast_self]
  exact pay26_apply t m e r

theorem pair_step_at (f : Fin 32000 → ℝ) (v : Fin 125) (t : FVec Ideal S512x256 .f32) (m e : Vec Ideal S512x1 .f32)
    (r : Fin 512) (ht : ∀ q : Fin 256, t (ix2 r q) = ((f (colOf v q) : ℝ) : EReal))
    (h : PairAt f (v.val * 256) (m (ix2 r (0 : Fin 1))) (e (ix2 r (0 : Fin 1)))) :
    PairAt f ((v.val + 1) * 256) (newMax t m r) (newSum t m e r) := by
  have htm : rmax t r
      = (Finset.univ : Finset (Fin 256)).fold max (⊥ : EReal) (fun q => ((f (colOf v q) : ℝ) : EReal)) :=
    congrArg (fun F => (Finset.univ : Finset (Fin 256)).fold max (⊥ : EReal) F) (funext ht)
  have hs : ∑ q : Fin 256, Ideal.exp (t (ix2 r q) - newMax t m r)
      = ∑ q : Fin 256, Ideal.exp (((f (colOf v q) : ℝ) : EReal) - newMax t m r) :=
    Finset.sum_congr rfl fun q _ => by rw [ht q]
  unfold newSum
  rw [hs]
  exact pair_step f v _ _ (rmax t r) htm h

theorem select_cmpi_eq {α : Type} (x y : BitVec 32) (a b : α) :
    Scalar.select (IntOp.cmpi .eq x y) a b = if x = y then a else b := by
  by_cases h : x = y
  · simp [Scalar.select, IntOp.cmpi, h]
  · have hb : (x == y) = false := beq_eq_false_iff_ne.mpr h
    rw [if_neg h]
    show (if BitVec.ofBool (x == y) = 1 then a else b) = b
    rw [hb]
    exact if_neg (by decide)

theorem colWord (i : grid0.Coords) (r : Fin 512) (q : Fin 256) :
    addi (k0_pay16 i) (iota .tc S512x256 32 [1] iota_S512x256_d1_w32) (ix2 r q)
      = BitVec.ofNat 32 ((i 1).val * 256 + q.val) := by
  show IntOp.addi (k0_pay16 i (ix2 r q)) (iota .tc S512x256 32 [1] iota_S512x256_d1_w32 (ix2 r q)) = _
  rw [iota_single_apply]
  show BitVec.ofNat 32 (i 1).val * 256#32 + BitVec.ofNat 32 q.val = _
  rw [BitVec.ofNat_add, BitVec.ofNat_mul]

theorem pay17_apply (t : FVec Ideal S512x256 .f32) (i : grid0.Coords) (x6 : Vec Ideal S512x1 .i32)
    (acc : Vec Ideal S512x1 .f32) (r : Fin 512) :
    k0_pay17 t (iota .tc S512x256 32 [1] iota_S512x256_d1_w32) (k0_pay16 i) x6 acc (ix2 r (0 : Fin 1))
      = acc (ix2 r (0 : Fin 1)) + ∑ q : Fin 256,
          (if BitVec.ofNat 32 ((i 1).val * 256 + q.val) = x6 (ix2 r (0 : Fin 1)) then t (ix2 r q) else 0) := by
  unfold k0_pay17
  rw [shapeCast_self, addf_apply, shapeCast_a_a1_apply]
  refine congrArg (acc (ix2 r (0 : Fin 1)) + ·) ((rowSum_apply _ _ _ r).trans (Finset.sum_congr rfl fun q _ => ?_))
  show Scalar.select (IntOp.cmpi .eq (addi (k0_pay16 i) (iota .tc S512x256 32 [1] iota_S512x256_d1_w32) (ix2 r q))
      (broadcastTo S512x256 (shapeCast S512x1 x6 shapeCasts_S512x1_S512x1) broadcasts_S512x1_S512x256 (ix2 r q)))
      (t (ix2 r q)) (Ideal.ofBits .f32 0x00000000#32) = _
  rw [colWord, shapeCast_self, broadcastTo_a1_ab_apply, select_cmpi_eq, Ideal.ofBits_zero_f32]

def hot (a : Args) (n : Fin 2048) (col : Fin 32000) : ℝ :=
  if BitVec.ofNat 32 col.val = a.Tg n then sl a n col else 0

structure Inv0 (a : Args) (nn : Fin 4) (C : ℕ) (s : St0 Ideal) : Prop where
  pS : ∀ r : Fin 512, PairAt (sl a (rowOf nn r)) C (s.ms (ix2 r (0 : Fin 1))) (s.es (ix2 r (0 : Fin 1)))
  pST : ∀ r : Fin 512, PairAt (fun c => sl a (rowOf nn r) c / 2) C (s.msT (ix2 r (0 : Fin 1)))
    (s.esT (ix2 r (0 : Fin 1)))
  pTT : ∀ r : Fin 512, PairAt (fun c => tl a (rowOf nn r) c / 2) C (s.mtT (ix2 r (0 : Fin 1)))
    (s.etT (ix2 r (0 : Fin 1)))
  pacc : ∀ r : Fin 512, s.acc (ix2 r (0 : Fin 1))
    = ((∑ col : Fin 32000, if col.val < C then hot a (rowOf nn r) col else 0 : ℝ) : EReal)

theorem neginfCol_apply (j : S512x1.Idx) :
    shapeCast S512x1 (broadcast S512x1 (Scalar.ofBits (F := Ideal) .f32 0xFF800000#32)) shapeCasts_S512x1_S512x1 j
      = (⊥ : EReal) := by
  rw [shapeCast_self]
  exact ofBits_neginf

theorem zeroCol_apply (j : S512x1.Idx) :
    shapeCast S512x1 (broadcast S512x1 (Scalar.ofBits (F := Ideal) .f32 0x00000000#32)) shapeCasts_S512x1_S512x1 j
      = (0 : EReal) := by
  rw [shapeCast_self]
  exact Ideal.ofBits_zero_f32

theorem inv0_init (a : Args) (nn : Fin 4) : Inv0 a nn 0 (init0 (F := Ideal)) where
  pS r := Or.inl ⟨rfl, neginfCol_apply (ix2 r (0 : Fin 1)), zeroCol_apply (ix2 r (0 : Fin 1))⟩
  pST r := Or.inl ⟨rfl, neginfCol_apply (ix2 r (0 : Fin 1)), zeroCol_apply (ix2 r (0 : Fin 1))⟩
  pTT r := Or.inl ⟨rfl, neginfCol_apply (ix2 r (0 : Fin 1)), zeroCol_apply (ix2 r (0 : Fin 1))⟩
  pacc r := by
    have h0 : (∑ col : Fin 32000, if col.val < 0 then hot a (rowOf nn r) col else 0) = 0 :=
      Finset.sum_eq_zero fun col _ => if_neg (Nat.not_lt_zero _)
    rw [h0, EReal.coe_zero]
    exact zeroCol_apply (ix2 r (0 : Fin 1))

section
variable {x0 : Vec Ideal S512x2048 .bf16} {x1 : Vec Ideal S256x2048 .bf16}
  {x2 : Vec Ideal S1x256 .f32} {x3 : Vec Ideal S512x4096 .bf16} {x4 : Vec Ideal S256x4096 .bf16}
  {x5 : Vec Ideal S1x256 .f32} {x6 : Vec Ideal S512x1 .i32}

theorem inv0_step (a : Args) (nn : Fin 4) (v : Fin 125) (i : grid0.Coords) (hi : (i 1).val = v.val)
    (hb : Blocks a nn v x0 x1 x2 x3 x4 x5 x6) (s : St0 Ideal) (h : Inv0 a nn (v.val * 256) s) :
    Inv0 a nn ((v.val + 1) * 256) (step0 i x0 x1 x2 x3 x4 x5 x6 s) where
  pS r := by
    show PairAt _ _ (k0_pay20 (tileS x0 x1 x2) s.ms (ix2 r (0 : Fin 1)))
      (k0_pay19 (tileS x0 x1 x2) s.ms s.ms s.es (ix2 r (0 : Fin 1)))
    rw [pay20_apply, pay19_apply]
    exact pair_step_at _ v _ _ _ r (fun q => tileS_eq hb r q) (h.pS r)
  pST r := by
    show PairAt _ _ (k0_pay24 (k0_pay21 (tileST x0 x1 x2)) s.msT (ix2 r (0 : Fin 1)))
      (k0_pay23 (tileST x0 x1 x2) (k0_pay21 (tileST x0 x1 x2)) s.msT s.msT s.esT (ix2 r (0 : Fin 1)))
    rw [pay24_apply, pay23_apply]
    exact pair_step_at (fun c => sl a (rowOf nn r) c / 2) v _ _ _ r (fun q => tileST_eq hb r q) (h.pST r)
  pTT r := by
    show PairAt _ _ (k0_pay2 (k0_pay25 (tileTT x3 x4 x5) s.mtT) (ix2 r (0 : Fin 1)))
      (k0_pay1 (k0_pay26 (tileTT x3 x4 x5) s.mtT s.mtT s.etT) (ix2 r (0 : Fin 1)))
    rw [pay2_apply, pay1_apply]
    exact pair_step_at (fun c => tl a (rowOf nn r) c / 2) v _ _ _ r (fun q => tileTT_eq hb r q) (h.pTT r)
  pacc r := by
    show k0_pay17 (tileS x0 x1 x2) (iota .tc S512x256 32 [1] iota_S512x256_d1_w32) (k0_pay16 i) x6 s.acc
      (ix2 r (0 : Fin 1)) = _
    rw [pay17_apply, h.pacc r, hb.h6 r, hi]
    have e : ∀ q : Fin 256,
        (if BitVec.ofNat 32 (v.val * 256 + q.val) = a.Tg (rowOf nn r) then tileS x0 x1 x2 (ix2 r q) else 0)
          = ((hot a (rowOf nn r) (colOf v q) : ℝ) : EReal) := fun q => by
      rw [tileS_eq hb r q]
      show _ = (((if BitVec.ofNat 32 (v.val * 256 + q.val) = a.Tg (rowOf nn r)
        then sl a (rowOf nn r) (colOf v q) else 0) : ℝ) : EReal)
      by_cases hc : BitVec.ofNat 32 (v.val * 256 + q.val) = a.Tg (rowOf nn r)
      · rw [if_pos hc, if_pos hc]
      · rw [if_neg hc, if_neg hc]; rfl
    rw [Finset.sum_congr rfl (fun q _ => e q), ← coe_sum, ← EReal.coe_add,
      ← sum_lt_split (fun col => hot a (rowOf nn r) col) v]

end

theorem fin_apply (f : Fin 32000 → ℝ) (m e : FVec Ideal S512x1 .f32) (r : Fin 512)
    (h : PairAt f 32000 (m (ix2 r (0 : Fin 1))) (e (ix2 r (0 : Fin 1)))) :
    addf m (log e) (ix2 r (0 : Fin 1)) = ((lse f : ℝ) : EReal) := by
  rcases h with ⟨hC, _, _⟩ | ⟨M, hm, he⟩
  · exact absurd hC (by decide)
  · obtain ⟨hpos, hl⟩ := psum_full f M
    show m (ix2 r (0 : Fin 1)) + Ideal.log (e (ix2 r (0 : Fin 1))) = _
    rw [hm, he, Ideal.log_coe, if_neg (not_le.mpr hpos), ← EReal.coe_add, hl]

theorem inv0_fin (a : Args) (nn : Fin 4) (s : St0 Ideal) (h : Inv0 a nn 32000 s) (r : Fin 512) :
    finS s (ix2 r (0 : Fin 1)) = ((lse (sl a (rowOf nn r)) : ℝ) : EReal)
      ∧ finST s (ix2 r (0 : Fin 1)) = ((lse (fun c => sl a (rowOf nn r) c / 2) : ℝ) : EReal)
      ∧ finTT s (ix2 r (0 : Fin 1)) = ((lse (fun c => tl a (rowOf nn r) c / 2) : ℝ) : EReal)
      ∧ s.acc (ix2 r (0 : Fin 1)) = ((tgtLogit a (rowOf nn r) : ℝ) : EReal) := by
  refine ⟨fin_apply _ s.ms s.es r (h.pS r), fin_apply _ s.msT s.esT r (h.pST r),
    fin_apply _ s.mtT s.etT r (h.pTT r), ?_⟩
  rw [h.pacc r]
  refine congrArg (fun x : ℝ => (x : EReal)) ?_
  unfold tgtLogit
  exact Finset.sum_congr rfl fun col _ => if_pos col.isLt

end Cert.KernelIdeal.V0

end
-- ==== Proof.Blocks0.lean ====
import proofs.«422162_j56092272886459_3_alg».proof.Proof.R0.Shared
import proofs.«422162_j56092272886459_3_alg».proof.Proof.V0Tiles
import proofs.«422162_j56092272886459_3_alg».proof.Proof.Spec

noncomputable section

namespace Cert.KernelIdeal.Blocks0

open Cert.KernelIdeal Cert.KernelIdeal.Gen Cert.Spec
open Idealize.ShloMosaic Idealize.ShloMosaic.ValueIdx Idealize.ShloMosaic.TcCoe
open Idealize.SL Idealize.SL.Sem

theorem idx_facts : ∀ t : Fin cfg0.N,
    win0_0.index t (0 : Fin 2) = t.val / 125 ∧ win0_0.index t (1 : Fin 2) = 0
    ∧ win0_1.index t (0 : Fin 2) = t.val % 125 ∧ win0_1.index t (1 : Fin 2) = 0
    ∧ win0_2.index t (0 : Fin 2) = 0 ∧ win0_2.index t (1 : Fin 2) = t.val % 125
    ∧ win0_3.index t (0 : Fin 2) = t.val / 125 ∧ win0_3.index t (1 : Fin 2) = 0
    ∧ win0_4.index t (0 : Fin 2) = t.val % 125 ∧ win0_4.index t (1 : Fin 2) = 0
    ∧ win0_5.index t (0 : Fin 2) = 0 ∧ win0_5.index t (1 : Fin 2) = t.val % 125
    ∧ win0_6.index t (0 : Fin 2) = t.val / 125 ∧ win0_6.index t (1 : Fin 2) = 0 :=
  (by decide +kernel : ∀ t : Fin grid0.N, _)

variable (V : (c : Dev nD) → (b : Ref sig .tc) → Buf (Elt Ideal) ((c : Thread nD τ).loc b))

theorem blk0 (c : Dev nD) (t : Fin cfg0.N) (nn : Fin 4) (v : Fin 125) (ht : t.val = nn.val * 125 + v.val) (p : Fin 512) (k : Fin 2048) :
    (R0.iblk0 V c 0 t : S512x2048.Idx → EReal) (ix2 p k) = (V c main_v3 : S2048x2048.Idx → EReal) (ix2 (V0.rowOf nn p) k) := by
  obtain ⟨e0, e1, -, -, -, -, -, -, -, -, -, -, -, -⟩ := idx_facts t
  unfold R0.iblk0
  show (V c main_v3 : S2048x2048.Idx → EReal) (((cfg0.win 0).blk t).view.emb (ix2 p k)) = _
  refine congrArg _ (funext fun a => Fin.ext ?_)
  have hv := v.isLt; have hp := p.isLt; have hk := k.isLt
  match a with
  | ⟨0, _⟩ =>
    show win0_0.index t (0 : Fin 2) * 512 + 1 * p.val = nn.val * 512 + p.val
    rw [e0]; omega
  | ⟨1, _⟩ =>
    show win0_0.index t (1 : Fin 2) * 2048 + 1 * k.val = k.val
    rw [e1]; omega

theorem blk1 (c : Dev nD) (t : Fin cfg0.N) (nn : Fin 4) (v : Fin 125) (ht : t.val = nn.val * 125 + v.val) (p : Fin 256) (k : Fin 2048) :
    (R0.iblk0 V c 1 t : S256x2048.Idx → EReal) (ix2 p k) = (V c main_v4 : S32000x2048.Idx → EReal) (ix2 (V0.colOf v p) k) := by
  obtain ⟨-, -, e0, e1, -, -, -, -, -, -, -, -, -, -⟩ := idx_facts t
  unfold R0.iblk0
  show (V c main_v4 : S32000x2048.Idx → EReal) (((cfg0.win 1).blk t).view.emb (ix2 p k)) = _
  refine congrArg _ (funext fun a => Fin.ext ?_)
  have hv := v.isLt; have hp := p.isLt; have hk := k.isLt
  match a with
  | ⟨0, _⟩ =>
    show win0_1.index t (0 : Fin 2) * 256 + 1 * p.val = v.val * 256 + p.val
    rw [e0]; omega
  | ⟨1, _⟩ =>
    show win0_1.index t (1 : Fin 2) * 2048 + 1 * k.val = k.val
    rw [e1]; omega

theorem blk2 (c : Dev nD) (t : Fin cfg0.N) (nn : Fin 4) (v : Fin 125) (ht : t.val = nn.val * 125 + v.val) (p : Fin 1) (k : Fin 256) :
    (R0.iblk0 V c 2 t : S1x256.Idx → EReal) (ix2 p k) = (V c main_v0 : S1x32000.Idx → EReal) (ix2 (0 : Fin 1) (V0.colOf v k)) := by
  obtain ⟨-, -, -, -, e0, e1, -, -, -, -, -, -, -, -⟩ := idx_facts t
  unfold R0.iblk0
  show (V c main_v0 : S1x32000.Idx → EReal) (((cfg0.win 2).blk t).view.emb (ix2 p k)) = _
  refine congrArg _ (funext fun a => Fin.ext ?_)
  have hv := v.isLt; have hp := p.isLt; have hk := k.isLt
  match a with
  | ⟨0, _⟩ =>
    show win0_2.index t (0 : Fin 2) * 1 + 1 * p.val = (0 : Fin 1).val
    rw [e0]; omega
  | ⟨1, _⟩ =>
    show win0_2.index t (1 : Fin 2) * 256 + 1 * k.val = v.val * 256 + k.val
    rw [e1]; omega

theorem blk3 (c : Dev nD) (t : Fin cfg0.N) (nn : Fin 4) (v : Fin 125) (ht : t.val = nn.val * 125 + v.val) (p : Fin 512) (k : Fin 4096) :
    (R0.iblk0 V c 3 t : S512x4096.Idx → EReal) (ix2 p k) = (V c main_v5 : S2048x4096.Idx → EReal) (ix2 (V0.rowOf nn p) k) := by
  obtain ⟨-, -, -, -, -, -, e0, e1, -, -, -, -, -, -⟩ := idx_facts t
  unfold R0.iblk0
  show (V c main_v5 : S2048x4096.Idx → EReal) (((cfg0.win 3).blk t).view.emb (ix2 p k)) = _
  refine congrArg _ (funext fun a => Fin.ext ?_)
  have hv := v.isLt; have hp := p.isLt; have hk := k.isLt
  match a with
  | ⟨0, _⟩ =>
    show win0_3.index t (0 : Fin 2) * 512 + 1 * p.val = nn.val * 512 + p.val
    rw [e0]; omega
  | ⟨1, _⟩ =>
    show win0_3.index t (1 : Fin 2) * 4096 + 1 * k.val = k.val
    rw [e1]; omega

theorem blk4 (c : Dev nD) (t : Fin cfg0.N) (nn : Fin 4) (v : Fin 125) (ht : t.val = nn.val * 125 + v.val) (p : Fin 256) (k : Fin 4096) :
    (R0.iblk0 V c 4 t : S256x4096.Idx → EReal) (ix2 p k) = (V c main_v6 : S32000x4096.Idx → EReal) (ix2 (V0.colOf v p) k) := by
  obtain ⟨-, -, -, -, -, -, -, -, e0, e1, -, -, -, -⟩ := idx_facts t
  unfold R0.iblk0
  show (V c main_v6 : S32000x4096.Idx → EReal) (((cfg0.win 4).blk t).view.emb (ix2 p k)) = _
  refine congrArg _ (funext fun a => Fin.ext ?_)
  have hv := v.isLt; have hp := p.isLt; have hk := k.isLt
  match a with
  | ⟨0, _⟩ =>
    show win0_4.index t (0 : Fin 2) * 256 + 1 * p.val = v.val * 256 + p.val
    rw [e0]; omega
  | ⟨1, _⟩ =>
    show win0_4.index t (1 : Fin 2) * 4096 + 1 * k.val = k.val
    rw [e1]; omega

theorem blk5 (c : Dev nD) (t : Fin cfg0.N) (nn : Fin 4) (v : Fin 125) (ht : t.val = nn.val * 125 + v.val) (p : Fin 1) (k : Fin 256) :
    (R0.iblk0 V c 5 t : S1x256.Idx → EReal) (ix2 p k) = (V c main_v1 : S1x32000.Idx → EReal) (ix2 (0 : Fin 1) (V0.colOf v k)) := by
  obtain ⟨-, -, -, -, -, -, -, -, -, -, e0, e1, -, -⟩ := idx_facts t
  unfold R0.iblk0
  show (V c main_v1 : S1x32000.Idx → EReal) (((cfg0.win 5).blk t).view.emb (ix2 p k)) = _
  refine congrArg _ (funext fun a => Fin.ext ?_)
  have hv := v.isLt; have hp := p.isLt; have hk := k.isLt
  match a with
  | ⟨0, _⟩ =>
    show win0_5.index t (0 : Fin 2) * 1 + 1 * p.val = (0 : Fin 1).val
    rw [e0]; omega
  | ⟨1, _⟩ =>
    show win0_5.index t (1 : Fin 2) * 256 + 1 * k.val = v.val * 256 + k.val
    rw [e1]; omega

theorem blk6 (c : Dev nD) (t : Fin cfg0.N) (nn : Fin 4) (v : Fin 125) (ht : t.val = nn.val * 125 + v.val) (p : Fin 512) (k : Fin 1) :
    (R0.iblk0 V c 6 t : S512x1.Idx → BitVec 32) (ix2 p k) = (V c main_v2 : S2048x1.Idx → BitVec 32) (ix2 (V0.rowOf nn p) (0 : Fin 1)) := by
  obtain ⟨-, -, -, -, -, -, -, -, -, -, -, -, e0, e1⟩ := idx_facts t
  unfold R0.iblk0
  show (V c main_v2 : S2048x1.Idx → BitVec 32) (((cfg0.win 6).blk t).view.emb (ix2 p k)) = _
  refine congrArg _ (funext fun a => Fin.ext ?_)
  have hv := v.isLt; have hp := p.isLt; have hk := k.isLt
  match a with
  | ⟨0, _⟩ =>
    show win0_6.index t (0 : Fin 2) * 512 + 1 * p.val = nn.val * 512 + p.val
    rw [e0]; omega
  | ⟨1, _⟩ =>
    show win0_6.index t (1 : Fin 2) * 1 + 1 * k.val = (0 : Fin 1).val
    rw [e1]; omega

theorem blocks (V : (c : Dev nD) → (b : Ref sig .tc) → Buf (Elt Ideal) ((c : Thread nD τ).loc b)) (a : Cert.Spec.Args) (c : Dev nD)
    (h3 : ∀ (n : Fin 2048) (k : Fin 2048), (V c main_v3 : S2048x2048.Idx → EReal) (ix2 n k) = ((a.X n k : ℝ) : EReal))
    (h4 : ∀ (v : Fin 32000) (k : Fin 2048), (V c main_v4 : S32000x2048.Idx → EReal) (ix2 v k) = ((a.Ws v k : ℝ) : EReal))
    (h0 : ∀ v : Fin 32000, (V c main_v0 : S1x32000.Idx → EReal) (ix2 (0 : Fin 1) v) = ((a.Bs v : ℝ) : EReal))
    (h5 : ∀ (n : Fin 2048) (k : Fin 4096), (V c main_v5 : S2048x4096.Idx → EReal) (ix2 n k) = ((a.Xt n k : ℝ) : EReal))
    (h6 : ∀ (v : Fin 32000) (k : Fin 4096), (V c main_v6 : S32000x4096.Idx → EReal) (ix2 v k) = ((a.Wt v k : ℝ) : EReal))
    (h1 : ∀ v : Fin 32000, (V c main_v1 : S1x32000.Idx → EReal) (ix2 (0 : Fin 1) v) = ((a.Bt v : ℝ) : EReal))
    (h2 : ∀ n : Fin 2048, (V c main_v2 : S2048x1.Idx → BitVec 32) (ix2 n (0 : Fin 1)) = a.Tg n)
    (t : Fin cfg0.N) (nn : Fin 4) (v : Fin 125) (ht : t.val = nn.val * 125 + v.val) :
    V0.Blocks a nn v (R0.iblk0 V c 0 t) (R0.iblk0 V c 1 t) (R0.iblk0 V c 2 t) (R0.iblk0 V c 3 t) (R0.iblk0 V c 4 t)
      (R0.iblk0 V c 5 t) (R0.iblk0 V c 6 t) where
  h0 r k := (blk0 V c t nn v ht r k).trans (h3 _ _)
  h1 q k := (blk1 V c t nn v ht q k).trans (h4 _ _)
  h2 q := (blk2 V c t nn v ht 0 q).trans (h0 _)
  h3 r k := (blk3 V c t nn v ht r k).trans (h5 _ _)
  h4 q k := (blk4 V c t nn v ht q k).trans (h6 _ _)
  h5 q := (blk5 V c t nn v ht 0 q).trans (h1 _)
  h6 r := (blk6 V c t nn v ht r 0).trans (h2 _)

end Cert.KernelIdeal.Blocks0

end
-- ==== Proof.Cover0.lean ====
import proofs.«422162_j56092272886459_3_alg».proof.Proof.R0.Frame
import proofs.«422162_j56092272886459_3_alg».proof.Proof.V0Tiles
import Idealize.ShloMosaic.Lib.Pipeline.Value
import Idealize.ShloMosaic.Lib.ValueIdx

set_option maxRecDepth 16384

noncomputable section

namespace Cert.KernelIdeal.Cover0

open Cert.KernelIdeal Cert.KernelIdeal.Gen Cert.KernelIdeal.R0
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem idx10 : ∀ t : Fin cfg0.N, win0_10.index t 0 = t.val / 125 ∧ win0_10.index t 1 = t.val % 125 :=
  (by decide +kernel : ∀ t : Fin grid0.N, win0_10.index t 0 = t.val / 125 ∧ win0_10.index t 1 = t.val % 125)
theorem idx11 : ∀ t : Fin cfg0.N, win0_11.index t 0 = t.val / 125 ∧ win0_11.index t 1 = t.val % 125 :=
  (by decide +kernel : ∀ t : Fin grid0.N, win0_11.index t 0 = t.val / 125 ∧ win0_11.index t 1 = t.val % 125)
theorem idx7 : ∀ t : Fin cfg0.N, win0_7.index t 0 = t.val / 125 ∧ win0_7.index t 1 = 0 :=
  (by decide +kernel : ∀ t : Fin grid0.N, win0_7.index t 0 = t.val / 125 ∧ win0_7.index t 1 = 0)
theorem idx8 : ∀ t : Fin cfg0.N, win0_8.index t 0 = t.val / 125 ∧ win0_8.index t 1 = 0 :=
  (by decide +kernel : ∀ t : Fin grid0.N, win0_8.index t 0 = t.val / 125 ∧ win0_8.index t 1 = 0)
theorem idx9 : ∀ t : Fin cfg0.N, win0_9.index t 0 = t.val / 125 ∧ win0_9.index t 1 = 0 :=
  (by decide +kernel : ∀ t : Fin grid0.N, win0_9.index t 0 = t.val / 125 ∧ win0_9.index t 1 = 0)
theorem idx12 : ∀ t : Fin cfg0.N, win0_12.index t 0 = t.val / 125 ∧ win0_12.index t 1 = 0 :=
  (by decide +kernel : ∀ t : Fin grid0.N, win0_12.index t 0 = t.val / 125 ∧ win0_12.index t 1 = 0)

section Any
variable {c : Dev nD} (dat : Dat τ (Elt Ideal) Unit ℕ (UR sig nD τ) ℕ cfg0 c)

theorem arr10_of (g : Fin 2048 → Fin 32000 → ℝ)
    (H : ∀ (t : Fin cfg0.N) (nn : Fin 4) (v : Fin 125), t.val = nn.val * 125 + v.val → ∀ (r : Fin 512) (q : Fin 256),
      (dat.after 10 t : S512x256.Idx → EReal) (ix2 r q) = ((g (V0.rowOf nn r) (V0.colOf v q) : ℝ) : EReal)) :
    ∀ (n : Fin 2048) (col : Fin 32000), (dat.arrAt 10 cfg0.N : S2048x32000.Idx → EReal) (ix2 n col) = ((g n col : ℝ) : EReal) := by
  intro n col
  refine dat.arrAt_forall_of_cover 10 (fun (i : S2048x32000.Idx) (x : EReal) => x = ((g (i 0) (i 1) : ℝ) : EReal)) ?hP ?hcover (ix2 n col)
  case hP =>
    intro t hf y
    have hN : t.val < 500 := lt_of_lt_of_eq t.isLt (show cfg0.N = 500 from N_0)
    show (cfg0.win 10).cut (grid0.coords t) (dat.after 10 t) y = _
    show (dat.after 10 t : S512x256.Idx → EReal) y = _
    obtain ⟨r, q, rfl⟩ : ∃ (r : Fin 512) (q : Fin 256), y = ix2 r q := ⟨y 0, y 1, eq_ix2 y⟩
    rw [H t ⟨t.val / 125, by omega⟩ ⟨t.val % 125, Nat.mod_lt _ (by decide)⟩ (by show t.val = t.val / 125 * 125 + t.val % 125; omega) r q]
    have e0 : V0.rowOf ⟨t.val / 125, by omega⟩ r = ((cfg0.win 10).blk t).view.emb (ix2 r q) 0 := by
      apply Fin.ext
      show t.val / 125 * 512 + r.val = ((win0_10.rect t).emb (ix2 r q) 0 : ℕ)
      rw [Pipeline.Window.rect_emb_val, (idx10 t).1]
      rfl
    have e1 : V0.colOf ⟨t.val % 125, Nat.mod_lt _ (by decide)⟩ q = ((cfg0.win 10).blk t).view.emb (ix2 r q) 1 := by
      apply Fin.ext
      show t.val % 125 * 256 + q.val = ((win0_10.rect t).emb (ix2 r q) 1 : ℕ)
      rw [Pipeline.Window.rect_emb_val, (idx10 t).2]
      rfl
    rw [e0, e1]
  case hcover =>
    intro i
    have h0 : (i 0 : ℕ) < 2048 := (i 0).isLt
    have h1 : (i 1 : ℕ) < 32000 := (i 1).isLt
    have hlt : (i 0 : ℕ) / 512 * 125 + (i 1 : ℕ) / 256 < cfg0.N := by rw [show cfg0.N = 500 from N_0]; omega
    refine ⟨⟨(i 0 : ℕ) / 512 * 125 + (i 1 : ℕ) / 256, hlt⟩, flush0_10 _, ?_⟩
    show i ∈ ((View.whole main_v7_3).slice (win0_10.rect ⟨(i 0 : ℕ) / 512 * 125 + (i 1 : ℕ) / 256, hlt⟩)).set
    rw [View.set_slice_whole, Rect.mem_set_unit]
    intro ax
    match ax with
    | ⟨0, _⟩ =>
      show win0_10.index ⟨(i 0 : ℕ) / 512 * 125 + (i 1 : ℕ) / 256, hlt⟩ 0 * 512 ≤ (i 0 : ℕ) ∧ (i 0 : ℕ) < win0_10.index ⟨(i 0 : ℕ) / 512 * 125 + (i 1 : ℕ) / 256, hlt⟩ 0 * 512 + 512
      rw [(idx10 ⟨(i 0 : ℕ) / 512 * 125 + (i 1 : ℕ) / 256, hlt⟩).1]
      show ((i 0 : ℕ) / 512 * 125 + (i 1 : ℕ) / 256) / 125 * 512 ≤ (i 0 : ℕ) ∧ (i 0 : ℕ) < ((i 0 : ℕ) / 512 * 125 + (i 1 : ℕ) / 256) / 125 * 512 + 512
      omega
    | ⟨1, _⟩ =>
      show win0_10.index ⟨(i 0 : ℕ) / 512 * 125 + (i 1 : ℕ) / 256, hlt⟩ 1 * 256 ≤ (i 1 : ℕ) ∧ (i 1 : ℕ) < win0_10.index ⟨(i 0 : ℕ) / 512 * 125 + (i 1 : ℕ) / 256, hlt⟩ 1 * 256 + 256
      rw [(idx10 ⟨(i 0 : ℕ) / 512 * 125 + (i 1 : ℕ) / 256, hlt⟩).2]
      show ((i 0 : ℕ) / 512 * 125 + (i 1 : ℕ) / 256) % 125 * 256 ≤ (i 1 : ℕ) ∧ (i 1 : ℕ) < ((i 0 : ℕ) / 512 * 125 + (i 1 : ℕ) / 256) % 125 * 256 + 256
      omega

theorem arr11_of (g : Fin 2048 → Fin 32000 → ℝ)
    (H : ∀ (t : Fin cfg0.N) (nn : Fin 4) (v : Fin 125), t.val = nn.val * 125 + v.val → ∀ (r : Fin 512) (q : Fin 256),
      (dat.after 11 t : S512x256.Idx → EReal) (ix2 r q) = ((g (V0.rowOf nn r) (V0.colOf v q) : ℝ) : EReal)) :
    ∀ (n : Fin 2048) (col : Fin 32000), (dat.arrAt 11 cfg0.N : S2048x32000.Idx → EReal) (ix2 n col) = ((g n col : ℝ) : EReal) := by
  intro n col
  refine dat.arrAt_forall_of_cover 11 (fun (i : S2048x32000.Idx) (x : EReal) => x = ((g (i 0) (i 1) : ℝ) : EReal)) ?hP ?hcover (ix2 n col)
  case hP =>
    intro t hf y
    have hN : t.val < 500 := lt_of_lt_of_eq t.isLt (show cfg0.N = 500 from N_0)
    show (cfg0.win 11).cut (grid0.coords t) (dat.after 11 t) y = _
    show (dat.after 11 t : S512x256.Idx → EReal) y = _
    obtain ⟨r, q, rfl⟩ : ∃ (r : Fin 512) (q : Fin 256), y = ix2 r q := ⟨y 0, y 1, eq_ix2 y⟩
    rw [H t ⟨t.val / 125, by omega⟩ ⟨t.val % 125, Nat.mod_lt _ (by decide)⟩ (by show t.val = t.val / 125 * 125 + t.val % 125; omega) r q]
    have e0 : V0.rowOf ⟨t.val / 125, by omega⟩ r = ((cfg0.win 11).blk t).view.emb (ix2 r q) 0 := by
      apply Fin.ext
      show t.val / 125 * 512 + r.val = ((win0_11.rect t).emb (ix2 r q) 0 : ℕ)
      rw [Pipeline.Window.rect_emb_val, (idx11 t).1]
      rfl
    have e1 : V0.colOf ⟨t.val % 125, Nat.mod_lt _ (by decide)⟩ q = ((cfg0.win 11).blk t).view.emb (ix2 r q) 1 := by
      apply Fin.ext
      show t.val % 125 * 256 + q.val = ((win0_11.rect t).emb (ix2 r q) 1 : ℕ)
      rw [Pipeline.Window.rect_emb_val, (idx11 t).2]
      rfl
    rw [e0, e1]
  case hcover =>
    intro i
    have h0 : (i 0 : ℕ) < 2048 := (i 0).isLt
    have h1 : (i 1 : ℕ) < 32000 := (i 1).isLt
    have hlt : (i 0 : ℕ) / 512 * 125 + (i 1 : ℕ) / 256 < cfg0.N := by rw [show cfg0.N = 500 from N_0]; omega
    refine ⟨⟨(i 0 : ℕ) / 512 * 125 + (i 1 : ℕ) / 256, hlt⟩, flush0_11 _, ?_⟩
    show i ∈ ((View.whole main_v7_4).slice (win0_11.rect ⟨(i 0 : ℕ) / 512 * 125 + (i 1 : ℕ) / 256, hlt⟩)).set
    rw [View.set_slice_whole, Rect.mem_set_unit]
    intro ax
    match ax with
    | ⟨0, _⟩ =>
      show win0_11.index ⟨(i 0 : ℕ) / 512 * 125 + (i 1 : ℕ) / 256, hlt⟩ 0 * 512 ≤ (i 0 : ℕ) ∧ (i 0 : ℕ) < win0_11.index ⟨(i 0 : ℕ) / 512 * 125 + (i 1 : ℕ) / 256, hlt⟩ 0 * 512 + 512
      rw [(idx11 ⟨(i 0 : ℕ) / 512 * 125 + (i 1 : ℕ) / 256, hlt⟩).1]
      show ((i 0 : ℕ) / 512 * 125 + (i 1 : ℕ) / 256) / 125 * 512 ≤ (i 0 : ℕ) ∧ (i 0 : ℕ) < ((i 0 : ℕ) / 512 * 125 + (i 1 : ℕ) / 256) / 125 * 512 + 512
      omega
    | ⟨1, _⟩ =>
      show win0_11.index ⟨(i 0 : ℕ) / 512 * 125 + (i 1 : ℕ) / 256, hlt⟩ 1 * 256 ≤ (i 1 : ℕ) ∧ (i 1 : ℕ) < win0_11.index ⟨(i 0 : ℕ) / 512 * 125 + (i 1 : ℕ) / 256, hlt⟩ 1 * 256 + 256
      rw [(idx11 ⟨(i 0 : ℕ) / 512 * 125 + (i 1 : ℕ) / 256, hlt⟩).2]
      show ((i 0 : ℕ) / 512 * 125 + (i 1 : ℕ) / 256) % 125 * 256 ≤ (i 1 : ℕ) ∧ (i 1 : ℕ) < ((i 0 : ℕ) / 512 * 125 + (i 1 : ℕ) / 256) % 125 * 256 + 256
      omega

theorem arr7_of (g : Fin 2048 → ℝ)
    (H : ∀ (t : Fin cfg0.N) (nn : Fin 4), t.val = nn.val * 125 + 124 → ∀ r : Fin 512,
      (dat.after 7 t : S512x1.Idx → EReal) (ix2 r (0 : Fin 1)) = ((g (V0.rowOf nn r) : ℝ) : EReal)) :
    ∀ n : Fin 2048, (dat.arrAt 7 cfg0.N : S2048x1.Idx → EReal) (ix2 n (0 : Fin 1)) = ((g n : ℝ) : EReal) := by
  intro n
  refine dat.arrAt_forall_of_cover 7 (fun (i : S2048x1.Idx) (x : EReal) => x = ((g (i 0) : ℝ) : EReal)) ?hP ?hcover (ix2 n (0 : Fin 1))
  case hP =>
    intro t hf y
    have hN : t.val < 500 := lt_of_lt_of_eq t.isLt (show cfg0.N = 500 from N_0)
    have h124 : t.val % 125 = 124 := (flush0_7 t).mp hf
    show (cfg0.win 7).cut (grid0.coords t) (dat.after 7 t) y = _
    show (dat.after 7 t : S512x1.Idx → EReal) y = _
    obtain ⟨r, rfl⟩ : ∃ r : Fin 512, y = ix2 r (0 : Fin 1) :=
      ⟨y 0, (eq_ix2 y).trans (congrArg (fun b : Fin 1 => ix2 (y 0) b) (Fin.ext (by have h : (y 1 : ℕ) < 1 := (y 1).isLt; show (y 1 : ℕ) = 0; omega)))⟩
    rw [H t ⟨t.val / 125, by omega⟩ (by show t.val = t.val / 125 * 125 + 124; omega) r]
    have e0 : V0.rowOf ⟨t.val / 125, by omega⟩ r = ((cfg0.win 7).blk t).view.emb (ix2 r (0 : Fin 1)) 0 := by
      apply Fin.ext
      show t.val / 125 * 512 + r.val = ((win0_7.rect t).emb (ix2 r (0 : Fin 1)) 0 : ℕ)
      rw [Pipeline.Window.rect_emb_val, (idx7 t).1]
      rfl
    rw [e0]
  case hcover =>
    intro i
    have h0 : (i 0 : ℕ) < 2048 := (i 0).isLt
    have h1 : (i 1 : ℕ) < 1 := (i 1).isLt
    have hlt : (i 0 : ℕ) / 512 * 125 + 124 < cfg0.N := by rw [show cfg0.N = 500 from N_0]; omega
    refine ⟨⟨(i 0 : ℕ) / 512 * 125 + 124, hlt⟩, (flush0_7 _).mpr (by show ((i 0 : ℕ) / 512 * 125 + 124) % 125 = 124; omega), ?_⟩
    show i ∈ ((View.whole main_v7_0).slice (win0_7.rect ⟨(i 0 : ℕ) / 512 * 125 + 124, hlt⟩)).set
    rw [View.set_slice_whole, Rect.mem_set_unit]
    intro ax
    match ax with
    | ⟨0, _⟩ =>
      show win0_7.index ⟨(i 0 : ℕ) / 512 * 125 + 124, hlt⟩ 0 * 512 ≤ (i 0 : ℕ) ∧ (i 0 : ℕ) < win0_7.index ⟨(i 0 : ℕ) / 512 * 125 + 124, hlt⟩ 0 * 512 + 512
      rw [(idx7 ⟨(i 0 : ℕ) / 512 * 125 + 124, hlt⟩).1]
      show ((i 0 : ℕ) / 512 * 125 + 124) / 125 * 512 ≤ (i 0 : ℕ) ∧ (i 0 : ℕ) < ((i 0 : ℕ) / 512 * 125 + 124) / 125 * 512 + 512
      omega
    | ⟨1, _⟩ =>
      show win0_7.index ⟨(i 0 : ℕ) / 512 * 125 + 124, hlt⟩ 1 * 1 ≤ (i 1 : ℕ) ∧ (i 1 : ℕ) < win0_7.index ⟨(i 0 : ℕ) / 512 * 125 + 124, hlt⟩ 1 * 1 + 1
      rw [(idx7 ⟨(i 0 : ℕ) / 512 * 125 + 124, hlt⟩).2]
      omega

theorem arr8_of (g : Fin 2048 → ℝ)
    (H : ∀ (t : Fin cfg0.N) (nn : Fin 4), t.val = nn.val * 125 + 124 → ∀ r : Fin 512,
      (dat.after 8 t : S512x1.Idx → EReal) (ix2 r (0 : Fin 1)) = ((g (V0.rowOf nn r) : ℝ) : EReal)) :
    ∀ n : Fin 2048, (dat.arrAt 8 cfg0.N : S2048x1.Idx → EReal) (ix2 n (0 : Fin 1)) = ((g n : ℝ) : EReal) := by
  intro n
  refine dat.arrAt_forall_of_cover 8 (fun (i : S2048x1.Idx) (x : EReal) => x = ((g (i 0) : ℝ) : EReal)) ?hP ?hcover (ix2 n (0 : Fin 1))
  case hP =>
    intro t hf y
    have hN : t.val < 500 := lt_of_lt_of_eq t.isLt (show cfg0.N = 500 from N_0)
    have h124 : t.val % 125 = 124 := (flush0_8 t).mp hf
    show (cfg0.win 8).cut (grid0.coords t) (dat.after 8 t) y = _
    show (dat.after 8 t : S512x1.Idx → EReal) y = _
    obtain ⟨r, rfl⟩ : ∃ r : Fin 512, y = ix2 r (0 : Fin 1) :=
      ⟨y 0, (eq_ix2 y).trans (congrArg (fun b : Fin 1 => ix2 (y 0) b) (Fin.ext (by have h : (y 1 : ℕ) < 1 := (y 1).isLt; show (y 1 : ℕ) = 0; omega)))⟩
    rw [H t ⟨t.val / 125, by omega⟩ (by show t.val = t.val / 125 * 125 + 124; omega) r]
    have e0 : V0.rowOf ⟨t.val / 125, by omega⟩ r = ((cfg0.win 8).blk t).view.emb (ix2 r (0 : Fin 1)) 0 := by
      apply Fin.ext
      show t.val / 125 * 512 + r.val = ((win0_8.rect t).emb (ix2 r (0 : Fin 1)) 0 : ℕ)
      rw [Pipeline.Window.rect_emb_val, (idx8 t).1]
      rfl
    rw [e0]
  case hcover =>
    intro i
    have h0 : (i 0 : ℕ) < 2048 := (i 0).isLt
    have h1 : (i 1 : ℕ) < 1 := (i 1).isLt
    have hlt : (i 0 : ℕ) / 512 * 125 + 124 < cfg0.N := by rw [show cfg0.N = 500 from N_0]; omega
    refine ⟨⟨(i 0 : ℕ) / 512 * 125 + 124, hlt⟩, (flush0_8 _).mpr (by show ((i 0 : ℕ) / 512 * 125 + 124) % 125 = 124; omega), ?_⟩
    show i ∈ ((View.whole main_v7_1).slice (win0_8.rect ⟨(i 0 : ℕ) / 512 * 125 + 124, hlt⟩)).set
    rw [View.set_slice_whole, Rect.mem_set_unit]
    intro ax
    match ax with
    | ⟨0, _⟩ =>
      show win0_8.index ⟨(i 0 : ℕ) / 512 * 125 + 124, hlt⟩ 0 * 512 ≤ (i 0 : ℕ) ∧ (i 0 : ℕ) < win0_8.index ⟨(i 0 : ℕ) / 512 * 125 + 124, hlt⟩ 0 * 512 + 512
      rw [(idx8 ⟨(i 0 : ℕ) / 512 * 125 + 124, hlt⟩).1]
      show ((i 0 : ℕ) / 512 * 125 + 124) / 125 * 512 ≤ (i 0 : ℕ) ∧ (i 0 : ℕ) < ((i 0 : ℕ) / 512 * 125 + 124) / 125 * 512 + 512
      omega
    | ⟨1, _⟩ =>
      show win0_8.index ⟨(i 0 : ℕ) / 512 * 125 + 124, hlt⟩ 1 * 1 ≤ (i 1 : ℕ) ∧ (i 1 : ℕ) < win0_8.index ⟨(i 0 : ℕ) / 512 * 125 + 124, hlt⟩ 1 * 1 + 1
      rw [(idx8 ⟨(i 0 : ℕ) / 512 * 125 + 124, hlt⟩).2]
      omega

theorem arr9_of (g : Fin 2048 → ℝ)
    (H : ∀ (t : Fin cfg0.N) (nn : Fin 4), t.val = nn.val * 125 + 124 → ∀ r : Fin 512,
      (dat.after 9 t : S512x1.Idx → EReal) (ix2 r (0 : Fin 1)) = ((g (V0.rowOf nn r) : ℝ) : EReal)) :
    ∀ n : Fin 2048, (dat.arrAt 9 cfg0.N : S2048x1.Idx → EReal) (ix2 n (0 : Fin 1)) = ((g n : ℝ) : EReal) := by
  intro n
  refine dat.arrAt_forall_of_cover 9 (fun (i : S2048x1.Idx) (x : EReal) => x = ((g (i 0) : ℝ) : EReal)) ?hP ?hcover (ix2 n (0 : Fin 1))
  case hP =>
    intro t hf y
    have hN : t.val < 500 := lt_of_lt_of_eq t.isLt (show cfg0.N = 500 from N_0)
    have h124 : t.val % 125 = 124 := (flush0_9 t).mp hf
    show (cfg0.win 9).cut (grid0.coords t) (dat.after 9 t) y = _
    show (dat.after 9 t : S512x1.Idx → EReal) y = _
    obtain ⟨r, rfl⟩ : ∃ r : Fin 512, y = ix2 r (0 : Fin 1) :=
      ⟨y 0, (eq_ix2 y).trans (congrArg (fun b : Fin 1 => ix2 (y 0) b) (Fin.ext (by have h : (y 1 : ℕ) < 1 := (y 1).isLt; show (y 1 : ℕ) = 0; omega)))⟩
    rw [H t ⟨t.val / 125, by omega⟩ (by show t.val = t.val / 125 * 125 + 124; omega) r]
    have e0 : V0.rowOf ⟨t.val / 125, by omega⟩ r = ((cfg0.win 9).blk t).view.emb (ix2 r (0 : Fin 1)) 0 := by
      apply Fin.ext
      show t.val / 125 * 512 + r.val = ((win0_9.rect t).emb (ix2 r (0 : Fin 1)) 0 : ℕ)
      rw [Pipeline.Window.rect_emb_val, (idx9 t).1]
      rfl
    rw [e0]
  case hcover =>
    intro i
    have h0 : (i 0 : ℕ) < 2048 := (i 0).isLt
    have h1 : (i 1 : ℕ) < 1 := (i 1).isLt
    have hlt : (i 0 : ℕ) / 512 * 125 + 124 < cfg0.N := by rw [show cfg0.N = 500 from N_0]; omega
    refine ⟨⟨(i 0 : ℕ) / 512 * 125 + 124, hlt⟩, (flush0_9 _).mpr (by show ((i 0 : ℕ) / 512 * 125 + 124) % 125 = 124; omega), ?_⟩
    show i ∈ ((View.whole main_v7_2).slice (win0_9.rect ⟨(i 0 : ℕ) / 512 * 125 + 124, hlt⟩)).set
    rw [View.set_slice_whole, Rect.mem_set_unit]
    intro ax
    match ax with
    | ⟨0, _⟩ =>
      show win0_9.index ⟨(i 0 : ℕ) / 512 * 125 + 124, hlt⟩ 0 * 512 ≤ (i 0 : ℕ) ∧ (i 0 : ℕ) < win0_9.index ⟨(i 0 : ℕ) / 512 * 125 + 124, hlt⟩ 0 * 512 + 512
      rw [(idx9 ⟨(i 0 : ℕ) / 512 * 125 + 124, hlt⟩).1]
      show ((i 0 : ℕ) / 512 * 125 + 124) / 125 * 512 ≤ (i 0 : ℕ) ∧ (i 0 : ℕ) < ((i 0 : ℕ) / 512 * 125 + 124) / 125 * 512 + 512
      omega
    | ⟨1, _⟩ =>
      show win0_9.index ⟨(i 0 : ℕ) / 512 * 125 + 124, hlt⟩ 1 * 1 ≤ (i 1 : ℕ) ∧ (i 1 : ℕ) < win0_9.index ⟨(i 0 : ℕ) / 512 * 125 + 124, hlt⟩ 1 * 1 + 1
      rw [(idx9 ⟨(i 0 : ℕ) / 512 * 125 + 124, hlt⟩).2]
      omega

theorem arr12_of (g : Fin 2048 → ℝ)
    (H : ∀ (t : Fin cfg0.N) (nn : Fin 4), t.val = nn.val * 125 + 124 → ∀ r : Fin 512,
      (dat.after 12 t : S512x1.Idx → EReal) (ix2 r (0 : Fin 1)) = ((g (V0.rowOf nn r) : ℝ) : EReal)) :
    ∀ n : Fin 2048, (dat.arrAt 12 cfg0.N : S2048x1.Idx → EReal) (ix2 n (0 : Fin 1)) = ((g n : ℝ) : EReal) := by
  intro n
  refine dat.arrAt_forall_of_cover 12 (fun (i : S2048x1.Idx) (x : EReal) => x = ((g (i 0) : ℝ) : EReal)) ?hP ?hcover (ix2 n (0 : Fin 1))
  case hP =>
    intro t hf y
    have hN : t.val < 500 := lt_of_lt_of_eq t.isLt (show cfg0.N = 500 from N_0)
    have h124 : t.val % 125 = 124 := (flush0_12 t).mp hf
    show (cfg0.win 12).cut (grid0.coords t) (dat.after 12 t) y = _
    show (dat.after 12 t : S512x1.Idx → EReal) y = _
    obtain ⟨r, rfl⟩ : ∃ r : Fin 512, y = ix2 r (0 : Fin 1) :=
      ⟨y 0, (eq_ix2 y).trans (congrArg (fun b : Fin 1 => ix2 (y 0) b) (Fin.ext (by have h : (y 1 : ℕ) < 1 := (y 1).isLt; show (y 1 : ℕ) = 0; omega)))⟩
    rw [H t ⟨t.val / 125, by omega⟩ (by show t.val = t.val / 125 * 125 + 124; omega) r]
    have e0 : V0.rowOf ⟨t.val / 125, by omega⟩ r = ((cfg0.win 12).blk t).view.emb (ix2 r (0 : Fin 1)) 0 := by
      apply Fin.ext
      show t.val / 125 * 512 + r.val = ((win0_12.rect t).emb (ix2 r (0 : Fin 1)) 0 : ℕ)
      rw [Pipeline.Window.rect_emb_val, (idx12 t).1]
      rfl
    rw [e0]
  case hcover =>
    intro i
    have h0 : (i 0 : ℕ) < 2048 := (i 0).isLt
    have h1 : (i 1 : ℕ) < 1 := (i 1).isLt
    have hlt : (i 0 : ℕ) / 512 * 125 + 124 < cfg0.N := by rw [show cfg0.N = 500 from N_0]; omega
    refine ⟨⟨(i 0 : ℕ) / 512 * 125 + 124, hlt⟩, (flush0_12 _).mpr (by show ((i 0 : ℕ) / 512 * 125 + 124) % 125 = 124; omega), ?_⟩
    show i ∈ ((View.whole main_v7_5).slice (win0_12.rect ⟨(i 0 : ℕ) / 512 * 125 + 124, hlt⟩)).set
    rw [View.set_slice_whole, Rect.mem_set_unit]
    intro ax
    match ax with
    | ⟨0, _⟩ =>
      show win0_12.index ⟨(i 0 : ℕ) / 512 * 125 + 124, hlt⟩ 0 * 512 ≤ (i 0 : ℕ) ∧ (i 0 : ℕ) < win0_12.index ⟨(i 0 : ℕ) / 512 * 125 + 124, hlt⟩ 0 * 512 + 512
      rw [(idx12 ⟨(i 0 : ℕ) / 512 * 125 + 124, hlt⟩).1]
      show ((i 0 : ℕ) / 512 * 125 + 124) / 125 * 512 ≤ (i 0 : ℕ) ∧ (i 0 : ℕ) < ((i 0 : ℕ) / 512 * 125 + 124) / 125 * 512 + 512
      omega
    | ⟨1, _⟩ =>
      show win0_12.index ⟨(i 0 : ℕ) / 512 * 125 + 124, hlt⟩ 1 * 1 ≤ (i 1 : ℕ) ∧ (i 1 : ℕ) < win0_12.index ⟨(i 0 : ℕ) / 512 * 125 + 124, hlt⟩ 1 * 1 + 1
      rw [(idx12 ⟨(i 0 : ℕ) / 512 * 125 + 124, hlt⟩).2]
      omega

end Any

theorem arr10 (c : Dev nD) (g : Fin 2048 → Fin 32000 → ℝ)
    (H : ∀ (t : Fin cfg0.N) (nn : Fin 4) (v : Fin 125), t.val = nn.val * 125 + v.val → ∀ (r : Fin 512) (q : Fin 256),
      ((R0.dat0 V c).after 10 t : S512x256.Idx → EReal) (ix2 r q) = ((g (V0.rowOf nn r) (V0.colOf v q) : ℝ) : EReal)) :
    ∀ (n : Fin 2048) (col : Fin 32000), ((R0.dat0 V c).arrAt 10 cfg0.N : S2048x32000.Idx → EReal) (ix2 n col) = ((g n col : ℝ) : EReal) :=
  arr10_of (R0.dat0 V c) g H

theorem arr11 (c : Dev nD) (g : Fin 2048 → Fin 32000 → ℝ)
    (H : ∀ (t : Fin cfg0.N) (nn : Fin 4) (v : Fin 125), t.val = nn.val * 125 + v.val → ∀ (r : Fin 512) (q : Fin 256),
      ((R0.dat0 V c).after 11 t : S512x256.Idx → EReal) (ix2 r q) = ((g (V0.rowOf nn r) (V0.colOf v q) : ℝ) : EReal)) :
    ∀ (n : Fin 2048) (col : Fin 32000), ((R0.dat0 V c).arrAt 11 cfg0.N : S2048x32000.Idx → EReal) (ix2 n col) = ((g n col : ℝ) : EReal) :=
  arr11_of (R0.dat0 V c) g H

theorem arr7 (c : Dev nD) (g : Fin 2048 → ℝ)
    (H : ∀ (t : Fin cfg0.N) (nn : Fin 4), t.val = nn.val * 125 + 124 → ∀ r : Fin 512,
      ((R0.dat0 V c).after 7 t : S512x1.Idx → EReal) (ix2 r (0 : Fin 1)) = ((g (V0.rowOf nn r) : ℝ) : EReal)) :
    ∀ n : Fin 2048, ((R0.dat0 V c).arrAt 7 cfg0.N : S2048x1.Idx → EReal) (ix2 n (0 : Fin 1)) = ((g n : ℝ) : EReal) :=
  arr7_of (R0.dat0 V c) g H

theorem arr8 (c : Dev nD) (g : Fin 2048 → ℝ)
    (H : ∀ (t : Fin cfg0.N) (nn : Fin 4), t.val = nn.val * 125 + 124 → ∀ r : Fin 512,
      ((R0.dat0 V c).after 8 t : S512x1.Idx → EReal) (ix2 r (0 : Fin 1)) = ((g (V0.rowOf nn r) : ℝ) : EReal)) :
    ∀ n : Fin 2048, ((R0.dat0 V c).arrAt 8 cfg0.N : S2048x1.Idx → EReal) (ix2 n (0 : Fin 1)) = ((g n : ℝ) : EReal) :=
  arr8_of (R0.dat0 V c) g H

theorem arr9 (c : Dev nD) (g : Fin 2048 → ℝ)
    (H : ∀ (t : Fin cfg0.N) (nn : Fin 4), t.val = nn.val * 125 + 124 → ∀ r : Fin 512,
      ((R0.dat0 V c).after 9 t : S512x1.Idx → EReal) (ix2 r (0 : Fin 1)) = ((g (V0.rowOf nn r) : ℝ) : EReal)) :
    ∀ n : Fin 2048, ((R0.dat0 V c).arrAt 9 cfg0.N : S2048x1.Idx → EReal) (ix2 n (0 : Fin 1)) = ((g n : ℝ) : EReal) :=
  arr9_of (R0.dat0 V c) g H

theorem arr12 (c : Dev nD) (g : Fin 2048 → ℝ)
    (H : ∀ (t : Fin cfg0.N) (nn : Fin 4), t.val = nn.val * 125 + 124 → ∀ r : Fin 512,
      ((R0.dat0 V c).after 12 t : S512x1.Idx → EReal) (ix2 r (0 : Fin 1)) = ((g (V0.rowOf nn r) : ℝ) : EReal)) :
    ∀ n : Fin 2048, ((R0.dat0 V c).arrAt 12 cfg0.N : S2048x1.Idx → EReal) (ix2 n (0 : Fin 1)) = ((g n : ℝ) : EReal) :=
  arr12_of (R0.dat0 V c) g H

end Cert.KernelIdeal.Cover0

end
-- ==== Proof.Glue0.lean ====
import proofs.«422162_j56092272886459_3_alg».proof.Proof.R0.Frame
import proofs.«422162_j56092272886459_3_alg».proof.Proof.R0.Pieces
import proofs.«422162_j56092272886459_3_alg».proof.Proof.R0.PiecesC
import proofs.«422162_j56092272886459_3_alg».proof.Proof.V0Math
import proofs.«422162_j56092272886459_3_alg».proof.Proof.Blocks0
import proofs.«422162_j56092272886459_3_alg».proof.Proof.Cover0
import proofs.«422162_j56092272886459_3_alg».proof.Proof.Spec
import Idealize.ShloMosaic.Lib.Pipeline.Value

set_option maxRecDepth 16384

noncomputable section

namespace Cert.KernelIdeal.Glue0

open Cert.KernelIdeal Cert.KernelIdeal.Gen Cert.KernelIdeal.R0 Cert.KernelIdeal.Step Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

def pack (o : Vec Ideal S512x1 .f32 × Vec Ideal S512x1 .f32 × Vec Ideal S512x1 .f32 × Vec Ideal S512x256 .f32 × Vec Ideal S512x256 .f32 × Vec Ideal S512x1 .f32 × Vec Ideal S512x1 .f32 × Vec Ideal S512x1 .f32 × Vec Ideal S512x1 .f32 × Vec Ideal S512x1 .f32 × Vec Ideal S512x1 .f32 × Vec Ideal S512x1 .f32 × Vec Ideal S512x1 .f32) : St0 Ideal :=
  ⟨o.2.2.2.2.2.2.1, o.2.2.2.2.2.2.2.1, o.2.2.2.2.2.2.2.2.1, o.2.2.2.2.2.2.2.2.2.1, o.2.2.2.2.2.2.2.2.2.2.1, o.2.2.2.2.2.2.2.2.2.2.2.1, o.2.2.2.2.2.2.2.2.2.2.2.2⟩

theorem coordV : ∀ t : Fin cfg0.N, ((grid0.coords t) 1).val = t.val % 125 :=
  (by decide +kernel : ∀ t : Fin grid0.N, ((grid0.coords t) 1).val = t.val % 125)

section Hyps
variable (a : Args) (c : Dev nD)
    (h3 : ∀ (n : Fin 2048) (k : Fin 2048), (V c main_v3 : S2048x2048.Idx → EReal) (ix2 n k) = ((a.X n k : ℝ) : EReal)) (h4 : ∀ (v : Fin 32000) (k : Fin 2048), (V c main_v4 : S32000x2048.Idx → EReal) (ix2 v k) = ((a.Ws v k : ℝ) : EReal))
    (h0 : ∀ v : Fin 32000, (V c main_v0 : S1x32000.Idx → EReal) (ix2 (0 : Fin 1) v) = ((a.Bs v : ℝ) : EReal)) (h5 : ∀ (n : Fin 2048) (k : Fin 4096), (V c main_v5 : S2048x4096.Idx → EReal) (ix2 n k) = ((a.Xt n k : ℝ) : EReal))
    (h6 : ∀ (v : Fin 32000) (k : Fin 4096), (V c main_v6 : S32000x4096.Idx → EReal) (ix2 v k) = ((a.Wt v k : ℝ) : EReal)) (h1 : ∀ v : Fin 32000, (V c main_v1 : S1x32000.Idx → EReal) (ix2 (0 : Fin 1) v) = ((a.Bt v : ℝ) : EReal))
    (h2 : ∀ n : Fin 2048, (V c main_v2 : S2048x1.Idx → BitVec 32) (ix2 n (0 : Fin 1)) = a.Tg n)
include h3 h4 h0 h5 h6 h1 h2

theorem inv_at : ∀ (n : ℕ) (t : Fin cfg0.N), t.val = n → ∀ (nn : Fin 4) (v : Fin 125), t.val = nn.val * 125 + v.val →
    V0.Inv0 a nn ((v.val + 1) * 256) (pack (outsAt0 V c t.val t.isLt)) := by
  intro n
  induction n using Nat.strong_induction_on with
  | _ n ih =>
    intro t htn nn v hnv
    have hN : t.val < 500 := lt_of_lt_of_eq t.isLt (show cfg0.N = 500 from N_0)
    have hi : ((grid0.coords t) 1).val = v.val := by rw [coordV]; omega
    have hb := Blocks0.blocks V a c h3 h4 h0 h5 h6 h1 h2 t nn v hnv
    by_cases c0 : t.val % 125 = 0
    · have c1 : ¬t.val % 125 = 124 := by omega
      rw [outsAt0_A V c t c0 c1, outs0_A_eq]
      have hv : v.val * 256 = 0 := by omega
      exact V0.inv0_step a nn v (grid0.coords t) hi hb Step.init0 (hv ▸ V0.inv0_init a nn)
    · have hv1 : 1 ≤ v.val := by omega
      have hprev := ih (t.val - 1) (by omega) ⟨t.val - 1, by omega⟩ rfl nn ⟨v.val - 1, by omega⟩ (by show t.val - 1 = nn.val * 125 + (v.val - 1); omega)
      have hprev' : V0.Inv0 a nn (v.val * 256) (pack (outsAt0 V c (t.val - 1) (Nat.lt_of_le_of_lt (Nat.sub_le _ _) t.isLt))) := by
        have e : (v.val - 1 + 1) * 256 = v.val * 256 := by omega
        exact e ▸ hprev
      by_cases c1 : t.val % 125 = 124
      · rw [outsAt0_C V c t c0 c1, outs0_C_eq]
        exact V0.inv0_step a nn v (grid0.coords t) hi hb (pack (outsAt0 V c (t.val - 1) (Nat.lt_of_le_of_lt (Nat.sub_le _ _) t.isLt))) hprev'
      · rw [outsAt0_B V c t c0 c1, outs0_B_eq]
        exact V0.inv0_step a nn v (grid0.coords t) hi hb (pack (outsAt0 V c (t.val - 1) (Nat.lt_of_le_of_lt (Nat.sub_le _ _) t.isLt))) hprev'

omit h3 h4 h0 h5 h6 h1 h2 in

theorem o10_eq (t : Fin cfg0.N) :
    (outsAt0 V c t.val t.isLt).2.2.2.1 = Step.tileST (iblk0 V c 0 t) (iblk0 V c 1 t) (iblk0 V c 2 t) := by
  by_cases c0 : t.val % 125 = 0
  · have c1 : ¬t.val % 125 = 124 := by omega
    rw [outsAt0_A V c t c0 c1, outs0_A_eq]
  · by_cases c1 : t.val % 125 = 124
    · rw [outsAt0_C V c t c0 c1, outs0_C_eq]
    · rw [outsAt0_B V c t c0 c1, outs0_B_eq]

omit h3 h4 h0 h5 h6 h1 h2 in

theorem o11_eq (t : Fin cfg0.N) :
    (outsAt0 V c t.val t.isLt).2.2.2.2.1 = Step.tileTT (iblk0 V c 3 t) (iblk0 V c 4 t) (iblk0 V c 5 t) := by
  by_cases c0 : t.val % 125 = 0
  · have c1 : ¬t.val % 125 = 124 := by omega
    rw [outsAt0_A V c t c0 c1, outs0_A_eq]
  · by_cases c1 : t.val % 125 = 124
    · rw [outsAt0_C V c t c0 c1, outs0_C_eq]
    · rw [outsAt0_B V c t c0 c1, outs0_B_eq]

omit h3 h4 h0 h5 h6 h1 h2 in

theorem oC_eq (t : Fin cfg0.N) (c0 : ¬t.val % 125 = 0) (c1 : t.val % 125 = 124) :
    (outsAt0 V c t.val t.isLt).1 = Step.finS (pack (outsAt0 V c t.val t.isLt))
    ∧ (outsAt0 V c t.val t.isLt).2.1 = Step.finST (pack (outsAt0 V c t.val t.isLt))
    ∧ (outsAt0 V c t.val t.isLt).2.2.1 = Step.finTT (pack (outsAt0 V c t.val t.isLt))
    ∧ (outsAt0 V c t.val t.isLt).2.2.2.2.2.1 = (pack (outsAt0 V c t.val t.isLt)).acc := by
  rw [outsAt0_C V c t c0 c1, outs0_C_eq]
  exact ⟨rfl, rfl, rfl, rfl⟩

theorem inv_last (t : Fin cfg0.N) (nn : Fin 4) (ht : t.val = nn.val * 125 + 124) :
    V0.Inv0 a nn 32000 (pack (outsAt0 V c t.val t.isLt)) :=
  inv_at V a c h3 h4 h0 h5 h6 h1 h2 t.val t rfl nn ⟨124, by omega⟩ ht

theorem outs0 :
    (∀ n : Fin 2048, ((R0.dat0 V c).arrAt 7 cfg0.N : S2048x1.Idx → EReal) (ix2 n (0 : Fin 1)) = ((lse (sl a n) : ℝ) : EReal))
    ∧ (∀ n : Fin 2048, ((R0.dat0 V c).arrAt 8 cfg0.N : S2048x1.Idx → EReal) (ix2 n (0 : Fin 1)) = ((lse (fun k => sl a n k / 2) : ℝ) : EReal))
    ∧ (∀ n : Fin 2048, ((R0.dat0 V c).arrAt 9 cfg0.N : S2048x1.Idx → EReal) (ix2 n (0 : Fin 1)) = ((lse (fun k => tl a n k / 2) : ℝ) : EReal))
    ∧ (∀ (n : Fin 2048) (col : Fin 32000), ((R0.dat0 V c).arrAt 10 cfg0.N : S2048x32000.Idx → EReal) (ix2 n col) = ((sl a n col / 2 : ℝ) : EReal))
    ∧ (∀ (n : Fin 2048) (col : Fin 32000), ((R0.dat0 V c).arrAt 11 cfg0.N : S2048x32000.Idx → EReal) (ix2 n col) = ((tl a n col / 2 : ℝ) : EReal))
    ∧ (∀ n : Fin 2048, ((R0.dat0 V c).arrAt 12 cfg0.N : S2048x1.Idx → EReal) (ix2 n (0 : Fin 1)) = ((tgtLogit a n : ℝ) : EReal)) := by
  have hC : ∀ (t : Fin cfg0.N) (nn : Fin 4), t.val = nn.val * 125 + 124 → ¬t.val % 125 = 0 ∧ t.val % 125 = 124 := by
    intro t nn ht; omega
  refine ⟨?_, ?_, ?_, ?_, ?_, ?_⟩
  · refine Cover0.arr7 V c (fun n => lse (sl a n)) fun t nn ht r => ?_
    rw [after0_7, (oC_eq V c t (hC t nn ht).1 (hC t nn ht).2).1]
    exact (V0.inv0_fin a nn _ (inv_last V a c h3 h4 h0 h5 h6 h1 h2 t nn ht) r).1
  · refine Cover0.arr8 V c (fun n => lse fun k => sl a n k / 2) fun t nn ht r => ?_
    rw [after0_8, (oC_eq V c t (hC t nn ht).1 (hC t nn ht).2).2.1]
    exact (V0.inv0_fin a nn _ (inv_last V a c h3 h4 h0 h5 h6 h1 h2 t nn ht) r).2.1
  · refine Cover0.arr9 V c (fun n => lse fun k => tl a n k / 2) fun t nn ht r => ?_
    rw [after0_9, (oC_eq V c t (hC t nn ht).1 (hC t nn ht).2).2.2.1]
    exact (V0.inv0_fin a nn _ (inv_last V a c h3 h4 h0 h5 h6 h1 h2 t nn ht) r).2.2.1
  · refine Cover0.arr10 V c (fun n col => sl a n col / 2) fun t nn v ht r q => ?_
    rw [after0_10, o10_eq V c t]
    exact V0.tileST_eq (Blocks0.blocks V a c h3 h4 h0 h5 h6 h1 h2 t nn v ht) r q
  · refine Cover0.arr11 V c (fun n col => tl a n col / 2) fun t nn v ht r q => ?_
    rw [after0_11, o11_eq V c t]
    exact V0.tileTT_eq (Blocks0.blocks V a c h3 h4 h0 h5 h6 h1 h2 t nn v ht) r q
  · refine Cover0.arr12 V c (fun n => tgtLogit a n) fun t nn ht r => ?_
    rw [after0_12, (oC_eq V c t (hC t nn ht).1 (hC t nn ht).2).2.2.2]
    exact (V0.inv0_fin a nn _ (inv_last V a c h3 h4 h0 h5 h6 h1 h2 t nn ht) r).2.2.2

end Hyps

end Cert.KernelIdeal.Glue0

end
-- ==== Proof.R1.Pieces.lean ====
import proofs.«422162_j56092272886459_3_alg».proof.Proof.R1.Frame
import Idealize.ShloMosaic.Lib.Pipeline.Value

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

theorem out1_B_4_eq (c : Dev nD) (i : grid1.Coords) (arg2 : Memref sig .tc .vmem S512x1280 .f32) (harg2 : arg2.IsWhole) (arg3 : Memref sig .tc .vmem S512x1280 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : ¬cond1_0 i)
    (x0 : Vec F S512x1280 .f32) (x1 : Vec F S512x1280 .f32) (x2 : Vec F S512x1 .f32) (x3 : Vec F S512x1 .f32) (xo4 : Vec F S512x1 .f32) :
    out1_B_4 c i arg2 harg2 arg3 harg3 arg4 harg4 arg5 harg5 arg6 harg6 hc0 x0 x1 x2 x3 xo4 = k1_pay2 x0 x2 x1 x3 xo4 := by
  unfold out1_B_4
  rw [View.read_writes_eq_canon _ _ _ (cover1_B_4 c i arg2 harg2 arg3 harg3 arg4 harg4 arg5 harg5 arg6 harg6 hc0 x0 x1 x2 x3 xo4)]
  unfold kernelRun1_B
  dsimp only
  sl_unfold_words
  rw [View.canon_unit_zero hz]
  simp only [View.readAt_eq_ld, harg2.read_unread, harg3.read_unread, harg4.read_unread, harg5.read_unread, harg6.read_unread,
    View.ld_unit_zero (S := S512x1280) hz, View.ld_unit_zero (S := S512x1) hz]

theorem out1_A_4_eq (c : Dev nD) (i : grid1.Coords) (arg2 : Memref sig .tc .vmem S512x1280 .f32) (harg2 : arg2.IsWhole) (arg3 : Memref sig .tc .vmem S512x1280 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : cond1_0 i)
    (x0 : Vec F S512x1280 .f32) (x1 : Vec F S512x1280 .f32) (x2 : Vec F S512x1 .f32) (x3 : Vec F S512x1 .f32) :
    out1_A_4 c i arg2 harg2 arg3 harg3 arg4 harg4 arg5 harg5 arg6 harg6 hc0 x0 x1 x2 x3 = k1_pay2 x0 x2 x1 x3 (k1_pay1 (F := F)) := by
  unfold out1_A_4
  rw [View.read_writes_eq_canon _ _ _ (cover1_A_4 c i arg2 harg2 arg3 harg3 arg4 harg4 arg5 harg5 arg6 harg6 hc0 x0 x1 x2 x3)]
  unfold kernelRun1_A
  dsimp only
  sl_unfold_words
  rw [View.canon_cons_unit_zero (S := S512x1) hz, View.readCov_unit_zero (S := S512x1) _ hz]
  simp only [View.readAt_eq_ld, harg2.read_unread, harg3.read_unread, harg4.read_unread, harg5.read_unread,
    View.ld_unit_zero (S := S512x1280) hz, View.ld_unit_zero (S := S512x1) hz]

end Cert.KernelIdeal.R1

end
-- ==== Proof.V1Math.lean ====
import proofs.«422162_j56092272886459_3_alg».proof.Proof.Step
import proofs.«422162_j56092272886459_3_alg».proof.Proof.Spec
import Idealize.ShloMosaic.PureOps.Ideal.Laws
import Idealize.ShloMosaic.Lib.ValueIdx
import Idealize.ShloMosaic.Lib.Pipeline.Value
import Mathlib.Analysis.SpecialFunctions.Log.Basic

noncomputable section

namespace Cert.KernelIdeal.V1

open Cert.KernelIdeal Cert.KernelIdeal.Gen Cert.KernelIdeal.Step Cert.Spec
open Idealize.ShloMosaic Idealize.ShloMosaic.ValueIdx

def rowOf (nn : Fin 4) (r : Fin 512) : Fin 2048 := ⟨nn.val * 512 + r.val, by omega⟩

def col1 (w : Fin 25) (q : Fin 1280) : Fin 32000 := ⟨w.val * 1280 + q.val, by omega⟩

def part (a : Args) (n : Fin 2048) (C : ℕ) : ℝ :=
  ∑ col : Fin 32000, if col.val < C then (1 / 2 * kls a n col + 1 / 2 * klt a n col) else 0

theorem sum_tile (f : Fin 32000 → ℝ) (w : Fin 25) :
    (∑ col : Fin 32000, if col.val < (w.val + 1) * 1280 then f col else 0)
      = (∑ col : Fin 32000, if col.val < w.val * 1280 then f col else 0) + ∑ q : Fin 1280, f (col1 w q) := by
  have h1 : ∀ col : Fin 32000, (if col.val < (w.val + 1) * 1280 then f col else 0)
      = (if col.val < w.val * 1280 then f col else 0)
        + (if w.val * 1280 ≤ col.val ∧ col.val < (w.val + 1) * 1280 then f col else 0) := by
    intro col
    by_cases h : col.val < w.val * 1280
    · have h2 : col.val < (w.val + 1) * 1280 := by omega
      have h3 : ¬ (w.val * 1280 ≤ col.val ∧ col.val < (w.val + 1) * 1280) := by omega
      rw [if_pos h, if_pos h2, if_neg h3, add_zero]
    · by_cases h2 : col.val < (w.val + 1) * 1280
      · have h3 : w.val * 1280 ≤ col.val ∧ col.val < (w.val + 1) * 1280 := ⟨by omega, h2⟩
        rw [if_neg h, if_pos h2, if_pos h3, zero_add]
      · have h3 : ¬ (w.val * 1280 ≤ col.val ∧ col.val < (w.val + 1) * 1280) := by omega
        rw [if_neg h, if_neg h2, if_neg h3, add_zero]
  rw [Finset.sum_congr rfl (fun col _ => h1 col), Finset.sum_add_distrib]
  refine congrArg (_ + ·) ?_
  rw [← Finset.sum_filter]
  symm
  refine Finset.sum_bij (fun q _ => col1 w q) ?_ ?_ ?_ ?_
  · intro q _
    have := q.isLt
    simp only [Finset.mem_filter, Finset.mem_univ, true_and, col1]
    omega
  · intro q1 _ q2 _ h
    have := congrArg Fin.val h
    simp only [col1] at this
    exact Fin.ext (by omega)
  · intro col hcol
    simp only [Finset.mem_filter, Finset.mem_univ, true_and] at hcol
    exact ⟨⟨col.val - w.val * 1280, by omega⟩, Finset.mem_univ _, Fin.ext (by simp only [col1]; omega)⟩
  · intro q _; rfl

theorem part_succ (a : Args) (n : Fin 2048) (w : Fin 25) :
    part a n ((w.val + 1) * 1280)
      = part a n (w.val * 1280)
        + (1 / 2 * (∑ q : Fin 1280, kls a n (col1 w q)) + 1 / 2 * (∑ q : Fin 1280, klt a n (col1 w q))) := by
  unfold part
  rw [sum_tile, Finset.sum_add_distrib, Finset.mul_sum, Finset.mul_sum]

theorem part_fin (a : Args) (n : Fin 2048) : part a n 32000 = jsdRow a n := by
  unfold part jsdRow
  rw [Finset.mul_sum, Finset.mul_sum, ← Finset.sum_add_distrib]
  exact Finset.sum_congr rfl fun col _ => if_pos col.isLt

theorem part_zero (a : Args) (n : Fin 2048) : part a n 0 = 0 := by
  unfold part
  exact Finset.sum_eq_zero fun col _ => if_neg (Nat.not_lt_zero _)

theorem bcol (v : Vec Ideal S512x1 .f32) (r : Fin 512) (q : Fin 1280) :
    broadcastTo S512x1280 v broadcasts_S512x1_S512x1280 (ix2 r q) = v (ix2 r (0 : Fin 1)) := by
  refine broadcastTo_apply v _ (ix2 r q) (ix2 r (0 : Fin 1)) fun ax => ?_
  match ax with
  | ⟨0, _⟩ => rfl
  | ⟨1, _⟩ => rfl

theorem ccol (v : FVec Ideal S512 .f32) (r : Fin 512) :
    shapeCast S512x1 v shapeCasts_S512_S512x1 (ix2 r (0 : Fin 1)) = v (ix1 r) := by
  refine shapeCast_apply v _ (ix2 r (0 : Fin 1)) (ix1 r) ?_
  rw [Shape.rowMajor_val_two, Shape.rowMajor_val_one]
  show r.val = r.val * 1 + 0
  omega

theorem lanesum (v : FVec Ideal S512x1280 .f32) (r : Fin 512) :
    multiReduction (F := Ideal) .add [1] S512 v 0x00000000#32 reduces_S512x1280_S512 (.inl rfl) rfl (ix1 r)
      = ∑ q : Fin 1280, v (ix2 r q) := by
  refine (Ideal.multiReduction_add_single v 0x00000000#32 reduces_S512x1280_S512 (.inl rfl) rfl (ix1 r)).trans ?_
  refine Finset.sum_congr rfl fun q _ => congrArg v ?_
  funext a
  match a with
  | ⟨0, _⟩ => rfl
  | ⟨1, _⟩ => rfl

theorem ofBits_half : Ideal.ofBits .f32 0x3F000000#32 = ((1 / 2 : ℝ) : EReal) := by
  simp [Ideal.ofBits, Ideal.ieee, -EReal.coe_mul]; norm_num

theorem coe_sum {ι : Type*} (s : Finset ι) (g : ι → ℝ) :
    (∑ k ∈ s, ((g k : ℝ) : EReal)) = ((∑ k ∈ s, g k : ℝ) : EReal) := by
  classical
  induction s using Finset.induction_on with
  | empty => simp
  | insert a s ha ih => rw [Finset.sum_insert ha, Finset.sum_insert ha, ih, EReal.coe_add]

theorem kl_entry (P Q1 Q2 : FVec Ideal S512x1280 .f32) (i : S512x1280.Idx) (p q1 q2 : ℝ)
    (hp : P i = ((p : ℝ) : EReal)) (h1 : Q1 i = ((q1 : ℝ) : EReal)) (h2 : Q2 i = ((q2 : ℝ) : EReal)) :
    mulf (exp P) (subf P (log (addf
        (mulf (broadcast S512x1280 (FloatOps.ofBits (F := Ideal) .f32 0x3F000000#32)) (exp Q1))
        (mulf (broadcast S512x1280 (FloatOps.ofBits (F := Ideal) .f32 0x3F000000#32)) (exp Q2))))) i
      = ((Real.exp p * (p - Real.log (1 / 2 * Real.exp q1 + 1 / 2 * Real.exp q2)) : ℝ) : EReal) := by
  show Ideal.exp (P i) * (P i - Ideal.log (Ideal.ofBits .f32 0x3F000000#32 * Ideal.exp (Q1 i)
      + Ideal.ofBits .f32 0x3F000000#32 * Ideal.exp (Q2 i))) = _
  have hpos : ¬ (1 / 2 * Real.exp q1 + 1 / 2 * Real.exp q2 ≤ 0) := by
    have := Real.exp_pos q1; have := Real.exp_pos q2; nlinarith
  rw [hp, h1, h2, ofBits_half, Ideal.exp_coe, Ideal.exp_coe, Ideal.exp_coe, ← EReal.coe_mul, ← EReal.coe_mul,
    ← EReal.coe_add, Ideal.log_coe, if_neg hpos, ← EReal.coe_sub, ← EReal.coe_mul]

theorem inv1_init (r : Fin 512) : init1 (F := Ideal) (ix2 r (0 : Fin 1)) = ((0 : ℝ) : EReal) := by
  show Ideal.ofBits .f32 0x00000000#32 = _
  rw [Ideal.ofBits_zero_f32]; rfl

theorem inv1_step (a : Args) (nn : Fin 4) (w : Fin 25) (x0 x1 : Vec Ideal S512x1280 .f32)
    (x2 x3 prev : Vec Ideal S512x1 .f32)
    (h0 : ∀ (r : Fin 512) (q : Fin 1280), x0 (ix2 r q) = ((sl a (rowOf nn r) (col1 w q) / 2 : ℝ) : EReal))
    (h1 : ∀ (r : Fin 512) (q : Fin 1280), x1 (ix2 r q) = ((tl a (rowOf nn r) (col1 w q) / 2 : ℝ) : EReal))
    (h2 : ∀ r : Fin 512, x2 (ix2 r (0 : Fin 1)) = ((lse fun c => sl a (rowOf nn r) c / 2 : ℝ) : EReal))
    (h3 : ∀ r : Fin 512, x3 (ix2 r (0 : Fin 1)) = ((lse fun c => tl a (rowOf nn r) c / 2 : ℝ) : EReal))
    (hp : ∀ r : Fin 512, prev (ix2 r (0 : Fin 1)) = ((part a (rowOf nn r) (w.val * 1280) : ℝ) : EReal))
    (r : Fin 512) :
    step1 x0 x1 x2 x3 prev (ix2 r (0 : Fin 1)) = ((part a (rowOf nn r) ((w.val + 1) * 1280) : ℝ) : EReal) := by
  have hs : ∀ q : Fin 1280, subf (F := Ideal) (φ := .f32) x0 (broadcastTo S512x1280 x2 broadcasts_S512x1_S512x1280) (ix2 r q)
      = ((sp a (rowOf nn r) (col1 w q) : ℝ) : EReal) := fun q => by
    rw [subf_apply, bcol, h0, h2, ← EReal.coe_sub]; rfl
  have ht : ∀ q : Fin 1280, subf (F := Ideal) (φ := .f32) x1 (broadcastTo S512x1280 x3 broadcasts_S512x1_S512x1280) (ix2 r q)
      = ((tp a (rowOf nn r) (col1 w q) : ℝ) : EReal) := fun q => by
    rw [subf_apply, bcol, h1, h3, ← EReal.coe_sub]; rfl
  unfold step1 k1_pay2
  simp only [shapeCast_self]
  rw [addf_apply, addf_apply, mulf_apply, mulf_apply, broadcast_apply, ccol, ccol, lanesum, lanesum]
  rw [Finset.sum_congr rfl fun q _ => kl_entry _ _ _ (ix2 r q) _ _ _ (hs q) (hs q) (ht q),
    Finset.sum_congr rfl fun q _ => kl_entry _ _ _ (ix2 r q) _ _ _ (ht q) (hs q) (ht q)]
  rw [hp, coe_sum, coe_sum, part_succ]
  show _ + (Ideal.ofBits .f32 0x3F000000#32 * _ + Ideal.ofBits .f32 0x3F000000#32 * _) = _
  rw [ofBits_half, ← EReal.coe_mul, ← EReal.coe_mul, ← EReal.coe_add, ← EReal.coe_add]
  rfl

end Cert.KernelIdeal.V1

end
-- ==== Proof.Glue1.lean ====
import proofs.«422162_j56092272886459_3_alg».proof.Proof.R1.Pieces
import proofs.«422162_j56092272886459_3_alg».proof.Proof.V1Math
import proofs.«422162_j56092272886459_3_alg».proof.Proof.Spec
import Idealize.ShloMosaic.Lib.Pipeline.Value

set_option maxRecDepth 16384

noncomputable section

namespace Cert.KernelIdeal.Glue1

open Cert.KernelIdeal Cert.KernelIdeal.Gen Cert.KernelIdeal.R1 Cert.KernelIdeal.V1 Cert.KernelIdeal.Step Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

def nnOf (t : Fin cfg1.N) : Fin 4 := ⟨t.val / 25, by have := lt_of_lt_of_eq t.isLt (show cfg1.N = 100 from N_1); omega⟩
def wOf (t : Fin cfg1.N) : Fin 25 := ⟨t.val % 25, Nat.mod_lt _ (by decide)⟩

theorem idx0 : ∀ t : Fin cfg1.N, win1_0.index t 0 = t.val / 25 ∧ win1_0.index t 1 = t.val % 25 :=
  (by decide +kernel : ∀ t : Fin grid1.N, win1_0.index t 0 = t.val / 25 ∧ win1_0.index t 1 = t.val % 25)
theorem idx1 : ∀ t : Fin cfg1.N, win1_1.index t 0 = t.val / 25 ∧ win1_1.index t 1 = t.val % 25 :=
  (by decide +kernel : ∀ t : Fin grid1.N, win1_1.index t 0 = t.val / 25 ∧ win1_1.index t 1 = t.val % 25)
theorem idx2 : ∀ t : Fin cfg1.N, win1_2.index t 0 = t.val / 25 ∧ win1_2.index t 1 = 0 :=
  (by decide +kernel : ∀ t : Fin grid1.N, win1_2.index t 0 = t.val / 25 ∧ win1_2.index t 1 = 0)
theorem idx3 : ∀ t : Fin cfg1.N, win1_3.index t 0 = t.val / 25 ∧ win1_3.index t 1 = 0 :=
  (by decide +kernel : ∀ t : Fin grid1.N, win1_3.index t 0 = t.val / 25 ∧ win1_3.index t 1 = 0)
theorem idx4 : ∀ t : Fin cfg1.N, win1_4.index t 0 = t.val / 25 ∧ win1_4.index t 1 = 0 :=
  (by decide +kernel : ∀ t : Fin grid1.N, win1_4.index t 0 = t.val / 25 ∧ win1_4.index t 1 = 0)

abbrev xb0 (c : Dev nD) (t : Fin cfg1.N) : Vec Ideal S512x1280 .f32 := iblk1 V c 0 t
abbrev xb1 (c : Dev nD) (t : Fin cfg1.N) : Vec Ideal S512x1280 .f32 := iblk1 V c 1 t
abbrev xb2 (c : Dev nD) (t : Fin cfg1.N) : Vec Ideal S512x1 .f32 := iblk1 V c 2 t
abbrev xb3 (c : Dev nD) (t : Fin cfg1.N) : Vec Ideal S512x1 .f32 := iblk1 V c 3 t

theorem blk0 (c : Dev nD) (t : Fin cfg1.N) (r : Fin 512) (q : Fin 1280) :
    xb0 V c t (ix2 r q) = (V c main_v7_3 : S2048x32000.Idx → EReal) (ix2 (rowOf (nnOf t) r) (col1 (wOf t) q)) := by
  unfold xb0 iblk1
  rw [View.read_apply]
  show V c main_v7_3 _ = V c main_v7_3 _
  congr 1
  funext a
  apply Fin.ext
  match a with
  | ⟨0, _⟩ =>
    show win1_0.index t 0 * 512 + 1 * r.val = (t.val / 25) * 512 + r.val
    rw [(idx0 t).1]; omega
  | ⟨1, _⟩ =>
    show win1_0.index t 1 * 1280 + 1 * q.val = (t.val % 25) * 1280 + q.val
    rw [(idx0 t).2]; omega

theorem blk1 (c : Dev nD) (t : Fin cfg1.N) (r : Fin 512) (q : Fin 1280) :
    xb1 V c t (ix2 r q) = (V c main_v7_4 : S2048x32000.Idx → EReal) (ix2 (rowOf (nnOf t) r) (col1 (wOf t) q)) := by
  unfold xb1 iblk1
  rw [View.read_apply]
  show V c main_v7_4 _ = V c main_v7_4 _
  congr 1
  funext a
  apply Fin.ext
  match a with
  | ⟨0, _⟩ =>
    show win1_1.index t 0 * 512 + 1 * r.val = (t.val / 25) * 512 + r.val
    rw [(idx1 t).1]; omega
  | ⟨1, _⟩ =>
    show win1_1.index t 1 * 1280 + 1 * q.val = (t.val % 25) * 1280 + q.val
    rw [(idx1 t).2]; omega

theorem blk2 (c : Dev nD) (t : Fin cfg1.N) (r : Fin 512) (q : Fin 1) :
    xb2 V c t (ix2 r q) = (V c main_v7_1 : S2048x1.Idx → EReal) (ix2 (rowOf (nnOf t) r) (0 : Fin 1)) := by
  unfold xb2 iblk1
  rw [View.read_apply]
  show V c main_v7_1 _ = V c main_v7_1 _
  congr 1
  funext a
  apply Fin.ext
  match a with
  | ⟨0, _⟩ =>
    show win1_2.index t 0 * 512 + 1 * r.val = (t.val / 25) * 512 + r.val
    rw [(idx2 t).1]; omega
  | ⟨1, _⟩ =>
    show win1_2.index t 1 * 1 + 1 * q.val = 0
    rw [(idx2 t).2]; have := q.isLt; omega

theorem blk3 (c : Dev nD) (t : Fin cfg1.N) (r : Fin 512) (q : Fin 1) :
    xb3 V c t (ix2 r q) = (V c main_v7_2 : S2048x1.Idx → EReal) (ix2 (rowOf (nnOf t) r) (0 : Fin 1)) := by
  unfold xb3 iblk1
  rw [View.read_apply]
  show V c main_v7_2 _ = V c main_v7_2 _
  congr 1
  funext a
  apply Fin.ext
  match a with
  | ⟨0, _⟩ =>
    show win1_3.index t 0 * 512 + 1 * r.val = (t.val / 25) * 512 + r.val
    rw [(idx3 t).1]; omega
  | ⟨1, _⟩ =>
    show win1_3.index t 1 * 1 + 1 * q.val = 0
    rw [(idx3 t).2]; have := q.isLt; omega

section Inv
variable (a : Args) (c : Dev nD)
  (h73 : ∀ (n : Fin 2048) (col : Fin 32000), (V c main_v7_3 : S2048x32000.Idx → EReal) (ix2 n col) = ((sl a n col / 2 : ℝ) : EReal))
  (h74 : ∀ (n : Fin 2048) (col : Fin 32000), (V c main_v7_4 : S2048x32000.Idx → EReal) (ix2 n col) = ((tl a n col / 2 : ℝ) : EReal))
  (h71 : ∀ n : Fin 2048, (V c main_v7_1 : S2048x1.Idx → EReal) (ix2 n (0 : Fin 1)) = ((lse fun k => sl a n k / 2 : ℝ) : EReal))
  (h72 : ∀ n : Fin 2048, (V c main_v7_2 : S2048x1.Idx → EReal) (ix2 n (0 : Fin 1)) = ((lse fun k => tl a n k / 2 : ℝ) : EReal))
include h73 h74 h71 h72

theorem step_at (t : Fin cfg1.N) (prev : Vec Ideal S512x1 .f32)
    (hp : ∀ r : Fin 512, prev (ix2 r (0 : Fin 1)) = ↑(part a (rowOf (nnOf t) r) ((wOf t).val * 1280))) (r : Fin 512) :
    k1_pay2 (xb0 V c t) (xb2 V c t) (xb1 V c t) (xb3 V c t) prev (ix2 r (0 : Fin 1))
      = ↑(part a (rowOf (nnOf t) r) (((wOf t).val + 1) * 1280)) :=
  inv1_step a (nnOf t) (wOf t) (xb0 V c t) (xb1 V c t) (xb2 V c t) (xb3 V c t) prev
    (fun r q => (blk0 V c t r q).trans (h73 _ _)) (fun r q => (blk1 V c t r q).trans (h74 _ _))
    (fun r => (blk2 V c t r 0).trans (h71 _)) (fun r => (blk3 V c t r 0).trans (h72 _)) hp r

theorem atA (t : Fin cfg1.N) (h0 : t.val % 25 = 0) (r : Fin 512) :
    outsAt1 V c t.val t.isLt (ix2 r (0 : Fin 1)) = ↑(part a (rowOf (nnOf t) r) (((wOf t).val + 1) * 1280)) := by
  rw [outsAt1_A V c t h0,
    out1_A_4_eq c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t) (iblk1 V c 2 t) (iblk1 V c 3 t)]
  exact step_at V a c h73 h74 h71 h72 t (k1_pay1 (F := Ideal)) (fun r => by
    have e : (wOf t).val * 1280 = 0 := by show (t.val % 25) * 1280 = 0; omega
    rw [e, part_zero]; exact inv1_init r) r

theorem atB (t : Fin cfg1.N) (h0 : ¬t.val % 25 = 0)
    (ih : ∀ r : Fin 512, outsAt1 V c (t.val - 1) (Nat.lt_of_le_of_lt (Nat.sub_le _ _) t.isLt) (ix2 r (0 : Fin 1))
      = ↑(part a (rowOf (nnOf ⟨t.val - 1, Nat.lt_of_le_of_lt (Nat.sub_le _ _) t.isLt⟩) r)
          (((wOf ⟨t.val - 1, Nat.lt_of_le_of_lt (Nat.sub_le _ _) t.isLt⟩).val + 1) * 1280))) (r : Fin 512) :
    outsAt1 V c t.val t.isLt (ix2 r (0 : Fin 1)) = ↑(part a (rowOf (nnOf t) r) (((wOf t).val + 1) * 1280)) := by
  rw [outsAt1_B V c t h0,
    out1_B_4_eq c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) (iblk1 V c 2 t) (iblk1 V c 3 t)
      (outsAt1 V c (t.val - 1) (Nat.lt_of_le_of_lt (Nat.sub_le _ _) t.isLt))]
  exact step_at V a c h73 h74 h71 h72 t (outsAt1 V c (t.val - 1) (Nat.lt_of_le_of_lt (Nat.sub_le _ _) t.isLt)) (fun r => by
    rw [ih r]
    have e1 : nnOf ⟨t.val - 1, Nat.lt_of_le_of_lt (Nat.sub_le _ _) t.isLt⟩ = nnOf t :=
      Fin.ext (by show (t.val - 1) / 25 = t.val / 25; omega)
    have e2 : (wOf ⟨t.val - 1, Nat.lt_of_le_of_lt (Nat.sub_le _ _) t.isLt⟩).val + 1 = (wOf t).val := by
      show (t.val - 1) % 25 + 1 = t.val % 25; omega
    rw [e1, e2]) r

theorem inv : ∀ (n : ℕ) (h : n < cfg1.N) (r : Fin 512),
    outsAt1 V c n h (ix2 r (0 : Fin 1)) = ↑(part a (rowOf (nnOf ⟨n, h⟩) r) (((wOf ⟨n, h⟩).val + 1) * 1280))
  | 0, h, r => atA V a c h73 h74 h71 h72 ⟨0, h⟩ (Nat.zero_mod _) r
  | n + 1, h, r => by
    by_cases h0 : (n + 1) % 25 = 0
    · exact atA V a c h73 h74 h71 h72 ⟨n + 1, h⟩ h0 r
    · exact atB V a c h73 h74 h71 h72 ⟨n + 1, h⟩ h0 (fun r => inv n (Nat.lt_of_succ_lt h) r) r

theorem flushed_at (t : Fin cfg1.N) (h24 : t.val % 25 = 24) (y : S512x1.Idx) :
    outsAt1 V c t.val t.isLt y = ((jsdRow a (rowOf (nnOf t) (y 0)) : ℝ) : EReal) := by
  obtain ⟨r, rfl⟩ : ∃ r : Fin 512, y = ix2 r (0 : Fin 1) :=
    ⟨y 0, (eq_ix2 y).trans (congrArg (fun b : Fin 1 => ix2 (y 0) b) (Fin.ext (by have h : (y 1 : ℕ) < 1 := (y 1).isLt; show (y 1 : ℕ) = 0; omega)))⟩
  obtain ⟨tv, ht⟩ := t
  rw [inv V a c h73 h74 h71 h72 tv ht r]
  have e : ((wOf ⟨tv, ht⟩).val + 1) * 1280 = 32000 := by
    show (tv % 25 + 1) * 1280 = 32000
    have : tv % 25 = 24 := h24
    omega
  rw [e, part_fin]

theorem out8 : ∀ n : Fin 2048, ((R1.dat1 V c).arrAt 4 cfg1.N : S2048x1.Idx → EReal) (ix2 n (0 : Fin 1)) = ((jsdRow a n : ℝ) : EReal) := by
  intro n
  refine (R1.dat1 V c).arrAt_forall_of_cover 4 (fun (i : S2048x1.Idx) (v : EReal) => v = ((jsdRow a (i 0) : ℝ) : EReal)) ?hP ?hcover (ix2 n (0 : Fin 1))
  case hP =>
    intro t hf y
    have hN : t.val < 100 := lt_of_lt_of_eq t.isLt (show cfg1.N = 100 from N_1)
    have h24 : t.val % 25 = 24 := (flush1_4 t).mp hf
    show (cfg1.win 4).cut (grid1.coords t) ((dat1 V c).after 4 t) y = _
    rw [after1_4]
    show outsAt1 V c t.val t.isLt y = _
    rw [flushed_at V a c h73 h74 h71 h72 t h24 y]
    have hemb : rowOf (nnOf t) (y 0) = ((cfg1.win 4).blk t).view.emb y 0 := by
      apply Fin.ext
      show t.val / 25 * 512 + (y 0).val = ((win1_4.rect t).emb y 0 : ℕ)
      rw [Pipeline.Window.rect_emb_val, (idx4 t).1]
      rfl
    rw [hemb]
  case hcover =>
    intro i
    have h0 : (i 0 : ℕ) < 2048 := (i 0).isLt
    have h1 : (i 1 : ℕ) < 1 := (i 1).isLt
    have hlt : (i 0 : ℕ) / 512 * 25 + 24 < cfg1.N := by rw [show cfg1.N = 100 from N_1]; omega
    refine ⟨⟨(i 0 : ℕ) / 512 * 25 + 24, hlt⟩, (flush1_4 _).mpr (by show ((i 0 : ℕ) / 512 * 25 + 24) % 25 = 24; omega), ?_⟩
    show i ∈ ((View.whole main_v8).slice (win1_4.rect ⟨(i 0 : ℕ) / 512 * 25 + 24, hlt⟩)).set
    rw [View.set_slice_whole, Rect.mem_set_unit]
    intro ax
    match ax with
    | ⟨0, _⟩ =>
      show win1_4.index ⟨(i 0 : ℕ) / 512 * 25 + 24, hlt⟩ 0 * 512 ≤ (i 0 : ℕ) ∧ (i 0 : ℕ) < win1_4.index ⟨(i 0 : ℕ) / 512 * 25 + 24, hlt⟩ 0 * 512 + 512
      rw [(idx4 ⟨(i 0 : ℕ) / 512 * 25 + 24, hlt⟩).1]
      show ((i 0 : ℕ) / 512 * 25 + 24) / 25 * 512 ≤ (i 0 : ℕ) ∧ (i 0 : ℕ) < ((i 0 : ℕ) / 512 * 25 + 24) / 25 * 512 + 512
      omega
    | ⟨1, _⟩ =>
      show win1_4.index ⟨(i 0 : ℕ) / 512 * 25 + 24, hlt⟩ 1 * 1 ≤ (i 1 : ℕ) ∧ (i 1 : ℕ) < win1_4.index ⟨(i 0 : ℕ) / 512 * 25 + 24, hlt⟩ 1 * 1 + 1
      rw [(idx4 ⟨(i 0 : ℕ) / 512 * 25 + 24, hlt⟩).2]
      omega

end Inv

end Cert.KernelIdeal.Glue1

end
-- ==== Proof.TailMath.lean ====
import proofs.«422162_j56092272886459_3_alg».proof.Proof.Step
import proofs.«422162_j56092272886459_3_alg».proof.Proof.Spec
import proofs.«422162_j56092272886459_3_alg».proof.Proof.Gen.KernelIdeal.Launch
import Idealize.ShloMosaic.Lib.StableHlo.Run
import Idealize.ShloMosaic.PureOps.Ideal.Laws
import Idealize.ShloMosaic.Lib.ValueIdx
import Idealize.ShloMosaic.Lib.ValueLayout
import Idealize.ShloMosaic.Lib.IdealHost
import Idealize.ShloMosaic.Lib.ValueIdxRank1
import Idealize.ShloMosaic.Lib.Pipeline.Value

noncomputable section

namespace Cert.KernelIdeal.Tail

open Cert.KernelIdeal Cert.KernelIdeal.Gen Cert.Spec
open Idealize.ShloMosaic Idealize.ShloMosaic.ValueIdx

theorem s1_v13 (V : Valuation τ sig (Elt Ideal)) :
    @Eq (S2048.Idx → EReal) (StableHlo.after (hostOps2 (F := Ideal)) V (Proc.devRef .tc main_v13))
      (subf (F := Ideal) (φ := .f32) (shapeCast S2048 (V (Proc.devRef .tc main_v7_0)) shapeCasts_S2048x1_S2048)
        (shapeCast S2048 (V (Proc.devRef .tc main_v7_5)) shapeCasts_S2048x1_S2048)) := by
  after_results; rfl

theorem s1_v10 (V : Valuation τ sig (Elt Ideal)) :
    @Eq (S2048.Idx → BitVec 1) (StableHlo.after (hostOps2 (F := Ideal)) V (Proc.devRef .tc main_v10))
      (cmpi .ne (V (Proc.devRef .tc main_arg6)) (broadcastInDim S2048 ![] bcast_S_S2048 (constantI S_ 32 4294967196#32))) := by
  after_results

theorem s1_cst (V : Valuation τ sig (Elt Ideal)) :
    @Eq (S_.Idx → EReal) (StableHlo.after (hostOps2 (F := Ideal)) V (Proc.devRef .tc main_cst))
      (constant (F := Ideal) S_ .f32 0x00000000#32) := by
  after_results

theorem s1_v8 (V : Valuation τ sig (Elt Ideal)) :
    @Eq (S2048x1.Idx → EReal) (StableHlo.after (hostOps2 (F := Ideal)) V (Proc.devRef .tc main_v8))
      (V (Proc.devRef .tc main_v8)) := by
  after_results

theorem s2_v14 (V : Valuation τ sig (Elt Ideal)) :
    @Eq (S2048.Idx → EReal) (StableHlo.after (hostOps2_1 (F := Ideal)) V (Proc.devRef .tc main_v14))
      (select (V (Proc.devRef .tc main_v10)) (V (Proc.devRef .tc main_v13))
        (broadcastInDim S2048 ![] bcast_S_S2048 (V (Proc.devRef .tc main_cst)))) := by
  after_results; rfl

theorem s2_v8 (V : Valuation τ sig (Elt Ideal)) :
    @Eq (S2048x1.Idx → EReal) (StableHlo.after (hostOps2_1 (F := Ideal)) V (Proc.devRef .tc main_v8))
      (V (Proc.devRef .tc main_v8)) := by
  after_results

theorem s3_v22 (V : Valuation τ sig (Elt Ideal)) :
    @Eq (S_.Idx → EReal) (StableHlo.after (hostOps2_2 (F := Ideal)) V (Proc.devRef .tc main_v22))
      (addf (F := Ideal) (φ := .f32)
        (mulf (constant (F := Ideal) S_ .f32 0x3F000000#32)
          (Host.divf (Host.reduceAdd (F := Ideal) (φ := .f32) (V (Proc.devRef .tc main_v14)) (constant (F := Ideal) S_ .f32 0x00000000#32) reducesTo_S2048_S_d0 h_S_)
            (constant (F := Ideal) S_ .f32 0x45000000#32)))
        (mulf (constant (F := Ideal) S_ .f32 0x3F000000#32)
          (Host.divf (Host.reduceAdd (F := Ideal) (φ := .f32) (shapeCast S2048 (V (Proc.devRef .tc main_v8)) shapeCasts_S2048x1_S2048) (constant (F := Ideal) S_ .f32 0x00000000#32) reducesTo_S2048_S_d0 h_S_)
            (constant (F := Ideal) S_ .f32 0x45000000#32)))) := by
  after_results; rfl

theorem ofBits_half : Ideal.ofBits .f32 0x3F000000#32 = ((1 / 2 : ℝ) : EReal) := by
  simp [Ideal.ofBits, Ideal.ieee, -EReal.coe_mul]; norm_num

theorem coe_sum {ι : Type*} (s : Finset ι) (g : ι → ℝ) :
    (∑ k ∈ s, ((g k : ℝ) : EReal)) = ((∑ k ∈ s, g k : ℝ) : EReal) := by
  classical
  induction s using Finset.induction_on with
  | empty => simp
  | insert a s ha ih => rw [Finset.sum_insert ha, Finset.sum_insert ha, ih, EReal.coe_add]

theorem ofBits_2048 : Ideal.ofBits .f32 0x45000000#32 = ((2048 : ℝ) : EReal) := by
  simp [Ideal.ofBits, Ideal.ieee, -EReal.coe_mul]; norm_num

theorem colvec (v : S2048x1.Idx → EReal) (n : Fin 2048) :
    shapeCast S2048 v shapeCasts_S2048x1_S2048 (ix1 n) = v (ix2 n (0 : Fin 1)) := by
  refine shapeCast_apply v _ (ix1 n) (ix2 n (0 : Fin 1)) ?_
  rw [Shape.rowMajor_val_two, Shape.rowMajor_val_one]
  show n.val * 1 + 0 = n.val
  omega

theorem cmpi_ne_eq (x y : BitVec 32) : IntOp.cmpi .ne x y = if x = y then 0#1 else 1#1 := by
  by_cases h : x = y
  · simp [IntOp.cmpi, h]
  · have hb : (x != y) = true := bne_iff_ne.mpr h
    simp [IntOp.cmpi, h, hb]

theorem hsum (x : FVec Ideal S2048 .f32) (g : Fin 2048 → ℝ) (hx : ∀ n : Fin 2048, x (ix1 n) = ((g n : ℝ) : EReal)) :
    Host.reduceAdd (F := Ideal) (φ := .f32) x (constant (F := Ideal) S_ .f32 0x00000000#32) reducesTo_S2048_S_d0 h_S_ ix0
      = ((∑ n : Fin 2048, g n : ℝ) : EReal) := by
  rw [hostReduceAdd_apply, Ideal.hostReduceAdd_total reducesTo_S2048_S_d0 (fun b => b.elim0), constant_apply,
    Ideal.ofBits_zero_f32, zero_add]
  refine (Equiv.sum_comp (idxEquiv1 (n := 2048)).symm x).symm.trans ?_
  exact (Finset.sum_congr rfl fun k _ => hx k).trans (coe_sum Finset.univ g)

theorem hmean (x : FVec Ideal S2048 .f32) (g : Fin 2048 → ℝ) (hx : ∀ n : Fin 2048, x (ix1 n) = ((g n : ℝ) : EReal)) :
    mulf (F := Ideal) (φ := .f32) (constant (F := Ideal) S_ .f32 0x3F000000#32)
      (Host.divf (Host.reduceAdd (F := Ideal) (φ := .f32) x (constant (F := Ideal) S_ .f32 0x00000000#32) reducesTo_S2048_S_d0 h_S_)
        (constant (F := Ideal) S_ .f32 0x45000000#32)) ix0
      = ((1 / 2 * ((∑ n : Fin 2048, g n) / 2048) : ℝ) : EReal) := by
  rw [mulf_apply, hostDivf_apply, constant_apply, constant_apply, hsum x g hx, ofBits_half, ofBits_2048,
    Ideal.div_coe (by norm_num), ← EReal.coe_mul, ← EReal.coe_mul, div_eq_mul_one_div (∑ n : Fin 2048, g n)]

theorem tail_eq (a : Args) (W : Valuation τ sig (Elt Ideal))
    (h70 : ∀ n : Fin 2048, (W (Proc.devRef .tc main_v7_0) : S2048x1.Idx → EReal) (ix2 n (0 : Fin 1)) = ((lse (sl a n) : ℝ) : EReal))
    (h75 : ∀ n : Fin 2048, (W (Proc.devRef .tc main_v7_5) : S2048x1.Idx → EReal) (ix2 n (0 : Fin 1)) = ((tgtLogit a n : ℝ) : EReal))
    (h8 : ∀ n : Fin 2048, (W (Proc.devRef .tc main_v8) : S2048x1.Idx → EReal) (ix2 n (0 : Fin 1)) = ((jsdRow a n : ℝ) : EReal))
    (h6 : ∀ n : Fin 2048, (W (Proc.devRef .tc main_arg6) : S2048.Idx → BitVec 32) (ix1 n) = a.Tg n) :
    @Eq (S_.Idx → EReal)
      (StableHlo.after (hostOps2_2 (F := Ideal)) (StableHlo.after (hostOps2_1 (F := Ideal)) (StableHlo.after (hostOps2 (F := Ideal)) W))
        (Proc.devRef .tc main_v22))
      (fun _ => ((result a : ℝ) : EReal)) := by
  have e14 : ∀ n : Fin 2048,
      (StableHlo.after (hostOps2_1 (F := Ideal)) (StableHlo.after (hostOps2 (F := Ideal)) W) (Proc.devRef .tc main_v14) : S2048.Idx → EReal) (ix1 n)
        = ((nll a n : ℝ) : EReal) := by
    intro n
    refine (congrFun (s2_v14 _) (ix1 n)).trans ?_
    rw [select_apply, congrFun (s1_v10 W) (ix1 n), congrFun (s1_v13 W) (ix1 n), s1_cst W, broadcastInDim_scalar_apply,
      constant_apply, Ideal.ofBits_zero_f32, subf_apply, colvec, colvec, h70, h75]
    show Scalar.select (IntOp.cmpi .ne ((W (Proc.devRef .tc main_arg6) : S2048.Idx → BitVec 32) (ix1 n))
      (broadcastInDim S2048 ![] bcast_S_S2048 (constantI S_ 32 4294967196#32) (ix1 n))) _ _ = _
    rw [h6, broadcastInDim_scalar_apply, constantI_apply, cmpi_ne_eq]
    unfold nll
    by_cases h : a.Tg n = ignoreWord
    · rw [if_pos h, if_pos h, select_zero]; rfl
    · rw [if_neg h, if_neg h, select_one, ← EReal.coe_sub]
  have e8 : ∀ n : Fin 2048,
      shapeCast S2048 (StableHlo.after (hostOps2_1 (F := Ideal)) (StableHlo.after (hostOps2 (F := Ideal)) W) (Proc.devRef .tc main_v8) : S2048x1.Idx → EReal)
        shapeCasts_S2048x1_S2048 (ix1 n) = ((jsdRow a n : ℝ) : EReal) := by
    intro n
    rw [colvec, congrFun ((s2_v8 _).trans (s1_v8 W)) (ix2 n (0 : Fin 1)), h8]
  refine (s3_v22 _).trans ?_
  funext i
  rw [eq_ix0 i, addf_apply, hmean _ _ e14, hmean _ _ e8, ← EReal.coe_add]
  rfl

end Cert.KernelIdeal.Tail

end
-- ==== Proof.HostPre.lean ====
import proofs.«422162_j56092272886459_3_alg».proof.Proof.Gen.KernelIdeal.Launch
import Idealize.ShloMosaic.Lib.StableHlo.Run

noncomputable section

namespace Cert.KernelIdeal.HostPre

open Cert.KernelIdeal Cert.KernelIdeal.Gen
open Idealize.ShloMosaic Idealize.ShloMosaic.TcCoe Idealize.SL.Sem Idealize.ShloMosaic.StableHlo

variable {F : FTy → Type} [FloatOps F]

variable (W : Valuation τ sig (Elt F))

theorem v0_eq : (StableHlo.after hostOps0 W (Proc.devRef .tc main_v0) : (⟨S1x32000, .f32⟩ : BufTy).Contents (Elt F))
    = shapeCast S1x32000 (W (Proc.devRef .tc main_arg2) : (⟨S32000, .f32⟩ : BufTy).Contents (Elt F)) shapeCasts_S32000_S1x32000 := by
  after_results; rfl
theorem v1_eq : (StableHlo.after hostOps0 W (Proc.devRef .tc main_v1) : (⟨S1x32000, .f32⟩ : BufTy).Contents (Elt F))
    = shapeCast S1x32000 (W (Proc.devRef .tc main_arg5) : (⟨S32000, .f32⟩ : BufTy).Contents (Elt F)) shapeCasts_S32000_S1x32000 := by
  after_results; rfl
theorem v2_eq : (StableHlo.after hostOps0 W (Proc.devRef .tc main_v2) : (⟨S2048x1, .i32⟩ : BufTy).Contents (Elt F))
    = shapeCast S2048x1 (W (Proc.devRef .tc main_arg6) : (⟨S2048, .i32⟩ : BufTy).Contents (Elt F)) shapeCasts_S2048_S2048x1 := by
  after_results; rfl
theorem v3_eq : (StableHlo.after hostOps0 W (Proc.devRef .tc main_v3) : (⟨S2048x2048, .bf16⟩ : BufTy).Contents (Elt F))
    = truncf .bf16 (W (Proc.devRef .tc main_arg0) : (⟨S2048x2048, .f32⟩ : BufTy).Contents (Elt F)) bitsLt_bf16_f32 := by
  after_results
theorem v4_eq : (StableHlo.after hostOps0 W (Proc.devRef .tc main_v4) : (⟨S32000x2048, .bf16⟩ : BufTy).Contents (Elt F))
    = truncf .bf16 (W (Proc.devRef .tc main_arg1) : (⟨S32000x2048, .f32⟩ : BufTy).Contents (Elt F)) bitsLt_bf16_f32 := by
  after_results
theorem v5_eq : (StableHlo.after hostOps0 W (Proc.devRef .tc main_v5) : (⟨S2048x4096, .bf16⟩ : BufTy).Contents (Elt F))
    = truncf .bf16 (W (Proc.devRef .tc main_arg3) : (⟨S2048x4096, .f32⟩ : BufTy).Contents (Elt F)) bitsLt_bf16_f32 := by
  after_results
theorem v6_eq : (StableHlo.after hostOps0 W (Proc.devRef .tc main_v6) : (⟨S32000x4096, .bf16⟩ : BufTy).Contents (Elt F))
    = truncf .bf16 (W (Proc.devRef .tc main_arg4) : (⟨S32000x4096, .f32⟩ : BufTy).Contents (Elt F)) bitsLt_bf16_f32 := by
  after_results

end Cert.KernelIdeal.HostPre

end
-- ==== Proof.KerValue.lean ====
import proofs.«422162_j56092272886459_3_alg».proof.Proof.RunAll
import proofs.«422162_j56092272886459_3_alg».proof.Proof.Glue0
import proofs.«422162_j56092272886459_3_alg».proof.Proof.Glue1
import proofs.«422162_j56092272886459_3_alg».proof.Proof.TailMath
import proofs.«422162_j56092272886459_3_alg».proof.Proof.HostPre
import proofs.«422162_j56092272886459_3_alg».proof.Proof.Spec
import Idealize.ShloMosaic.Lib.Pipeline.Value
import Idealize.ShloMosaic.Lib.ValueLayout

set_option maxRecDepth 16384

noncomputable section

namespace Cert.KernelIdeal.KerValue

open Cert.KernelIdeal Cert.KernelIdeal.Gen Cert.KernelIdeal.RunAll Cert.Spec
open Idealize.ShloMosaic Idealize.ShloMosaic.TcCoe Idealize.ShloMosaic.ValueIdx Idealize.SL.Sem

variable (m : (ℓ : Loc nD τ sig) → Buf (Elt Ideal) ℓ)

abbrev A0 (c : Dev nD) : S2048x2048.Idx → EReal := m ((c.tc : Thread nD τ).loc main_arg0)
abbrev A1 (c : Dev nD) : S32000x2048.Idx → EReal := m ((c.tc : Thread nD τ).loc main_arg1)
abbrev A2 (c : Dev nD) : S32000.Idx → EReal := m ((c.tc : Thread nD τ).loc main_arg2)
abbrev A3 (c : Dev nD) : S2048x4096.Idx → EReal := m ((c.tc : Thread nD τ).loc main_arg3)
abbrev A4 (c : Dev nD) : S32000x4096.Idx → EReal := m ((c.tc : Thread nD τ).loc main_arg4)
abbrev A5 (c : Dev nD) : S32000.Idx → EReal := m ((c.tc : Thread nD τ).loc main_arg5)
abbrev A6 (c : Dev nD) : S2048.Idx → BitVec 32 := m ((c.tc : Thread nD τ).loc main_arg6)

abbrev args (c : Dev nD) : Args := argsOf (A0 m c) (A1 m c) (A2 m c) (A3 m c) (A4 m c) (A5 m c) (A6 m c)

theorem col_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

theorem result_eq (c : Dev nD) (h0 : AllReal (A0 m c)) (h1 : AllReal (A1 m c)) (h2 : AllReal (A2 m c)) (h3 : AllReal (A3 m c))
    (h4 : AllReal (A4 m c)) (h5 : AllReal (A5 m c)) (hl : LabelsOk (A6 m c)) :
    (W6 m c (Proc.devRef .tc main_v22) : S_.Idx → EReal) = fun _ => ((result (args m c) : ℝ) : EReal) := by

  have e3 : ∀ (n : Fin 2048) (k : Fin 2048), (RunAll.V1 m c main_v3 : S2048x2048.Idx → EReal) (ix2 n k) = (((args m c).X n k : ℝ) : EReal) :=
    fun n k => (congrFun (HostPre.v3_eq (F := Ideal) (W0 m c)) (ix2 n k)).trans (h0 (ix2 n k))
  have e4 : ∀ (v : Fin 32000) (k : Fin 2048), (RunAll.V1 m c main_v4 : S32000x2048.Idx → EReal) (ix2 v k) = (((args m c).Ws v k : ℝ) : EReal) :=
    fun v k => (congrFun (HostPre.v4_eq (F := Ideal) (W0 m c)) (ix2 v k)).trans (h1 (ix2 v k))
  have e0 : ∀ v : Fin 32000, (RunAll.V1 m c main_v0 : S1x32000.Idx → EReal) (ix2 (0 : Fin 1) v) = (((args m c).Bs v : ℝ) : EReal) :=
    fun v => (congrFun (HostPre.v0_eq (F := Ideal) (W0 m c)) (ix2 (0 : Fin 1) v)).trans
      ((shapeCast_a_1a_apply _ _ (0 : Fin 1) v).trans (h2 (ix1 v)))
  have e5 : ∀ (n : Fin 2048) (k : Fin 4096), (RunAll.V1 m c main_v5 : S2048x4096.Idx → EReal) (ix2 n k) = (((args m c).Xt n k : ℝ) : EReal) :=
    fun n k => (congrFun (HostPre.v5_eq (F := Ideal) (W0 m c)) (ix2 n k)).trans (h3 (ix2 n k))
  have e6 : ∀ (v : Fin 32000) (k : Fin 4096), (RunAll.V1 m c main_v6 : S32000x4096.Idx → EReal) (ix2 v k) = (((args m c).Wt v k : ℝ) : EReal) :=
    fun v k => (congrFun (HostPre.v6_eq (F := Ideal) (W0 m c)) (ix2 v k)).trans (h4 (ix2 v k))
  have e1 : ∀ v : Fin 32000, (RunAll.V1 m c main_v1 : S1x32000.Idx → EReal) (ix2 (0 : Fin 1) v) = (((args m c).Bt v : ℝ) : EReal) :=
    fun v => (congrFun (HostPre.v1_eq (F := Ideal) (W0 m c)) (ix2 (0 : Fin 1) v)).trans
      ((shapeCast_a_1a_apply _ _ (0 : Fin 1) v).trans (h5 (ix1 v)))
  have e2 : ∀ n : Fin 2048, (RunAll.V1 m c main_v2 : S2048x1.Idx → BitVec 32) (ix2 n (0 : Fin 1)) = (args m c).Tg n :=
    fun n => (congrFun (HostPre.v2_eq (F := Ideal) (W0 m c)) (ix2 n (0 : Fin 1))).trans (col_apply _ _ n (0 : Fin 1))

  obtain ⟨g7, g8, g9, g10, g11, g12⟩ := Glue0.outs0 (RunAll.V1 m) (args m c) c e3 e4 e0 e5 e6 e1 e2

  have f73 : ∀ (n : Fin 2048) (col : Fin 32000), (RunAll.V2 m c main_v7_3 : S2048x32000.Idx → EReal) (ix2 n col) = ((sl (args m c) n col / 2 : ℝ) : EReal) :=
    fun n col => (congrFun (W2_arr m c 10) (ix2 n col)).trans (g10 n col)
  have f74 : ∀ (n : Fin 2048) (col : Fin 32000), (RunAll.V2 m c main_v7_4 : S2048x32000.Idx → EReal) (ix2 n col) = ((tl (args m c) n col / 2 : ℝ) : EReal) :=
    fun n col => (congrFun (W2_arr m c 11) (ix2 n col)).trans (g11 n col)
  have f71 : ∀ n : Fin 2048, (RunAll.V2 m c main_v7_1 : S2048x1.Idx → EReal) (ix2 n (0 : Fin 1)) = ((lse fun k => sl (args m c) n k / 2 : ℝ) : EReal) :=
    fun n => (congrFun (W2_arr m c 8) (ix2 n (0 : Fin 1))).trans (g8 n)
  have f72 : ∀ n : Fin 2048, (RunAll.V2 m c main_v7_2 : S2048x1.Idx → EReal) (ix2 n (0 : Fin 1)) = ((lse fun k => tl (args m c) n k / 2 : ℝ) : EReal) :=
    fun n => (congrFun (W2_arr m c 9) (ix2 n (0 : Fin 1))).trans (g9 n)

  have o8 := Glue1.out8 (RunAll.V2 m) (args m c) c f73 f74 f71 f72

  have t70 : ∀ n : Fin 2048, (W3 m c (Proc.devRef .tc main_v7_0) : S2048x1.Idx → EReal) (ix2 n (0 : Fin 1)) = ((lse (sl (args m c) n) : ℝ) : EReal) :=
    fun n => (congrFun (W3_of_ne m c main_v7_0 (by decide)) (ix2 n (0 : Fin 1))).trans
      ((congrFun (W2_arr m c 7) (ix2 n (0 : Fin 1))).trans (g7 n))
  have t75 : ∀ n : Fin 2048, (W3 m c (Proc.devRef .tc main_v7_5) : S2048x1.Idx → EReal) (ix2 n (0 : Fin 1)) = ((tgtLogit (args m c) n : ℝ) : EReal) :=
    fun n => (congrFun (W3_of_ne m c main_v7_5 (by decide)) (ix2 n (0 : Fin 1))).trans
      ((congrFun (W2_arr m c 12) (ix2 n (0 : Fin 1))).trans (g12 n))
  have t8 : ∀ n : Fin 2048, (W3 m c (Proc.devRef .tc main_v8) : S2048x1.Idx → EReal) (ix2 n (0 : Fin 1)) = ((jsdRow (args m c) n : ℝ) : EReal) :=
    fun n => (congrFun (W3_arr m c 4) (ix2 n (0 : Fin 1))).trans (o8 n)
  have t6 : ∀ n : Fin 2048, (W3 m c (Proc.devRef .tc main_arg6) : S2048.Idx → BitVec 32) (ix1 n) = (args m c).Tg n :=
    fun n => congrFun (W3_keep m c main_arg6 (by decide) (by decide) (by decide)) (ix1 n)
  exact Tail.tail_eq (args m c) (W3 m c) t70 t75 t8 t6

end Cert.KernelIdeal.KerValue

end
-- ==== Proof.RefStages.lean ====
import proofs.«422162_j56092272886459_3_alg».proof.Proof.RunP
import proofs.«422162_j56092272886459_3_alg».proof.Proof.ReadP
import Mathlib.Data.List.Forall2

noncomputable section

namespace Cert.ReferenceIdeal.RefStages

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

theorem after_keep {l : List (HloOp τ sig (Elt F))} {W : List (Ref sig .tc)}
    (h : List.Forall₂ (fun op y => op.writes = ({Proc.devRef (τ := τ) .tc y} : Finset (DevRef τ sig))) l W)
    (V : Valuation τ sig (Elt F)) (r : Ref sig .tc) (hr : r ∉ W) :
    after l V (Proc.devRef .tc r) = V (Proc.devRef .tc r) := by
  induction h generalizing V with
  | nil => rfl
  | @cons op y l W hop _ ih =>
    rw [after_cons, ih _ (fun h => hr (List.mem_cons_of_mem _ h))]
    refine op.result_of_not_mem V ?_
    rw [hop, Finset.mem_singleton]
    exact fun e => hr (Proc.devRef_injective _ e ▸ List.mem_cons_self)

def outs : List (Ref sig .tc) :=
  [main_v0, main_v1, main_v2, main_v3, main_v4, main_v5, main_v6, main_v7, main_v8, main_v9,
   main_call0_cst, main_call0_v0, main_call0_cst_0, main_call0_v1, main_call0_v2, main_call0_v3, main_call0_v4,
   main_call0_v5, main_call0_v6, main_call0_cst_1, main_call0_v7, main_call0_v8, main_call0_v9, main_call0_v10, main_v10,
   main_c, main_v11, main_v12, main_c_0, main_call1_v0, main_call1_v1, main_v13, main_v14,
   main_call2_c, main_call2_v0, main_call2_v1, main_call2_c_0, main_call2_v2, main_call2_v3, main_call2_v4, main_call2_v5,
   main_call2_c_1, main_call2_c_2, main_call2_v6, main_call2_v7, main_call2_v8, main_call2_v9, main_call2_v10, main_call2_v11,
   main_call2_c_3, main_call2_v12, main_call2_v13, main_call2_cst, main_call2_v14, main_v15, main_v16, main_v17,
   main_cst, main_call3_v0, main_call3_v1, main_v18, main_cst_1, main_v19, main_cst_2, main_v20, main_cst_3, main_v21, main_v22,
   main_call4_cst, main_call4_v0, main_call4_cst_0, main_call4_v1, main_call4_v2, main_call4_v3, main_call4_v4,
   main_call4_v5, main_call4_v6, main_call4_cst_1, main_call4_v7, main_call4_v8, main_call4_v9, main_call4_v10, main_v23,
   main_cst_4, main_v24, main_v25,
   main_call5_cst, main_call5_v0, main_call5_cst_0, main_call5_v1, main_call5_v2, main_call5_v3, main_call5_v4,
   main_call5_v5, main_call5_v6, main_call5_cst_1, main_call5_v7, main_call5_v8, main_call5_v9, main_call5_v10, main_v26,
   main_v27, main_cst_5, main_v28, main_v29, main_v30, main_cst_6, main_v31, main_v32, main_v33, main_v34, main_v35,
   main_v36, main_v37, main_cst_7, main_v38, main_v39, main_v40, main_v41, main_cst_8, main_v42,
   main_cst_9, main_v43, main_cst_10, main_v44, main_v45, main_cst_11, main_v46, main_cst_12, main_v47, main_cst_13, main_v48, main_v49]

set_option maxRecDepth 8192 in

theorem ops_writes : List.Forall₂ (fun (op : HloOp τ sig (Elt F)) y => op.writes = ({Proc.devRef (τ := τ) .tc y} : Finset (DevRef τ sig))) ops outs := by
  unfold outs
  repeat (first | exact List.Forall₂.nil | refine List.Forall₂.cons rfl ?_)

variable (m : (ℓ : Loc nD τ sig) → Buf (Elt F) ℓ) (c : Dev nD)

def Vk (k : Nat) : Valuation τ sig (Elt F) := after ((ops (F := F)).take k) (launchContents m c)

theorem Vk_all (k : Nat) (hk : 133 ≤ k) : Vk m c k = after ops (launchContents m c) := by
  unfold Vk; rw [List.take_of_length_le hk]

theorem Vk_succ (k : Nat) (op : HloOp τ sig (Elt F)) (h : (ops (F := F))[k]? = some op) :
    Vk m c (k + 1) = op.result (Vk m c k) := by
  unfold Vk
  rw [List.take_succ, h, after_append]; rfl

theorem persist (i j : Nat) (hij : i ≤ j) (r : Ref sig .tc) (hr : r ∉ outs.drop i) :
    Vk m c j (Proc.devRef .tc r) = Vk m c i (Proc.devRef .tc r) := by
  obtain ⟨n, rfl⟩ := Nat.exists_eq_add_of_le hij
  unfold Vk
  rw [List.take_add, after_append]
  exact after_keep (List.forall₂_take n (List.forall₂_drop i ops_writes)) _ r (fun h => hr (List.mem_of_mem_take h))

theorem stage_eq (k j : Nat) (hkj : k + 1 ≤ j) (op : HloOp τ sig (Elt F)) (h : (ops (F := F))[k]? = some op)
    (r : Ref sig .tc) (hr : r ∉ outs.drop (k + 1)) :
    Vk m c j (Proc.devRef .tc r) = op.result (Vk m c k) (Proc.devRef .tc r) := by
  rw [persist m c (k + 1) j hkj r hr, Vk_succ m c k op h]

abbrev a0 : (⟨S2048x2048, .f32⟩ : BufTy).Contents (Elt F) := m ((c.tc : Thread nD τ).loc main_arg0)
abbrev a1 : (⟨S32000x2048, .f32⟩ : BufTy).Contents (Elt F) := m ((c.tc : Thread nD τ).loc main_arg1)
abbrev a2 : (⟨S32000, .f32⟩ : BufTy).Contents (Elt F) := m ((c.tc : Thread nD τ).loc main_arg2)
abbrev a3 : (⟨S2048x4096, .f32⟩ : BufTy).Contents (Elt F) := m ((c.tc : Thread nD τ).loc main_arg3)
abbrev a4 : (⟨S32000x4096, .f32⟩ : BufTy).Contents (Elt F) := m ((c.tc : Thread nD τ).loc main_arg4)
abbrev a5 : (⟨S32000, .f32⟩ : BufTy).Contents (Elt F) := m ((c.tc : Thread nD τ).loc main_arg5)
abbrev a6 : (⟨S2048, .i32⟩ : BufTy).Contents (Elt F) := m ((c.tc : Thread nD τ).loc main_arg6)

theorem s_arg0 (j : Nat) : Vk m c j (Proc.devRef .tc main_arg0) = a0 m c := by
  rw [persist m c 0 j (Nat.zero_le _) main_arg0 (by decide)]; rfl
theorem s_arg1 (j : Nat) : Vk m c j (Proc.devRef .tc main_arg1) = a1 m c := by
  rw [persist m c 0 j (Nat.zero_le _) main_arg1 (by decide)]; rfl
theorem s_arg2 (j : Nat) : Vk m c j (Proc.devRef .tc main_arg2) = a2 m c := by
  rw [persist m c 0 j (Nat.zero_le _) main_arg2 (by decide)]; rfl
theorem s_arg3 (j : Nat) : Vk m c j (Proc.devRef .tc main_arg3) = a3 m c := by
  rw [persist m c 0 j (Nat.zero_le _) main_arg3 (by decide)]; rfl
theorem s_arg4 (j : Nat) : Vk m c j (Proc.devRef .tc main_arg4) = a4 m c := by
  rw [persist m c 0 j (Nat.zero_le _) main_arg4 (by decide)]; rfl
theorem s_arg5 (j : Nat) : Vk m c j (Proc.devRef .tc main_arg5) = a5 m c := by
  rw [persist m c 0 j (Nat.zero_le _) main_arg5 (by decide)]; rfl
theorem s_arg6 (j : Nat) : Vk m c j (Proc.devRef .tc main_arg6) = a6 m c := by
  rw [persist m c 0 j (Nat.zero_le _) main_arg6 (by decide)]; rfl

local macro "close_stage" : tactic =>
  `(tactic| ((try dsimp only [TRef.ofBuf, TRef.toBuf]); (repeat rw [cast_eq]); rfl))

theorem s_main_v0 (j : Nat) (hj : 1 ≤ j) : Vk m c j (Proc.devRef .tc main_v0) = val_main_v0 (a1 m c) := by
  rw [stage_eq m c 0 j hj _ rfl main_v0 (by decide), unary_result, s_arg1]; close_stage
theorem s_main_v1 (j : Nat) (hj : 2 ≤ j) : Vk m c j (Proc.devRef .tc main_v1) = val_main_v1 (a0 m c) (a1 m c) := by
  rw [stage_eq m c 1 j hj _ rfl main_v1 (by decide), binary_result, s_arg0, s_main_v0 m c 1 (by decide)]; close_stage
theorem s_main_v2 (j : Nat) (hj : 3 ≤ j) : Vk m c j (Proc.devRef .tc main_v2) = val_main_v2 (a2 m c) := by
  rw [stage_eq m c 2 j hj _ rfl main_v2 (by decide), unary_result, s_arg2]; close_stage
theorem s_main_v3 (j : Nat) (hj : 4 ≤ j) : Vk m c j (Proc.devRef .tc main_v3) = val_main_v3 (a2 m c) := by
  rw [stage_eq m c 3 j hj _ rfl main_v3 (by decide), unary_result, s_main_v2 m c 3 (by decide)]; close_stage
theorem s_main_v4 (j : Nat) (hj : 5 ≤ j) : Vk m c j (Proc.devRef .tc main_v4) = val_main_v4 (a0 m c) (a1 m c) (a2 m c) := by
  rw [stage_eq m c 4 j hj _ rfl main_v4 (by decide), binary_result, s_main_v1 m c 4 (by decide), s_main_v3 m c 4 (by decide)]; close_stage
theorem s_main_v5 (j : Nat) (hj : 6 ≤ j) : Vk m c j (Proc.devRef .tc main_v5) = val_main_v5 (a4 m c) := by
  rw [stage_eq m c 5 j hj _ rfl main_v5 (by decide), unary_result, s_arg4]; close_stage
theorem s_main_v6 (j : Nat) (hj : 7 ≤ j) : Vk m c j (Proc.devRef .tc main_v6) = val_main_v6 (a3 m c) (a4 m c) := by
  rw [stage_eq m c 6 j hj _ rfl main_v6 (by decide), binary_result, s_arg3, s_main_v5 m c 6 (by decide)]; close_stage
theorem s_main_v7 (j : Nat) (hj : 8 ≤ j) : Vk m c j (Proc.devRef .tc main_v7) = val_main_v7 (a5 m c) := by
  rw [stage_eq m c 7 j hj _ rfl main_v7 (by decide), unary_result, s_arg5]; close_stage
theorem s_main_v8 (j : Nat) (hj : 9 ≤ j) : Vk m c j (Proc.devRef .tc main_v8) = val_main_v8 (a5 m c) := by
  rw [stage_eq m c 8 j hj _ rfl main_v8 (by decide), unary_result, s_main_v7 m c 8 (by decide)]; close_stage
theorem s_main_v9 (j : Nat) (hj : 10 ≤ j) : Vk m c j (Proc.devRef .tc main_v9) = val_main_v9 (a3 m c) (a4 m c) (a5 m c) := by
  rw [stage_eq m c 9 j hj _ rfl main_v9 (by decide), binary_result, s_main_v6 m c 9 (by decide), s_main_v8 m c 9 (by decide)]; close_stage

theorem s_main_call0_cst (j : Nat) (hj : 11 ≤ j) : Vk m c j (Proc.devRef .tc main_call0_cst) = val_main_call0_cst (F := F) := by
  rw [stage_eq m c 10 j hj _ rfl main_call0_cst (by decide), nullary_result]; close_stage
theorem s_main_call0_v0 (j : Nat) (hj : 12 ≤ j) : Vk m c j (Proc.devRef .tc main_call0_v0) = val_main_call0_v0 (a0 m c) (a1 m c) (a2 m c) := by
  rw [stage_eq m c 11 j hj _ rfl main_call0_v0 (by decide), binary_result, s_main_v4 m c 11 (by decide), s_main_call0_cst m c 11 (by decide)]; close_stage
theorem s_main_call0_cst_0 (j : Nat) (hj : 13 ≤ j) : Vk m c j (Proc.devRef .tc main_call0_cst_0) = val_main_call0_cst_0 (F := F) := by
  rw [stage_eq m c 12 j hj _ rfl main_call0_cst_0 (by decide), nullary_result]; close_stage
theorem s_main_call0_v1 (j : Nat) (hj : 14 ≤ j) : Vk m c j (Proc.devRef .tc main_call0_v1) = val_main_call0_v1 (F := F) := by
  rw [stage_eq m c 13 j hj _ rfl main_call0_v1 (by decide), unary_result, s_main_call0_cst_0 m c 13 (by decide)]; close_stage
theorem s_main_call0_v2 (j : Nat) (hj : 15 ≤ j) : Vk m c j (Proc.devRef .tc main_call0_v2) = val_main_call0_v2 (a0 m c) (a1 m c) (a2 m c) := by
  rw [stage_eq m c 14 j hj _ rfl main_call0_v2 (by decide), binary_result, s_main_call0_v1 m c 14 (by decide), s_main_call0_v0 m c 14 (by decide)]; close_stage
theorem s_main_call0_v3 (j : Nat) (hj : 16 ≤ j) : Vk m c j (Proc.devRef .tc main_call0_v3) = val_main_call0_v3 (a0 m c) (a1 m c) (a2 m c) := by
  rw [stage_eq m c 15 j hj _ rfl main_call0_v3 (by decide), unary_result, s_main_call0_v2 m c 15 (by decide)]; close_stage
theorem s_main_call0_v4 (j : Nat) (hj : 17 ≤ j) : Vk m c j (Proc.devRef .tc main_call0_v4) = val_main_call0_v4 (a0 m c) (a1 m c) (a2 m c) := by
  rw [stage_eq m c 16 j hj _ rfl main_call0_v4 (by decide), unary_result, s_main_call0_v3 m c 16 (by decide)]; close_stage
theorem s_main_call0_v5 (j : Nat) (hj : 18 ≤ j) : Vk m c j (Proc.devRef .tc main_call0_v5) = val_main_call0_v5 (a0 m c) (a1 m c) (a2 m c) := by
  rw [stage_eq m c 17 j hj _ rfl main_call0_v5 (by decide), binary_result, s_main_v4 m c 17 (by decide), s_main_call0_v4 m c 17 (by decide)]; close_stage
theorem s_main_call0_v6 (j : Nat) (hj : 19 ≤ j) : Vk m c j (Proc.devRef .tc main_call0_v6) = val_main_call0_v6 (a0 m c) (a1 m c) (a2 m c) := by
  rw [stage_eq m c 18 j hj _ rfl main_call0_v6 (by decide), unary_result, s_main_call0_v5 m c 18 (by decide)]; close_stage
theorem s_main_call0_cst_1 (j : Nat) (hj : 20 ≤ j) : Vk m c j (Proc.devRef .tc main_call0_cst_1) = val_main_call0_cst_1 (F := F) := by
  rw [stage_eq m c 19 j hj _ rfl main_call0_cst_1 (by decide), nullary_result]; close_stage
theorem s_main_call0_v7 (j : Nat) (hj : 21 ≤ j) : Vk m c j (Proc.devRef .tc main_call0_v7) = val_main_call0_v7 (a0 m c) (a1 m c) (a2 m c) := by
  rw [stage_eq m c 20 j hj _ rfl main_call0_v7 (by decide), binary_result, s_main_call0_v6 m c 20 (by decide), s_main_call0_cst_1 m c 20 (by decide)]; close_stage
theorem s_main_call0_v8 (j : Nat) (hj : 22 ≤ j) : Vk m c j (Proc.devRef .tc main_call0_v8) = val_main_call0_v8 (a0 m c) (a1 m c) (a2 m c) := by
  rw [stage_eq m c 21 j hj _ rfl main_call0_v8 (by decide), unary_result, s_main_call0_v7 m c 21 (by decide)]; close_stage
theorem s_main_call0_v9 (j : Nat) (hj : 23 ≤ j) : Vk m c j (Proc.devRef .tc main_call0_v9) = val_main_call0_v9 (a0 m c) (a1 m c) (a2 m c) := by
  rw [stage_eq m c 22 j hj _ rfl main_call0_v9 (by decide), unary_result, s_main_call0_v8 m c 22 (by decide)]; close_stage
theorem s_main_call0_v10 (j : Nat) (hj : 24 ≤ j) : Vk m c j (Proc.devRef .tc main_call0_v10) = val_main_call0_v10 (a0 m c) (a1 m c) (a2 m c) := by
  rw [stage_eq m c 23 j hj _ rfl main_call0_v10 (by decide), unary_result, s_main_call0_v9 m c 23 (by decide)]; close_stage
theorem s_main_v10 (j : Nat) (hj : 25 ≤ j) : Vk m c j (Proc.devRef .tc main_v10) = val_main_v10 (a0 m c) (a1 m c) (a2 m c) := by
  rw [stage_eq m c 24 j hj _ rfl main_v10 (by decide), binary_result, s_main_call0_v5 m c 24 (by decide), s_main_call0_v10 m c 24 (by decide)]; close_stage

theorem s_main_c (j : Nat) (hj : 26 ≤ j) : Vk m c j (Proc.devRef .tc main_c) = val_main_c (F := F) := by
  rw [stage_eq m c 25 j hj _ rfl main_c (by decide), nullary_result]; close_stage
theorem s_main_v11 (j : Nat) (hj : 27 ≤ j) : Vk m c j (Proc.devRef .tc main_v11) = val_main_v11 (F := F) := by
  rw [stage_eq m c 26 j hj _ rfl main_v11 (by decide), unary_result, s_main_c m c 26 (by decide)]; close_stage
theorem s_main_v12 (j : Nat) (hj : 28 ≤ j) : Vk m c j (Proc.devRef .tc main_v12) = val_main_v12 (a6 m c) := by
  rw [stage_eq m c 27 j hj _ rfl main_v12 (by decide), binary_result, s_arg6, s_main_v11 m c 27 (by decide)]; close_stage
theorem s_main_c_0 (j : Nat) (hj : 29 ≤ j) : Vk m c j (Proc.devRef .tc main_c_0) = val_main_c_0 (F := F) := by
  rw [stage_eq m c 28 j hj _ rfl main_c_0 (by decide), nullary_result]; close_stage
theorem s_main_call1_v0 (j : Nat) (hj : 30 ≤ j) : Vk m c j (Proc.devRef .tc main_call1_v0) = val_main_call1_v0 (F := F) := by
  rw [stage_eq m c 29 j hj _ rfl main_call1_v0 (by decide), unary_result, s_main_c_0 m c 29 (by decide)]; close_stage
theorem s_main_call1_v1 (j : Nat) (hj : 31 ≤ j) : Vk m c j (Proc.devRef .tc main_call1_v1) = val_main_call1_v1 (F := F) := by
  rw [stage_eq m c 30 j hj _ rfl main_call1_v1 (by decide), unary_result, s_main_call1_v0 m c 30 (by decide)]; close_stage
theorem s_main_v13 (j : Nat) (hj : 32 ≤ j) : Vk m c j (Proc.devRef .tc main_v13) = val_main_v13 (a6 m c) := by
  rw [stage_eq m c 31 j hj _ rfl main_v13 (by decide), ternary_result, s_main_v12 m c 31 (by decide), s_arg6, s_main_call1_v1 m c 31 (by decide)]; close_stage
theorem s_main_v14 (j : Nat) (hj : 33 ≤ j) : Vk m c j (Proc.devRef .tc main_v14) = val_main_v14 (a6 m c) := by
  rw [stage_eq m c 32 j hj _ rfl main_v14 (by decide), unary_result, s_main_v13 m c 32 (by decide)]; close_stage
theorem s_main_call2_c (j : Nat) (hj : 34 ≤ j) : Vk m c j (Proc.devRef .tc main_call2_c) = val_main_call2_c (F := F) := by
  rw [stage_eq m c 33 j hj _ rfl main_call2_c (by decide), nullary_result]; close_stage
theorem s_main_call2_v0 (j : Nat) (hj : 35 ≤ j) : Vk m c j (Proc.devRef .tc main_call2_v0) = val_main_call2_v0 (F := F) := by
  rw [stage_eq m c 34 j hj _ rfl main_call2_v0 (by decide), unary_result, s_main_call2_c m c 34 (by decide)]; close_stage
theorem s_main_call2_v1 (j : Nat) (hj : 36 ≤ j) : Vk m c j (Proc.devRef .tc main_call2_v1) = val_main_call2_v1 (a6 m c) := by
  rw [stage_eq m c 35 j hj _ rfl main_call2_v1 (by decide), binary_result, s_main_v14 m c 35 (by decide), s_main_call2_v0 m c 35 (by decide)]; close_stage
theorem s_main_call2_c_0 (j : Nat) (hj : 37 ≤ j) : Vk m c j (Proc.devRef .tc main_call2_c_0) = val_main_call2_c_0 (F := F) := by
  rw [stage_eq m c 36 j hj _ rfl main_call2_c_0 (by decide), nullary_result]; close_stage
theorem s_main_call2_v2 (j : Nat) (hj : 38 ≤ j) : Vk m c j (Proc.devRef .tc main_call2_v2) = val_main_call2_v2 (F := F) := by
  rw [stage_eq m c 37 j hj _ rfl main_call2_v2 (by decide), unary_result, s_main_call2_c_0 m c 37 (by decide)]; close_stage
theorem s_main_call2_v3 (j : Nat) (hj : 39 ≤ j) : Vk m c j (Proc.devRef .tc main_call2_v3) = val_main_call2_v3 (a6 m c) := by
  rw [stage_eq m c 38 j hj _ rfl main_call2_v3 (by decide), binary_result, s_main_v14 m c 38 (by decide), s_main_call2_v2 m c 38 (by decide)]; close_stage
theorem s_main_call2_v4 (j : Nat) (hj : 40 ≤ j) : Vk m c j (Proc.devRef .tc main_call2_v4) = val_main_call2_v4 (a6 m c) := by
  rw [stage_eq m c 39 j hj _ rfl main_call2_v4 (by decide), ternary_result, s_main_call2_v1 m c 39 (by decide), s_main_call2_v3 m c 39 (by decide), s_main_v14 m c 39 (by decide)]; close_stage
theorem s_main_call2_v5 (j : Nat) (hj : 41 ≤ j) : Vk m c j (Proc.devRef .tc main_call2_v5) = val_main_call2_v5 (a6 m c) := by
  rw [stage_eq m c 40 j hj _ rfl main_call2_v5 (by decide), reshape_result, s_main_call2_v4 m c 40 (by decide)]; close_stage
theorem s_main_call2_c_1 (j : Nat) (hj : 42 ≤ j) : Vk m c j (Proc.devRef .tc main_call2_c_1) = val_main_call2_c_1 (F := F) := by
  rw [stage_eq m c 41 j hj _ rfl main_call2_c_1 (by decide), nullary_result]; close_stage
theorem s_main_call2_c_2 (j : Nat) (hj : 43 ≤ j) : Vk m c j (Proc.devRef .tc main_call2_c_2) = val_main_call2_c_2 (F := F) := by
  rw [stage_eq m c 42 j hj _ rfl main_call2_c_2 (by decide), nullary_result]; close_stage
theorem s_main_call2_v6 (j : Nat) (hj : 44 ≤ j) : Vk m c j (Proc.devRef .tc main_call2_v6) = val_main_call2_v6 (F := F) := by
  rw [stage_eq m c 43 j hj _ rfl main_call2_v6 (by decide), unary_result, s_main_call2_c_2 m c 43 (by decide)]; close_stage
theorem s_main_call2_v7 (j : Nat) (hj : 45 ≤ j) : Vk m c j (Proc.devRef .tc main_call2_v7) = val_main_call2_v7 (a6 m c) := by
  rw [stage_eq m c 44 j hj _ rfl main_call2_v7 (by decide), binary_result, s_main_call2_v5 m c 44 (by decide), s_main_call2_v6 m c 44 (by decide)]; close_stage
theorem s_main_call2_v8 (j : Nat) (hj : 46 ≤ j) : Vk m c j (Proc.devRef .tc main_call2_v8) = val_main_call2_v8 (F := F) := by
  rw [stage_eq m c 45 j hj _ rfl main_call2_v8 (by decide), unary_result, s_main_call2_c_1 m c 45 (by decide)]; close_stage
theorem s_main_call2_v9 (j : Nat) (hj : 47 ≤ j) : Vk m c j (Proc.devRef .tc main_call2_v9) = val_main_call2_v9 (F := F) := by
  rw [stage_eq m c 46 j hj _ rfl main_call2_v9 (by decide), unary_result, s_main_call2_v8 m c 46 (by decide)]; close_stage
theorem s_main_call2_v10 (j : Nat) (hj : 48 ≤ j) : Vk m c j (Proc.devRef .tc main_call2_v10) = val_main_call2_v10 (a6 m c) := by
  rw [stage_eq m c 47 j hj _ rfl main_call2_v10 (by decide), binary_result, s_main_call2_v5 m c 47 (by decide), s_main_call2_v9 m c 47 (by decide)]; close_stage
theorem s_main_call2_v11 (j : Nat) (hj : 49 ≤ j) : Vk m c j (Proc.devRef .tc main_call2_v11) = val_main_call2_v11 (a6 m c) := by
  rw [stage_eq m c 48 j hj _ rfl main_call2_v11 (by decide), binary_result, s_main_call2_v7 m c 48 (by decide), s_main_call2_v10 m c 48 (by decide)]; close_stage
theorem s_main_call2_c_3 (j : Nat) (hj : 50 ≤ j) : Vk m c j (Proc.devRef .tc main_call2_c_3) = val_main_call2_c_3 (F := F) := by
  rw [stage_eq m c 49 j hj _ rfl main_call2_c_3 (by decide), nullary_result]; close_stage
theorem s_main_call2_v12 (j : Nat) (hj : 51 ≤ j) : Vk m c j (Proc.devRef .tc main_call2_v12) = val_main_call2_v12 (a6 m c) := by
  rw [stage_eq m c 50 j hj _ rfl main_call2_v12 (by decide), binary_result, s_main_call2_v11 m c 50 (by decide), s_main_call2_c_3 m c 50 (by decide)]; close_stage

theorem s_main_call2_v13 (j : Nat) (hj : 52 ≤ j) : Vk m c j (Proc.devRef .tc main_call2_v13) = val_main_call2_v13 (a0 m c) (a1 m c) (a2 m c) (a6 m c) := by
  rw [stage_eq m c 51 j hj _ rfl main_call2_v13 (by decide), binary_result, s_main_v10 m c 51 (by decide), s_main_call2_v5 m c 51 (by decide)]; close_stage
theorem s_main_call2_cst (j : Nat) (hj : 53 ≤ j) : Vk m c j (Proc.devRef .tc main_call2_cst) = val_main_call2_cst (F := F) := by
  rw [stage_eq m c 52 j hj _ rfl main_call2_cst (by decide), nullary_result]; close_stage
theorem s_main_call2_v14 (j : Nat) (hj : 54 ≤ j) : Vk m c j (Proc.devRef .tc main_call2_v14) = val_main_call2_v14 (F := F) := by
  rw [stage_eq m c 53 j hj _ rfl main_call2_v14 (by decide), unary_result, s_main_call2_cst m c 53 (by decide)]; close_stage
theorem s_main_v15 (j : Nat) (hj : 55 ≤ j) : Vk m c j (Proc.devRef .tc main_v15) = val_main_v15 (a0 m c) (a1 m c) (a2 m c) (a6 m c) := by
  rw [stage_eq m c 54 j hj _ rfl main_v15 (by decide), ternary_result, s_main_call2_v12 m c 54 (by decide), s_main_call2_v13 m c 54 (by decide), s_main_call2_v14 m c 54 (by decide)]; close_stage
theorem s_main_v16 (j : Nat) (hj : 56 ≤ j) : Vk m c j (Proc.devRef .tc main_v16) = val_main_v16 (a0 m c) (a1 m c) (a2 m c) (a6 m c) := by
  rw [stage_eq m c 55 j hj _ rfl main_v16 (by decide), reshape_result, s_main_v15 m c 55 (by decide)]; close_stage
theorem s_main_v17 (j : Nat) (hj : 57 ≤ j) : Vk m c j (Proc.devRef .tc main_v17) = val_main_v17 (a0 m c) (a1 m c) (a2 m c) (a6 m c) := by
  rw [stage_eq m c 56 j hj _ rfl main_v17 (by decide), unary_result, s_main_v16 m c 56 (by decide)]; close_stage
theorem s_main_cst (j : Nat) (hj : 58 ≤ j) : Vk m c j (Proc.devRef .tc main_cst) = val_main_cst (F := F) := by
  rw [stage_eq m c 57 j hj _ rfl main_cst (by decide), nullary_result]; close_stage
theorem s_main_call3_v0 (j : Nat) (hj : 59 ≤ j) : Vk m c j (Proc.devRef .tc main_call3_v0) = val_main_call3_v0 (F := F) := by
  rw [stage_eq m c 58 j hj _ rfl main_call3_v0 (by decide), unary_result, s_main_cst m c 58 (by decide)]; close_stage
theorem s_main_call3_v1 (j : Nat) (hj : 60 ≤ j) : Vk m c j (Proc.devRef .tc main_call3_v1) = val_main_call3_v1 (F := F) := by
  rw [stage_eq m c 59 j hj _ rfl main_call3_v1 (by decide), unary_result, s_main_call3_v0 m c 59 (by decide)]; close_stage
theorem s_main_v18 (j : Nat) (hj : 61 ≤ j) : Vk m c j (Proc.devRef .tc main_v18) = val_main_v18 (a0 m c) (a1 m c) (a2 m c) (a6 m c) := by
  rw [stage_eq m c 60 j hj _ rfl main_v18 (by decide), ternary_result, s_main_v12 m c 60 (by decide), s_main_v17 m c 60 (by decide), s_main_call3_v1 m c 60 (by decide)]; close_stage
theorem s_main_cst_1 (j : Nat) (hj : 62 ≤ j) : Vk m c j (Proc.devRef .tc main_cst_1) = val_main_cst_1 (F := F) := by
  rw [stage_eq m c 61 j hj _ rfl main_cst_1 (by decide), nullary_result]; close_stage
theorem s_main_v19 (j : Nat) (hj : 63 ≤ j) : Vk m c j (Proc.devRef .tc main_v19) = val_main_v19 (a0 m c) (a1 m c) (a2 m c) (a6 m c) := by
  rw [stage_eq m c 62 j hj _ rfl main_v19 (by decide), binary_result, s_main_v18 m c 62 (by decide), s_main_cst_1 m c 62 (by decide)]; close_stage
theorem s_main_cst_2 (j : Nat) (hj : 64 ≤ j) : Vk m c j (Proc.devRef .tc main_cst_2) = val_main_cst_2 (F := F) := by
  rw [stage_eq m c 63 j hj _ rfl main_cst_2 (by decide), nullary_result]; close_stage
theorem s_main_v20 (j : Nat) (hj : 65 ≤ j) : Vk m c j (Proc.devRef .tc main_v20) = val_main_v20 (a0 m c) (a1 m c) (a2 m c) (a6 m c) := by
  rw [stage_eq m c 64 j hj _ rfl main_v20 (by decide), binary_result, s_main_v19 m c 64 (by decide), s_main_cst_2 m c 64 (by decide)]; close_stage

theorem s_main_cst_3 (j : Nat) (hj : 66 ≤ j) : Vk m c j (Proc.devRef .tc main_cst_3) = val_main_cst_3 (F := F) := by
  rw [stage_eq m c 65 j hj _ rfl main_cst_3 (by decide), nullary_result]; close_stage
theorem s_main_v21 (j : Nat) (hj : 67 ≤ j) : Vk m c j (Proc.devRef .tc main_v21) = val_main_v21 (F := F) := by
  rw [stage_eq m c 66 j hj _ rfl main_v21 (by decide), unary_result, s_main_cst_3 m c 66 (by decide)]; close_stage
theorem s_main_v22 (j : Nat) (hj : 68 ≤ j) : Vk m c j (Proc.devRef .tc main_v22) = val_main_v22 (a0 m c) (a1 m c) (a2 m c) := by
  rw [stage_eq m c 67 j hj _ rfl main_v22 (by decide), binary_result, s_main_v4 m c 67 (by decide), s_main_v21 m c 67 (by decide)]; close_stage
theorem s_main_call4_cst (j : Nat) (hj : 69 ≤ j) : Vk m c j (Proc.devRef .tc main_call4_cst) = val_main_call4_cst (F := F) := by
  rw [stage_eq m c 68 j hj _ rfl main_call4_cst (by decide), nullary_result]; close_stage
theorem s_main_call4_v0 (j : Nat) (hj : 70 ≤ j) : Vk m c j (Proc.devRef .tc main_call4_v0) = val_main_call4_v0 (a0 m c) (a1 m c) (a2 m c) := by
  rw [stage_eq m c 69 j hj _ rfl main_call4_v0 (by decide), binary_result, s_main_v22 m c 69 (by decide), s_main_call4_cst m c 69 (by decide)]; close_stage
theorem s_main_call4_cst_0 (j : Nat) (hj : 71 ≤ j) : Vk m c j (Proc.devRef .tc main_call4_cst_0) = val_main_call4_cst_0 (F := F) := by
  rw [stage_eq m c 70 j hj _ rfl main_call4_cst_0 (by decide), nullary_result]; close_stage
theorem s_main_call4_v1 (j : Nat) (hj : 72 ≤ j) : Vk m c j (Proc.devRef .tc main_call4_v1) = val_main_call4_v1 (F := F) := by
  rw [stage_eq m c 71 j hj _ rfl main_call4_v1 (by decide), unary_result, s_main_call4_cst_0 m c 71 (by decide)]; close_stage
theorem s_main_call4_v2 (j : Nat) (hj : 73 ≤ j) : Vk m c j (Proc.devRef .tc main_call4_v2) = val_main_call4_v2 (a0 m c) (a1 m c) (a2 m c) := by
  rw [stage_eq m c 72 j hj _ rfl main_call4_v2 (by decide), binary_result, s_main_call4_v1 m c 72 (by decide), s_main_call4_v0 m c 72 (by decide)]; close_stage
theorem s_main_call4_v3 (j : Nat) (hj : 74 ≤ j) : Vk m c j (Proc.devRef .tc main_call4_v3) = val_main_call4_v3 (a0 m c) (a1 m c) (a2 m c) := by
  rw [stage_eq m c 73 j hj _ rfl main_call4_v3 (by decide), unary_result, s_main_call4_v2 m c 73 (by decide)]; close_stage
theorem s_main_call4_v4 (j : Nat) (hj : 75 ≤ j) : Vk m c j (Proc.devRef .tc main_call4_v4) = val_main_call4_v4 (a0 m c) (a1 m c) (a2 m c) := by
  rw [stage_eq m c 74 j hj _ rfl main_call4_v4 (by decide), unary_result, s_main_call4_v3 m c 74 (by decide)]; close_stage
theorem s_main_call4_v5 (j : Nat) (hj : 76 ≤ j) : Vk m c j (Proc.devRef .tc main_call4_v5) = val_main_call4_v5 (a0 m c) (a1 m c) (a2 m c) := by
  rw [stage_eq m c 75 j hj _ rfl main_call4_v5 (by decide), binary_result, s_main_v22 m c 75 (by decide), s_main_call4_v4 m c 75 (by decide)]; close_stage
theorem s_main_call4_v6 (j : Nat) (hj : 77 ≤ j) : Vk m c j (Proc.devRef .tc main_call4_v6) = val_main_call4_v6 (a0 m c) (a1 m c) (a2 m c) := by
  rw [stage_eq m c 76 j hj _ rfl main_call4_v6 (by decide), unary_result, s_main_call4_v5 m c 76 (by decide)]; close_stage
theorem s_main_call4_cst_1 (j : Nat) (hj : 78 ≤ j) : Vk m c j (Proc.devRef .tc main_call4_cst_1) = val_main_call4_cst_1 (F := F) := by
  rw [stage_eq m c 77 j hj _ rfl main_call4_cst_1 (by decide), nullary_result]; close_stage
theorem s_main_call4_v7 (j : Nat) (hj : 79 ≤ j) : Vk m c j (Proc.devRef .tc main_call4_v7) = val_main_call4_v7 (a0 m c) (a1 m c) (a2 m c) := by
  rw [stage_eq m c 78 j hj _ rfl main_call4_v7 (by decide), binary_result, s_main_call4_v6 m c 78 (by decide), s_main_call4_cst_1 m c 78 (by decide)]; close_stage
theorem s_main_call4_v8 (j : Nat) (hj : 80 ≤ j) : Vk m c j (Proc.devRef .tc main_call4_v8) = val_main_call4_v8 (a0 m c) (a1 m c) (a2 m c) := by
  rw [stage_eq m c 79 j hj _ rfl main_call4_v8 (by decide), unary_result, s_main_call4_v7 m c 79 (by decide)]; close_stage
theorem s_main_call4_v9 (j : Nat) (hj : 81 ≤ j) : Vk m c j (Proc.devRef .tc main_call4_v9) = val_main_call4_v9 (a0 m c) (a1 m c) (a2 m c) := by
  rw [stage_eq m c 80 j hj _ rfl main_call4_v9 (by decide), unary_result, s_main_call4_v8 m c 80 (by decide)]; close_stage
theorem s_main_call4_v10 (j : Nat) (hj : 82 ≤ j) : Vk m c j (Proc.devRef .tc main_call4_v10) = val_main_call4_v10 (a0 m c) (a1 m c) (a2 m c) := by
  rw [stage_eq m c 81 j hj _ rfl main_call4_v10 (by decide), unary_result, s_main_call4_v9 m c 81 (by decide)]; close_stage
theorem s_main_v23 (j : Nat) (hj : 83 ≤ j) : Vk m c j (Proc.devRef .tc main_v23) = val_main_v23 (a0 m c) (a1 m c) (a2 m c) := by
  rw [stage_eq m c 82 j hj _ rfl main_v23 (by decide), binary_result, s_main_call4_v5 m c 82 (by decide), s_main_call4_v10 m c 82 (by decide)]; close_stage

theorem s_main_cst_4 (j : Nat) (hj : 84 ≤ j) : Vk m c j (Proc.devRef .tc main_cst_4) = val_main_cst_4 (F := F) := by
  rw [stage_eq m c 83 j hj _ rfl main_cst_4 (by decide), nullary_result]; close_stage
theorem s_main_v24 (j : Nat) (hj : 85 ≤ j) : Vk m c j (Proc.devRef .tc main_v24) = val_main_v24 (F := F) := by
  rw [stage_eq m c 84 j hj _ rfl main_v24 (by decide), unary_result, s_main_cst_4 m c 84 (by decide)]; close_stage
theorem s_main_v25 (j : Nat) (hj : 86 ≤ j) : Vk m c j (Proc.devRef .tc main_v25) = val_main_v25 (a3 m c) (a4 m c) (a5 m c) := by
  rw [stage_eq m c 85 j hj _ rfl main_v25 (by decide), binary_result, s_main_v9 m c 85 (by decide), s_main_v24 m c 85 (by decide)]; close_stage
theorem s_main_call5_cst (j : Nat) (hj : 87 ≤ j) : Vk m c j (Proc.devRef .tc main_call5_cst) = val_main_call5_cst (F := F) := by
  rw [stage_eq m c 86 j hj _ rfl main_call5_cst (by decide), nullary_result]; close_stage
theorem s_main_call5_v0 (j : Nat) (hj : 88 ≤ j) : Vk m c j (Proc.devRef .tc main_call5_v0) = val_main_call5_v0 (a3 m c) (a4 m c) (a5 m c) := by
  rw [stage_eq m c 87 j hj _ rfl main_call5_v0 (by decide), binary_result, s_main_v25 m c 87 (by decide), s_main_call5_cst m c 87 (by decide)]; close_stage
theorem s_main_call5_cst_0 (j : Nat) (hj : 89 ≤ j) : Vk m c j (Proc.devRef .tc main_call5_cst_0) = val_main_call5_cst_0 (F := F) := by
  rw [stage_eq m c 88 j hj _ rfl main_call5_cst_0 (by decide), nullary_result]; close_stage
theorem s_main_call5_v1 (j : Nat) (hj : 90 ≤ j) : Vk m c j (Proc.devRef .tc main_call5_v1) = val_main_call5_v1 (F := F) := by
  rw [stage_eq m c 89 j hj _ rfl main_call5_v1 (by decide), unary_result, s_main_call5_cst_0 m c 89 (by decide)]; close_stage
theorem s_main_call5_v2 (j : Nat) (hj : 91 ≤ j) : Vk m c j (Proc.devRef .tc main_call5_v2) = val_main_call5_v2 (a3 m c) (a4 m c) (a5 m c) := by
  rw [stage_eq m c 90 j hj _ rfl main_call5_v2 (by decide), binary_result, s_main_call5_v1 m c 90 (by decide), s_main_call5_v0 m c 90 (by decide)]; close_stage
theorem s_main_call5_v3 (j : Nat) (hj : 92 ≤ j) : Vk m c j (Proc.devRef .tc main_call5_v3) = val_main_call5_v3 (a3 m c) (a4 m c) (a5 m c) := by
  rw [stage_eq m c 91 j hj _ rfl main_call5_v3 (by decide), unary_result, s_main_call5_v2 m c 91 (by decide)]; close_stage
theorem s_main_call5_v4 (j : Nat) (hj : 93 ≤ j) : Vk m c j (Proc.devRef .tc main_call5_v4) = val_main_call5_v4 (a3 m c) (a4 m c) (a5 m c) := by
  rw [stage_eq m c 92 j hj _ rfl main_call5_v4 (by decide), unary_result, s_main_call5_v3 m c 92 (by decide)]; close_stage
theorem s_main_call5_v5 (j : Nat) (hj : 94 ≤ j) : Vk m c j (Proc.devRef .tc main_call5_v5) = val_main_call5_v5 (a3 m c) (a4 m c) (a5 m c) := by
  rw [stage_eq m c 93 j hj _ rfl main_call5_v5 (by decide), binary_result, s_main_v25 m c 93 (by decide), s_main_call5_v4 m c 93 (by decide)]; close_stage
theorem s_main_call5_v6 (j : Nat) (hj : 95 ≤ j) : Vk m c j (Proc.devRef .tc main_call5_v6) = val_main_call5_v6 (a3 m c) (a4 m c) (a5 m c) := by
  rw [stage_eq m c 94 j hj _ rfl main_call5_v6 (by decide), unary_result, s_main_call5_v5 m c 94 (by decide)]; close_stage
theorem s_main_call5_cst_1 (j : Nat) (hj : 96 ≤ j) : Vk m c j (Proc.devRef .tc main_call5_cst_1) = val_main_call5_cst_1 (F := F) := by
  rw [stage_eq m c 95 j hj _ rfl main_call5_cst_1 (by decide), nullary_result]; close_stage
theorem s_main_call5_v7 (j : Nat) (hj : 97 ≤ j) : Vk m c j (Proc.devRef .tc main_call5_v7) = val_main_call5_v7 (a3 m c) (a4 m c) (a5 m c) := by
  rw [stage_eq m c 96 j hj _ rfl main_call5_v7 (by decide), binary_result, s_main_call5_v6 m c 96 (by decide), s_main_call5_cst_1 m c 96 (by decide)]; close_stage
theorem s_main_call5_v8 (j : Nat) (hj : 98 ≤ j) : Vk m c j (Proc.devRef .tc main_call5_v8) = val_main_call5_v8 (a3 m c) (a4 m c) (a5 m c) := by
  rw [stage_eq m c 97 j hj _ rfl main_call5_v8 (by decide), unary_result, s_main_call5_v7 m c 97 (by decide)]; close_stage
theorem s_main_call5_v9 (j : Nat) (hj : 99 ≤ j) : Vk m c j (Proc.devRef .tc main_call5_v9) = val_main_call5_v9 (a3 m c) (a4 m c) (a5 m c) := by
  rw [stage_eq m c 98 j hj _ rfl main_call5_v9 (by decide), unary_result, s_main_call5_v8 m c 98 (by decide)]; close_stage
theorem s_main_call5_v10 (j : Nat) (hj : 100 ≤ j) : Vk m c j (Proc.devRef .tc main_call5_v10) = val_main_call5_v10 (a3 m c) (a4 m c) (a5 m c) := by
  rw [stage_eq m c 99 j hj _ rfl main_call5_v10 (by decide), unary_result, s_main_call5_v9 m c 99 (by decide)]; close_stage
theorem s_main_v26 (j : Nat) (hj : 101 ≤ j) : Vk m c j (Proc.devRef .tc main_v26) = val_main_v26 (a3 m c) (a4 m c) (a5 m c) := by
  rw [stage_eq m c 100 j hj _ rfl main_v26 (by decide), binary_result, s_main_call5_v5 m c 100 (by decide), s_main_call5_v10 m c 100 (by decide)]; close_stage

theorem s_main_v27 (j : Nat) (hj : 102 ≤ j) : Vk m c j (Proc.devRef .tc main_v27) = val_main_v27 (a0 m c) (a1 m c) (a2 m c) := by
  rw [stage_eq m c 101 j hj _ rfl main_v27 (by decide), unary_result, s_main_v23 m c 101 (by decide)]; close_stage
theorem s_main_cst_5 (j : Nat) (hj : 103 ≤ j) : Vk m c j (Proc.devRef .tc main_cst_5) = val_main_cst_5 (F := F) := by
  rw [stage_eq m c 102 j hj _ rfl main_cst_5 (by decide), nullary_result]; close_stage
theorem s_main_v28 (j : Nat) (hj : 104 ≤ j) : Vk m c j (Proc.devRef .tc main_v28) = val_main_v28 (F := F) := by
  rw [stage_eq m c 103 j hj _ rfl main_v28 (by decide), unary_result, s_main_cst_5 m c 103 (by decide)]; close_stage
theorem s_main_v29 (j : Nat) (hj : 105 ≤ j) : Vk m c j (Proc.devRef .tc main_v29) = val_main_v29 (a0 m c) (a1 m c) (a2 m c) := by
  rw [stage_eq m c 104 j hj _ rfl main_v29 (by decide), binary_result, s_main_v28 m c 104 (by decide), s_main_v27 m c 104 (by decide)]; close_stage
theorem s_main_v30 (j : Nat) (hj : 106 ≤ j) : Vk m c j (Proc.devRef .tc main_v30) = val_main_v30 (a3 m c) (a4 m c) (a5 m c) := by
  rw [stage_eq m c 105 j hj _ rfl main_v30 (by decide), unary_result, s_main_v26 m c 105 (by decide)]; close_stage
theorem s_main_cst_6 (j : Nat) (hj : 107 ≤ j) : Vk m c j (Proc.devRef .tc main_cst_6) = val_main_cst_6 (F := F) := by
  rw [stage_eq m c 106 j hj _ rfl main_cst_6 (by decide), nullary_result]; close_stage
theorem s_main_v31 (j : Nat) (hj : 108 ≤ j) : Vk m c j (Proc.devRef .tc main_v31) = val_main_v31 (F := F) := by
  rw [stage_eq m c 107 j hj _ rfl main_v31 (by decide), unary_result, s_main_cst_6 m c 107 (by decide)]; close_stage
theorem s_main_v32 (j : Nat) (hj : 109 ≤ j) : Vk m c j (Proc.devRef .tc main_v32) = val_main_v32 (a3 m c) (a4 m c) (a5 m c) := by
  rw [stage_eq m c 108 j hj _ rfl main_v32 (by decide), binary_result, s_main_v31 m c 108 (by decide), s_main_v30 m c 108 (by decide)]; close_stage
theorem s_main_v33 (j : Nat) (hj : 110 ≤ j) : Vk m c j (Proc.devRef .tc main_v33) = val_main_v33 (a0 m c) (a1 m c) (a2 m c) (a3 m c) (a4 m c) (a5 m c) := by
  rw [stage_eq m c 109 j hj _ rfl main_v33 (by decide), binary_result, s_main_v29 m c 109 (by decide), s_main_v32 m c 109 (by decide)]; close_stage
theorem s_main_v34 (j : Nat) (hj : 111 ≤ j) : Vk m c j (Proc.devRef .tc main_v34) = val_main_v34 (a0 m c) (a1 m c) (a2 m c) (a3 m c) (a4 m c) (a5 m c) := by
  rw [stage_eq m c 110 j hj _ rfl main_v34 (by decide), unary_result, s_main_v33 m c 110 (by decide)]; close_stage

theorem s_main_v35 (j : Nat) (hj : 112 ≤ j) : Vk m c j (Proc.devRef .tc main_v35) = val_main_v35 (a0 m c) (a1 m c) (a2 m c) := by
  rw [stage_eq m c 111 j hj _ rfl main_v35 (by decide), unary_result, s_main_v23 m c 111 (by decide)]; close_stage
theorem s_main_v36 (j : Nat) (hj : 113 ≤ j) : Vk m c j (Proc.devRef .tc main_v36) = val_main_v36 (a0 m c) (a1 m c) (a2 m c) (a3 m c) (a4 m c) (a5 m c) := by
  rw [stage_eq m c 112 j hj _ rfl main_v36 (by decide), binary_result, s_main_v23 m c 112 (by decide), s_main_v34 m c 112 (by decide)]; close_stage
theorem s_main_v37 (j : Nat) (hj : 114 ≤ j) : Vk m c j (Proc.devRef .tc main_v37) = val_main_v37 (a0 m c) (a1 m c) (a2 m c) (a3 m c) (a4 m c) (a5 m c) := by
  rw [stage_eq m c 113 j hj _ rfl main_v37 (by decide), binary_result, s_main_v35 m c 113 (by decide), s_main_v36 m c 113 (by decide)]; close_stage
theorem s_main_cst_7 (j : Nat) (hj : 115 ≤ j) : Vk m c j (Proc.devRef .tc main_cst_7) = val_main_cst_7 (F := F) := by
  rw [stage_eq m c 114 j hj _ rfl main_cst_7 (by decide), nullary_result]; close_stage
theorem s_main_v38 (j : Nat) (hj : 116 ≤ j) : Vk m c j (Proc.devRef .tc main_v38) = val_main_v38 (a0 m c) (a1 m c) (a2 m c) (a3 m c) (a4 m c) (a5 m c) := by
  rw [stage_eq m c 115 j hj _ rfl main_v38 (by decide), binary_result, s_main_v37 m c 115 (by decide), s_main_cst_7 m c 115 (by decide)]; close_stage

theorem s_main_v39 (j : Nat) (hj : 117 ≤ j) : Vk m c j (Proc.devRef .tc main_v39) = val_main_v39 (a3 m c) (a4 m c) (a5 m c) := by
  rw [stage_eq m c 116 j hj _ rfl main_v39 (by decide), unary_result, s_main_v26 m c 116 (by decide)]; close_stage
theorem s_main_v40 (j : Nat) (hj : 118 ≤ j) : Vk m c j (Proc.devRef .tc main_v40) = val_main_v40 (a0 m c) (a1 m c) (a2 m c) (a3 m c) (a4 m c) (a5 m c) := by
  rw [stage_eq m c 117 j hj _ rfl main_v40 (by decide), binary_result, s_main_v26 m c 117 (by decide), s_main_v34 m c 117 (by decide)]; close_stage
theorem s_main_v41 (j : Nat) (hj : 119 ≤ j) : Vk m c j (Proc.devRef .tc main_v41) = val_main_v41 (a0 m c) (a1 m c) (a2 m c) (a3 m c) (a4 m c) (a5 m c) := by
  rw [stage_eq m c 118 j hj _ rfl main_v41 (by decide), binary_result, s_main_v39 m c 118 (by decide), s_main_v40 m c 118 (by decide)]; close_stage
theorem s_main_cst_8 (j : Nat) (hj : 120 ≤ j) : Vk m c j (Proc.devRef .tc main_cst_8) = val_main_cst_8 (F := F) := by
  rw [stage_eq m c 119 j hj _ rfl main_cst_8 (by decide), nullary_result]; close_stage
theorem s_main_v42 (j : Nat) (hj : 121 ≤ j) : Vk m c j (Proc.devRef .tc main_v42) = val_main_v42 (a0 m c) (a1 m c) (a2 m c) (a3 m c) (a4 m c) (a5 m c) := by
  rw [stage_eq m c 120 j hj _ rfl main_v42 (by decide), binary_result, s_main_v41 m c 120 (by decide), s_main_cst_8 m c 120 (by decide)]; close_stage

theorem s_main_cst_9 (j : Nat) (hj : 122 ≤ j) : Vk m c j (Proc.devRef .tc main_cst_9) = val_main_cst_9 (F := F) := by
  rw [stage_eq m c 121 j hj _ rfl main_cst_9 (by decide), nullary_result]; close_stage
theorem s_main_v43 (j : Nat) (hj : 123 ≤ j) : Vk m c j (Proc.devRef .tc main_v43) = val_main_v43 (a0 m c) (a1 m c) (a2 m c) (a3 m c) (a4 m c) (a5 m c) := by
  rw [stage_eq m c 122 j hj _ rfl main_v43 (by decide), binary_result, s_main_cst_9 m c 122 (by decide), s_main_v38 m c 122 (by decide)]; close_stage
theorem s_main_cst_10 (j : Nat) (hj : 124 ≤ j) : Vk m c j (Proc.devRef .tc main_cst_10) = val_main_cst_10 (F := F) := by
  rw [stage_eq m c 123 j hj _ rfl main_cst_10 (by decide), nullary_result]; close_stage
theorem s_main_v44 (j : Nat) (hj : 125 ≤ j) : Vk m c j (Proc.devRef .tc main_v44) = val_main_v44 (a0 m c) (a1 m c) (a2 m c) (a3 m c) (a4 m c) (a5 m c) := by
  rw [stage_eq m c 124 j hj _ rfl main_v44 (by decide), binary_result, s_main_cst_10 m c 124 (by decide), s_main_v42 m c 124 (by decide)]; close_stage
theorem s_main_v45 (j : Nat) (hj : 126 ≤ j) : Vk m c j (Proc.devRef .tc main_v45) = val_main_v45 (a0 m c) (a1 m c) (a2 m c) (a3 m c) (a4 m c) (a5 m c) := by
  rw [stage_eq m c 125 j hj _ rfl main_v45 (by decide), binary_result, s_main_v43 m c 125 (by decide), s_main_v44 m c 125 (by decide)]; close_stage
theorem s_main_cst_11 (j : Nat) (hj : 127 ≤ j) : Vk m c j (Proc.devRef .tc main_cst_11) = val_main_cst_11 (F := F) := by
  rw [stage_eq m c 126 j hj _ rfl main_cst_11 (by decide), nullary_result]; close_stage
theorem s_main_v46 (j : Nat) (hj : 128 ≤ j) : Vk m c j (Proc.devRef .tc main_v46) = val_main_v46 (a0 m c) (a1 m c) (a2 m c) (a3 m c) (a4 m c) (a5 m c) := by
  rw [stage_eq m c 127 j hj _ rfl main_v46 (by decide), binary_result, s_main_v45 m c 127 (by decide), s_main_cst_11 m c 127 (by decide)]; close_stage
theorem s_main_cst_12 (j : Nat) (hj : 129 ≤ j) : Vk m c j (Proc.devRef .tc main_cst_12) = val_main_cst_12 (F := F) := by
  rw [stage_eq m c 128 j hj _ rfl main_cst_12 (by decide), nullary_result]; close_stage
theorem s_main_v47 (j : Nat) (hj : 130 ≤ j) : Vk m c j (Proc.devRef .tc main_v47) = val_main_v47 (a0 m c) (a1 m c) (a2 m c) (a6 m c) := by
  rw [stage_eq m c 129 j hj _ rfl main_v47 (by decide), binary_result, s_main_cst_12 m c 129 (by decide), s_main_v20 m c 129 (by decide)]; close_stage
theorem s_main_cst_13 (j : Nat) (hj : 131 ≤ j) : Vk m c j (Proc.devRef .tc main_cst_13) = val_main_cst_13 (F := F) := by
  rw [stage_eq m c 130 j hj _ rfl main_cst_13 (by decide), nullary_result]; close_stage
theorem s_main_v48 (j : Nat) (hj : 132 ≤ j) : Vk m c j (Proc.devRef .tc main_v48) = val_main_v48 (a0 m c) (a1 m c) (a2 m c) (a3 m c) (a4 m c) (a5 m c) := by
  rw [stage_eq m c 131 j hj _ rfl main_v48 (by decide), binary_result, s_main_cst_13 m c 131 (by decide), s_main_v46 m c 131 (by decide)]; close_stage
theorem s_main_v49 (j : Nat) (hj : 133 ≤ j) : Vk m c j (Proc.devRef .tc main_v49) = val_main_v49 (a0 m c) (a1 m c) (a2 m c) (a3 m c) (a4 m c) (a5 m c) (a6 m c) := by
  rw [stage_eq m c 132 j hj _ rfl main_v49 (by decide), binary_result, s_main_v47 m c 132 (by decide), s_main_v48 m c 132 (by decide)]; close_stage

theorem result_stage (m : (ℓ : Loc nD τ sig) → Buf (Elt F) ℓ) (c : Dev nD) :
    StableHlo.after (Cert.ReferenceIdeal.ValueP.ops (F := F)) (StableHlo.launchContents m c) (Proc.devRef .tc main_v49)
      = Cert.ReferenceIdeal.ReadP.val_main_v49 (F := F) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) := by
  rw [← Vk_all m c 133 (Nat.le_refl _)]
  exact s_main_v49 m c 133 (Nat.le_refl _)

end Cert.ReferenceIdeal.RefStages
end
-- ==== Proof.RefValue.lean ====
import proofs.«422162_j56092272886459_3_alg».proof.Proof.ReadP
import proofs.«422162_j56092272886459_3_alg».proof.Proof.Spec
import Idealize.ShloMosaic.Lib.ValueIdx
import Idealize.ShloMosaic.Lib.ValueIdxRank1
import Idealize.ShloMosaic.PureOps.Ideal.Laws
import Idealize.ShloMosaic.Lib.Affine
import Idealize.ShloMosaic.PureOps.Reduce

noncomputable section

namespace Cert.ReferenceIdeal.RefValue

open Cert.ReferenceIdeal Cert.ReferenceIdeal.Gen Cert.ReferenceIdeal.ReadP Idealize.ShloMosaic Idealize.ShloMosaic.ValueIdx
open Cert.Spec

theorem coe_sum {ι : Type*} (S : Finset ι) (g : ι → ℝ) :
    ∑ k ∈ S, (g k : EReal) = ((∑ k ∈ S, g k : ℝ) : EReal) := by
  classical
  induction S using Finset.induction_on with
  | empty => simp
  | insert a s ha ih => rw [Finset.sum_insert ha, Finset.sum_insert ha, ih, EReal.coe_add]

theorem fold_max_real {ι : Type*} (S : Finset ι) (hS : S.Nonempty) (g : ι → EReal) (hg : ∀ k, ∃ r : ℝ, g k = r) :
    ∃ r : ℝ, S.fold max ⊥ g = r := by
  classical
  induction hS using Finset.Nonempty.cons_induction with
  | singleton a =>
    obtain ⟨r, hr⟩ := hg a
    exact ⟨r, by rw [Finset.fold_singleton, hr]; exact max_bot_right _⟩
  | cons a s ha hs ih =>
    obtain ⟨r, hr⟩ := hg a
    obtain ⟨r', hr'⟩ := ih
    refine ⟨max r r', ?_⟩
    rw [Finset.fold_cons, hr, hr']
    exact (EReal.coe_strictMono.monotone.map_max).symm

theorem shift_lse (f : Fin 32000 → ℝ) (M : ℝ) (v : Fin 32000) :
    (f v - M) - Real.log (∑ w : Fin 32000, Real.exp (f w - M)) = f v - Cert.Spec.lse f := by
  have hpos : 0 < ∑ w : Fin 32000, Real.exp (f w) :=
    Finset.sum_pos (fun w _ => Real.exp_pos _) ⟨⟨0, by norm_num⟩, Finset.mem_univ _⟩
  have h1 : ∑ w : Fin 32000, Real.exp (f w - M) = Real.exp (-M) * ∑ w : Fin 32000, Real.exp (f w) := by
    rw [Finset.mul_sum]
    refine Finset.sum_congr rfl fun w _ => ?_
    rw [← Real.exp_add]; congr 1; ring
  rw [h1, Real.log_mul (Real.exp_pos _).ne' hpos.ne', Real.log_exp]
  unfold Cert.Spec.lse
  ring

theorem ofBits_negInf : Ideal.ofBits .f32 0xFF800000#32 = ⊥ := by simp [Ideal.ofBits, Ideal.ieee]
theorem ofBits_two : Ideal.ofBits .f32 0x40000000#32 = ((2 : ℝ) : EReal) := by
  simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num
theorem ofBits_2048 : Ideal.ofBits .f32 0x45000000#32 = ((2048 : ℝ) : EReal) := by
  simp [Ideal.ofBits, Ideal.ieee, -EReal.coe_mul]; norm_num

theorem div_real (x y : ℝ) (hy : y ≠ 0) : Ideal.div (x : EReal) (y : EReal) = ((x / y : ℝ) : EReal) := by
  rw [Ideal.div_coe hy, ← EReal.coe_mul]; congr 1; ring

theorem lsm_core (f : Fin 32000 → ℝ) (M : ℝ) (sh : Fin 32000 → EReal)
    (hsh : ∀ v, sh v = ((f v : ℝ) : EReal) - (M : EReal)) (S : EReal)
    (hS : S = Ideal.ofBits .f32 0x00000000#32 + ∑ w : Fin 32000, Ideal.exp (sh w)) (v : Fin 32000) :
    sh v - Ideal.log S = ((f v - Cert.Spec.lse f : ℝ) : EReal) := by
  have h1 : ∀ w, sh w = ((f w - M : ℝ) : EReal) := fun w => by rw [hsh, ← EReal.coe_sub]
  have h2 : ∑ w : Fin 32000, Ideal.exp (sh w) = ((∑ w : Fin 32000, Real.exp (f w - M) : ℝ) : EReal) := by
    rw [← coe_sum]; exact Finset.sum_congr rfl fun w _ => by rw [h1 w, Ideal.exp_coe]
  have hpos : 0 < ∑ w : Fin 32000, Real.exp (f w - M) :=
    Finset.sum_pos (fun w _ => Real.exp_pos _) ⟨⟨0, by norm_num⟩, Finset.mem_univ _⟩
  rw [hS, Ideal.ofBits_zero_f32, zero_add, h2, Ideal.log_coe, if_neg (not_le.mpr hpos), h1 v, ← EReal.coe_sub,
    shift_lse]

theorem reduce_max_real (y : (⟨S2048x32000, .f32⟩ : BufTy).Contents (Elt Ideal)) (hy : ∀ i, ∃ r : ℝ, y i = r)
    (j : S2048.Idx) :
    ∃ r : ℝ, Host.reduce FloatOps.maximumf y (constant (F := Ideal) S_ .f32 0xFF800000#32)
      reducesTo_S2048x32000_S2048_d1 h_S_ j = r := by
  have h : S2048x32000.Reduces [1] S2048 := by decide
  have e := Host.reduce_eq_fold_single (FloatOps.maximumf (F := Ideal) (φ := .f32)) y
    (constant (F := Ideal) S_ .f32 0xFF800000#32) reducesTo_S2048x32000_S2048_d1 h h_S_ j
  have hb : (constant (F := Ideal) S_ .f32 0xFF800000#32) (Shape.Idx.first h_S_) = (⊥ : EReal) := ofBits_negInf
  obtain ⟨r, hr⟩ := fold_max_real (Finset.univ : Finset (Fin (S2048x32000.size 1))) ⟨⟨0, by decide⟩, Finset.mem_univ _⟩
    (y ∘ h.lift j) (fun k => hy _)
  refine ⟨r, e.trans ?_⟩
  rw [hb]
  exact hr

theorem toInt_of_lt {w : BitVec 32} (h : w.toNat < 32000) : w.toInt = (w.toNat : Int) := by
  exact BitVec.toInt_eq_toNat_of_lt (by omega)

theorem foldl_andi_one {ι : Type} (x : ι → BitVec 1) (hx : ∀ i, x i = 1#1) :
    ∀ l : List ι, l.foldl (fun r i => IntOp.andi r (x i)) 1#1 = 1#1
  | [] => rfl
  | a :: l => by
    have h1 : IntOp.andi 1#1 1#1 = 1#1 := by decide
    rw [List.foldl_cons, hx a, h1]
    exact foldl_andi_one x hx l

theorem reduce_and_one (x : (⟨S2048x1x1, .i1⟩ : BufTy).Contents (Elt Ideal)) (hx : ∀ i, x i = 1#1) (j : S2048x1.Idx) :
    Host.reduce IntOp.andi x (constantI S_ 1 1#1) reducesTo_S2048x1x1_S2048x1_d2 h_S_ j = 1#1 := by
  rw [Host.reduce_eq_foldl]
  exact foldl_andi_one x hx _

theorem gather_at {α : Type} (x : S2048x32000.Idx → α) (idx : IVec S2048x1x1 32) (n : Fin 2048) (c : Fin 1) :
    Host.gather gather_S2048x32000_S2048x1x1_S2048x1_n_1_0_0_1_2_11 x idx (ix2 n c)
      = x (ix2 n ⟨min (idx (ix3 n c 0)).toInt.toNat 31999, by omega⟩) := by
  unfold Host.gather
  congr 1
  funext a
  refine Fin.ext ?_
  match a with
  | ⟨0, _⟩ =>
    show gather_S2048x32000_S2048x1x1_S2048x1_n_1_0_0_1_2_11.start (ix2 n c) idx 0
      + gather_S2048x32000_S2048x1x1_S2048x1_n_1_0_0_1_2_11.batchCoord (ix2 n c) 0
      + gather_S2048x32000_S2048x1x1_S2048x1_n_1_0_0_1_2_11.offCoord (ix2 n c) 0 = n.val
    have hb : (0 : Fin S2048x32000.rank) ∈ gather_S2048x32000_S2048x1x1_S2048x1_n_1_0_0_1_2_11.operandBatchingDims :=
      List.mem_singleton.mpr rfl
    rw [GatherDims.start_batching _ _ _ _ hb,
      GatherDims.offCoord_eq_zero _ _ _ (fun h => ((GatherDims.mem_sKept _ _).mp h).2 hb)]
    simp only [Nat.zero_add, Nat.add_zero]
    unfold GatherDims.batchCoord
    rw [dif_pos hb]
    rfl
  | ⟨1, _⟩ =>
    show gather_S2048x32000_S2048x1x1_S2048x1_n_1_0_0_1_2_11.start (ix2 n c) idx 1
      + gather_S2048x32000_S2048x1x1_S2048x1_n_1_0_0_1_2_11.batchCoord (ix2 n c) 1
      + gather_S2048x32000_S2048x1x1_S2048x1_n_1_0_0_1_2_11.offCoord (ix2 n c) 1 = min (idx (ix3 n c 0)).toInt.toNat 31999
    have hc : (1 : Fin S2048x32000.rank) ∈ gather_S2048x32000_S2048x1x1_S2048x1_n_1_0_0_1_2_11.collapsedSliceDims :=
      List.mem_singleton.mpr rfl
    have hm : (1 : Fin S2048x32000.rank) ∈ gather_S2048x32000_S2048x1x1_S2048x1_n_1_0_0_1_2_11.startIndexMap :=
      List.mem_singleton.mpr rfl
    have hnb : (1 : Fin S2048x32000.rank) ∉ gather_S2048x32000_S2048x1x1_S2048x1_n_1_0_0_1_2_11.operandBatchingDims :=
      fun h => absurd (List.mem_singleton.mp h) (by decide)
    rw [GatherDims.batchCoord_eq_zero _ _ _ hnb,
      GatherDims.offCoord_eq_zero _ _ _ (fun h => ((GatherDims.mem_sKept _ _).mp h).1 hc)]
    simp only [Nat.add_zero]
    unfold GatherDims.start
    rw [dif_pos hm]
    have hsi : gather_S2048x32000_S2048x1x1_S2048x1_n_1_0_0_1_2_11.siIdx (ix2 n c)
        ⟨List.idxOf (1 : Fin S2048x32000.rank) gather_S2048x32000_S2048x1x1_S2048x1_n_1_0_0_1_2_11.startIndexMap,
          List.idxOf_lt_length_iff.2 hm⟩ = ix3 n c 0 := by
      funext b; refine Fin.ext ?_
      match b with
      | ⟨0, _⟩ => rfl
      | ⟨1, _⟩ => rfl
      | ⟨2, _⟩ => rfl
    rw [hsi]
    rfl

section Stages

variable (x0 : (⟨S2048x2048, .f32⟩ : BufTy).Contents (Elt Ideal)) (x1 : (⟨S32000x2048, .f32⟩ : BufTy).Contents (Elt Ideal))
  (x2 : (⟨S32000, .f32⟩ : BufTy).Contents (Elt Ideal)) (x3 : (⟨S2048x4096, .f32⟩ : BufTy).Contents (Elt Ideal))
  (x4 : (⟨S32000x4096, .f32⟩ : BufTy).Contents (Elt Ideal)) (x5 : (⟨S32000, .f32⟩ : BufTy).Contents (Elt Ideal))
  (x6 : (⟨S2048, .i32⟩ : BufTy).Contents (Elt Ideal))
  (h0 : AllReal x0) (h1 : AllReal x1) (h2 : AllReal x2) (h3 : AllReal x3) (h4 : AllReal x4) (h5 : AllReal x5)
  (hl : LabelsOk x6)

local notation "𝐚" => argsOf x0 x1 x2 x3 x4 x5 x6

include h0 h1 h2 in

theorem v4_at (n : Fin 2048) (v : Fin 32000) :
    val_main_v4 (F := Ideal) x0 x1 x2 (ix2 n v) = ((sl 𝐚 n v : ℝ) : EReal) := by
  have e1 : ∀ k : Fin 2048, lidx_main_v1 (ix2 n v) k = ix2 n k :=
    fun k => funext fun a => match a with | ⟨0, _⟩ => rfl | ⟨1, _⟩ => rfl
  have e2 : ∀ k : Fin 2048, idx_main_v0 (ridx_main_v1 (ix2 n v) k) = ix2 v k :=
    fun k => funext fun a => match a with | ⟨0, _⟩ => rfl | ⟨1, _⟩ => rfl
  have e3 : idx_main_v2 (idx_main_v3 (ix2 n v)) = ix1 v := funext fun a => match a with | ⟨0, _⟩ => rfl
  rw [val_main_v4_apply, val_main_v1_apply, val_main_v3_apply, val_main_v2_apply, e3, Ideal.addf_def]
  have hs : ∀ k : Fin 2048, x0 (lidx_main_v1 (ix2 n v) k) * val_main_v0 (F := Ideal) x1 (ridx_main_v1 (ix2 n v) k)
      = (((𝐚).X n k * (𝐚).Ws v k : ℝ) : EReal) := by
    intro k
    rw [val_main_v0_apply, e1, e2, h0 (ix2 n k), h1 (ix2 v k), ← EReal.coe_mul]; rfl
  rw [Finset.sum_congr rfl (fun k _ => hs k), coe_sum, h2 (ix1 v), ← EReal.coe_add]
  rfl

include h3 h4 h5 in

theorem v9_at (n : Fin 2048) (v : Fin 32000) :
    val_main_v9 (F := Ideal) x3 x4 x5 (ix2 n v) = ((tl 𝐚 n v : ℝ) : EReal) := by
  have e1 : ∀ k : Fin 4096, lidx_main_v6 (ix2 n v) k = ix2 n k :=
    fun k => funext fun a => match a with | ⟨0, _⟩ => rfl | ⟨1, _⟩ => rfl
  have e2 : ∀ k : Fin 4096, idx_main_v5 (ridx_main_v6 (ix2 n v) k) = ix2 v k :=
    fun k => funext fun a => match a with | ⟨0, _⟩ => rfl | ⟨1, _⟩ => rfl
  have e3 : idx_main_v7 (idx_main_v8 (ix2 n v)) = ix1 v := funext fun a => match a with | ⟨0, _⟩ => rfl
  rw [val_main_v9_apply, val_main_v6_apply, val_main_v8_apply, val_main_v7_apply, e3, Ideal.addf_def]
  have hs : ∀ k : Fin 4096, x3 (lidx_main_v6 (ix2 n v) k) * val_main_v5 (F := Ideal) x4 (ridx_main_v6 (ix2 n v) k)
      = (((𝐚).Xt n k * (𝐚).Wt v k : ℝ) : EReal) := by
    intro k
    rw [val_main_v5_apply, e1, e2, h3 (ix2 n k), h4 (ix2 v k), ← EReal.coe_mul]; rfl
  rw [Finset.sum_congr rfl (fun k _ => hs k), coe_sum, h5 (ix1 v), ← EReal.coe_add]
  rfl

include h0 h1 h2 in

theorem v10_at (n : Fin 2048) (v : Fin 32000) :
    val_main_v10 (F := Ideal) x0 x1 x2 (ix2 n v) = ((sl 𝐚 n v - lse (sl 𝐚 n) : ℝ) : EReal) := by
  have ei : ∀ i : S2048x32000.Idx, ∃ r : ℝ, val_main_v4 (F := Ideal) x0 x1 x2 i = r := fun i => by
    rw [eq_ix2 i]; exact ⟨_, v4_at x0 x1 x2 x3 x4 x5 x6 h0 h1 h2 (i 0) (i 1)⟩
  obtain ⟨M, hM⟩ : ∃ M : ℝ, val_main_call0_v2 (F := Ideal) x0 x1 x2 (ix1 n) = M := by
    obtain ⟨r, hr⟩ := reduce_max_real (val_main_v4 (F := Ideal) x0 x1 x2) ei (ix1 n)
    refine ⟨r, ?_⟩
    rw [val_main_call0_v2_apply, val_main_call0_v1_apply, val_main_call0_cst_0_apply]
    show max (Ideal.ofBits .f32 0xFF800000#32) (Host.reduce FloatOps.maximumf (val_main_v4 (F := Ideal) x0 x1 x2)
      (constant (F := Ideal) S_ .f32 0xFF800000#32) reducesTo_S2048x32000_S2048_d1 h_S_ (ix1 n)) = _
    rw [hr, ofBits_negInf]; exact max_bot_left _
  have hsh : ∀ w : Fin 32000, val_main_call0_v5 (F := Ideal) x0 x1 x2 (ix2 n w) = ((sl 𝐚 n w : ℝ) : EReal) - (M : EReal) := by
    intro w
    have e : idx_main_call0_v3 (idx_main_call0_v4 (ix2 n w)) = ix1 n := funext fun a => match a with | ⟨0, _⟩ => rfl
    rw [val_main_call0_v5_apply, val_main_call0_v4_apply, val_main_call0_v3_apply, e, hM,
      v4_at x0 x1 x2 x3 x4 x5 x6 h0 h1 h2, Ideal.subf_def]
  have e810 : idx_main_call0_v8 (idx_main_call0_v10 (ix2 n v)) = ix1 n := funext fun a => match a with | ⟨0, _⟩ => rfl
  have hS : val_main_call0_v7 (F := Ideal) x0 x1 x2 (ix1 n) = Ideal.ofBits .f32 0x00000000#32
      + ∑ w : Fin 32000, Ideal.exp (val_main_call0_v5 (F := Ideal) x0 x1 x2 (ix2 n w)) := by
    rw [val_main_call0_v7_apply]
    refine congrArg₂ (· + ·) rfl (Finset.sum_congr rfl fun w _ => ?_)
    have e7 : idx_main_call0_v7 (ix1 n) w = ix2 n w := funext fun a => match a with | ⟨0, _⟩ => rfl | ⟨1, _⟩ => rfl
    rw [val_main_call0_v6_apply, e7, Ideal.hostUnary_exp_def]
  rw [val_main_v10_apply, val_main_call0_v10_apply, val_main_call0_v9_apply, val_main_call0_v8_apply, e810, Ideal.subf_def,
    Ideal.hostUnary_log_def]
  exact lsm_core (sl 𝐚 n) M (fun w => val_main_call0_v5 (F := Ideal) x0 x1 x2 (ix2 n w)) hsh _ hS v

include h0 h1 h2 in

theorem v22_at (n : Fin 2048) (v : Fin 32000) :
    val_main_v22 (F := Ideal) x0 x1 x2 (ix2 n v) = ((sl 𝐚 n v / 2 : ℝ) : EReal) := by
  rw [val_main_v22_apply, val_main_v21_apply, val_main_cst_3_apply, v4_at x0 x1 x2 x3 x4 x5 x6 h0 h1 h2, Ideal.hostDivf_def,
    Ideal.ofBits_def, ofBits_two, div_real _ _ two_ne_zero]

include h3 h4 h5 in

theorem v25_at (n : Fin 2048) (v : Fin 32000) :
    val_main_v25 (F := Ideal) x3 x4 x5 (ix2 n v) = ((tl 𝐚 n v / 2 : ℝ) : EReal) := by
  rw [val_main_v25_apply, val_main_v24_apply, val_main_cst_4_apply, v9_at x0 x1 x2 x3 x4 x5 x6 h3 h4 h5, Ideal.hostDivf_def,
    Ideal.ofBits_def, ofBits_two, div_real _ _ two_ne_zero]

include h0 h1 h2 in

theorem v23_at (n : Fin 2048) (v : Fin 32000) :
    val_main_v23 (F := Ideal) x0 x1 x2 (ix2 n v) = ((sp 𝐚 n v : ℝ) : EReal) := by
  have ei : ∀ i : S2048x32000.Idx, ∃ r : ℝ, val_main_v22 (F := Ideal) x0 x1 x2 i = r := fun i => by
    rw [eq_ix2 i]; exact ⟨_, v22_at x0 x1 x2 x3 x4 x5 x6 h0 h1 h2 (i 0) (i 1)⟩
  obtain ⟨M, hM⟩ : ∃ M : ℝ, val_main_call4_v2 (F := Ideal) x0 x1 x2 (ix1 n) = M := by
    obtain ⟨r, hr⟩ := reduce_max_real (val_main_v22 (F := Ideal) x0 x1 x2) ei (ix1 n)
    refine ⟨r, ?_⟩
    rw [val_main_call4_v2_apply, val_main_call4_v1_apply, val_main_call4_cst_0_apply]
    show max (Ideal.ofBits .f32 0xFF800000#32) (Host.reduce FloatOps.maximumf (val_main_v22 (F := Ideal) x0 x1 x2)
      (constant (F := Ideal) S_ .f32 0xFF800000#32) reducesTo_S2048x32000_S2048_d1 h_S_ (ix1 n)) = _
    rw [hr, ofBits_negInf]; exact max_bot_left _
  have hsh : ∀ w : Fin 32000, val_main_call4_v5 (F := Ideal) x0 x1 x2 (ix2 n w) = ((sl 𝐚 n w / 2 : ℝ) : EReal) - (M : EReal) := by
    intro w
    have e : idx_main_call4_v3 (idx_main_call4_v4 (ix2 n w)) = ix1 n := funext fun a => match a with | ⟨0, _⟩ => rfl
    rw [val_main_call4_v5_apply, val_main_call4_v4_apply, val_main_call4_v3_apply, e, hM,
      v22_at x0 x1 x2 x3 x4 x5 x6 h0 h1 h2, Ideal.subf_def]
  have e810 : idx_main_call4_v8 (idx_main_call4_v10 (ix2 n v)) = ix1 n := funext fun a => match a with | ⟨0, _⟩ => rfl
  have hS : val_main_call4_v7 (F := Ideal) x0 x1 x2 (ix1 n) = Ideal.ofBits .f32 0x00000000#32
      + ∑ w : Fin 32000, Ideal.exp (val_main_call4_v5 (F := Ideal) x0 x1 x2 (ix2 n w)) := by
    rw [val_main_call4_v7_apply]
    refine congrArg₂ (· + ·) rfl (Finset.sum_congr rfl fun w _ => ?_)
    have e7 : idx_main_call4_v7 (ix1 n) w = ix2 n w := funext fun a => match a with | ⟨0, _⟩ => rfl | ⟨1, _⟩ => rfl
    rw [val_main_call4_v6_apply, e7, Ideal.hostUnary_exp_def]
  rw [val_main_v23_apply, val_main_call4_v10_apply, val_main_call4_v9_apply, val_main_call4_v8_apply, e810, Ideal.subf_def,
    Ideal.hostUnary_log_def]
  exact lsm_core (fun w => sl 𝐚 n w / 2) M (fun w => val_main_call4_v5 (F := Ideal) x0 x1 x2 (ix2 n w)) hsh _ hS v

include h3 h4 h5 in

theorem v26_at (n : Fin 2048) (v : Fin 32000) :
    val_main_v26 (F := Ideal) x3 x4 x5 (ix2 n v) = ((tp 𝐚 n v : ℝ) : EReal) := by
  have ei : ∀ i : S2048x32000.Idx, ∃ r : ℝ, val_main_v25 (F := Ideal) x3 x4 x5 i = r := fun i => by
    rw [eq_ix2 i]; exact ⟨_, v25_at x0 x1 x2 x3 x4 x5 x6 h3 h4 h5 (i 0) (i 1)⟩
  obtain ⟨M, hM⟩ : ∃ M : ℝ, val_main_call5_v2 (F := Ideal) x3 x4 x5 (ix1 n) = M := by
    obtain ⟨r, hr⟩ := reduce_max_real (val_main_v25 (F := Ideal) x3 x4 x5) ei (ix1 n)
    refine ⟨r, ?_⟩
    rw [val_main_call5_v2_apply, val_main_call5_v1_apply, val_main_call5_cst_0_apply]
    show max (Ideal.ofBits .f32 0xFF800000#32) (Host.reduce FloatOps.maximumf (val_main_v25 (F := Ideal) x3 x4 x5)
      (constant (F := Ideal) S_ .f32 0xFF800000#32) reducesTo_S2048x32000_S2048_d1 h_S_ (ix1 n)) = _
    rw [hr, ofBits_negInf]; exact max_bot_left _
  have hsh : ∀ w : Fin 32000, val_main_call5_v5 (F := Ideal) x3 x4 x5 (ix2 n w) = ((tl 𝐚 n w / 2 : ℝ) : EReal) - (M : EReal) := by
    intro w
    have e : idx_main_call5_v3 (idx_main_call5_v4 (ix2 n w)) = ix1 n := funext fun a => match a with | ⟨0, _⟩ => rfl
    rw [val_main_call5_v5_apply, val_main_call5_v4_apply, val_main_call5_v3_apply, e, hM,
      v25_at x0 x1 x2 x3 x4 x5 x6 h3 h4 h5, Ideal.subf_def]
  have e810 : idx_main_call5_v8 (idx_main_call5_v10 (ix2 n v)) = ix1 n := funext fun a => match a with | ⟨0, _⟩ => rfl
  have hS : val_main_call5_v7 (F := Ideal) x3 x4 x5 (ix1 n) = Ideal.ofBits .f32 0x00000000#32
      + ∑ w : Fin 32000, Ideal.exp (val_main_call5_v5 (F := Ideal) x3 x4 x5 (ix2 n w)) := by
    rw [val_main_call5_v7_apply]
    refine congrArg₂ (· + ·) rfl (Finset.sum_congr rfl fun w _ => ?_)
    have e7 : idx_main_call5_v7 (ix1 n) w = ix2 n w := funext fun a => match a with | ⟨0, _⟩ => rfl | ⟨1, _⟩ => rfl
    rw [val_main_call5_v6_apply, e7, Ideal.hostUnary_exp_def]
  rw [val_main_v26_apply, val_main_call5_v10_apply, val_main_call5_v9_apply, val_main_call5_v8_apply, e810, Ideal.subf_def,
    Ideal.hostUnary_log_def]
  exact lsm_core (fun w => tl 𝐚 n w / 2) M (fun w => val_main_call5_v5 (F := Ideal) x3 x4 x5 (ix2 n w)) hsh _ hS v

include h0 h1 h2 h3 h4 h5 in

theorem v34_at (n : Fin 2048) (v : Fin 32000) :
    val_main_v34 (F := Ideal) x0 x1 x2 x3 x4 x5 (ix2 n v) = ((logm 𝐚 n v : ℝ) : EReal) := by
  rw [val_main_v34_apply, val_main_v33_apply, val_main_v29_apply, val_main_v32_apply, val_main_v28_apply,
    val_main_v31_apply, val_main_cst_5_apply, val_main_cst_6_apply, val_main_v27_apply, val_main_v30_apply,
    v23_at x0 x1 x2 x3 x4 x5 x6 h0 h1 h2, v26_at x0 x1 x2 x3 x4 x5 x6 h3 h4 h5]
  simp only [Ideal.hostUnary_log_def, Ideal.hostUnary_exp_def, Ideal.addf_def, Ideal.mulf_def, Ideal.ofBits_def,
    ofBits_half, Ideal.exp_coe]
  rw [← EReal.coe_mul, ← EReal.coe_mul, ← EReal.coe_add, Ideal.log_coe, if_neg (not_le.mpr (by positivity))]
  rfl

include h0 h1 h2 h3 h4 h5 in

theorem v37_at (n : Fin 2048) (v : Fin 32000) :
    val_main_v37 (F := Ideal) x0 x1 x2 x3 x4 x5 (ix2 n v) = ((kls 𝐚 n v : ℝ) : EReal) := by
  rw [val_main_v37_apply, val_main_v35_apply, val_main_v36_apply, v34_at x0 x1 x2 x3 x4 x5 x6 h0 h1 h2 h3 h4 h5,
    v23_at x0 x1 x2 x3 x4 x5 x6 h0 h1 h2]
  simp only [Ideal.hostUnary_exp_def, Ideal.subf_def, Ideal.mulf_def, Ideal.exp_coe]
  rw [← EReal.coe_sub, ← EReal.coe_mul]
  rfl

include h0 h1 h2 h3 h4 h5 in

theorem v41_at (n : Fin 2048) (v : Fin 32000) :
    val_main_v41 (F := Ideal) x0 x1 x2 x3 x4 x5 (ix2 n v) = ((klt 𝐚 n v : ℝ) : EReal) := by
  rw [val_main_v41_apply, val_main_v39_apply, val_main_v40_apply, v34_at x0 x1 x2 x3 x4 x5 x6 h0 h1 h2 h3 h4 h5,
    v26_at x0 x1 x2 x3 x4 x5 x6 h3 h4 h5]
  simp only [Ideal.hostUnary_exp_def, Ideal.subf_def, Ideal.mulf_def, Ideal.exp_coe]
  rw [← EReal.coe_sub, ← EReal.coe_mul]
  rfl

include h0 h1 h2 h3 h4 h5 in

theorem v38_at (i : S_.Idx) :
    val_main_v38 (F := Ideal) x0 x1 x2 x3 x4 x5 i = ((∑ n : Fin 2048, ∑ v : Fin 32000, kls 𝐚 n v : ℝ) : EReal) := by
  rw [val_main_v38_apply, val_main_cst_7_apply, Ideal.ofBits_def, Ideal.ofBits_zero_f32, zero_add, sum_idx2,
    ← coe_sum]
  refine Finset.sum_congr rfl fun n _ => ?_
  rw [← coe_sum]
  exact Finset.sum_congr rfl fun v _ => v37_at x0 x1 x2 x3 x4 x5 x6 h0 h1 h2 h3 h4 h5 n v

include h0 h1 h2 h3 h4 h5 in

theorem v42_at (i : S_.Idx) :
    val_main_v42 (F := Ideal) x0 x1 x2 x3 x4 x5 i = ((∑ n : Fin 2048, ∑ v : Fin 32000, klt 𝐚 n v : ℝ) : EReal) := by
  rw [val_main_v42_apply, val_main_cst_8_apply, Ideal.ofBits_def, Ideal.ofBits_zero_f32, zero_add, sum_idx2,
    ← coe_sum]
  refine Finset.sum_congr rfl fun n _ => ?_
  rw [← coe_sum]
  exact Finset.sum_congr rfl fun v _ => v41_at x0 x1 x2 x3 x4 x5 x6 h0 h1 h2 h3 h4 h5 n v

include h0 h1 h2 h3 h4 h5 in

theorem v46_at (i : S_.Idx) :
    val_main_v46 (F := Ideal) x0 x1 x2 x3 x4 x5 i = ((soft 𝐚 : ℝ) : EReal) := by
  rw [val_main_v46_apply, val_main_v45_apply, val_main_v43_apply, val_main_v44_apply, val_main_cst_9_apply,
    val_main_cst_10_apply, val_main_cst_11_apply, v38_at x0 x1 x2 x3 x4 x5 x6 h0 h1 h2 h3 h4 h5, v42_at x0 x1 x2 x3 x4 x5 x6 h0 h1 h2 h3 h4 h5]
  simp only [Ideal.hostDivf_def, Ideal.addf_def, Ideal.mulf_def, Ideal.ofBits_def, ofBits_half, ofBits_2048]
  rw [← EReal.coe_mul, ← EReal.coe_mul, ← EReal.coe_add, div_real _ _ (by norm_num)]
  congr 1
  unfold soft jsdRow
  rw [Finset.sum_add_distrib, ← Finset.mul_sum, ← Finset.mul_sum]

theorem v13_at (n : Fin 2048) :
    val_main_v13 (F := Ideal) x6 (ix1 n) = if (x6 (ix1 n) : BitVec 32) = ignoreWord then 0#32 else x6 (ix1 n) := by
  rw [val_main_v13_apply, val_main_v12_apply, val_main_v11_apply, val_main_c_apply, val_main_call1_v1_apply,
    val_main_call1_v0_apply, val_main_c_0_apply]
  by_cases h : (x6 (ix1 n) : BitVec 32) = ignoreWord
  · rw [if_pos h, eq_zero_of_ne_one (fun hh => (IntOp.cmpi_ne.mp hh) h), select_zero]
  · rw [if_neg h, IntOp.cmpi_ne.mpr h, select_one]

include hl in

theorem v13_lt (n : Fin 2048) : (val_main_v13 (F := Ideal) x6 (ix1 n) : BitVec 32).toNat < 32000 := by
  rw [v13_at]
  rcases hl n with h | h
  · by_cases hi : (x6 (ix1 n) : BitVec 32) = ignoreWord
    · rw [if_pos hi]; decide
    · rw [if_neg hi]; exact h
  · rw [if_pos h]; decide

include hl in

theorem call2_v5_at (n : Fin 2048) (b c : Fin 1) :
    val_main_call2_v5 (F := Ideal) x6 (ix3 n b c) = val_main_v13 (F := Ideal) x6 (ix1 n) := by
  have e5 : idx_main_call2_v5 (ix3 n b c) = ix2 n (0 : Fin 1) := funext fun a => match a with
    | ⟨0, _⟩ => Fin.ext (by
        show ((n.val * 1 + b.val) * 1 + c.val) / 1 = n.val
        have h1 : b.val < 1 := b.isLt
        have h2 : c.val < 1 := c.isLt
        omega)
    | ⟨1, _⟩ => rfl
  have e14 : idx_main_v14 (ix2 n (0 : Fin 1)) = ix1 n := funext fun a => match a with | ⟨0, _⟩ => rfl
  have hlt := v13_lt x6 hl n
  rw [val_main_call2_v5_apply, e5, val_main_call2_v4_apply, val_main_call2_v1_apply, val_main_v14_apply, e14,
    val_main_call2_v0_apply, val_main_call2_c_apply]
  have hz : IntOp.cmpi .slt (val_main_v13 (F := Ideal) x6 (ix1 n) : BitVec 32) 0#32 = 0#1 :=
    eq_zero_of_ne_one fun hh => by
      have h := IntOp.cmpi_slt.mp hh
      have h0 : (0#32 : BitVec 32).toInt = 0 := by decide
      rw [toInt_of_lt hlt, h0] at h
      omega
  rw [hz, select_zero]

include hl in

theorem call2_v12_at (j : S2048x1.Idx) : val_main_call2_v12 (F := Ideal) x6 j = 1#1 := by
  unfold val_main_call2_v12
  refine reduce_and_one _ (fun i => ?_) j
  have e5 : val_main_call2_v5 (F := Ideal) x6 i = val_main_v13 (F := Ideal) x6 (ix1 (i 0)) :=
    (congrArg (val_main_call2_v5 (F := Ideal) x6) (eq_ix3 i)).trans (call2_v5_at x6 hl (i 0) (i 1) (i 2))
  have hlt : (val_main_call2_v5 (F := Ideal) x6 i : BitVec 32).toNat < 32000 := by
    rw [e5]; exact v13_lt x6 hl (i 0)
  rw [val_main_call2_v11_apply, val_main_call2_v7_apply, val_main_call2_v10_apply, val_main_call2_v6_apply,
    val_main_call2_c_2_apply, val_main_call2_v9_apply, val_main_call2_v8_apply, val_main_call2_c_1_apply]
  have h7 : IntOp.cmpi .sge (val_main_call2_v5 (F := Ideal) x6 i : BitVec 32) 0#32 = 1#1 :=
    IntOp.cmpi_sge.mpr (by
      have h0 : (0#32 : BitVec 32).toInt = 0 := by decide
      rw [toInt_of_lt hlt, h0]; omega)
  have h10 : IntOp.cmpi .sle (val_main_call2_v5 (F := Ideal) x6 i : BitVec 32) 31999#32 = 1#1 :=
    IntOp.cmpi_sle.mpr (by
      have h0 : (31999#32 : BitVec 32).toInt = 31999 := by decide
      rw [toInt_of_lt hlt, h0]; omega)
  rw [h7, h10]
  decide

include hl in

theorem v16_at (n : Fin 2048) :
    val_main_v16 (F := Ideal) x0 x1 x2 x6 (ix1 n)
      = val_main_v10 (F := Ideal) x0 x1 x2
          (ix2 n ⟨(val_main_v13 (F := Ideal) x6 (ix1 n) : BitVec 32).toNat, v13_lt x6 hl n⟩) := by
  have e16 : idx_main_v16 (ix1 n) = ix2 n (0 : Fin 1) := funext fun a => match a with
    | ⟨0, _⟩ => Fin.ext (Nat.div_one _)
    | ⟨1, _⟩ => rfl
  have hlt := v13_lt x6 hl n
  have e : min (val_main_v13 (F := Ideal) x6 (ix1 n) : BitVec 32).toInt.toNat 31999
      = (val_main_v13 (F := Ideal) x6 (ix1 n) : BitVec 32).toNat := by
    rw [toInt_of_lt hlt, Int.toNat_natCast]; omega
  rw [val_main_v16_apply, e16, val_main_v15_apply, call2_v12_at x6 hl, select_one]
  unfold val_main_call2_v13
  rw [gather_at]
  exact congrArg (fun k => val_main_v10 (F := Ideal) x0 x1 x2 (ix2 n k)) (Fin.ext (by
    show min (val_main_call2_v5 (F := Ideal) x6 (ix3 n 0 0) : BitVec 32).toInt.toNat 31999 = _
    rw [call2_v5_at x6 hl n 0 0]; exact e))

include h0 h1 h2 hl in

theorem v18_at (n : Fin 2048) :
    val_main_v18 (F := Ideal) x0 x1 x2 x6 (ix1 n) = ((nll 𝐚 n : ℝ) : EReal) := by
  rw [val_main_v18_apply, val_main_v12_apply, val_main_v11_apply, val_main_c_apply, val_main_v17_apply,
    val_main_call3_v1_apply, val_main_call3_v0_apply, val_main_cst_apply, v16_at x0 x1 x2 x6 hl,
    v10_at x0 x1 x2 x3 x4 x5 x6 h0 h1 h2]
  by_cases h : (x6 (ix1 n) : BitVec 32) = ignoreWord
  · have hn : nll 𝐚 n = 0 := if_pos h
    rw [eq_zero_of_ne_one (fun hh => (IntOp.cmpi_ne.mp hh) h), select_zero, Ideal.ofBits_def, Ideal.ofBits_zero_f32, hn,
      EReal.coe_zero]
  · have hn : nll 𝐚 n = lse (sl 𝐚 n) - tgtLogit 𝐚 n := if_neg h
    have e13 : val_main_v13 (F := Ideal) x6 (ix1 n) = x6 (ix1 n) := by rw [v13_at, if_neg h]
    have hlt : (x6 (ix1 n) : BitVec 32).toNat < 32000 := by have := v13_lt x6 hl n; rwa [e13] at this
    have ht : tgtLogit 𝐚 n = sl 𝐚 n ⟨(x6 (ix1 n) : BitVec 32).toNat, hlt⟩ := by
      unfold tgtLogit
      rw [Finset.sum_eq_single (⟨(x6 (ix1 n) : BitVec 32).toNat, hlt⟩ : Fin 32000)]
      · refine if_pos (BitVec.eq_of_toNat_eq ?_)
        rw [BitVec.toNat_ofNat]
        exact Nat.mod_eq_of_lt (x6 (ix1 n) : BitVec 32).isLt
      · intro v _ hv
        refine if_neg fun he => hv (Fin.ext ?_)
        have hm := congrArg BitVec.toNat he
        rw [BitVec.toNat_ofNat] at hm
        have hv' := v.isLt
        show v.val = (x6 (ix1 n) : BitVec 32).toNat
        have hm' : v.val % 2 ^ 32 = (x6 (ix1 n) : BitVec 32).toNat := hm
        omega
      · intro hne; exact absurd (Finset.mem_univ _) hne
    have ei : (⟨(val_main_v13 (F := Ideal) x6 (ix1 n) : BitVec 32).toNat, v13_lt x6 hl n⟩ : Fin 32000)
        = ⟨(x6 (ix1 n) : BitVec 32).toNat, hlt⟩ := Fin.ext (congrArg BitVec.toNat e13)
    rw [IntOp.cmpi_ne.mpr h, select_one, Ideal.hostNegf_def, Ideal.negf_def, ← EReal.coe_neg, ei, hn, ht, neg_sub]

include h0 h1 h2 hl in

theorem v20_at (i : S_.Idx) :
    val_main_v20 (F := Ideal) x0 x1 x2 x6 i = ((hard 𝐚 : ℝ) : EReal) := by
  have hs : ∑ j : S2048.Idx, val_main_v18 (F := Ideal) x0 x1 x2 x6 j = ((∑ n : Fin 2048, nll 𝐚 n : ℝ) : EReal) := by
    rw [← coe_sum, ← Equiv.sum_comp (idxEquiv1 (n := 2048)).symm]
    exact Finset.sum_congr rfl fun n _ => v18_at x0 x1 x2 x3 x4 x5 x6 h0 h1 h2 hl n
  rw [val_main_v20_apply, val_main_v19_apply, val_main_cst_1_apply, val_main_cst_2_apply, hs]
  simp only [Ideal.hostDivf_def, Ideal.ofBits_def, Ideal.ofBits_zero_f32, ofBits_2048, zero_add]
  rw [div_real _ _ (by norm_num)]
  rfl

include h0 h1 h2 h3 h4 h5 hl in

theorem v49_at (i : S_.Idx) :
    val_main_v49 (F := Ideal) x0 x1 x2 x3 x4 x5 x6 i = ((result 𝐚 : ℝ) : EReal) := by
  rw [val_main_v49_apply, val_main_v47_apply, val_main_v48_apply, val_main_cst_12_apply, val_main_cst_13_apply,
    v20_at x0 x1 x2 x3 x4 x5 x6 h0 h1 h2 hl, v46_at x0 x1 x2 x3 x4 x5 x6 h0 h1 h2 h3 h4 h5]
  simp only [Ideal.addf_def, Ideal.mulf_def, Ideal.ofBits_def, ofBits_half]
  rw [← EReal.coe_mul, ← EReal.coe_mul, ← EReal.coe_add]
  rfl

end Stages

theorem result_eq (a0 : (⟨S2048x2048, .f32⟩ : BufTy).Contents (Elt Ideal)) (a1 : (⟨S32000x2048, .f32⟩ : BufTy).Contents (Elt Ideal))
    (a2 : (⟨S32000, .f32⟩ : BufTy).Contents (Elt Ideal)) (a3 : (⟨S2048x4096, .f32⟩ : BufTy).Contents (Elt Ideal))
    (a4 : (⟨S32000x4096, .f32⟩ : BufTy).Contents (Elt Ideal)) (a5 : (⟨S32000, .f32⟩ : BufTy).Contents (Elt Ideal))
    (a6 : (⟨S2048, .i32⟩ : BufTy).Contents (Elt Ideal))
    (h0 : Cert.Spec.AllReal a0) (h1 : Cert.Spec.AllReal a1) (h2 : Cert.Spec.AllReal a2) (h3 : Cert.Spec.AllReal a3)
    (h4 : Cert.Spec.AllReal a4) (h5 : Cert.Spec.AllReal a5) (hl : Cert.Spec.LabelsOk a6) :
    Cert.ReferenceIdeal.ReadP.val_main_v49 (F := Ideal) a0 a1 a2 a3 a4 a5 a6
      = fun _ => ((Cert.Spec.result (Cert.Spec.argsOf a0 a1 a2 a3 a4 a5 a6) : ℝ) : EReal) :=
  funext fun i => v49_at a0 a1 a2 a3 a4 a5 a6 h0 h1 h2 h3 h4 h5 hl i

end Cert.ReferenceIdeal.RefValue

end
-- ==== Proof.PreDecode.lean ====
import proofs.«422162_j56092272886459_3_alg».proof.Pre_finite_inputs
import proofs.«422162_j56092272886459_3_alg».proof.Proof.Gen.Pre_finite_inputs
import proofs.«422162_j56092272886459_3_alg».proof.Proof.Spec
import Idealize.ShloMosaic.Lib.ReduceAll
import Idealize.ShloMosaic.Lib.StableHlo.Predicate
import Idealize.ShloMosaic.Lib.ValueIdx

noncomputable section

namespace Cert.PreDecode

open Idealize.ShloMosaic Idealize.ShloMosaic.ValueIdx Idealize.ShloMosaic.StableHlo
open Cert.Pre_finite_inputs

instance : Subsingleton S_.Idx := ⟨fun a b => funext fun d => d.elim0⟩

theorem ofBits_inf : Ideal.ofBits .f32 0x7F800000#32 = (⊤ : EReal) := by simp [Ideal.ofBits, Ideal.ieee]

theorem real_of_abs_lt_inf (x : EReal)
    (h : Ideal.cmp .olt (max x (-x)) (Ideal.ofBits .f32 0x7F800000#32) = 1#1) : x = ((x.toReal : ℝ) : EReal) := by
  rw [ofBits_inf] at h
  simp only [Ideal.cmp, Predicate.ofBool_eq_one_iff, decide_eq_true_eq] at h
  obtain ⟨ha, hb⟩ := max_lt_iff.1 h
  have h1 : x ≠ ⊤ := ne_of_lt ha
  have h2 : x ≠ ⊥ := by
    rintro rfl
    rw [EReal.neg_bot] at hb
    exact lt_irrefl _ hb
  exact (EReal.coe_toReal h1 h2).symm

theorem real_of_mask {s : Shape} (hb : S_.BroadcastsInDim s (![] : Fin 0 → Fin s.rank)) (x : FVec Ideal s .f32) (i : s.Idx)
    (h : cmpf .olt (Host.absf x) (broadcastInDim s ![] hb (constant (F := Ideal) S_ .f32 0x7F800000#32)) i = 1#1) :
    x i = (((x i).toReal : ℝ) : EReal) :=
  real_of_abs_lt_inf (x i) h

theorem toNat_lt_of_signed_range (t : BitVec 32) (h0 : IntOp.cmpi .sge t 0#32 = 1#1)
    (h1 : IntOp.cmpi .slt t 32000#32 = 1#1) : t.toNat < 32000 := by
  simp only [IntOp.cmpi, Predicate.ofBool_eq_one_iff, BitVec.sle, BitVec.slt, decide_eq_true_eq] at h0 h1
  have hz : (0#32 : BitVec 32).toInt = 0 := by decide
  have hc : (32000#32 : BitVec 32).toInt = 32000 := by decide
  rw [hz] at h0
  rw [hc] at h1
  have ht := BitVec.toInt_eq_toNat_cond t
  have hlt := t.isLt
  split at ht <;> omega

theorem label_of_mask (hb : S_.BroadcastsInDim S2048 (![] : Fin 0 → Fin S2048.rank)) (t : IVec S2048 32) (i : S2048.Idx)
    (h : ori (andi (cmpi .sge t (broadcastInDim S2048 ![] hb (constantI S_ 32 0#32)))
                   (cmpi .slt t (broadcastInDim S2048 ![] hb (constantI S_ 32 32000#32))))
             (cmpi .eq t (broadcastInDim S2048 ![] hb (constantI S_ 32 4294967196#32))) i = 1#1) :
    (t i).toNat < 32000 ∨ t i = 4294967196#32 := by
  have h' : IntOp.ori (IntOp.andi (IntOp.cmpi .sge (t i) 0#32) (IntOp.cmpi .slt (t i) 32000#32))
      (IntOp.cmpi .eq (t i) 4294967196#32) = 1#1 := h
  rcases IntOp.ori_eq_one.1 h' with hr | he
  · obtain ⟨h0, h1⟩ := IntOp.andi_eq_one.1 hr
    exact Or.inl (toNat_lt_of_signed_range _ h0 h1)
  · exact Or.inr (Predicate.cmpi_eq_iff.1 he)

theorem decode [Cert.Pre_finite_inputs.Facts]
    (a0 : FVec Ideal S2048x2048 .f32) (a1 : FVec Ideal S32000x2048 .f32) (a2 : FVec Ideal S32000 .f32)
    (a3 : FVec Ideal S2048x4096 .f32) (a4 : FVec Ideal S32000x4096 .f32) (a5 : FVec Ideal S32000 .f32) (a6 : IVec S2048 32)
    (h : Cert.Pre_finite_inputs.fn (F := Ideal) a0 a1 a2 a3 a4 a5 a6 = (fun _ => 1#1)) :
    Cert.Spec.AllReal a0 ∧ Cert.Spec.AllReal a1 ∧ Cert.Spec.AllReal a2 ∧ Cert.Spec.AllReal a3 ∧ Cert.Spec.AllReal a4 ∧
      Cert.Spec.AllReal a5 ∧ Cert.Spec.LabelsOk a6 := by
  have e := congrFun h ix0
  dsimp only [fn, fn_part1, fn_part2] at e
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  refine ⟨fun i => ?_, fun i => ?_, fun i => ?_, fun i => ?_, fun i => ?_, fun i => ?_, fun n => ?_⟩
  · exact real_of_mask _ a0 i (Host.reduce_andi_all _ _ _ _ _ h0 i)
  · exact real_of_mask _ a1 i (Host.reduce_andi_all _ _ _ _ _ h1 i)
  · exact real_of_mask _ a2 i (Host.reduce_andi_all _ _ _ _ _ h2 i)
  · exact real_of_mask _ a3 i (Host.reduce_andi_all _ _ _ _ _ h3 i)
  · exact real_of_mask _ a4 i (Host.reduce_andi_all _ _ _ _ _ h4 i)
  · exact real_of_mask _ a5 i (Host.reduce_andi_all _ _ _ _ _ h5 i)
  · exact label_of_mask _ a6 (ix1 n) (Host.reduce_andi_all _ _ _ _ _ h6 (ix1 n))

end Cert.PreDecode

end
-- ==== Proof.lean ====
import proofs.«422162_j56092272886459_3_alg».proof.Defs
import proofs.«422162_j56092272886459_3_alg».proof.Proof.Gen.Kernel
import proofs.«422162_j56092272886459_3_alg».proof.Proof.Gen.KernelIdeal
import proofs.«422162_j56092272886459_3_alg».proof.Proof.Gen.ReferenceIdeal
import proofs.«422162_j56092272886459_3_alg».proof.Proof.Gen.Pre_finite_inputs
import proofs.«422162_j56092272886459_3_alg».proof.Proof.RunAll
import proofs.«422162_j56092272886459_3_alg».proof.Proof.KerValue
import proofs.«422162_j56092272886459_3_alg».proof.Proof.RunP
import proofs.«422162_j56092272886459_3_alg».proof.Proof.RefStages
import proofs.«422162_j56092272886459_3_alg».proof.Proof.RefValue
import proofs.«422162_j56092272886459_3_alg».proof.Proof.PreDecode
import Idealize.ShloMosaic.Adequacy
import Idealize.ShloMosaic.Init

set_option maxRecDepth 16384

noncomputable section

namespace Cert.Proof

open Idealize.ShloMosaic Idealize.ShloMosaic.TcCoe Idealize.SL.Sem

-- No host operation writes an argument array and no kernel stages one as an output, so each ends as launched.
theorem kept {F : FTy → Type} [FloatOps F] (m : (ℓ : Loc Cert.KernelIdeal.nD Cert.KernelIdeal.τ Cert.KernelIdeal.sig) → Buf (Elt F) ℓ) (c : Dev Cert.KernelIdeal.nD)
    (mem : (ℓ : Loc Cert.KernelIdeal.nD Cert.KernelIdeal.τ Cert.KernelIdeal.sig) → Buf (Elt F) ℓ)
    (h : ∀ b ∈ Pipeline.ucRefs Cert.KernelIdeal.τ Cert.KernelIdeal.sig, mem (((c : Thread Cert.KernelIdeal.nD Cert.KernelIdeal.τ)).1, b) = Cert.KernelIdeal.RunAll.W6 m c b) :
    mem ((c.tc : Thread Cert.KernelIdeal.nD Cert.KernelIdeal.τ).loc Cert.KernelIdeal.main_arg0) = m ((c.tc : Thread Cert.KernelIdeal.nD Cert.KernelIdeal.τ).loc Cert.KernelIdeal.main_arg0)
    ∧ mem ((c.tc : Thread Cert.KernelIdeal.nD Cert.KernelIdeal.τ).loc Cert.KernelIdeal.main_arg1) = m ((c.tc : Thread Cert.KernelIdeal.nD Cert.KernelIdeal.τ).loc Cert.KernelIdeal.main_arg1)
    ∧ mem ((c.tc : Thread Cert.KernelIdeal.nD Cert.KernelIdeal.τ).loc Cert.KernelIdeal.main_arg2) = m ((c.tc : Thread Cert.KernelIdeal.nD Cert.KernelIdeal.τ).loc Cert.KernelIdeal.main_arg2)
    ∧ mem ((c.tc : Thread Cert.KernelIdeal.nD Cert.KernelIdeal.τ).loc Cert.KernelIdeal.main_arg3) = m ((c.tc : Thread Cert.KernelIdeal.nD Cert.KernelIdeal.τ).loc Cert.KernelIdeal.main_arg3)
    ∧ mem ((c.tc : Thread Cert.KernelIdeal.nD Cert.KernelIdeal.τ).loc Cert.KernelIdeal.main_arg4) = m ((c.tc : Thread Cert.KernelIdeal.nD Cert.KernelIdeal.τ).loc Cert.KernelIdeal.main_arg4)
    ∧ mem ((c.tc : Thread Cert.KernelIdeal.nD Cert.KernelIdeal.τ).loc Cert.KernelIdeal.main_arg5) = m ((c.tc : Thread Cert.KernelIdeal.nD Cert.KernelIdeal.τ).loc Cert.KernelIdeal.main_arg5)
    ∧ mem ((c.tc : Thread Cert.KernelIdeal.nD Cert.KernelIdeal.τ).loc Cert.KernelIdeal.main_arg6) = m ((c.tc : Thread Cert.KernelIdeal.nD Cert.KernelIdeal.τ).loc Cert.KernelIdeal.main_arg6) := by
  have k : ∀ r ∈ [Cert.KernelIdeal.main_arg0, Cert.KernelIdeal.main_arg1, Cert.KernelIdeal.main_arg2, Cert.KernelIdeal.main_arg3, Cert.KernelIdeal.main_arg4, Cert.KernelIdeal.main_arg5, Cert.KernelIdeal.main_arg6], mem ((c.tc : Thread Cert.KernelIdeal.nD Cert.KernelIdeal.τ).loc r) = m ((c.tc : Thread Cert.KernelIdeal.nD Cert.KernelIdeal.τ).loc r) := by
    intro r hr
    simp only [List.mem_cons, List.not_mem_nil, or_false] at hr
    rcases hr with rfl | rfl | rfl | rfl | rfl | rfl | rfl <;>
    exact (h _ (Cert.KernelIdeal.RunAll.mem_uc _ (by decide))).trans (Cert.KernelIdeal.RunAll.W6_keep m c _ (by decide) (by decide) (by decide) (by decide) (by decide) (by decide))
  exact ⟨k _ (by simp), k _ (by simp), k _ (by simp), k _ (by simp), k _ (by simp), k _ (by simp), k _ (by simp)⟩

-- The kernel and its idealization are one program text, so the run proved for every float instance is the kernel's too.
set_option smartUnfolding false in
set_option maxHeartbeats 4000000 in
theorem frame_k : Cert.frame_Kernel (hKernel := Cert.Kernel.Gen.facts) (hPre_finite_inputs := Cert.Pre_finite_inputs.Gen.facts) :=
  fun m ρ _ => (θ_run (Cert.KernelIdeal.defs (F := Bits)) _ _).mono (fun r h c => kept m c r.2.mem (h c)) (Cert.KernelIdeal.RunAll.run_all (F := Bits) m ρ)

theorem frame_ki : Cert.frame_KernelIdeal (hKernelIdeal := Cert.KernelIdeal.Gen.facts) (hPre_finite_inputs := Cert.Pre_finite_inputs.Gen.facts) :=
  fun m ρ _ => (θ_run (Cert.KernelIdeal.defs (F := Ideal)) _ _).mono (fun r h c => kept m c r.2.mem (h c)) (Cert.KernelIdeal.RunAll.run_all (F := Ideal) m ρ)

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

-- Both idealized programs end at the specification's loss.
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  have hd := fun c => @Cert.PreDecode.decode Cert.Pre_finite_inputs.Gen.facts _ _ _ _ _ _ _ (hpre c)
  refine ⟨fun c => fun _ => ((Cert.Spec.result (Cert.KernelIdeal.KerValue.args m c) : ℝ) : EReal), ?_, ?_⟩
  · refine (θ_run (Cert.KernelIdeal.defs (F := Ideal)) _ _).mono (fun r h c => ⟨?_, kept m c r.2.mem (h c)⟩)
      (Cert.KernelIdeal.RunAll.run_all (F := Ideal) m ρ)
    obtain ⟨h0, h1, h2, h3, h4, h5, hl⟩ := hd c
    exact (h c _ (Cert.KernelIdeal.RunAll.mem_uc Cert.KernelIdeal.main_v22 (by decide))).trans
      (Cert.KernelIdeal.KerValue.result_eq m c h0 h1 h2 h3 h4 h5 hl)
  · refine (θ_run Cert.ReferenceIdeal.defs _ _).mono (fun r h c => ⟨(h c).1.trans ?_, (h c).2⟩)
      (Cert.ReferenceIdeal.ValueP.run (F := Ideal) m' ρ')
    obtain ⟨h0, h1, h2, h3, h4, h5, hl⟩ := hd c
    rw [Cert.ReferenceIdeal.RefStages.result_stage, (hagree c).1, (hagree c).2.1, (hagree c).2.2.1, (hagree c).2.2.2.1,
      (hagree c).2.2.2.2.1, (hagree c).2.2.2.2.2.1, (hagree c).2.2.2.2.2.2]
    exact Cert.ReferenceIdeal.RefValue.result_eq _ _ _ _ _ _ _ h0 h1 h2 h3 h4 h5 hl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
